-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v94)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v94) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v238) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x512 : Shape := ⟨2, ![10000, 512]⟩
abbrev S2x320000 : Shape := ⟨2, ![2, 320000]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x56 : Shape := ⟨2, ![128, 56]⟩
abbrev S56 : Shape := ⟨1, ![56]⟩
abbrev S56x32 : Shape := ⟨2, ![56, 32]⟩
abbrev S32 : Shape := ⟨1, ![32]⟩
abbrev S32x16 : Shape := ⟨2, ![32, 16]⟩
abbrev S16 : Shape := ⟨1, ![16]⟩
abbrev S_ : Shape := ⟨0, ![]⟩

class Facts : Prop where
  bcast_S_S10000x512 : S_.BroadcastsInDim S10000x512 (![] : Fin 0 → Fin S10000x512.rank)
  reducesTo_S10000x512_S_d0_1 : S10000x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x56 : S_.BroadcastsInDim S128x56 (![] : Fin 0 → Fin S128x56.rank)
  reducesTo_S128x56_S_d0_1 : S128x56.ReducesTo [0, 1] S_
  bcast_S_S56 : S_.BroadcastsInDim S56 (![] : Fin 0 → Fin S56.rank)
  reducesTo_S56_S_d0 : S56.ReducesTo [0] S_
  bcast_S_S56x32 : S_.BroadcastsInDim S56x32 (![] : Fin 0 → Fin S56x32.rank)
  reducesTo_S56x32_S_d0_1 : S56x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S2x320000 : S_.BroadcastsInDim S2x320000 (![] : Fin 0 → Fin S2x320000.rank)
  reducesTo_S2x320000_S_d0_1 : S2x320000.ReducesTo [0, 1] S_

variable [Facts]

def fn_part3 {F : FTy → Type} [FloatOps F] (main_arg1 : IVec S2x320000 32) (main_v48 : IVec S_ 1) (main_v49 : FVec F S16 .f32) (main_v50 : FVec F S16 .f32) : IVec S_ 1 :=
  let main_v51 : IVec S16 1 := cmpf .olt main_v49 main_v50
  let main_c_19 : IVec S_ 1 := constantI S_ 1 1#1
  let main_v52 : IVec S_ 1 := (fun x v => Host.reduce IntOp.andi x v reducesTo_S16_S_d0 h_S_) main_v51 main_c_19
  let main_v53 : IVec S_ 1 := andi main_v48 main_v52
  let main_c_20 : IVec S_ 32 := constantI S_ 32 0#32
  let main_v54 : IVec S2x320000 32 := broadcastInDim S2x320000 ![] bcast_S_S2x320000 main_c_20
  let main_v55 : IVec S2x320000 1 := cmpi .sge main_arg1 main_v54
  let main_c_21 : IVec S_ 1 := constantI S_ 1 1#1
  let main_v56 : IVec S_ 1 := (fun x v => Host.reduce IntOp.andi x v reducesTo_S2x320000_S_d0_1 h_S_) main_v55 main_c_21
  let main_v57 : IVec S_ 1 := andi main_v53 main_v56
  let main_c_22 : IVec S_ 32 := constantI S_ 32 10000#32
  let main_v58 : IVec S2x320000 32 := broadcastInDim S2x320000 ![] bcast_S_S2x320000 main_c_22
  let main_v59 : IVec S2x320000 1 := cmpi .slt main_arg1 main_v58
  let main_c_23 : IVec S_ 1 := constantI S_ 1 1#1
  let main_v60 : IVec S_ 1 := (fun x v => Host.reduce IntOp.andi x v reducesTo_S2x320000_S_d0_1 h_S_) main_v59 main_c_23
  let main_v61 : IVec S_ 1 := andi main_v57 main_v60
  main_v61

def fn_part2 {F : FTy → Type} [FloatOps F] (main_arg1 : IVec S2x320000 32) (main_arg8 : FVec F S56x32 .f32) (main_arg9 : FVec F S32 .f32) (main_arg10 : FVec F S32x16 .f32) (main_arg11 : FVec F S16 .f32) (main_v33 : IVec S_ 1) : IVec S_ 1 :=
  let main_v34 : FVec F S56x32 .f32 := Host.absf main_arg8
  let main_cst_12 : FVec F S_ .f32 := constant S_ .f32 0x7F800000#32
  let main_v35 : FVec F S56x32 .f32 := broadcastInDim S56x32 ![] bcast_S_S56x32 main_cst_12
  let main_v36 : IVec S56x32 1 := cmpf .olt main_v34 main_v35
  let main_c_13 : IVec S_ 1 := constantI S_ 1 1#1
  let main_v37 : IVec S_ 1 := (fun x v => Host.reduce IntOp.andi x v reducesTo_S56x32_S_d0_1 h_S_) main_v36 main_c_13
  let main_v38 : IVec S_ 1 := andi main_v33 main_v37
  let main_v39 : FVec F S32 .f32 := Host.absf main_arg9
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32x16 .f32 := Host.absf main_arg10
  let main_cst_16 : FVec F S_ .f32 := constant S_ .f32 0x7F800000#32
  let main_v45 : FVec F S32x16 .f32 := broadcastInDim S32x16 ![] bcast_S_S32x16 main_cst_16
  let main_v46 : IVec S32x16 1 := cmpf .olt main_v44 main_v45
  let main_c_17 : IVec S_ 1 := constantI S_ 1 1#1
  let main_v47 : IVec S_ 1 := (fun x v => Host.reduce IntOp.andi x v reducesTo_S32x16_S_d0_1 h_S_) main_v46 main_c_17
  let main_v48 : IVec S_ 1 := andi main_v43 main_v47
  let main_v49 : FVec F S16 .f32 := Host.absf main_arg11
  let main_cst_18 : FVec F S_ .f32 := constant S_ .f32 0x7F800000#32
  let main_v50 : FVec F S16 .f32 := broadcastInDim S16 ![] bcast_S_S16 main_cst_18
  fn_part3 (F := F) main_arg1 main_v48 main_v49 main_v50

def fn_part1 {F : FTy → Type} [FloatOps F] (main_arg1 : IVec S2x320000 32) (main_arg5 : FVec F S128 .f32) (main_arg6 : FVec F S128x56 .f32) (main_arg7 : FVec F S56 .f32) (main_arg8 : FVec F S56x32 .f32) (main_arg9 : FVec F S32 .f32) (main_arg10 : FVec F S32x16 .f32) (main_arg11 : FVec F S16 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x56 .f32 := Host.absf main_arg6
  let main_cst_8 : FVec F S_ .f32 := constant S_ .f32 0x7F800000#32
  let main_v25 : FVec F S128x56 .f32 := broadcastInDim S128x56 ![] bcast_S_S128x56 main_cst_8
  let main_v26 : IVec S128x56 1 := cmpf .olt main_v24 main_v25
  let main_c_9 : IVec S_ 1 := constantI S_ 1 1#1
  let main_v27 : IVec S_ 1 := (fun x v => Host.reduce IntOp.andi x v reducesTo_S128x56_S_d0_1 h_S_) main_v26 main_c_9
  let main_v28 : IVec S_ 1 := andi main_v23 main_v27
  let main_v29 : FVec F S56 .f32 := Host.absf main_arg7
  let main_cst_10 : FVec F S_ .f32 := constant S_ .f32 0x7F800000#32
  let main_v30 : FVec F S56 .f32 := broadcastInDim S56 ![] bcast_S_S56 main_cst_10
  let main_v31 : IVec S56 1 := cmpf .olt main_v29 main_v30
  let main_c_11 : IVec S_ 1 := constantI S_ 1 1#1
  let main_v32 : IVec S_ 1 := (fun x v => Host.reduce IntOp.andi x v reducesTo_S56_S_d0 h_S_) main_v31 main_c_11
  let main_v33 : IVec S_ 1 := andi main_v28 main_v32
  fn_part2 (F := F) main_arg1 main_arg8 main_arg9 main_arg10 main_arg11 main_v33

def fn {F : FTy → Type} [FloatOps F] (main_arg0 : FVec F S10000x512 .f32) (main_arg1 : IVec S2x320000 32) (main_arg2 : FVec F S512x256 .f32) (main_arg3 : FVec F S256 .f32) (main_arg4 : FVec F S256x128 .f32) (main_arg5 : FVec F S128 .f32) (main_arg6 : FVec F S128x56 .f32) (main_arg7 : FVec F S56 .f32) (main_arg8 : FVec F S56x32 .f32) (main_arg9 : FVec F S32 .f32) (main_arg10 : FVec F S32x16 .f32) (main_arg11 : FVec F S16 .f32) : IVec S_ 1 :=
  let main_v0 : FVec F S10000x512 .f32 := Host.absf main_arg0
  let main_cst : FVec F S_ .f32 := constant S_ .f32 0x7F800000#32
  let main_v1 : FVec F S10000x512 .f32 := broadcastInDim S10000x512 ![] bcast_S_S10000x512 main_cst
  let main_v2 : IVec S10000x512 1 := cmpf .olt main_v0 main_v1
  let main_c : IVec S_ 1 := constantI S_ 1 1#1
  let main_v3 : IVec S_ 1 := (fun x v => Host.reduce IntOp.andi x v reducesTo_S10000x512_S_d0_1 h_S_) main_v2 main_c
  let main_v4 : FVec F S512x256 .f32 := Host.absf main_arg2
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg1 main_arg5 main_arg6 main_arg7 main_arg8 main_arg9 main_arg10 main_arg11 main_v13 main_v16
-- ==== Kernel.lean ====
abbrev S10000x512 : Shape := ⟨2, ![10000, 512]⟩
abbrev S2x320000 : Shape := ⟨2, ![2, 320000]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x56 : Shape := ⟨2, ![128, 56]⟩
abbrev S56 : Shape := ⟨1, ![56]⟩
abbrev S56x32 : Shape := ⟨2, ![56, 32]⟩
abbrev S32 : Shape := ⟨1, ![32]⟩
abbrev S32x16 : Shape := ⟨2, ![32, 16]⟩
abbrev S16 : Shape := ⟨1, ![16]⟩
abbrev S1x320000 : Shape := ⟨2, ![1, 320000]⟩
abbrev S320000 : Shape := ⟨1, ![320000]⟩
abbrev S_ : Shape := ⟨0, ![]⟩
abbrev S10000 : Shape := ⟨1, ![10000]⟩
abbrev S320000x1 : Shape := ⟨2, ![320000, 1]⟩
abbrev S330000 : Shape := ⟨1, ![330000]⟩
abbrev S104857600 : Shape := ⟨1, ![104857600]⟩
abbrev S330000x1 : Shape := ⟨2, ![330000, 1]⟩
abbrev S10240x10240 : Shape := ⟨2, ![10240, 10240]⟩
abbrev S10240x512 : Shape := ⟨2, ![10240, 512]⟩
abbrev S128x128 : Shape := ⟨2, ![128, 128]⟩
abbrev S128x16 : Shape := ⟨2, ![128, 16]⟩
abbrev S1x256 : Shape := ⟨2, ![1, 256]⟩
abbrev S10240x256 : Shape := ⟨2, ![10240, 256]⟩
abbrev S2560x512 : Shape := ⟨2, ![2560, 512]⟩
abbrev S2560x256 : Shape := ⟨2, ![2560, 256]⟩
abbrev S2560x2048 : Shape := ⟨2, ![2560, 2048]⟩
abbrev S2048x256 : Shape := ⟨2, ![2048, 256]⟩
abbrev S1x128 : Shape := ⟨2, ![1, 128]⟩
abbrev S10240x128 : Shape := ⟨2, ![10240, 128]⟩
abbrev S2560x128 : Shape := ⟨2, ![2560, 128]⟩
abbrev S2048x128 : Shape := ⟨2, ![2048, 128]⟩
abbrev S1x16 : Shape := ⟨2, ![1, 16]⟩
abbrev S10240x16 : Shape := ⟨2, ![10240, 16]⟩
abbrev S2560x16 : Shape := ⟨2, ![2560, 16]⟩
abbrev S10000x16 : Shape := ⟨2, ![10000, 16]⟩
abbrev S10000x1 : Shape := ⟨2, ![10000, 1]⟩

abbrev nBuf : Space → Nat
  | .hbm => 139
  | .vmem => 62
  | .smem => 0
  | _ => 0

abbrev hbmTy0_0 (i : Nat) : BufTy := match i % 128 with
  | 0 => ⟨S10000x512, .f32⟩
  | 1 => ⟨S2x320000, .i32⟩
  | 2 => ⟨S512x256, .f32⟩
  | 3 => ⟨S256, .f32⟩
  | 4 => ⟨S256x128, .f32⟩
  | 5 => ⟨S128, .f32⟩
  | 6 => ⟨S128x56, .f32⟩
  | 7 => ⟨S56, .f32⟩
  | 8 => ⟨S56x32, .f32⟩
  | 9 => ⟨S32, .f32⟩
  | 10 => ⟨S32x16, .f32⟩
  | 11 => ⟨S16, .f32⟩
  | 12 => ⟨S1x320000, .i32⟩
  | 13 => ⟨S320000, .i32⟩
  | 14 => ⟨S1x320000, .i32⟩
  | 15 => ⟨S320000, .i32⟩
  | 16 => ⟨S_, .f32⟩
  | 17 => ⟨S10000, .f32⟩
  | 18 => ⟨S_, .i32⟩
  | 19 => ⟨S320000, .i32⟩
  | 20 => ⟨S320000, .i1⟩
  | 21 => ⟨S_, .i32⟩
  | 22 => ⟨S320000, .i32⟩
  | 23 => ⟨S320000, .i32⟩
  | 24 => ⟨S320000, .i32⟩
  | 25 => ⟨S320000x1, .i32⟩
  | 26 => ⟨S_, .f32⟩
  | 27 => ⟨S320000, .f32⟩
  | 28 => ⟨S10000, .f32⟩
  | 29 => ⟨S_, .f32⟩
  | 30 => ⟨S10000, .f32⟩
  | 31 => ⟨S10000, .f32⟩
  | 32 => ⟨S10000, .f32⟩
  | 33 => ⟨S_, .i32⟩
  | 34 => ⟨S320000, .i32⟩
  | 35 => ⟨S320000, .i1⟩
  | 36 => ⟨S_, .i32⟩
  | 37 => ⟨S320000, .i32⟩
  | 38 => ⟨S320000, .i32⟩
  | 39 => ⟨S320000, .i32⟩
  | 40 => ⟨S320000x1, .i32⟩
  | 41 => ⟨S320000, .f32⟩
  | 42 => ⟨S_, .i32⟩
  | 43 => ⟨S320000, .i32⟩
  | 44 => ⟨S320000, .i1⟩
  | 45 => ⟨S_, .i32⟩
  | 46 => ⟨S320000, .i32⟩
  | 47 => ⟨S320000, .i32⟩
  | 48 => ⟨S320000, .i32⟩
  | 49 => ⟨S320000x1, .i32⟩
  | 50 => ⟨S320000, .f32⟩
  | 51 => ⟨S320000, .f32⟩
  | 52 => ⟨S10000, .f32⟩
  | 53 => ⟨S10000, .i32⟩
  | 54 => ⟨S330000, .i32⟩
  | 55 => ⟨S330000, .i32⟩
  | 56 => ⟨S330000, .f32⟩
  | 57 => ⟨S_, .i32⟩
  | 58 => ⟨S330000, .i32⟩
  | 59 => ⟨S330000, .i32⟩
  | 60 => ⟨S330000, .i32⟩
  | 61 => ⟨S_, .f32⟩
  | 62 => ⟨S104857600, .f32⟩
  | 63 => ⟨S_, .i32⟩
  | 64 => ⟨S330000, .i32⟩
  | 65 => ⟨S330000, .i1⟩
  | 66 => ⟨S_, .i32⟩
  | 67 => ⟨S330000, .i32⟩
  | 68 => ⟨S330000, .i32⟩
  | 69 => ⟨S330000, .i32⟩
  | 70 => ⟨S330000x1, .i32⟩
  | 71 => ⟨S104857600, .f32⟩
  | 72 => ⟨S10240x10240, .f32⟩
  | 73 => ⟨S10240x10240, .bf16⟩
  | 74 => ⟨S_, .i32⟩
  | 75 => ⟨S_, .f32⟩
  | 76 => ⟨S10240x512, .f32⟩
  | 77 => ⟨S10240x512, .bf16⟩
  | 78 => ⟨S_, .i32⟩
  | 79 => ⟨S_, .f32⟩
  | 80 => ⟨S128x128, .f32⟩
  | 81 => ⟨S_, .i32⟩
  | 82 => ⟨S_, .f32⟩
  | 83 => ⟨S128, .f32⟩
  | 84 => ⟨S_, .i32⟩
  | 85 => ⟨S_, .f32⟩
  | 86 => ⟨S128x128, .f32⟩
  | 87 => ⟨S_, .i32⟩
  | 88 => ⟨S_, .f32⟩
  | 89 => ⟨S128, .f32⟩
  | 90 => ⟨S_, .i32⟩
  | 91 => ⟨S_, .f32⟩
  | 92 => ⟨S128x16, .f32⟩
  | 93 => ⟨S512x256, .bf16⟩
  | 94 => ⟨S256x128, .bf16⟩
  | 95 => ⟨S128x128, .bf16⟩
  | 96 => ⟨S128x128, .bf16⟩
  | 97 => ⟨S128x16, .bf16⟩
  | 98 => ⟨S_, .f32⟩
  | 99 => ⟨S256, .f32⟩
  | 100 => ⟨S1x256, .f32⟩
  | 101 => ⟨S10240x256, .bf16⟩
  | 102 => ⟨S1x256, .f32⟩
  | 103 => ⟨S10240x256, .bf16⟩
  | 104 => ⟨S_, .f32⟩
  | 105 => ⟨S128, .f32⟩
  | 106 => ⟨S1x128, .f32⟩
  | 107 => ⟨S10240x128, .f32⟩
  | 108 => ⟨S1x128, .f32⟩
  | 109 => ⟨S10240x128, .f32⟩
  | 110 => ⟨S_, .f32⟩
  | 111 => ⟨S128, .f32⟩
  | 112 => ⟨S1x128, .f32⟩
  | 113 => ⟨S10240x128, .f32⟩
  | 114 => ⟨S1x128, .f32⟩
  | 115 => ⟨S10240x128, .f32⟩
  | 116 => ⟨S_, .f32⟩
  | 117 => ⟨S128, .f32⟩
  | 118 => ⟨S1x128, .f32⟩
  | 119 => ⟨S10240x128, .f32⟩
  | 120 => ⟨S1x128, .f32⟩
  | 121 => ⟨S10240x128, .f32⟩
  | 122 => ⟨S1x16, .f32⟩
  | 123 => ⟨S10240x16, .f32⟩
  | 124 => ⟨S10000x16, .f32⟩
  | 125 => ⟨S_, .f32⟩
  | 126 => ⟨S10000, .f32⟩
  | 127 => ⟨S_, .f32⟩
  | _ => ⟨S10000x512, .f32⟩

abbrev hbmTy0_1 (i : Nat) : BufTy := match i % 128 with
  | 0 => ⟨S10000, .f32⟩
  | 1 => ⟨S10000, .f32⟩
  | 2 => ⟨S10000x1, .f32⟩
  | 3 => ⟨S10000x16, .f32⟩
  | 4 => ⟨S10000x16, .f32⟩
  | 5 => ⟨S10000x16, .f32⟩
  | 6 => ⟨S_, .f32⟩
  | 7 => ⟨S10000, .f32⟩
  | 8 => ⟨S10000x1, .f32⟩
  | 9 => ⟨S10000x16, .f32⟩
  | 10 => ⟨S10000x16, .f32⟩
  | _ => ⟨S10000x512, .f32⟩

abbrev hbmTy (i : Nat) : BufTy := match i / 128 with
  | 0 => hbmTy0_0 i
  | 1 => hbmTy0_1 i
  | _ => ⟨S10000x512, .f32⟩

abbrev bufTy : (tb : Table) → Fin (tcTables nBuf tb) → BufTy
  | .hbm, ⟨i, _⟩ => hbmTy i
  | .local _ .vmem, ⟨0, _⟩ => ⟨S2560x512, .bf16⟩
  | .local _ .vmem, ⟨1, _⟩ => ⟨S2560x512, .bf16⟩
  | .local _ .vmem, ⟨2, _⟩ => ⟨S512x256, .bf16⟩
  | .local _ .vmem, ⟨3, _⟩ => ⟨S1x256, .f32⟩
  | .local _ .vmem, ⟨4, _⟩ => ⟨S2560x256, .bf16⟩
  | .local _ .vmem, ⟨5, _⟩ => ⟨S2560x256, .bf16⟩
  | .local _ .vmem, ⟨6, _⟩ => ⟨S2560x2048, .bf16⟩
  | .local _ .vmem, ⟨7, _⟩ => ⟨S2560x2048, .bf16⟩
  | .local _ .vmem, ⟨8, _⟩ => ⟨S2048x256, .bf16⟩
  | .local _ .vmem, ⟨9, _⟩ => ⟨S2048x256, .bf16⟩
  | .local _ .vmem, ⟨10, _⟩ => ⟨S1x256, .f32⟩
  | .local _ .vmem, ⟨11, _⟩ => ⟨S2560x256, .bf16⟩
  | .local _ .vmem, ⟨12, _⟩ => ⟨S2560x256, .bf16⟩
  | .local _ .vmem, ⟨13, _⟩ => ⟨S2560x256, .f32⟩
  | .local _ .vmem, ⟨14, _⟩ => ⟨S2560x256, .bf16⟩
  | .local _ .vmem, ⟨15, _⟩ => ⟨S2560x256, .bf16⟩
  | .local _ .vmem, ⟨16, _⟩ => ⟨S256x128, .bf16⟩
  | .local _ .vmem, ⟨17, _⟩ => ⟨S1x128, .f32⟩
  | .local _ .vmem, ⟨18, _⟩ => ⟨S2560x128, .f32⟩
  | .local _ .vmem, ⟨19, _⟩ => ⟨S2560x128, .f32⟩
  | .local _ .vmem, ⟨20, _⟩ => ⟨S2560x2048, .bf16⟩
  | .local _ .vmem, ⟨21, _⟩ => ⟨S2560x2048, .bf16⟩
  | .local _ .vmem, ⟨22, _⟩ => ⟨S2048x128, .f32⟩
  | .local _ .vmem, ⟨23, _⟩ => ⟨S2048x128, .f32⟩
  | .local _ .vmem, ⟨24, _⟩ => ⟨S1x128, .f32⟩
  | .local _ .vmem, ⟨25, _⟩ => ⟨S2560x128, .f32⟩
  | .local _ .vmem, ⟨26, _⟩ => ⟨S2560x128, .f32⟩
  | .local _ .vmem, ⟨27, _⟩ => ⟨S2560x128, .f32⟩
  | .local _ .vmem, ⟨28, _⟩ => ⟨S2560x128, .f32⟩
  | .local _ .vmem, ⟨29, _⟩ => ⟨S2560x128, .f32⟩
  | .local _ .vmem, ⟨30, _⟩ => ⟨S128x128, .bf16⟩
  | .local _ .vmem, ⟨31, _⟩ => ⟨S1x128, .f32⟩
  | .local _ .vmem, ⟨32, _⟩ => ⟨S2560x128, .f32⟩
  | .local _ .vmem, ⟨33, _⟩ => ⟨S2560x128, .f32⟩
  | .local _ .vmem, ⟨34, _⟩ => ⟨S2560x2048, .bf16⟩
  | .local _ .vmem, ⟨35, _⟩ => ⟨S2560x2048, .bf16⟩
  | .local _ .vmem, ⟨36, _⟩ => ⟨S2048x128, .f32⟩
  | .local _ .vmem, ⟨37, _⟩ => ⟨S2048x128, .f32⟩
  | .local _ .vmem, ⟨38, _⟩ => ⟨S1x128, .f32⟩
  | .local _ .vmem, ⟨39, _⟩ => ⟨S2560x128, .f32⟩
  | .local _ .vmem, ⟨40, _⟩ => ⟨S2560x128, .f32⟩
  | .local _ .vmem, ⟨41, _⟩ => ⟨S2560x128, .f32⟩
  | .local _ .vmem, ⟨42, _⟩ => ⟨S2560x128, .f32⟩
  | .local _ .vmem, ⟨43, _⟩ => ⟨S2560x128, .f32⟩
  | .local _ .vmem, ⟨44, _⟩ => ⟨S128x128, .bf16⟩
  | .local _ .vmem, ⟨45, _⟩ => ⟨S1x128, .f32⟩
  | .local _ .vmem, ⟨46, _⟩ => ⟨S2560x128, .f32⟩
  | .local _ .vmem, ⟨47, _⟩ => ⟨S2560x128, .f32⟩
  | .local _ .vmem, ⟨48, _⟩ => ⟨S2560x2048, .bf16⟩
  | .local _ .vmem, ⟨49, _⟩ => ⟨S2560x2048, .bf16⟩
  | .local _ .vmem, ⟨50, _⟩ => ⟨S2048x128, .f32⟩
  | .local _ .vmem, ⟨51, _⟩ => ⟨S2048x128, .f32⟩
  | .local _ .vmem, ⟨52, _⟩ => ⟨S1x128, .f32⟩
  | .local _ .vmem, ⟨53, _⟩ => ⟨S2560x128, .f32⟩
  | .local _ .vmem, ⟨54, _⟩ => ⟨S2560x128, .f32⟩
  | .local _ .vmem, ⟨55, _⟩ => ⟨S2560x128, .f32⟩
  | .local _ .vmem, ⟨56, _⟩ => ⟨S2560x128, .f32⟩
  | .local _ .vmem, ⟨57, _⟩ => ⟨S2560x128, .f32⟩
  | .local _ .vmem, ⟨58, _⟩ => ⟨S128x16, .bf16⟩
  | .local _ .vmem, ⟨59, _⟩ => ⟨S1x16, .f32⟩
  | .local _ .vmem, ⟨60, _⟩ => ⟨S2560x16, .f32⟩
  | .local _ .vmem, ⟨61, _⟩ => ⟨S2560x16, .f32⟩
  | _, _ => ⟨S10000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | _, _ => false

abbrev semScoped : Fin 0 → Bool
  | ⟨_, h⟩ => absurd h (Nat.not_lt_zero _)

abbrev dmaSemScoped : Fin 58 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | _ => false

abbrev sig : RefSig :=
  ofTc nBuf bufTy 0 58 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_c : Ref sig .tc := ⟨.hbm, 18, rfl⟩
abbrev main_v5 : Ref sig .tc := ⟨.hbm, 19, rfl⟩
abbrev main_v6 : Ref sig .tc := ⟨.hbm, 20, rfl⟩
abbrev main_c_0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_cst_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_c_3 : Ref sig .tc := ⟨.hbm, 33, rfl⟩
abbrev main_v16 : Ref sig .tc := ⟨.hbm, 34, rfl⟩
abbrev main_v17 : Ref sig .tc := ⟨.hbm, 35, rfl⟩
abbrev main_c_4 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_c_5 : Ref sig .tc := ⟨.hbm, 42, rfl⟩
abbrev main_v23 : Ref sig .tc := ⟨.hbm, 43, rfl⟩
abbrev main_v24 : Ref sig .tc := ⟨.hbm, 44, rfl⟩
abbrev main_c_6 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_c_7 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_8 : Ref sig .tc := ⟨.hbm, 61, rfl⟩
abbrev main_v39 : Ref sig .tc := ⟨.hbm, 62, rfl⟩
abbrev main_c_9 : Ref sig .tc := ⟨.hbm, 63, rfl⟩
abbrev main_v40 : Ref sig .tc := ⟨.hbm, 64, rfl⟩
abbrev main_v41 : Ref sig .tc := ⟨.hbm, 65, rfl⟩
abbrev main_c_10 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_c_11 : Ref sig .tc := ⟨.hbm, 74, rfl⟩
abbrev main_call0_v0 : Ref sig .tc := ⟨.hbm, 75, rfl⟩
abbrev main_v49 : Ref sig .tc := ⟨.hbm, 76, rfl⟩
abbrev main_v50 : Ref sig .tc := ⟨.hbm, 77, rfl⟩
abbrev main_c_12 : Ref sig .tc := ⟨.hbm, 78, rfl⟩
abbrev main_call1_v0 : Ref sig .tc := ⟨.hbm, 79, rfl⟩
abbrev main_v51 : Ref sig .tc := ⟨.hbm, 80, rfl⟩
abbrev main_c_13 : Ref sig .tc := ⟨.hbm, 81, rfl⟩
abbrev main_call2_v0 : Ref sig .tc := ⟨.hbm, 82, rfl⟩
abbrev main_v52 : Ref sig .tc := ⟨.hbm, 83, rfl⟩
abbrev main_c_14 : Ref sig .tc := ⟨.hbm, 84, rfl⟩
abbrev main_call3_v0 : Ref sig .tc := ⟨.hbm, 85, rfl⟩
abbrev main_v53 : Ref sig .tc := ⟨.hbm, 86, rfl⟩
abbrev main_c_15 : Ref sig .tc := ⟨.hbm, 87, rfl⟩
abbrev main_call4_v0 : Ref sig .tc := ⟨.hbm, 88, rfl⟩
abbrev main_v54 : Ref sig .tc := ⟨.hbm, 89, rfl⟩
abbrev main_c_16 : Ref sig .tc := ⟨.hbm, 90, rfl⟩
abbrev main_call5_v0 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_cst_17 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_cst_18 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_cst_19 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_cst_20 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_cst_21 : Ref sig .tc := ⟨.hbm, 125, rfl⟩
abbrev main_v84 : Ref sig .tc := ⟨.hbm, 126, rfl⟩
abbrev main_cst_22 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_cst_23 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg3_1 : Ref sig .tc := ⟨.vmem, 26, rfl⟩
abbrev cc3_scratch0 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg3_1 : Ref sig .tc := ⟨.vmem, 33, rfl⟩
abbrev cc5_stg0_0 : Ref sig .tc := ⟨.vmem, 34, rfl⟩
abbrev cc5_stg0_1 : Ref sig .tc := ⟨.vmem, 35, rfl⟩
abbrev cc5_stg1_0 : Ref sig .tc := ⟨.vmem, 36, rfl⟩
abbrev cc5_stg1_1 : Ref sig .tc := ⟨.vmem, 37, rfl⟩
abbrev cc5_stg2_0 : Ref sig .tc := ⟨.vmem, 38, rfl⟩
abbrev cc5_stg3_0 : Ref sig .tc := ⟨.vmem, 39, rfl⟩
abbrev cc5_stg3_1 : Ref sig .tc := ⟨.vmem, 40, rfl⟩
abbrev cc5_scratch0 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg2_0 : Ref sig .tc := ⟨.vmem, 45, rfl⟩
abbrev cc6_stg3_0 : Ref sig .tc := ⟨.vmem, 46, rfl⟩
abbrev cc6_stg3_1 : Ref sig .tc := ⟨.vmem, 47, rfl⟩
abbrev cc7_stg0_0 : Ref sig .tc := ⟨.vmem, 48, rfl⟩
abbrev cc7_stg0_1 : Ref sig .tc := ⟨.vmem, 49, rfl⟩
abbrev cc7_stg1_0 : Ref sig .tc := ⟨.vmem, 50, rfl⟩
abbrev cc7_stg1_1 : Ref sig .tc := ⟨.vmem, 51, rfl⟩
abbrev cc7_stg2_0 : Ref sig .tc := ⟨.vmem, 52, rfl⟩
abbrev cc7_stg3_0 : Ref sig .tc := ⟨.vmem, 53, rfl⟩
abbrev cc7_stg3_1 : Ref sig .tc := ⟨.vmem, 54, rfl⟩
abbrev cc7_scratch0 : Ref sig .tc := ⟨.vmem, 55, rfl⟩
abbrev cc8_stg0_0 : Ref sig .tc := ⟨.vmem, 56, rfl⟩
abbrev cc8_stg0_1 : Ref sig .tc := ⟨.vmem, 57, rfl⟩
abbrev cc8_stg1_0 : Ref sig .tc := ⟨.vmem, 58, rfl⟩
abbrev cc8_stg2_0 : Ref sig .tc := ⟨.vmem, 59, rfl⟩
abbrev cc8_stg3_0 : Ref sig .tc := ⟨.vmem, 60, rfl⟩
abbrev cc8_stg3_1 : Ref sig .tc := ⟨.vmem, 61, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc2_sem3_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem3_0 : DmaSem sig := 24
abbrev cc3_sem3_1 : DmaSem sig := 25
abbrev cc4_sem0_0 : DmaSem sig := 26
abbrev cc4_sem0_1 : DmaSem sig := 27
abbrev cc4_sem1_0 : DmaSem sig := 28
abbrev cc4_sem2_0 : DmaSem sig := 29
abbrev cc4_sem3_0 : DmaSem sig := 30
abbrev cc4_sem3_1 : DmaSem sig := 31
abbrev cc5_sem0_0 : DmaSem sig := 32
abbrev cc5_sem0_1 : DmaSem sig := 33
abbrev cc5_sem1_0 : DmaSem sig := 34
abbrev cc5_sem1_1 : DmaSem sig := 35
abbrev cc5_sem2_0 : DmaSem sig := 36
abbrev cc5_sem3_0 : DmaSem sig := 37
abbrev cc5_sem3_1 : DmaSem sig := 38
abbrev cc6_sem0_0 : DmaSem sig := 39
abbrev cc6_sem0_1 : DmaSem sig := 40
abbrev cc6_sem1_0 : DmaSem sig := 41
abbrev cc6_sem2_0 : DmaSem sig := 42
abbrev cc6_sem3_0 : DmaSem sig := 43
abbrev cc6_sem3_1 : DmaSem sig := 44
abbrev cc7_sem0_0 : DmaSem sig := 45
abbrev cc7_sem0_1 : DmaSem sig := 46
abbrev cc7_sem1_0 : DmaSem sig := 47
abbrev cc7_sem1_1 : DmaSem sig := 48
abbrev cc7_sem2_0 : DmaSem sig := 49
abbrev cc7_sem3_0 : DmaSem sig := 50
abbrev cc7_sem3_1 : DmaSem sig := 51
abbrev cc8_sem0_0 : DmaSem sig := 52
abbrev cc8_sem0_1 : DmaSem sig := 53
abbrev cc8_sem1_0 : DmaSem sig := 54
abbrev cc8_sem2_0 : DmaSem sig := 55
abbrev cc8_sem3_0 : DmaSem sig := 56
abbrev cc8_sem3_1 : DmaSem sig := 57

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2560x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2560x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![4, 5], ![false, false]⟩

def k1_cond2 (i : grid1.Coords) : BitVec 1 :=
  let arg1 : BitVec 32 := BitVec.ofNat 32 (i 1).val
  let c4_i32 : BitVec 32 := 4#32
  let v13 : BitVec 1 := Scalar.cmpi .eq arg1 c4_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2560x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S2560x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2560x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2560x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨2, ![4, 5], ![false, false]⟩

def k3_cond2 (i : grid3.Coords) : BitVec 1 :=
  let arg1 : BitVec 32 := BitVec.ofNat 32 (i 1).val
  let c4_i32 : BitVec 32 := 4#32
  let v14 : BitVec 1 := Scalar.cmpi .eq arg1 c4_i32
  let v15 : BitVec 32 := Scalar.extui v14
  let c0_i32_8 : BitVec 32 := 0#32
  let v16 : BitVec 1 := Scalar.cmpi .ne v15 c0_i32_8
  v16

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S2560x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S2048x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 2 → Memref sig .tc .vmem S2560x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev grid4 : Pipeline.Grid := ⟨1, ![4], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2560x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S2560x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨2, ![4, 5], ![false, false]⟩

def k5_cond2 (i : grid5.Coords) : BitVec 1 :=
  let arg1 : BitVec 32 := BitVec.ofNat 32 (i 1).val
  let c4_i32 : BitVec 32 := 4#32
  let v14 : BitVec 1 := Scalar.cmpi .eq arg1 c4_i32
  let v15 : BitVec 32 := Scalar.extui v14
  let c0_i32_8 : BitVec 32 := 0#32
  let v16 : BitVec 1 := Scalar.cmpi .ne v15 c0_i32_8
  v16

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage5_0 : Fin 2 → Memref sig .tc .vmem S2560x2048 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 2 → Memref sig .tc .vmem S2048x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false, false]

abbrev stage5_3 : Fin 2 → Memref sig .tc .vmem S2560x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, false]

abbrev grid6 : Pipeline.Grid := ⟨1, ![4], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2560x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S2560x128 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨2, ![4, 5], ![false, false]⟩

def k7_cond2 (i : grid7.Coords) : BitVec 1 :=
  let arg1 : BitVec 32 := BitVec.ofNat 32 (i 1).val
  let c4_i32 : BitVec 32 := 4#32
  let v14 : BitVec 1 := Scalar.cmpi .eq arg1 c4_i32
  let v15 : BitVec 32 := Scalar.extui v14
  let c0_i32_8 : BitVec 32 := 0#32
  let v16 : BitVec 1 := Scalar.cmpi .ne v15 c0_i32_8
  v16

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage7_0 : Fin 2 → Memref sig .tc .vmem S2560x2048 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, true]

abbrev stage7_1 : Fin 2 → Memref sig .tc .vmem S2048x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false, false]

abbrev stage7_3 : Fin 2 → Memref sig .tc .vmem S2560x128 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true, false]

abbrev grid8 : Pipeline.Grid := ⟨1, ![4], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S2560x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S128x16 .bf16 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x16 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 2 → Memref sig .tc .vmem S2560x16 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S10000 : S_.BroadcastsInDim S10000 (![] : Fin 0 → Fin S10000.rank)
  bcast_S_S320000 : S_.BroadcastsInDim S320000 (![] : Fin 0 → Fin S320000.rank)
  bcast_S320000_S320000x1_0 : S320000.BroadcastsInDim S320000x1 (![0] : Fin 1 → Fin S320000x1.rank)
  concatenates_S320000_S10000_S330000_d0 : Shape.Concatenates [S320000, S10000] S330000 0
  bcast_S_S330000 : S_.BroadcastsInDim S330000 (![] : Fin 0 → Fin S330000.rank)
  bcast_S_S104857600 : S_.BroadcastsInDim S104857600 (![] : Fin 0 → Fin S104857600.rank)
  bcast_S330000_S330000x1_0 : S330000.BroadcastsInDim S330000x1 (![0] : Fin 1 → Fin S330000x1.rank)
  shapeCasts_S104857600_S10240x10240 : S104857600.ShapeCasts S10240x10240
  bitsLt_bf16_f32 : FTy.bits .bf16 < FTy.bits .f32
  pads_S10000x512_S10240x512_02400_000 : S10000x512.Pads (![0, 0] : Fin 2 → Nat) ![240, 0] ![0, 0] S10240x512
  h_S_ : 0 < S_.numel
  pads_S128x56_S128x128_000_0720 : S128x56.Pads (![0, 0] : Fin 2 → Nat) ![0, 72] ![0, 0] S128x128
  pads_S56_S128_0720 : S56.Pads (![0] : Fin 1 → Nat) ![72] ![0] S128
  pads_S56x32_S128x128_0720_0960 : S56x32.Pads (![0, 0] : Fin 2 → Nat) ![72, 96] ![0, 0] S128x128
  pads_S32_S128_0960 : S32.Pads (![0] : Fin 1 → Nat) ![96] ![0] S128
  pads_S32x16_S128x16_0960_000 : S32x16.Pads (![0, 0] : Fin 2 → Nat) ![96, 0] ![0, 0] S128x16
  bcast_S_S256 : S_.BroadcastsInDim S256 (![] : Fin 0 → Fin S256.rank)
  shapeCasts_S256_S1x256 : S256.ShapeCasts S1x256
  inb_S2560x512_S2560x512_0_0 : ∀ a, (![0, 0] : Fin 2 → Nat) a + S2560x512.size a ≤ S2560x512.size a
  h_S2560x512 : 0 < S2560x512.numel
  shapeCasts_S2560x512_S2560x512 : S2560x512.ShapeCasts S2560x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2560x256 : S1x256.Broadcasts S2560x256
  inb_S2560x256_S2560x256_0_0 : ∀ a, (![0, 0] : Fin 2 → Nat) a + S2560x256.size a ≤ S2560x256.size a
  h_S2560x256 : 0 < S2560x256.numel
  packedbf16_S2560x256_S2560x256_0_0 : (Rect.unit (s := S2560x256) ![0, 0] S2560x256.size inb_S2560x256_S2560x256_0_0).PackedRows (EltTy.packing .bf16)
  shapeCasts_S2560x256_S2560x256 : S2560x256.ShapeCasts S2560x256
  inb_S2560x2048_S2560x2048_0_0 : ∀ a, (![0, 0] : Fin 2 → Nat) a + S2560x2048.size a ≤ S2560x2048.size a
  h_S2560x2048 : 0 < S2560x2048.numel
  shapeCasts_S2560x2048_S2560x2048 : S2560x2048.ShapeCasts S2560x2048
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  bcast_S_S128 : S_.BroadcastsInDim S128 (![] : Fin 0 → Fin S128.rank)
  shapeCasts_S128_S1x128 : S128.ShapeCasts S1x128
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2560x128 : S1x128.Broadcasts S2560x128
  inb_S2560x128_S2560x128_0_0 : ∀ a, (![0, 0] : Fin 2 → Nat) a + S2560x128.size a ≤ S2560x128.size a
  h_S2560x128 : 0 < S2560x128.numel
  shapeCasts_S2560x128_S2560x128 : S2560x128.ShapeCasts S2560x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S16_S1x16 : S16.ShapeCasts S1x16
  inb_S128x16_S128x16_0_0 : ∀ a, (![0, 0] : Fin 2 → Nat) a + S128x16.size a ≤ S128x16.size a
  h_S128x16 : 0 < S128x16.numel
  shapeCasts_S128x16_S128x16 : S128x16.ShapeCasts S128x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2560x16 : S1x16.Broadcasts S2560x16
  inb_S2560x16_S2560x16_0_0 : ∀ a, (![0, 0] : Fin 2 → Nat) a + S2560x16.size a ≤ S2560x16.size a
  h_S2560x16 : 0 < S2560x16.numel
  slices_S10240x16_S10000x16_0_0 : S10240x16.Slices ![0, 0] S10000x16
  reducesTo_S10000x16_S10000_d1 : S10000x16.ReducesTo [1] S10000
  bcast_S10000_S10000x1_0 : S10000.BroadcastsInDim S10000x1 (![0] : Fin 1 → Fin S10000x1.rank)
  bcast_S10000x1_S10000x16_0_1 : S10000x1.BroadcastsInDim S10000x16 (![0, 1] : Fin 2 → Fin S10000x16.rank)
  scatter_S10000_S320000x1_S320000_n_0_0_1_wf : ScatterDims.WF S10000 S320000x1 S320000 [] [0] [0] 1
  gather_S10000_S320000x1_S320000_n_0_n_n_0_1_1_wf : GatherDims.WF S10000 S320000x1 S320000 [] [0] [] [0] [] 1 ![1]
  scatter_S104857600_S330000x1_S330000_n_0_0_1_wf : ScatterDims.WF S104857600 S330000x1 S330000 [] [0] [0] 1
  dot_S2560x512_S512x256_S2560x256_1_0_0_1_n_n_wf : DotDims.WF S2560x512 S512x256 S2560x256 [1] [0] [0] [1] [] []
  dot_S2560x2048_S2048x256_S2560x256_1_0_0_1_n_n_wf : DotDims.WF S2560x2048 S2048x256 S2560x256 [1] [0] [0] [1] [] []
  dot_S2560x256_S256x128_S2560x128_1_0_0_1_n_n_wf : DotDims.WF S2560x256 S256x128 S2560x128 [1] [0] [0] [1] [] []
  dot_S2560x2048_S2048x128_S2560x128_1_0_0_1_n_n_wf : DotDims.WF S2560x2048 S2048x128 S2560x128 [1] [0] [0] [1] [] []
  dot_S2560x128_S128x128_S2560x128_1_0_0_1_n_n_wf : DotDims.WF S2560x128 S128x128 S2560x128 [1] [0] [0] [1] [] []
  dot_S2560x128_S128x16_S2560x16_1_0_0_1_n_n_wf : DotDims.WF S2560x128 S128x16 S2560x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2560x512.size a ≤ S10240x512.size a
  hwx0_0 : ∀ i : grid0.Coords, EltTy.bits .bf16 = 32 ∨ (Rect.block (s := S10240x512) S2560x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .bf16 = 32 ∨ (Rect.block (s := S512x256) S512x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2560x256.size a ≤ S10240x256.size a
  hwx0_3 : ∀ i : grid0.Coords, EltTy.bits .bf16 = 32 ∨ (Rect.block (s := S10240x256) S2560x256.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2560x2048.size a ≤ S10240x10240.size a
  hwx1_0 : ∀ i : grid1.Coords, EltTy.bits .bf16 = 32 ∨ (Rect.block (s := S10240x10240) S2560x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x256.size a ≤ S10240x256.size a
  hwx1_1 : ∀ i : grid1.Coords, EltTy.bits .bf16 = 32 ∨ (Rect.block (s := S10240x256) S2048x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2560x256.size a ≤ S10240x256.size a
  hwx1_3 : ∀ i : grid1.Coords, EltTy.bits .bf16 = 32 ∨ (Rect.block (s := S10240x256) S2560x256.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2560x256.size a ≤ S10240x256.size a
  hwx2_0 : ∀ i : grid2.Coords, EltTy.bits .bf16 = 32 ∨ (Rect.block (s := S10240x256) S2560x256.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x128.size a ≤ S256x128.size a
  hwx2_1 : ∀ i : grid2.Coords, EltTy.bits .bf16 = 32 ∨ (Rect.block (s := S256x128) S256x128.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2560x128.size a ≤ S10240x128.size a
  hwx2_3 : ∀ i : grid2.Coords, EltTy.bits .f32 = 32 ∨ (Rect.block (s := S10240x128) S2560x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2560x2048.size a ≤ S10240x10240.size a
  hwx3_0 : ∀ i : grid3.Coords, EltTy.bits .bf16 = 32 ∨ (Rect.block (s := S10240x10240) S2560x2048.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2048x128.size a ≤ S10240x128.size a
  hwx3_1 : ∀ i : grid3.Coords, EltTy.bits .f32 = 32 ∨ (Rect.block (s := S10240x128) S2048x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2560x128.size a ≤ S10240x128.size a
  hwx3_3 : ∀ i : grid3.Coords, EltTy.bits .f32 = 32 ∨ (Rect.block (s := S10240x128) S2560x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2560x128.size a ≤ S10240x128.size a
  hwx4_0 : ∀ i : grid4.Coords, EltTy.bits .f32 = 32 ∨ (Rect.block (s := S10240x128) S2560x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .bf16 = 32 ∨ (Rect.block (s := S128x128) S128x128.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2560x128.size a ≤ S10240x128.size a
  hwx4_3 : ∀ i : grid4.Coords, EltTy.bits .f32 = 32 ∨ (Rect.block (s := S10240x128) S2560x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2560x2048.size a ≤ S10240x10240.size a
  hwx5_0 : ∀ i : grid5.Coords, EltTy.bits .bf16 = 32 ∨ (Rect.block (s := S10240x10240) S2560x2048.size (cc5_transform_0 i) (hinb5_0 i)).WholeWords (EltTy.packing .bf16)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2048x128.size a ≤ S10240x128.size a
  hwx5_1 : ∀ i : grid5.Coords, EltTy.bits .f32 = 32 ∨ (Rect.block (s := S10240x128) S2048x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2560x128.size a ≤ S10240x128.size a
  hwx5_3 : ∀ i : grid5.Coords, EltTy.bits .f32 = 32 ∨ (Rect.block (s := S10240x128) S2560x128.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2560x128.size a ≤ S10240x128.size a
  hwx6_0 : ∀ i : grid6.Coords, EltTy.bits .f32 = 32 ∨ (Rect.block (s := S10240x128) S2560x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .bf16 = 32 ∨ (Rect.block (s := S128x128) S128x128.size (cc6_transform_1 i) (hinb6_1 i)).WholeWords (EltTy.packing .bf16)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S2560x128.size a ≤ S10240x128.size a
  hwx6_3 : ∀ i : grid6.Coords, EltTy.bits .f32 = 32 ∨ (Rect.block (s := S10240x128) S2560x128.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2560x2048.size a ≤ S10240x10240.size a
  hwx7_0 : ∀ i : grid7.Coords, EltTy.bits .bf16 = 32 ∨ (Rect.block (s := S10240x10240) S2560x2048.size (cc7_transform_0 i) (hinb7_0 i)).WholeWords (EltTy.packing .bf16)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S2048x128.size a ≤ S10240x128.size a
  hwx7_1 : ∀ i : grid7.Coords, EltTy.bits .f32 = 32 ∨ (Rect.block (s := S10240x128) S2048x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S2560x128.size a ≤ S10240x128.size a
  hwx7_3 : ∀ i : grid7.Coords, EltTy.bits .f32 = 32 ∨ (Rect.block (s := S10240x128) S2560x128.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2560x128.size a ≤ S10240x128.size a
  hwx8_0 : ∀ i : grid8.Coords, EltTy.bits .f32 = 32 ∨ (Rect.block (s := S10240x128) S2560x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S128x16.size a ≤ S128x16.size a
  hwx8_1 : ∀ i : grid8.Coords, EltTy.bits .bf16 = 32 ∨ (Rect.block (s := S128x16) S128x16.size (cc8_transform_1 i) (hinb8_1 i)).WholeWords (EltTy.packing .bf16)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x16.size a ≤ S1x16.size a
  hwx8_2 : ∀ i : grid8.Coords, EltTy.bits .f32 = 32 ∨ (Rect.block (s := S1x16) S1x16.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S2560x16.size a ≤ S10240x16.size a
  hwx8_3 : ∀ i : grid8.Coords, EltTy.bits .f32 = 32 ∨ (Rect.block (s := S10240x16) S2560x16.size (cc8_transform_3 i) (hinb8_3 i)).WholeWords (EltTy.packing .f32)

variable [Facts₀]

def scatter_S10000_S320000x1_S320000_n_0_0_1 : ScatterDims S10000 S320000x1 S320000 where
  updateWindowDims := []
  insertedWindowDims := [0]
  scatterDimsToOperandDims := [0]
  indexVectorDim := 1
  wf := scatter_S10000_S320000x1_S320000_n_0_0_1_wf
def gather_S10000_S320000x1_S320000_n_0_n_n_0_1_1 : GatherDims S10000 S320000x1 S320000 where
  offsetDims := []
  collapsedSliceDims := [0]
  operandBatchingDims := []
  startIndicesBatchingDims := []
  startIndexMap := [0]
  indexVectorDim := 1
  sliceSizes := ![1]
  wf := gather_S10000_S320000x1_S320000_n_0_n_n_0_1_1_wf
def scatter_S104857600_S330000x1_S330000_n_0_0_1 : ScatterDims S104857600 S330000x1 S330000 where
  updateWindowDims := []
  insertedWindowDims := [0]
  scatterDimsToOperandDims := [0]
  indexVectorDim := 1
  wf := scatter_S104857600_S330000x1_S330000_n_0_0_1_wf
def dot_S2560x512_S512x256_S2560x256_1_0_0_1_n_n : DotDims S2560x512 S512x256 S2560x256 where
  lhsContracting := [1]
  rhsContracting := [0]
  lhsNonContracting := [0]
  rhsNonContracting := [1]
  lhsBatch := []
  rhsBatch := []
  wf := dot_S2560x512_S512x256_S2560x256_1_0_0_1_n_n_wf
def dot_S2560x2048_S2048x256_S2560x256_1_0_0_1_n_n : DotDims S2560x2048 S2048x256 S2560x256 where
  lhsContracting := [1]
  rhsContracting := [0]
  lhsNonContracting := [0]
  rhsNonContracting := [1]
  lhsBatch := []
  rhsBatch := []
  wf := dot_S2560x2048_S2048x256_S2560x256_1_0_0_1_n_n_wf
def dot_S2560x256_S256x128_S2560x128_1_0_0_1_n_n : DotDims S2560x256 S256x128 S2560x128 where
  lhsContracting := [1]
  rhsContracting := [0]
  lhsNonContracting := [0]
  rhsNonContracting := [1]
  lhsBatch := []
  rhsBatch := []
  wf := dot_S2560x256_S256x128_S2560x128_1_0_0_1_n_n_wf
def dot_S2560x2048_S2048x128_S2560x128_1_0_0_1_n_n : DotDims S2560x2048 S2048x128 S2560x128 where
  lhsContracting := [1]
  rhsContracting := [0]
  lhsNonContracting := [0]
  rhsNonContracting := [1]
  lhsBatch := []
  rhsBatch := []
  wf := dot_S2560x2048_S2048x128_S2560x128_1_0_0_1_n_n_wf
def dot_S2560x128_S128x128_S2560x128_1_0_0_1_n_n : DotDims S2560x128 S128x128 S2560x128 where
  lhsContracting := [1]
  rhsContracting := [0]
  lhsNonContracting := [0]
  rhsNonContracting := [1]
  lhsBatch := []
  rhsBatch := []
  wf := dot_S2560x128_S128x128_S2560x128_1_0_0_1_n_n_wf
def dot_S2560x128_S128x16_S2560x16_1_0_0_1_n_n : DotDims S2560x128 S128x16 S2560x16 where
  lhsContracting := [1]
  rhsContracting := [0]
  lhsNonContracting := [0]
  rhsNonContracting := [1]
  lhsBatch := []
  rhsBatch := []
  wf := dot_S2560x128_S128x16_S2560x16_1_0_0_1_n_n_wf

abbrev win0_0 : Pipeline.Window sig grid0 :=
  Pipeline.Window.ofSpec (Memref.whole main_v50) S2560x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v56) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v62) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v63) S2560x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v48) S2560x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v63) S2048x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v64) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v65) S2560x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v65) S2560x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v57) S256x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v67) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v68) S2560x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v48) S2560x2048.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v68) S2048x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v69) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v70) S2560x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

abbrev win4_0 : Pipeline.Window sig grid4 :=
  Pipeline.Window.ofSpec (Memref.whole main_v70) S2560x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v58) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v72) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v73) S2560x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v48) S2560x2048.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v73) S2048x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v74) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v75) S2560x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev idle5 : Fin 4 → grid5.Coords → Bool := fun | 0 => fun _ => false | 1 => fun _ => false | 2 => fun _ => false | 3 => fun i => !(k5_cond2 i == 1#1) | ⟨_ + 4, h⟩ => absurd h (Nat.not_lt.2 (Nat.le_add_left _ _))

abbrev win6_0 : Pipeline.Window sig grid6 :=
  Pipeline.Window.ofSpec (Memref.whole main_v75) S2560x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v59) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v77) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v78) S2560x128.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v48) S2560x2048.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v78) S2048x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v79) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v80) S2560x128.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev idle7 : Fin 4 → grid7.Coords → Bool := fun | 0 => fun _ => false | 1 => fun _ => false | 2 => fun _ => false | 3 => fun i => !(k7_cond2 i == 1#1) | ⟨_ + 4, h⟩ => absurd h (Nat.not_lt.2 (Nat.le_add_left _ _))

abbrev win8_0 : Pipeline.Window sig grid8 :=
  Pipeline.Window.ofSpec (Memref.whole main_v80) S2560x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v60) S128x16.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v81) S1x16.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v82) S2560x16.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

class Facts : Prop extends Facts₀ where

variable [Facts]
-- ==== ReferenceIdeal.lean ====
abbrev S10000x512 : Shape := ⟨2, ![10000, 512]⟩
abbrev S2x320000 : Shape := ⟨2, ![2, 320000]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x56 : Shape := ⟨2, ![128, 56]⟩
abbrev S56 : Shape := ⟨1, ![56]⟩
abbrev S56x32 : Shape := ⟨2, ![56, 32]⟩
abbrev S32 : Shape := ⟨1, ![32]⟩
abbrev S32x16 : Shape := ⟨2, ![32, 16]⟩
abbrev S16 : Shape := ⟨1, ![16]⟩
abbrev S1x320000 : Shape := ⟨2, ![1, 320000]⟩
abbrev S320000 : Shape := ⟨1, ![320000]⟩
abbrev S10000x256 : Shape := ⟨2, ![10000, 256]⟩
abbrev S_ : Shape := ⟨0, ![]⟩
abbrev S10000 : Shape := ⟨1, ![10000]⟩
abbrev S320000x1 : Shape := ⟨2, ![320000, 1]⟩
abbrev S320000x256 : Shape := ⟨2, ![320000, 256]⟩
abbrev S10000x1 : Shape := ⟨2, ![10000, 1]⟩
abbrev S1x256 : Shape := ⟨2, ![1, 256]⟩
abbrev S10000x128 : Shape := ⟨2, ![10000, 128]⟩
abbrev S320000x128 : Shape := ⟨2, ![320000, 128]⟩
abbrev S1x128 : Shape := ⟨2, ![1, 128]⟩
abbrev S10000x56 : Shape := ⟨2, ![10000, 56]⟩
abbrev S320000x56 : Shape := ⟨2, ![320000, 56]⟩
abbrev S1x56 : Shape := ⟨2, ![1, 56]⟩
abbrev S10000x32 : Shape := ⟨2, ![10000, 32]⟩
abbrev S320000x32 : Shape := ⟨2, ![320000, 32]⟩
abbrev S1x32 : Shape := ⟨2, ![1, 32]⟩
abbrev S10000x16 : Shape := ⟨2, ![10000, 16]⟩
abbrev S1x16 : Shape := ⟨2, ![1, 16]⟩

abbrev nBuf : Space → Nat
  | .hbm => 338
  | .vmem => 0
  | .smem => 0
  | _ => 0

abbrev hbmTy0_0 (i : Nat) : BufTy := match i % 128 with
  | 0 => ⟨S10000x512, .f32⟩
  | 1 => ⟨S2x320000, .i32⟩
  | 2 => ⟨S512x256, .f32⟩
  | 3 => ⟨S256, .f32⟩
  | 4 => ⟨S256x128, .f32⟩
  | 5 => ⟨S128, .f32⟩
  | 6 => ⟨S128x56, .f32⟩
  | 7 => ⟨S56, .f32⟩
  | 8 => ⟨S56x32, .f32⟩
  | 9 => ⟨S32, .f32⟩
  | 10 => ⟨S32x16, .f32⟩
  | 11 => ⟨S16, .f32⟩
  | 12 => ⟨S1x320000, .i32⟩
  | 13 => ⟨S320000, .i32⟩
  | 14 => ⟨S1x320000, .i32⟩
  | 15 => ⟨S320000, .i32⟩
  | 16 => ⟨S10000x256, .f32⟩
  | 17 => ⟨S_, .f32⟩
  | 18 => ⟨S10000, .f32⟩
  | 19 => ⟨S_, .i32⟩
  | 20 => ⟨S320000, .i32⟩
  | 21 => ⟨S320000, .i1⟩
  | 22 => ⟨S_, .i32⟩
  | 23 => ⟨S320000, .i32⟩
  | 24 => ⟨S320000, .i32⟩
  | 25 => ⟨S320000, .i32⟩
  | 26 => ⟨S320000x1, .i32⟩
  | 27 => ⟨S_, .f32⟩
  | 28 => ⟨S320000, .f32⟩
  | 29 => ⟨S10000, .f32⟩
  | 30 => ⟨S_, .f32⟩
  | 31 => ⟨S10000, .f32⟩
  | 32 => ⟨S10000, .f32⟩
  | 33 => ⟨S10000, .f32⟩
  | 34 => ⟨S_, .i32⟩
  | 35 => ⟨S320000, .i32⟩
  | 36 => ⟨S320000, .i1⟩
  | 37 => ⟨S_, .i32⟩
  | 38 => ⟨S320000, .i32⟩
  | 39 => ⟨S320000, .i32⟩
  | 40 => ⟨S320000, .i32⟩
  | 41 => ⟨S320000x1, .i32⟩
  | 42 => ⟨S320000, .f32⟩
  | 43 => ⟨S_, .i32⟩
  | 44 => ⟨S320000, .i32⟩
  | 45 => ⟨S320000, .i1⟩
  | 46 => ⟨S_, .i32⟩
  | 47 => ⟨S320000, .i32⟩
  | 48 => ⟨S320000, .i32⟩
  | 49 => ⟨S320000, .i32⟩
  | 50 => ⟨S320000x1, .i32⟩
  | 51 => ⟨S320000, .f32⟩
  | 52 => ⟨S320000, .f32⟩
  | 53 => ⟨S_, .f32⟩
  | 54 => ⟨S10000x256, .f32⟩
  | 55 => ⟨S_, .i32⟩
  | 56 => ⟨S320000, .i32⟩
  | 57 => ⟨S320000, .i1⟩
  | 58 => ⟨S_, .i32⟩
  | 59 => ⟨S320000, .i32⟩
  | 60 => ⟨S320000, .i32⟩
  | 61 => ⟨S320000, .i32⟩
  | 62 => ⟨S320000x1, .i32⟩
  | 63 => ⟨S320000x256, .f32⟩
  | 64 => ⟨S320000x1, .f32⟩
  | 65 => ⟨S320000x256, .f32⟩
  | 66 => ⟨S320000x256, .f32⟩
  | 67 => ⟨S_, .i32⟩
  | 68 => ⟨S320000, .i32⟩
  | 69 => ⟨S320000, .i1⟩
  | 70 => ⟨S_, .i32⟩
  | 71 => ⟨S320000, .i32⟩
  | 72 => ⟨S320000, .i32⟩
  | 73 => ⟨S320000, .i32⟩
  | 74 => ⟨S320000x1, .i32⟩
  | 75 => ⟨S10000x256, .f32⟩
  | 76 => ⟨S10000, .f32⟩
  | 77 => ⟨S10000x1, .f32⟩
  | 78 => ⟨S10000x256, .f32⟩
  | 79 => ⟨S10000x256, .f32⟩
  | 80 => ⟨S10000x256, .f32⟩
  | 81 => ⟨S1x256, .f32⟩
  | 82 => ⟨S10000x256, .f32⟩
  | 83 => ⟨S10000x256, .f32⟩
  | 84 => ⟨S_, .f32⟩
  | 85 => ⟨S_, .f32⟩
  | 86 => ⟨S10000x256, .f32⟩
  | 87 => ⟨S10000x256, .i1⟩
  | 88 => ⟨S_, .f32⟩
  | 89 => ⟨S10000x256, .f32⟩
  | 90 => ⟨S10000x256, .f32⟩
  | 91 => ⟨S10000x256, .f32⟩
  | 92 => ⟨S10000x128, .f32⟩
  | 93 => ⟨S_, .f32⟩
  | 94 => ⟨S10000, .f32⟩
  | 95 => ⟨S_, .i32⟩
  | 96 => ⟨S320000, .i32⟩
  | 97 => ⟨S320000, .i1⟩
  | 98 => ⟨S_, .i32⟩
  | 99 => ⟨S320000, .i32⟩
  | 100 => ⟨S320000, .i32⟩
  | 101 => ⟨S320000, .i32⟩
  | 102 => ⟨S320000x1, .i32⟩
  | 103 => ⟨S_, .f32⟩
  | 104 => ⟨S320000, .f32⟩
  | 105 => ⟨S10000, .f32⟩
  | 106 => ⟨S_, .f32⟩
  | 107 => ⟨S10000, .f32⟩
  | 108 => ⟨S10000, .f32⟩
  | 109 => ⟨S10000, .f32⟩
  | 110 => ⟨S_, .i32⟩
  | 111 => ⟨S320000, .i32⟩
  | 112 => ⟨S320000, .i1⟩
  | 113 => ⟨S_, .i32⟩
  | 114 => ⟨S320000, .i32⟩
  | 115 => ⟨S320000, .i32⟩
  | 116 => ⟨S320000, .i32⟩
  | 117 => ⟨S320000x1, .i32⟩
  | 118 => ⟨S320000, .f32⟩
  | 119 => ⟨S_, .i32⟩
  | 120 => ⟨S320000, .i32⟩
  | 121 => ⟨S320000, .i1⟩
  | 122 => ⟨S_, .i32⟩
  | 123 => ⟨S320000, .i32⟩
  | 124 => ⟨S320000, .i32⟩
  | 125 => ⟨S320000, .i32⟩
  | 126 => ⟨S320000x1, .i32⟩
  | 127 => ⟨S320000, .f32⟩
  | _ => ⟨S10000x512, .f32⟩

abbrev hbmTy0_1 (i : Nat) : BufTy := match i % 128 with
  | 0 => ⟨S320000, .f32⟩
  | 1 => ⟨S_, .f32⟩
  | 2 => ⟨S10000x128, .f32⟩
  | 3 => ⟨S_, .i32⟩
  | 4 => ⟨S320000, .i32⟩
  | 5 => ⟨S320000, .i1⟩
  | 6 => ⟨S_, .i32⟩
  | 7 => ⟨S320000, .i32⟩
  | 8 => ⟨S320000, .i32⟩
  | 9 => ⟨S320000, .i32⟩
  | 10 => ⟨S320000x1, .i32⟩
  | 11 => ⟨S320000x128, .f32⟩
  | 12 => ⟨S320000x1, .f32⟩
  | 13 => ⟨S320000x128, .f32⟩
  | 14 => ⟨S320000x128, .f32⟩
  | 15 => ⟨S_, .i32⟩
  | 16 => ⟨S320000, .i32⟩
  | 17 => ⟨S320000, .i1⟩
  | 18 => ⟨S_, .i32⟩
  | 19 => ⟨S320000, .i32⟩
  | 20 => ⟨S320000, .i32⟩
  | 21 => ⟨S320000, .i32⟩
  | 22 => ⟨S320000x1, .i32⟩
  | 23 => ⟨S10000x128, .f32⟩
  | 24 => ⟨S10000, .f32⟩
  | 25 => ⟨S10000x1, .f32⟩
  | 26 => ⟨S10000x128, .f32⟩
  | 27 => ⟨S10000x128, .f32⟩
  | 28 => ⟨S10000x128, .f32⟩
  | 29 => ⟨S1x128, .f32⟩
  | 30 => ⟨S10000x128, .f32⟩
  | 31 => ⟨S10000x128, .f32⟩
  | 32 => ⟨S_, .f32⟩
  | 33 => ⟨S_, .f32⟩
  | 34 => ⟨S10000x128, .f32⟩
  | 35 => ⟨S10000x128, .i1⟩
  | 36 => ⟨S_, .f32⟩
  | 37 => ⟨S10000x128, .f32⟩
  | 38 => ⟨S10000x128, .f32⟩
  | 39 => ⟨S10000x128, .f32⟩
  | 40 => ⟨S10000x56, .f32⟩
  | 41 => ⟨S_, .f32⟩
  | 42 => ⟨S10000, .f32⟩
  | 43 => ⟨S_, .i32⟩
  | 44 => ⟨S320000, .i32⟩
  | 45 => ⟨S320000, .i1⟩
  | 46 => ⟨S_, .i32⟩
  | 47 => ⟨S320000, .i32⟩
  | 48 => ⟨S320000, .i32⟩
  | 49 => ⟨S320000, .i32⟩
  | 50 => ⟨S320000x1, .i32⟩
  | 51 => ⟨S_, .f32⟩
  | 52 => ⟨S320000, .f32⟩
  | 53 => ⟨S10000, .f32⟩
  | 54 => ⟨S_, .f32⟩
  | 55 => ⟨S10000, .f32⟩
  | 56 => ⟨S10000, .f32⟩
  | 57 => ⟨S10000, .f32⟩
  | 58 => ⟨S_, .i32⟩
  | 59 => ⟨S320000, .i32⟩
  | 60 => ⟨S320000, .i1⟩
  | 61 => ⟨S_, .i32⟩
  | 62 => ⟨S320000, .i32⟩
  | 63 => ⟨S320000, .i32⟩
  | 64 => ⟨S320000, .i32⟩
  | 65 => ⟨S320000x1, .i32⟩
  | 66 => ⟨S320000, .f32⟩
  | 67 => ⟨S_, .i32⟩
  | 68 => ⟨S320000, .i32⟩
  | 69 => ⟨S320000, .i1⟩
  | 70 => ⟨S_, .i32⟩
  | 71 => ⟨S320000, .i32⟩
  | 72 => ⟨S320000, .i32⟩
  | 73 => ⟨S320000, .i32⟩
  | 74 => ⟨S320000x1, .i32⟩
  | 75 => ⟨S320000, .f32⟩
  | 76 => ⟨S320000, .f32⟩
  | 77 => ⟨S_, .f32⟩
  | 78 => ⟨S10000x56, .f32⟩
  | 79 => ⟨S_, .i32⟩
  | 80 => ⟨S320000, .i32⟩
  | 81 => ⟨S320000, .i1⟩
  | 82 => ⟨S_, .i32⟩
  | 83 => ⟨S320000, .i32⟩
  | 84 => ⟨S320000, .i32⟩
  | 85 => ⟨S320000, .i32⟩
  | 86 => ⟨S320000x1, .i32⟩
  | 87 => ⟨S320000x56, .f32⟩
  | 88 => ⟨S320000x1, .f32⟩
  | 89 => ⟨S320000x56, .f32⟩
  | 90 => ⟨S320000x56, .f32⟩
  | 91 => ⟨S_, .i32⟩
  | 92 => ⟨S320000, .i32⟩
  | 93 => ⟨S320000, .i1⟩
  | 94 => ⟨S_, .i32⟩
  | 95 => ⟨S320000, .i32⟩
  | 96 => ⟨S320000, .i32⟩
  | 97 => ⟨S320000, .i32⟩
  | 98 => ⟨S320000x1, .i32⟩
  | 99 => ⟨S10000x56, .f32⟩
  | 100 => ⟨S10000, .f32⟩
  | 101 => ⟨S10000x1, .f32⟩
  | 102 => ⟨S10000x56, .f32⟩
  | 103 => ⟨S10000x56, .f32⟩
  | 104 => ⟨S10000x56, .f32⟩
  | 105 => ⟨S1x56, .f32⟩
  | 106 => ⟨S10000x56, .f32⟩
  | 107 => ⟨S10000x56, .f32⟩
  | 108 => ⟨S_, .f32⟩
  | 109 => ⟨S_, .f32⟩
  | 110 => ⟨S10000x56, .f32⟩
  | 111 => ⟨S10000x56, .i1⟩
  | 112 => ⟨S_, .f32⟩
  | 113 => ⟨S10000x56, .f32⟩
  | 114 => ⟨S10000x56, .f32⟩
  | 115 => ⟨S10000x56, .f32⟩
  | 116 => ⟨S10000x32, .f32⟩
  | 117 => ⟨S_, .f32⟩
  | 118 => ⟨S10000, .f32⟩
  | 119 => ⟨S_, .i32⟩
  | 120 => ⟨S320000, .i32⟩
  | 121 => ⟨S320000, .i1⟩
  | 122 => ⟨S_, .i32⟩
  | 123 => ⟨S320000, .i32⟩
  | 124 => ⟨S320000, .i32⟩
  | 125 => ⟨S320000, .i32⟩
  | 126 => ⟨S320000x1, .i32⟩
  | 127 => ⟨S_, .f32⟩
  | _ => ⟨S10000x512, .f32⟩

abbrev hbmTy0_2 (i : Nat) : BufTy := match i % 128 with
  | 0 => ⟨S320000, .f32⟩
  | 1 => ⟨S10000, .f32⟩
  | 2 => ⟨S_, .f32⟩
  | 3 => ⟨S10000, .f32⟩
  | 4 => ⟨S10000, .f32⟩
  | 5 => ⟨S10000, .f32⟩
  | 6 => ⟨S_, .i32⟩
  | 7 => ⟨S320000, .i32⟩
  | 8 => ⟨S320000, .i1⟩
  | 9 => ⟨S_, .i32⟩
  | 10 => ⟨S320000, .i32⟩
  | 11 => ⟨S320000, .i32⟩
  | 12 => ⟨S320000, .i32⟩
  | 13 => ⟨S320000x1, .i32⟩
  | 14 => ⟨S320000, .f32⟩
  | 15 => ⟨S_, .i32⟩
  | 16 => ⟨S320000, .i32⟩
  | 17 => ⟨S320000, .i1⟩
  | 18 => ⟨S_, .i32⟩
  | 19 => ⟨S320000, .i32⟩
  | 20 => ⟨S320000, .i32⟩
  | 21 => ⟨S320000, .i32⟩
  | 22 => ⟨S320000x1, .i32⟩
  | 23 => ⟨S320000, .f32⟩
  | 24 => ⟨S320000, .f32⟩
  | 25 => ⟨S_, .f32⟩
  | 26 => ⟨S10000x32, .f32⟩
  | 27 => ⟨S_, .i32⟩
  | 28 => ⟨S320000, .i32⟩
  | 29 => ⟨S320000, .i1⟩
  | 30 => ⟨S_, .i32⟩
  | 31 => ⟨S320000, .i32⟩
  | 32 => ⟨S320000, .i32⟩
  | 33 => ⟨S320000, .i32⟩
  | 34 => ⟨S320000x1, .i32⟩
  | 35 => ⟨S320000x32, .f32⟩
  | 36 => ⟨S320000x1, .f32⟩
  | 37 => ⟨S320000x32, .f32⟩
  | 38 => ⟨S320000x32, .f32⟩
  | 39 => ⟨S_, .i32⟩
  | 40 => ⟨S320000, .i32⟩
  | 41 => ⟨S320000, .i1⟩
  | 42 => ⟨S_, .i32⟩
  | 43 => ⟨S320000, .i32⟩
  | 44 => ⟨S320000, .i32⟩
  | 45 => ⟨S320000, .i32⟩
  | 46 => ⟨S320000x1, .i32⟩
  | 47 => ⟨S10000x32, .f32⟩
  | 48 => ⟨S10000, .f32⟩
  | 49 => ⟨S10000x1, .f32⟩
  | 50 => ⟨S10000x32, .f32⟩
  | 51 => ⟨S10000x32, .f32⟩
  | 52 => ⟨S10000x32, .f32⟩
  | 53 => ⟨S1x32, .f32⟩
  | 54 => ⟨S10000x32, .f32⟩
  | 55 => ⟨S10000x32, .f32⟩
  | 56 => ⟨S_, .f32⟩
  | 57 => ⟨S_, .f32⟩
  | 58 => ⟨S10000x32, .f32⟩
  | 59 => ⟨S10000x32, .i1⟩
  | 60 => ⟨S_, .f32⟩
  | 61 => ⟨S10000x32, .f32⟩
  | 62 => ⟨S10000x32, .f32⟩
  | 63 => ⟨S10000x32, .f32⟩
  | 64 => ⟨S10000x16, .f32⟩
  | 65 => ⟨S1x16, .f32⟩
  | 66 => ⟨S10000x16, .f32⟩
  | 67 => ⟨S10000x16, .f32⟩
  | 68 => ⟨S_, .f32⟩
  | 69 => ⟨S10000, .f32⟩
  | 70 => ⟨S_, .f32⟩
  | 71 => ⟨S10000, .f32⟩
  | 72 => ⟨S10000, .f32⟩
  | 73 => ⟨S10000x1, .f32⟩
  | 74 => ⟨S10000x16, .f32⟩
  | 75 => ⟨S10000x16, .f32⟩
  | 76 => ⟨S10000x16, .f32⟩
  | 77 => ⟨S_, .f32⟩
  | 78 => ⟨S10000, .f32⟩
  | 79 => ⟨S10000x1, .f32⟩
  | 80 => ⟨S10000x16, .f32⟩
  | 81 => ⟨S10000x16, .f32⟩
  | _ => ⟨S10000x512, .f32⟩

abbrev hbmTy (i : Nat) : BufTy := match i / 128 with
  | 0 => hbmTy0_0 i
  | 1 => hbmTy0_1 i
  | 2 => hbmTy0_2 i
  | _ => ⟨S10000x512, .f32⟩

abbrev bufTy : (tb : Table) → Fin (tcTables nBuf tb) → BufTy
  | .hbm, ⟨i, _⟩ => hbmTy i
  | _, _ => ⟨S10000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_c : Ref sig .tc := ⟨.hbm, 19, rfl⟩
abbrev main_v6 : Ref sig .tc := ⟨.hbm, 20, rfl⟩
abbrev main_v7 : Ref sig .tc := ⟨.hbm, 21, rfl⟩
abbrev main_c_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_c_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_c_6 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_7 : Ref sig .tc := ⟨.hbm, 53, rfl⟩
abbrev main_v32 : Ref sig .tc := ⟨.hbm, 54, rfl⟩
abbrev main_c_8 : Ref sig .tc := ⟨.hbm, 55, rfl⟩
abbrev main_v33 : Ref sig .tc := ⟨.hbm, 56, rfl⟩
abbrev main_v34 : Ref sig .tc := ⟨.hbm, 57, rfl⟩
abbrev main_c_9 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_c_10 : Ref sig .tc := ⟨.hbm, 67, rfl⟩
abbrev main_v43 : Ref sig .tc := ⟨.hbm, 68, rfl⟩
abbrev main_v44 : Ref sig .tc := ⟨.hbm, 69, rfl⟩
abbrev main_c_11 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_12 : Ref sig .tc := ⟨.hbm, 84, rfl⟩
abbrev main_call0_cst : Ref sig .tc := ⟨.hbm, 85, rfl⟩
abbrev main_call0_v0 : Ref sig .tc := ⟨.hbm, 86, rfl⟩
abbrev main_call0_v1 : Ref sig .tc := ⟨.hbm, 87, rfl⟩
abbrev main_call0_v2 : Ref sig .tc := ⟨.hbm, 88, rfl⟩
abbrev main_call0_v3 : Ref sig .tc := ⟨.hbm, 89, rfl⟩
abbrev main_call0_v4 : Ref sig .tc := ⟨.hbm, 90, rfl⟩
abbrev main_v58 : Ref sig .tc := ⟨.hbm, 91, rfl⟩
abbrev main_v59 : Ref sig .tc := ⟨.hbm, 92, rfl⟩
abbrev main_cst_13 : Ref sig .tc := ⟨.hbm, 93, rfl⟩
abbrev main_v60 : Ref sig .tc := ⟨.hbm, 94, rfl⟩
abbrev main_c_14 : Ref sig .tc := ⟨.hbm, 95, rfl⟩
abbrev main_v61 : Ref sig .tc := ⟨.hbm, 96, rfl⟩
abbrev main_v62 : Ref sig .tc := ⟨.hbm, 97, rfl⟩
abbrev main_c_15 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_cst_16 : Ref sig .tc := ⟨.hbm, 103, rfl⟩
abbrev main_v67 : Ref sig .tc := ⟨.hbm, 104, rfl⟩
abbrev main_v68 : Ref sig .tc := ⟨.hbm, 105, rfl⟩
abbrev main_cst_17 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_c_18 : Ref sig .tc := ⟨.hbm, 110, rfl⟩
abbrev main_v72 : Ref sig .tc := ⟨.hbm, 111, rfl⟩
abbrev main_v73 : Ref sig .tc := ⟨.hbm, 112, rfl⟩
abbrev main_c_19 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_c_20 : Ref sig .tc := ⟨.hbm, 119, rfl⟩
abbrev main_v79 : Ref sig .tc := ⟨.hbm, 120, rfl⟩
abbrev main_v80 : Ref sig .tc := ⟨.hbm, 121, rfl⟩
abbrev main_c_21 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_cst_22 : Ref sig .tc := ⟨.hbm, 129, rfl⟩
abbrev main_v87 : Ref sig .tc := ⟨.hbm, 130, rfl⟩
abbrev main_c_23 : Ref sig .tc := ⟨.hbm, 131, rfl⟩
abbrev main_v88 : Ref sig .tc := ⟨.hbm, 132, rfl⟩
abbrev main_v89 : Ref sig .tc := ⟨.hbm, 133, rfl⟩
abbrev main_c_24 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_c_25 : Ref sig .tc := ⟨.hbm, 143, rfl⟩
abbrev main_v98 : Ref sig .tc := ⟨.hbm, 144, rfl⟩
abbrev main_v99 : Ref sig .tc := ⟨.hbm, 145, rfl⟩
abbrev main_c_26 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_cst_27 : Ref sig .tc := ⟨.hbm, 160, rfl⟩
abbrev main_call1_cst : Ref sig .tc := ⟨.hbm, 161, rfl⟩
abbrev main_call1_v0 : Ref sig .tc := ⟨.hbm, 162, rfl⟩
abbrev main_call1_v1 : Ref sig .tc := ⟨.hbm, 163, rfl⟩
abbrev main_call1_v2 : Ref sig .tc := ⟨.hbm, 164, rfl⟩
abbrev main_call1_v3 : Ref sig .tc := ⟨.hbm, 165, rfl⟩
abbrev main_call1_v4 : Ref sig .tc := ⟨.hbm, 166, rfl⟩
abbrev main_v113 : Ref sig .tc := ⟨.hbm, 167, rfl⟩
abbrev main_v114 : Ref sig .tc := ⟨.hbm, 168, rfl⟩
abbrev main_cst_28 : Ref sig .tc := ⟨.hbm, 169, rfl⟩
abbrev main_v115 : Ref sig .tc := ⟨.hbm, 170, rfl⟩
abbrev main_c_29 : Ref sig .tc := ⟨.hbm, 171, rfl⟩
abbrev main_v116 : Ref sig .tc := ⟨.hbm, 172, rfl⟩
abbrev main_v117 : Ref sig .tc := ⟨.hbm, 173, rfl⟩
abbrev main_c_30 : Ref sig .tc := ⟨.hbm, 174, rfl⟩
abbrev main_v118 : Ref sig .tc := ⟨.hbm, 175, rfl⟩
abbrev main_v119 : Ref sig .tc := ⟨.hbm, 176, rfl⟩
abbrev main_v120 : Ref sig .tc := ⟨.hbm, 177, rfl⟩
abbrev main_v121 : Ref sig .tc := ⟨.hbm, 178, rfl⟩
abbrev main_cst_31 : Ref sig .tc := ⟨.hbm, 179, rfl⟩
abbrev main_v122 : Ref sig .tc := ⟨.hbm, 180, rfl⟩
abbrev main_v123 : Ref sig .tc := ⟨.hbm, 181, rfl⟩
abbrev main_cst_32 : Ref sig .tc := ⟨.hbm, 182, rfl⟩
abbrev main_v124 : Ref sig .tc := ⟨.hbm, 183, rfl⟩
abbrev main_v125 : Ref sig .tc := ⟨.hbm, 184, rfl⟩
abbrev main_v126 : Ref sig .tc := ⟨.hbm, 185, rfl⟩
abbrev main_c_33 : Ref sig .tc := ⟨.hbm, 186, rfl⟩
abbrev main_v127 : Ref sig .tc := ⟨.hbm, 187, rfl⟩
abbrev main_v128 : Ref sig .tc := ⟨.hbm, 188, rfl⟩
abbrev main_c_34 : Ref sig .tc := ⟨.hbm, 189, rfl⟩
abbrev main_v129 : Ref sig .tc := ⟨.hbm, 190, rfl⟩
abbrev main_v130 : Ref sig .tc := ⟨.hbm, 191, rfl⟩
abbrev main_v131 : Ref sig .tc := ⟨.hbm, 192, rfl⟩
abbrev main_v132 : Ref sig .tc := ⟨.hbm, 193, rfl⟩
abbrev main_v133 : Ref sig .tc := ⟨.hbm, 194, rfl⟩
abbrev main_c_35 : Ref sig .tc := ⟨.hbm, 195, rfl⟩
abbrev main_v134 : Ref sig .tc := ⟨.hbm, 196, rfl⟩
abbrev main_v135 : Ref sig .tc := ⟨.hbm, 197, rfl⟩
abbrev main_c_36 : Ref sig .tc := ⟨.hbm, 198, rfl⟩
abbrev main_v136 : Ref sig .tc := ⟨.hbm, 199, rfl⟩
abbrev main_v137 : Ref sig .tc := ⟨.hbm, 200, rfl⟩
abbrev main_v138 : Ref sig .tc := ⟨.hbm, 201, rfl⟩
abbrev main_v139 : Ref sig .tc := ⟨.hbm, 202, rfl⟩
abbrev main_v140 : Ref sig .tc := ⟨.hbm, 203, rfl⟩
abbrev main_v141 : Ref sig .tc := ⟨.hbm, 204, rfl⟩
abbrev main_cst_37 : Ref sig .tc := ⟨.hbm, 205, rfl⟩
abbrev main_v142 : Ref sig .tc := ⟨.hbm, 206, rfl⟩
abbrev main_c_38 : Ref sig .tc := ⟨.hbm, 207, rfl⟩
abbrev main_v143 : Ref sig .tc := ⟨.hbm, 208, rfl⟩
abbrev main_v144 : Ref sig .tc := ⟨.hbm, 209, rfl⟩
abbrev main_c_39 : Ref sig .tc := ⟨.hbm, 210, rfl⟩
abbrev main_v145 : Ref sig .tc := ⟨.hbm, 211, rfl⟩
abbrev main_v146 : Ref sig .tc := ⟨.hbm, 212, rfl⟩
abbrev main_v147 : Ref sig .tc := ⟨.hbm, 213, rfl⟩
abbrev main_v148 : Ref sig .tc := ⟨.hbm, 214, rfl⟩
abbrev main_v149 : Ref sig .tc := ⟨.hbm, 215, rfl⟩
abbrev main_v150 : Ref sig .tc := ⟨.hbm, 216, rfl⟩
abbrev main_v151 : Ref sig .tc := ⟨.hbm, 217, rfl⟩
abbrev main_v152 : Ref sig .tc := ⟨.hbm, 218, rfl⟩
abbrev main_c_40 : Ref sig .tc := ⟨.hbm, 219, rfl⟩
abbrev main_v153 : Ref sig .tc := ⟨.hbm, 220, rfl⟩
abbrev main_v154 : Ref sig .tc := ⟨.hbm, 221, rfl⟩
abbrev main_c_41 : Ref sig .tc := ⟨.hbm, 222, rfl⟩
abbrev main_v155 : Ref sig .tc := ⟨.hbm, 223, rfl⟩
abbrev main_v156 : Ref sig .tc := ⟨.hbm, 224, rfl⟩
abbrev main_v157 : Ref sig .tc := ⟨.hbm, 225, rfl⟩
abbrev main_v158 : Ref sig .tc := ⟨.hbm, 226, rfl⟩
abbrev main_v159 : Ref sig .tc := ⟨.hbm, 227, rfl⟩
abbrev main_v160 : Ref sig .tc := ⟨.hbm, 228, rfl⟩
abbrev main_v161 : Ref sig .tc := ⟨.hbm, 229, rfl⟩
abbrev main_v162 : Ref sig .tc := ⟨.hbm, 230, rfl⟩
abbrev main_v163 : Ref sig .tc := ⟨.hbm, 231, rfl⟩
abbrev main_v164 : Ref sig .tc := ⟨.hbm, 232, rfl⟩
abbrev main_v165 : Ref sig .tc := ⟨.hbm, 233, rfl⟩
abbrev main_v166 : Ref sig .tc := ⟨.hbm, 234, rfl⟩
abbrev main_v167 : Ref sig .tc := ⟨.hbm, 235, rfl⟩
abbrev main_cst_42 : Ref sig .tc := ⟨.hbm, 236, rfl⟩
abbrev main_call2_cst : Ref sig .tc := ⟨.hbm, 237, rfl⟩
abbrev main_call2_v0 : Ref sig .tc := ⟨.hbm, 238, rfl⟩
abbrev main_call2_v1 : Ref sig .tc := ⟨.hbm, 239, rfl⟩
abbrev main_call2_v2 : Ref sig .tc := ⟨.hbm, 240, rfl⟩
abbrev main_call2_v3 : Ref sig .tc := ⟨.hbm, 241, rfl⟩
abbrev main_call2_v4 : Ref sig .tc := ⟨.hbm, 242, rfl⟩
abbrev main_v168 : Ref sig .tc := ⟨.hbm, 243, rfl⟩
abbrev main_v169 : Ref sig .tc := ⟨.hbm, 244, rfl⟩
abbrev main_cst_43 : Ref sig .tc := ⟨.hbm, 245, rfl⟩
abbrev main_v170 : Ref sig .tc := ⟨.hbm, 246, rfl⟩
abbrev main_c_44 : Ref sig .tc := ⟨.hbm, 247, rfl⟩
abbrev main_v171 : Ref sig .tc := ⟨.hbm, 248, rfl⟩
abbrev main_v172 : Ref sig .tc := ⟨.hbm, 249, rfl⟩
abbrev main_c_45 : Ref sig .tc := ⟨.hbm, 250, rfl⟩
abbrev main_v173 : Ref sig .tc := ⟨.hbm, 251, rfl⟩
abbrev main_v174 : Ref sig .tc := ⟨.hbm, 252, rfl⟩
abbrev main_v175 : Ref sig .tc := ⟨.hbm, 253, rfl⟩
abbrev main_v176 : Ref sig .tc := ⟨.hbm, 254, rfl⟩
abbrev main_cst_46 : Ref sig .tc := ⟨.hbm, 255, rfl⟩
abbrev main_v177 : Ref sig .tc := ⟨.hbm, 256, rfl⟩
abbrev main_v178 : Ref sig .tc := ⟨.hbm, 257, rfl⟩
abbrev main_cst_47 : Ref sig .tc := ⟨.hbm, 258, rfl⟩
abbrev main_v179 : Ref sig .tc := ⟨.hbm, 259, rfl⟩
abbrev main_v180 : Ref sig .tc := ⟨.hbm, 260, rfl⟩
abbrev main_v181 : Ref sig .tc := ⟨.hbm, 261, rfl⟩
abbrev main_c_48 : Ref sig .tc := ⟨.hbm, 262, rfl⟩
abbrev main_v182 : Ref sig .tc := ⟨.hbm, 263, rfl⟩
abbrev main_v183 : Ref sig .tc := ⟨.hbm, 264, rfl⟩
abbrev main_c_49 : Ref sig .tc := ⟨.hbm, 265, rfl⟩
abbrev main_v184 : Ref sig .tc := ⟨.hbm, 266, rfl⟩
abbrev main_v185 : Ref sig .tc := ⟨.hbm, 267, rfl⟩
abbrev main_v186 : Ref sig .tc := ⟨.hbm, 268, rfl⟩
abbrev main_v187 : Ref sig .tc := ⟨.hbm, 269, rfl⟩
abbrev main_v188 : Ref sig .tc := ⟨.hbm, 270, rfl⟩
abbrev main_c_50 : Ref sig .tc := ⟨.hbm, 271, rfl⟩
abbrev main_v189 : Ref sig .tc := ⟨.hbm, 272, rfl⟩
abbrev main_v190 : Ref sig .tc := ⟨.hbm, 273, rfl⟩
abbrev main_c_51 : Ref sig .tc := ⟨.hbm, 274, rfl⟩
abbrev main_v191 : Ref sig .tc := ⟨.hbm, 275, rfl⟩
abbrev main_v192 : Ref sig .tc := ⟨.hbm, 276, rfl⟩
abbrev main_v193 : Ref sig .tc := ⟨.hbm, 277, rfl⟩
abbrev main_v194 : Ref sig .tc := ⟨.hbm, 278, rfl⟩
abbrev main_v195 : Ref sig .tc := ⟨.hbm, 279, rfl⟩
abbrev main_v196 : Ref sig .tc := ⟨.hbm, 280, rfl⟩
abbrev main_cst_52 : Ref sig .tc := ⟨.hbm, 281, rfl⟩
abbrev main_v197 : Ref sig .tc := ⟨.hbm, 282, rfl⟩
abbrev main_c_53 : Ref sig .tc := ⟨.hbm, 283, rfl⟩
abbrev main_v198 : Ref sig .tc := ⟨.hbm, 284, rfl⟩
abbrev main_v199 : Ref sig .tc := ⟨.hbm, 285, rfl⟩
abbrev main_c_54 : Ref sig .tc := ⟨.hbm, 286, rfl⟩
abbrev main_v200 : Ref sig .tc := ⟨.hbm, 287, rfl⟩
abbrev main_v201 : Ref sig .tc := ⟨.hbm, 288, rfl⟩
abbrev main_v202 : Ref sig .tc := ⟨.hbm, 289, rfl⟩
abbrev main_v203 : Ref sig .tc := ⟨.hbm, 290, rfl⟩
abbrev main_v204 : Ref sig .tc := ⟨.hbm, 291, rfl⟩
abbrev main_v205 : Ref sig .tc := ⟨.hbm, 292, rfl⟩
abbrev main_v206 : Ref sig .tc := ⟨.hbm, 293, rfl⟩
abbrev main_v207 : Ref sig .tc := ⟨.hbm, 294, rfl⟩
abbrev main_c_55 : Ref sig .tc := ⟨.hbm, 295, rfl⟩
abbrev main_v208 : Ref sig .tc := ⟨.hbm, 296, rfl⟩
abbrev main_v209 : Ref sig .tc := ⟨.hbm, 297, rfl⟩
abbrev main_c_56 : Ref sig .tc := ⟨.hbm, 298, rfl⟩
abbrev main_v210 : Ref sig .tc := ⟨.hbm, 299, rfl⟩
abbrev main_v211 : Ref sig .tc := ⟨.hbm, 300, rfl⟩
abbrev main_v212 : Ref sig .tc := ⟨.hbm, 301, rfl⟩
abbrev main_v213 : Ref sig .tc := ⟨.hbm, 302, rfl⟩
abbrev main_v214 : Ref sig .tc := ⟨.hbm, 303, rfl⟩
abbrev main_v215 : Ref sig .tc := ⟨.hbm, 304, rfl⟩
abbrev main_v216 : Ref sig .tc := ⟨.hbm, 305, rfl⟩
abbrev main_v217 : Ref sig .tc := ⟨.hbm, 306, rfl⟩
abbrev main_v218 : Ref sig .tc := ⟨.hbm, 307, rfl⟩
abbrev main_v219 : Ref sig .tc := ⟨.hbm, 308, rfl⟩
abbrev main_v220 : Ref sig .tc := ⟨.hbm, 309, rfl⟩
abbrev main_v221 : Ref sig .tc := ⟨.hbm, 310, rfl⟩
abbrev main_v222 : Ref sig .tc := ⟨.hbm, 311, rfl⟩
abbrev main_cst_57 : Ref sig .tc := ⟨.hbm, 312, rfl⟩
abbrev main_call3_cst : Ref sig .tc := ⟨.hbm, 313, rfl⟩
abbrev main_call3_v0 : Ref sig .tc := ⟨.hbm, 314, rfl⟩
abbrev main_call3_v1 : Ref sig .tc := ⟨.hbm, 315, rfl⟩
abbrev main_call3_v2 : Ref sig .tc := ⟨.hbm, 316, rfl⟩
abbrev main_call3_v3 : Ref sig .tc := ⟨.hbm, 317, rfl⟩
abbrev main_call3_v4 : Ref sig .tc := ⟨.hbm, 318, rfl⟩
abbrev main_v223 : Ref sig .tc := ⟨.hbm, 319, rfl⟩
abbrev main_v224 : Ref sig .tc := ⟨.hbm, 320, rfl⟩
abbrev main_v225 : Ref sig .tc := ⟨.hbm, 321, rfl⟩
abbrev main_v226 : Ref sig .tc := ⟨.hbm, 322, rfl⟩
abbrev main_v227 : Ref sig .tc := ⟨.hbm, 323, rfl⟩
abbrev main_cst_58 : Ref sig .tc := ⟨.hbm, 324, rfl⟩
abbrev main_v228 : Ref sig .tc := ⟨.hbm, 325, rfl⟩
abbrev main_cst_59 : Ref sig .tc := ⟨.hbm, 326, rfl⟩
abbrev main_v229 : Ref sig .tc := ⟨.hbm, 327, rfl⟩
abbrev main_v230 : Ref sig .tc := ⟨.hbm, 328, rfl⟩
abbrev main_v231 : Ref sig .tc := ⟨.hbm, 329, rfl⟩
abbrev main_v232 : Ref sig .tc := ⟨.hbm, 330, rfl⟩
abbrev main_v233 : Ref sig .tc := ⟨.hbm, 331, rfl⟩
abbrev main_v234 : Ref sig .tc := ⟨.hbm, 332, rfl⟩
abbrev main_cst_60 : Ref sig .tc := ⟨.hbm, 333, rfl⟩
abbrev main_v235 : Ref sig .tc := ⟨.hbm, 334, rfl⟩
abbrev main_v236 : Ref sig .tc := ⟨.hbm, 335, rfl⟩
abbrev main_v237 : Ref sig .tc := ⟨.hbm, 336, rfl⟩
abbrev main_v238 : Ref sig .tc := ⟨.hbm, 337, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S10000 : S_.BroadcastsInDim S10000 (![] : Fin 0 → Fin S10000.rank)
  bcast_S_S320000 : S_.BroadcastsInDim S320000 (![] : Fin 0 → Fin S320000.rank)
  bcast_S320000_S320000x1_0 : S320000.BroadcastsInDim S320000x1 (![0] : Fin 1 → Fin S320000x1.rank)
  bcast_S_S10000x256 : S_.BroadcastsInDim S10000x256 (![] : Fin 0 → Fin S10000x256.rank)
  bcast_S320000x1_S320000x256_0_1 : S320000x1.BroadcastsInDim S320000x256 (![0, 1] : Fin 2 → Fin S320000x256.rank)
  bcast_S10000_S10000x1_0 : S10000.BroadcastsInDim S10000x1 (![0] : Fin 1 → Fin S10000x1.rank)
  bcast_S10000x1_S10000x256_0_1 : S10000x1.BroadcastsInDim S10000x256 (![0, 1] : Fin 2 → Fin S10000x256.rank)
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S_S10000x128 : S_.BroadcastsInDim S10000x128 (![] : Fin 0 → Fin S10000x128.rank)
  bcast_S320000x1_S320000x128_0_1 : S320000x1.BroadcastsInDim S320000x128 (![0, 1] : Fin 2 → Fin S320000x128.rank)
  bcast_S10000x1_S10000x128_0_1 : S10000x1.BroadcastsInDim S10000x128 (![0, 1] : Fin 2 → Fin S10000x128.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x56 : S_.BroadcastsInDim S10000x56 (![] : Fin 0 → Fin S10000x56.rank)
  bcast_S320000x1_S320000x56_0_1 : S320000x1.BroadcastsInDim S320000x56 (![0, 1] : Fin 2 → Fin S320000x56.rank)
  bcast_S10000x1_S10000x56_0_1 : S10000x1.BroadcastsInDim S10000x56 (![0, 1] : Fin 2 → Fin S10000x56.rank)
  bcast_S56_S1x56_1 : S56.BroadcastsInDim S1x56 (![1] : Fin 1 → Fin S1x56.rank)
  bcast_S1x56_S10000x56_0_1 : S1x56.BroadcastsInDim S10000x56 (![0, 1] : Fin 2 → Fin S10000x56.rank)
  bcast_S_S10000x32 : S_.BroadcastsInDim S10000x32 (![] : Fin 0 → Fin S10000x32.rank)
  bcast_S320000x1_S320000x32_0_1 : S320000x1.BroadcastsInDim S320000x32 (![0, 1] : Fin 2 → Fin S320000x32.rank)
  bcast_S10000x1_S10000x32_0_1 : S10000x1.BroadcastsInDim S10000x32 (![0, 1] : Fin 2 → Fin S10000x32.rank)
  bcast_S32_S1x32_1 : S32.BroadcastsInDim S1x32 (![1] : Fin 1 → Fin S1x32.rank)
  bcast_S1x32_S10000x32_0_1 : S1x32.BroadcastsInDim S10000x32 (![0, 1] : Fin 2 → Fin S10000x32.rank)
  bcast_S16_S1x16_1 : S16.BroadcastsInDim S1x16 (![1] : Fin 1 → Fin S1x16.rank)
  bcast_S1x16_S10000x16_0_1 : S1x16.BroadcastsInDim S10000x16 (![0, 1] : Fin 2 → Fin S10000x16.rank)
  reducesTo_S10000x16_S10000_d1 : S10000x16.ReducesTo [1] S10000
  h_S_ : 0 < S_.numel
  bcast_S10000x1_S10000x16_0_1 : S10000x1.BroadcastsInDim S10000x16 (![0, 1] : Fin 2 → Fin S10000x16.rank)
  dot_S10000x512_S512x256_S10000x256_1_0_0_1_n_n_wf : DotDims.WF S10000x512 S512x256 S10000x256 [1] [0] [0] [1] [] []
  scatter_S10000_S320000x1_S320000_n_0_0_1_wf : ScatterDims.WF S10000 S320000x1 S320000 [] [0] [0] 1
  gather_S10000_S320000x1_S320000_n_0_n_n_0_1_1_wf : GatherDims.WF S10000 S320000x1 S320000 [] [0] [] [0] [] 1 ![1]
  gather_S10000x256_S320000x1_S320000x256_1_0_n_n_0_1_1256_wf : GatherDims.WF S10000x256 S320000x1 S320000x256 [1] [0] [] [0] [] 1 ![1, 256]
  scatter_S10000x256_S320000x1_S320000x256_1_0_0_1_wf : ScatterDims.WF S10000x256 S320000x1 S320000x256 [1] [0] [0] 1
  dot_S10000x256_S256x128_S10000x128_1_0_0_1_n_n_wf : DotDims.WF S10000x256 S256x128 S10000x128 [1] [0] [0] [1] [] []
  gather_S10000x128_S320000x1_S320000x128_1_0_n_n_0_1_1128_wf : GatherDims.WF S10000x128 S320000x1 S320000x128 [1] [0] [] [0] [] 1 ![1, 128]
  scatter_S10000x128_S320000x1_S320000x128_1_0_0_1_wf : ScatterDims.WF S10000x128 S320000x1 S320000x128 [1] [0] [0] 1
  dot_S10000x128_S128x56_S10000x56_1_0_0_1_n_n_wf : DotDims.WF S10000x128 S128x56 S10000x56 [1] [0] [0] [1] [] []
  gather_S10000x56_S320000x1_S320000x56_1_0_n_n_0_1_156_wf : GatherDims.WF S10000x56 S320000x1 S320000x56 [1] [0] [] [0] [] 1 ![1, 56]
  scatter_S10000x56_S320000x1_S320000x56_1_0_0_1_wf : ScatterDims.WF S10000x56 S320000x1 S320000x56 [1] [0] [0] 1
  dot_S10000x56_S56x32_S10000x32_1_0_0_1_n_n_wf : DotDims.WF S10000x56 S56x32 S10000x32 [1] [0] [0] [1] [] []
  gather_S10000x32_S320000x1_S320000x32_1_0_n_n_0_1_132_wf : GatherDims.WF S10000x32 S320000x1 S320000x32 [1] [0] [] [0] [] 1 ![1, 32]
  scatter_S10000x32_S320000x1_S320000x32_1_0_0_1_wf : ScatterDims.WF S10000x32 S320000x1 S320000x32 [1] [0] [0] 1
  dot_S10000x32_S32x16_S10000x16_1_0_0_1_n_n_wf : DotDims.WF S10000x32 S32x16 S10000x16 [1] [0] [0] [1] [] []

variable [Facts₀]

def dot_S10000x512_S512x256_S10000x256_1_0_0_1_n_n : DotDims S10000x512 S512x256 S10000x256 where
  lhsContracting := [1]
  rhsContracting := [0]
  lhsNonContracting := [0]
  rhsNonContracting := [1]
  lhsBatch := []
  rhsBatch := []
  wf := dot_S10000x512_S512x256_S10000x256_1_0_0_1_n_n_wf
def scatter_S10000_S320000x1_S320000_n_0_0_1 : ScatterDims S10000 S320000x1 S320000 where
  updateWindowDims := []
  insertedWindowDims := [0]
  scatterDimsToOperandDims := [0]
  indexVectorDim := 1
  wf := scatter_S10000_S320000x1_S320000_n_0_0_1_wf
def gather_S10000_S320000x1_S320000_n_0_n_n_0_1_1 : GatherDims S10000 S320000x1 S320000 where
  offsetDims := []
  collapsedSliceDims := [0]
  operandBatchingDims := []
  startIndicesBatchingDims := []
  startIndexMap := [0]
  indexVectorDim := 1
  sliceSizes := ![1]
  wf := gather_S10000_S320000x1_S320000_n_0_n_n_0_1_1_wf
def gather_S10000x256_S320000x1_S320000x256_1_0_n_n_0_1_1256 : GatherDims S10000x256 S320000x1 S320000x256 where
  offsetDims := [1]
  collapsedSliceDims := [0]
  operandBatchingDims := []
  startIndicesBatchingDims := []
  startIndexMap := [0]
  indexVectorDim := 1
  sliceSizes := ![1, 256]
  wf := gather_S10000x256_S320000x1_S320000x256_1_0_n_n_0_1_1256_wf
def scatter_S10000x256_S320000x1_S320000x256_1_0_0_1 : ScatterDims S10000x256 S320000x1 S320000x256 where
  updateWindowDims := [1]
  insertedWindowDims := [0]
  scatterDimsToOperandDims := [0]
  indexVectorDim := 1
  wf := scatter_S10000x256_S320000x1_S320000x256_1_0_0_1_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf
def gather_S10000x128_S320000x1_S320000x128_1_0_n_n_0_1_1128 : GatherDims S10000x128 S320000x1 S320000x128 where
  offsetDims := [1]
  collapsedSliceDims := [0]
  operandBatchingDims := []
  startIndicesBatchingDims := []
  startIndexMap := [0]
  indexVectorDim := 1
  sliceSizes := ![1, 128]
  wf := gather_S10000x128_S320000x1_S320000x128_1_0_n_n_0_1_1128_wf
def scatter_S10000x128_S320000x1_S320000x128_1_0_0_1 : ScatterDims S10000x128 S320000x1 S320000x128 where
  updateWindowDims := [1]
  insertedWindowDims := [0]
  scatterDimsToOperandDims := [0]
  indexVectorDim := 1
  wf := scatter_S10000x128_S320000x1_S320000x128_1_0_0_1_wf
def dot_S10000x128_S128x56_S10000x56_1_0_0_1_n_n : DotDims S10000x128 S128x56 S10000x56 where
  lhsContracting := [1]
  rhsContracting := [0]
  lhsNonContracting := [0]
  rhsNonContracting := [1]
  lhsBatch := []
  rhsBatch := []
  wf := dot_S10000x128_S128x56_S10000x56_1_0_0_1_n_n_wf
def gather_S10000x56_S320000x1_S320000x56_1_0_n_n_0_1_156 : GatherDims S10000x56 S320000x1 S320000x56 where
  offsetDims := [1]
  collapsedSliceDims := [0]
  operandBatchingDims := []
  startIndicesBatchingDims := []
  startIndexMap := [0]
  indexVectorDim := 1
  sliceSizes := ![1, 56]
  wf := gather_S10000x56_S320000x1_S320000x56_1_0_n_n_0_1_156_wf
def scatter_S10000x56_S320000x1_S320000x56_1_0_0_1 : ScatterDims S10000x56 S320000x1 S320000x56 where
  updateWindowDims := [1]
  insertedWindowDims := [0]
  scatterDimsToOperandDims := [0]
  indexVectorDim := 1
  wf := scatter_S10000x56_S320000x1_S320000x56_1_0_0_1_wf
def dot_S10000x56_S56x32_S10000x32_1_0_0_1_n_n : DotDims S10000x56 S56x32 S10000x32 where
  lhsContracting := [1]
  rhsContracting := [0]
  lhsNonContracting := [0]
  rhsNonContracting := [1]
  lhsBatch := []
  rhsBatch := []
  wf := dot_S10000x56_S56x32_S10000x32_1_0_0_1_n_n_wf
def gather_S10000x32_S320000x1_S320000x32_1_0_n_n_0_1_132 : GatherDims S10000x32 S320000x1 S320000x32 where
  offsetDims := [1]
  collapsedSliceDims := [0]
  operandBatchingDims := []
  startIndicesBatchingDims := []
  startIndexMap := [0]
  indexVectorDim := 1
  sliceSizes := ![1, 32]
  wf := gather_S10000x32_S320000x1_S320000x32_1_0_n_n_0_1_132_wf
def scatter_S10000x32_S320000x1_S320000x32_1_0_0_1 : ScatterDims S10000x32 S320000x1 S320000x32 where
  updateWindowDims := [1]
  insertedWindowDims := [0]
  scatterDimsToOperandDims := [0]
  indexVectorDim := 1
  wf := scatter_S10000x32_S320000x1_S320000x32_1_0_0_1_wf
def dot_S10000x32_S32x16_S10000x16_1_0_0_1_n_n : DotDims S10000x32 S32x16 S10000x16 where
  lhsContracting := [1]
  rhsContracting := [0]
  lhsNonContracting := [0]
  rhsNonContracting := [1]
  lhsBatch := []
  rhsBatch := []
  wf := dot_S10000x32_S32x16_S10000x16_1_0_0_1_n_n_wf

class Facts : Prop extends Facts₀ where

variable [Facts]
-- ==== Proof.FrameLib.lean ====
import Idealize.ShloMosaic.Lib.Pipeline.FrameBody
import Idealize.ShloMosaic.Lib.Pipeline.Value

noncomputable section

namespace Cert.FrameLib

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg)

theorem hz2 : (![0, 0] : Fin 2 → ℕ) = fun _ => 0 := by funext a; fin_cases a <;> rfl

-- The last store covers the whole shape, so the buffer reads as its payload.
theorem read_writes_unit_zero {sg : RefSig} {κ : Kind} {sp : Space} {S : Shape} {e : EltTy} {Val : EltTy → Type}
    (v : View sg κ sp S e) (f : v.ty.Contents Val) {off : Fin S.rank → ℕ} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst h; funext y
  have e := View.read_writes_cons_emb v f (Rect.whole S) w L y
  rw [Rect.emb_whole_apply] at e
  exact e

-- A rectangle as large as the shape can only sit at offset zero.
theorem off_zero {S : Shape} {off : Fin S.rank → ℕ} (inb : ∀ a, off a + S.size a ≤ S.size a) : off = fun _ => 0 :=
  funext fun a => by have := inb a; omega

section
variable {Val : EltTy → Type} {e : EltTy}

theorem read_writes_unit {S : Shape} {off : Fin S.rank → ℕ} (inb : ∀ a, off a + S.size a ≤ S.size a) {sg : RefSig} {κ : Kind}
    {sp : Space} (v : View sg κ sp S e) (f : v.ty.Contents Val) (w : S.Idx → Val e) (L : List (View.Piece Val S e)) :
    v.read Val (v.writes Val f ((⟨Rect.unit off S.size inb, w⟩ : View.Piece Val S e) :: L)) = w :=
  read_writes_unit_zero v f (off_zero inb) inb w L

variable {r : ℕ} {sz off : Fin r → ℕ} (inb : ∀ a, off a + sz a ≤ sz a)

theorem ld_unit (X : (Shape.mk r sz).Idx → Val e) : View.ld X (Rect.unit (s := ⟨r, sz⟩) off sz inb) = X :=
  View.ld_unit_zero (S := ⟨r, sz⟩) (off_zero (S := ⟨r, sz⟩) inb) inb X

theorem readCov_unit [∀ e, Nonempty (Val e)] {sg : RefSig} {κ : Kind} {sp : Space} (v : View sg κ sp ⟨r, sz⟩ e)
    (w : (Shape.mk r sz).Idx → Val e) :
    v.readCov [(⟨Rect.unit (s := ⟨r, sz⟩) off sz inb, w⟩ : View.Piece Val ⟨r, sz⟩ e)] (Rect.unit (s := ⟨r, sz⟩) off sz inb).toLoadRect = w :=
  View.readCov_unit_zero (S := ⟨r, sz⟩) v (off_zero (S := ⟨r, sz⟩) inb) inb w
end

-- A running value restarted from `z` at every position divisible by 5.
def accN {α : Type} (z : α) (f : ℕ → α → α) : ℕ → α
  | 0 => f 0 z
  | n + 1 => f (n + 1) (if (n + 1) % 5 = 0 then z else accN z f n)

theorem accN_zero {α : Type} (z : α) (f : ℕ → α → α) {n : ℕ} (h : n % 5 = 0) : accN z f n = f n z := by
  cases n with
  | zero => rfl
  | succ n => rw [accN, if_pos h]

theorem accN_succ {α : Type} (z : α) (f : ℕ → α → α) {n : ℕ} (h : n % 5 ≠ 0) :
    accN z f n = f n (accN z f (n - 1)) := by
  cases n with
  | zero => exact absurd (Nat.zero_mod _) h
  | succ n => rw [accN, if_neg h, Nat.add_sub_cancel]

variable {nD : Nat} {τ : Topo} {sig : RefSig} {Val : EltTy → Type}
variable {Ix : Type} [DecidableEq Ix] {Name : Type} [DecidableEq Name] {U : Type} [URA U] {Lvl : Type}

local notation "𝕄" => MT nD τ sig Ix Val Name U Lvl

-- A whole memref reads its buffer injectively, so owning it at `X` is the points-to at the one contents reading `X`.
theorem owns_unread (c : Dev nD) {sp : Space} {sh : Shape} {e : EltTy} {m : Memref sig .tc sp sh e}
    (h : m.IsWhole) (q : PosShare TreeShare) (X : sh.Idx → Val e) :
    (owns (c : Thread nD τ) m q X : sProp 𝕄) = (m.view.loc (c : Thread nD τ) ↦[m.view.set]{q} h.unread X) := by
  unfold owns
  have h₁ : iprop(∃ f, ⌜m.view.read Val f = X⌝ ∗ (m.view.loc (c : Thread nD τ) ↦[m.view.set]{q} f))
      ⊢ (m.view.loc (c : Thread nD τ) ↦[m.view.set]{q} h.unread X : sProp 𝕄) := by
    iintro ⟨%f, %hf, H⟩; obtain rfl := h.eq_unread hf; iexact H
  have h₂ : (m.view.loc (c : Thread nD τ) ↦[m.view.set]{q} h.unread X : sProp 𝕄)
      ⊢ iprop(∃ f, ⌜m.view.read Val f = X⌝ ∗ (m.view.loc (c : Thread nD τ) ↦[m.view.set]{q} f)) := by
    iintro H; iexists _; isplitr
    · ipureintro; exact h.read_unread X
    · iexact H
  exact BI.equiv_iff.mp ⟨h₁, h₂⟩

-- At a point live for the window the body leaves its buffer at `after`.
theorem leavesExact_live {Λ₀ : Idealize.SL.Sem.Labels} {cfg : Cfg sig Λ₀} {c : Dev nD} (dat : Dat τ Val Ix Name U Lvl cfg c)
    (w : Fin cfg.W) (t : Fin cfg.N) (hi : cfg.idle w (cfg.grid.coords t) = false) :
    dat.leavesExact w t = owns (c : Thread nD τ) ((cfg.win w).stage (cfg.slots t w)) fullShare (dat.after w t) := by
  unfold Dat.leavesExact; rw [hi]

end Cert.FrameLib

end
-- ==== Proof.K.Lin0.lean ====
import proofs.«419824_j13683765805591_3_alg».proof.Proof.Gen.Kernel.Launch
import proofs.«419824_j13683765805591_3_alg».proof.Proof.Gen.Kernel.Skeleton
import proofs.«419824_j13683765805591_3_alg».proof.Proof.Gen.Kernel.Points
import proofs.«419824_j13683765805591_3_alg».proof.Proof.FrameLib
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.Kernel Cert.Kernel.Gen Cert.FrameLib

variable {F : FTy → Type} [FloatOps F]

local notation "𝕄" => MT nD τ sig Unit (Elt F) ℕ (UR sig nD τ) ℕ

abbrev r0_0 : Rect S2560x512 := Rect.unit (s := S2560x512) ![0, 0] S2560x512.size inb_S2560x512_S2560x512_0_0
abbrev r0_1 : Rect S512x256 := Rect.unit (s := S512x256) ![0, 0] S512x256.size inb_S512x256_S512x256_0_0
abbrev r0_2 : Rect S1x256 := Rect.unit (s := S1x256) ![0, 0] S1x256.size inb_S1x256_S1x256_0_0
abbrev r0_3 : Rect S2560x256 := Rect.unit (s := S2560x256) ![0, 0] S2560x256.size inb_S2560x256_S2560x256_0_0

def out0_3 (x0 : Vec F S2560x512 .bf16) (x1 : Vec F S512x256 .bf16) (x2 : Vec F S1x256 .f32) : Vec F S2560x256 .bf16 :=
  View.canon [⟨r0_3, k0_pay1 (View.ld x0 r0_0) (View.ld x1 r0_1) (View.ld x2 r0_2)⟩]

-- a load through the whole buffer reads its contents, and one store through it leaves its payload
theorem out0_3_eq (x0 : Vec F S2560x512 .bf16) (x1 : Vec F S512x256 .bf16) (x2 : Vec F S1x256 .f32) :
    out0_3 x0 x1 x2 = truncf .bf16 (addf (matmul dot_S2560x512_S512x256_S2560x256_1_0_0_1_n_n none (shapeCast S2560x512 x0 shapeCasts_S2560x512_S2560x512) (shapeCast S512x256 x1 shapeCasts_S512x256_S512x256) (constant S2560x256 .f32 0x00000000#32)) (broadcastTo S2560x256 (shapeCast S1x256 x2 shapeCasts_S1x256_S1x256) broadcasts_S1x256_S2560x256)) bitsLt_bf16_f32 := by
  unfold out0_3
  rw [View.canon_unit_zero hz2, ld_unit, ld_unit, ld_unit]
  rfl

-- the body reads the three inputs whole and stores once through the whole output, so the output ends at out0_3 of the inputs
theorem sound_kernel0 (c : Dev nD) {i arg1 harg1 arg2 harg2 arg3 harg3 arg4 harg4} (x0 x1 x2) (K : PUnit → sProp 𝕄) :
    iprop((∃ d, owns c.tc arg4 fullShare d) ∗ owns c.tc arg1 fullShare x0 ∗ owns c.tc arg2 fullShare x1 ∗ owns c.tc arg3 fullShare x2
        ∗ (owns c.tc arg1 fullShare x0 -∗ owns c.tc arg2 fullShare x1 -∗ owns c.tc arg3 fullShare x2
            -∗ owns c.tc arg4 fullShare (out0_3 x0 x1 x2) -∗ K ⟨⟩))
      ⊢ wp frame (wpE (defs₀ (F := F)) Variants.none c none) Set.univ (cc0__linear_kernel i arg1 harg1 arg2 harg2 arg3 harg3 arg4 harg4) K := by
  simp only [cc0__linear_kernel_eq_skeleton]; unfold cc0__linear_kernel_skel owns
  iintro ⟨⟨%d3, %f3, -, H3⟩, ⟨%f0, %hf0, H0⟩, ⟨%f1, %hf1, H1⟩, ⟨%f2, %hf2, H2⟩, Hk⟩
  subst hf0 hf1 hf2
  sl_exec
  sl_step
  iapply Hk $$ [H0] [H1] [H2] [H3] <;> (iexists _; isplitr; swap; iassumption; ipureintro)
  · rfl
  · rfl
  · rfl
  exact View.read_writes_eq_canon _ _ _ fun y => ⟨_, List.mem_singleton_self _, View.mem_set_unit_zero hz2 inb_S2560x256_S2560x256_0_0 y⟩

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := rfl
theorem q_eq0 (c : Dev nD) (w : Fin cfg0.W) : (dat0 V c).q w = fullShare := rfl
theorem owed_eq0 (c : Dev nD) (t : Fin (cfg0.N + 1)) : (dat0 V c).owed t = 0 := rfl
theorem after0_3 (c : Dev nD) (t : Fin cfg0.N) : (dat0 V c).after 3 t = out0_3 (iblk0 V c 0 t) (iblk0 V c 1 t) (iblk0 V c 2 t) := by dsimp only [dat0]

theorem before0_0 (c t d) : (dat0 V c).before 0 t d = iblk0 V c 0 t :=
  (dat0 V c).before_in_eq_fetched 0 rfl (fun _ => rfl) (fun _ _ _ => rfl) (fun _ => rfl) t d
theorem before0_1 (c t d) : (dat0 V c).before 1 t d = iblk0 V c 1 t :=
  (dat0 V c).before_in_eq_fetched 1 rfl (fun _ => rfl) (fun _ _ _ => rfl) (fun _ => rfl) t d
theorem before0_2 (c t d) : (dat0 V c).before 2 t d = iblk0 V c 2 t :=
  (dat0 V c).before_in_eq_fetched 2 rfl (fun _ => rfl) (fun _ _ _ => rfl) (fun _ => rfl) t d

-- the inputs are at their blocks, so the kernel's triple applies; the invariant and what is owed pass through
theorem body_obligation0 (c : Dev nD) : BodyObligation (dat0 (F := F) V c) (defs₀ (F := F)) Variants.none () Set.univ := fun t => by
  rw [bigSep_W0, bigSep_W0]
  simp only [before0_0, before0_1, before0_2, after0_3, show (dat0 V c).Φ t.succ = (dat0 V c).Φ t.castSucc from rfl,
    show (dat0 V c).owesAt () t.succ = (dat0 V c).owesAt () t.castSucc from rfl, show (dat0 V c).after 0 t = iblk0 V c 0 t from rfl,
    show (dat0 V c).after 1 t = iblk0 V c 1 t from rfl, show (dat0 V c).after 2 t = iblk0 V c 2 t from rfl]
  show _ ⊢ wp _ _ _ (bodyAt0 t) _
  iintro ⟨HΦ, Ho, ⟨%d0, H0⟩, ⟨%d1, H1⟩, ⟨%d2, H2⟩, ⟨%d3, H3⟩⟩
  iapply sound_kernel0 c (iblk0 V c 0 t) (iblk0 V c 1 t) (iblk0 V c 2 t) _
  isplitl [H3]; · iexists _; iexact H3
  iframe H0 H1 H2
  iintro H0 H1 H2 H3
  iframe

theorem phi_in0 (c : Dev nD) :
    (iprop((∃ r, prngReg c r) ∗ Pipeline.scopedRest (Ix := Unit) (Name := ℕ) (U := UR sig nD τ) (Lvl := ℕ) (Val := Elt F) spec0 c) : sProp 𝕄)
      ⊢ (dat0 V c).Φ 0 := sep_symm
theorem phi_out0 (c : Dev nD) :
    (dat0 V c).Φ (Fin.last cfg0.N)
      ⊢ (iprop((∃ r, prngReg c r) ∗ Pipeline.scopedRest (Ix := Unit) (Name := ℕ) (U := UR sig nD τ) (Lvl := ℕ) (Val := Elt F) spec0 c) : sProp 𝕄) := sep_symm

end Cert.Kernel.Hand

end
-- ==== Proof.K.Agg1.lean ====
import proofs.«419824_j13683765805591_3_alg».proof.Proof.Gen.Kernel.Launch
import proofs.«419824_j13683765805591_3_alg».proof.Proof.Gen.Kernel.Skeleton
import proofs.«419824_j13683765805591_3_alg».proof.Proof.Gen.Kernel.Points
import proofs.«419824_j13683765805591_3_alg».proof.Proof.FrameLib
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.FrameLib

variable {F : FTy → Type} [FloatOps F]

local notation "𝕄" => MT nD τ sig Unit (Elt F) ℕ (UR sig nD τ) ℕ

-- The reduction coordinate is 0: the sum restarts.
abbrev cond1_0 (i : grid1.Coords) : Prop := (Scalar.cmpi .ne (Scalar.extui (Scalar.cmpi .eq (BitVec.ofNat 32 (i 1).val) 0#32)) 0#32) = 1#1

theorem hcond1_0 : ∀ t : Fin grid1.N, cond1_0 (grid1.coords t) ↔ t.val % 5 = 0 := by decide +kernel

-- The reduction coordinate is 4: the sum is complete and the output is stored.
abbrev cond1_1 (i : grid1.Coords) : Prop := k1_cond2 i = 1#1

theorem hcond1_1 : ∀ t : Fin grid1.N, cond1_1 (grid1.coords t) ↔ t.val % 5 = 4 := by decide +kernel

theorem idleAt1_3 : ∀ t : Fin cfg1.N, ¬t.val % 5 = 4 → cfg1.idle 3 (grid1.coords t) = true := by decide +kernel
theorem liveAt1_3 : ∀ t : Fin cfg1.N, t.val % 5 = 4 → cfg1.idle 3 (grid1.coords t) = false := by decide +kernel

theorem noFlush1_3 (t : Fin cfg1.N) (h : ¬t.val % 5 = 4) : (cfg1.win 3).flush t = false :=
  Bool.eq_false_iff.mpr fun hf => h ((flush1_3 t).mp hf)

-- The product of one pair of blocks.
def mm1 (a : Vec F S2560x2048 .bf16) (h : Vec F S2048x256 .bf16) : Vec F S2560x256 .f32 :=
  matmul dot_S2560x2048_S2048x256_S2560x256_1_0_0_1_n_n none (shapeCast S2560x2048 a shapeCasts_S2560x2048_S2560x2048) (shapeCast S2048x256 h shapeCasts_S2048x256_S2048x256) (constant S2560x256 .f32 0x00000000#32)

-- What is stored from a completed sum and the bias.
def outv1 (acc : Vec F S2560x256 .f32) (b : Vec F S1x256 .f32) : Vec F S2560x256 .bf16 :=
  truncf .bf16
    (select (cmpf .ogt (addf acc (broadcastTo S2560x256 b broadcasts_S1x256_S2560x256)) (broadcast S2560x256 (Scalar.ofBits .f32 0x00000000#32)))
      (addf acc (broadcastTo S2560x256 b broadcasts_S1x256_S2560x256))
      (mulf (broadcast S2560x256 (Scalar.ofBits .f32 0x3DCCCCCD#32)) (addf acc (broadcastTo S2560x256 b broadcasts_S1x256_S2560x256))))
    bitsLt_bf16_f32

theorem outv1_eq (acc : Vec F S2560x256 .f32) (b : Vec F S1x256 .f32) :
    outv1 acc b = truncf .bf16
      (select (cmpf .ogt (addf acc (broadcastTo S2560x256 b broadcasts_S1x256_S2560x256)) (broadcast S2560x256 (Scalar.ofBits .f32 0x00000000#32)))
        (addf acc (broadcastTo S2560x256 b broadcasts_S1x256_S2560x256))
        (mulf (broadcast S2560x256 (Scalar.ofBits .f32 0x3DCCCCCD#32)) (addf acc (broadcastTo S2560x256 b broadcasts_S1x256_S2560x256))))
      bitsLt_bf16_f32 := rfl

theorem k1_pay1_eq : (k1_pay1 (F := F)) = broadcast S2560x256 (Scalar.ofBits .f32 0x00000000#32) := by
  unfold k1_pay1; exact shapeCast_self _ _

theorem k1_pay2_eq (a : Vec F S2560x2048 .bf16) (h : Vec F S2048x256 .bf16) (s : Vec F S2560x256 .f32) :
    k1_pay2 a h s = addf s (mm1 a h) := by
  unfold k1_pay2 mm1; exact shapeCast_self _ _

theorem k1_pay3_eq (acc : Vec F S2560x256 .f32) (b : Vec F S1x256 .f32) : k1_pay3 acc b = outv1 acc b := by
  unfold k1_pay3 outv1; rw [shapeCast_self]

variable (V : (c : Dev nD) → (b : Ref sig .tc) → Buf (Elt F) ((c : Thread nD τ).loc b)) (c : Dev nD)

def iblk1 (w : Fin cfg1.W) (t : Fin cfg1.N) : ((cfg1.win w).xblock (cfg1.grid.coords t)).Idx → Elt F (cfg1.win w).elt :=
  ((cfg1.win w).blk t).view.read (Elt F) (V c (Pipeline.arrRef spec1 w))

def accStep1 (n : ℕ) (s : Vec F S2560x256 .f32) : Vec F S2560x256 .f32 :=
  if h : n < cfg1.N then addf s (mm1 (iblk1 V c 0 ⟨n, h⟩) (iblk1 V c 1 ⟨n, h⟩)) else s

-- The partial sums along the grid, restarted at every fifth point.
def accN1 : ℕ → Vec F S2560x256 .f32 := accN (broadcast S2560x256 (Scalar.ofBits .f32 0x00000000#32)) (accStep1 V c)

def acc1 (t : Fin cfg1.N) : Vec F S2560x256 .f32 := accN1 V c t.val

theorem accN1_zero (n : ℕ) (hn : n < cfg1.N) (hk : n % 5 = 0) :
    accN1 V c n = addf (broadcast S2560x256 (Scalar.ofBits .f32 0x00000000#32)) (mm1 (iblk1 V c 0 ⟨n, hn⟩) (iblk1 V c 1 ⟨n, hn⟩)) := by
  rw [accN1, accN_zero _ _ hk, accStep1, dif_pos hn]

theorem accN1_succ (n : ℕ) (hn : n < cfg1.N) (hk : n % 5 ≠ 0) :
    accN1 V c n = addf (accN1 V c (n - 1)) (mm1 (iblk1 V c 0 ⟨n, hn⟩) (iblk1 V c 1 ⟨n, hn⟩)) := by
  rw [accN1, accN_succ _ _ hk, accStep1, dif_pos hn]

theorem acc1_zero (t : Fin cfg1.N) (hk : t.val % 5 = 0) :
    acc1 V c t = addf (broadcast S2560x256 (Scalar.ofBits .f32 0x00000000#32)) (mm1 (iblk1 V c 0 t) (iblk1 V c 1 t)) :=
  accN1_zero V c t.val t.isLt hk

theorem acc1_succ (t : Fin cfg1.N) (hk : t.val % 5 ≠ 0) :
    acc1 V c t = addf (acc1 V c ⟨t.val - 1, Nat.lt_of_le_of_lt (Nat.sub_le _ _) t.isLt⟩) (mm1 (iblk1 V c 0 t) (iblk1 V c 1 t)) :=
  accN1_succ V c t.val t.isLt hk

abbrev scM1 : Memref sig .tc .vmem S2560x256 .f32 := Memref.whole cc1_scratch0

-- Between points the accumulator holds the last partial sum, or anything where the sum is about to restart.
def Phi1 (n : ℕ) : sProp 𝕄 :=
  iprop(Pipeline.scopedRestBut (Ix := Unit) (Name := ℕ) (U := UR sig nD τ) (Lvl := ℕ) (Val := Elt F) spec1 c [cc1_scratch0]
    ∗ (∃ r, prngReg c r)
    ∗ (if n % 5 = 0 then iprop(∃ d, owns c scM1 fullShare d)
        else owns c scM1 fullShare (accN1 V c (n - 1))))

def dat1 : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outv1 (acc1 V c t) (iblk1 V c 2 t)
  Φ t := Phi1 V c t.val
  q _ := fullShare
  owed _ := 0

theorem A_eq1 (w : Fin cfg1.W) : (dat1 V c).A w = V c (Pipeline.arrRef spec1 w) := rfl
theorem q_eq1 (w : Fin cfg1.W) : (dat1 V c).q w = fullShare := rfl
theorem owed_eq1 (t : Fin (cfg1.N + 1)) : (dat1 V c).owed t = 0 := rfl

theorem after1_3 (t : Fin cfg1.N) : (dat1 V c).after 3 t = outv1 (acc1 V c t) (iblk1 V c 2 t) := rfl

theorem before1_0 (t : Fin cfg1.N) (d) : (dat1 V c).before 0 t d = iblk1 V c 0 t :=
  (dat1 V c).before_in_eq_fetched 0 rfl (fun _ => rfl) (fun _ _ _ => rfl) (fun _ => rfl) t d
theorem before1_1 (t : Fin cfg1.N) (d) : (dat1 V c).before 1 t d = iblk1 V c 1 t :=
  (dat1 V c).before_in_eq_fetched 1 rfl (fun _ => rfl) (fun _ _ _ => rfl) (fun _ => rfl) t d
theorem before1_2 (t : Fin cfg1.N) (d) : (dat1 V c).before 2 t d = iblk1 V c 2 t :=
  (dat1 V c).before_in_eq_fetched 2 rfl (fun _ => rfl) (fun _ _ _ => rfl) (fun _ => rfl) t d

section
variable (i : grid1.Coords) {arg2 : Memref sig .tc .vmem S2560x2048 .bf16} {harg2 : arg2.IsWhole} {arg3 : Memref sig .tc .vmem S2048x256 .bf16} {harg3 : arg3.IsWhole} {arg4 : Memref sig .tc .vmem S1x256 .f32} {harg4 : arg4.IsWhole} {arg5 : Memref sig .tc .vmem S2560x256 .bf16} {harg5 : arg5.IsWhole} {arg6 : Memref sig .tc .vmem S2560x256 .f32} {harg6 : arg6.IsWhole}
  (x0 : Vec F S2560x2048 .bf16) (x1 : Vec F S2048x256 .bf16)

-- The body where the output is not stored: the accumulator, reset first where the sum restarts, takes one more product.
set_option maxHeartbeats 1000000 in
theorem run1_AB (hc1 : ¬cond1_1 i) (s s' : Vec F S2560x256 .f32) (h : cond1_0 i ∧ s' = k1_pay1 ∨ ¬cond1_0 i ∧ s' = s) (E : Set ℕ) (K : PUnit → sProp 𝕄) :
    iprop(owns c arg2 fullShare x0 ∗ owns c arg3 fullShare x1 ∗ owns c arg6 fullShare s
        ∗ (iprop(owns c arg2 fullShare x0 ∗ owns c arg3 fullShare x1 ∗ owns c arg6 fullShare (k1_pay2 x0 x1 s')) -∗ K ⟨⟩))
      ⊢ wp frame (wpE (defs₀ (F := F)) Variants.none c none) E (cc1__agg_kernel i arg2 harg2 arg3 harg3 arg4 harg4 arg5 harg5 arg6 harg6) K := by
  simp only [cc1__agg_kernel_eq_skeleton]; unfold cc1__agg_kernel_skel
  rw [owns_unread c harg2, owns_unread c harg3]; unfold owns
  iintro ⟨H0, H1, ⟨%fs, %hfs, HS⟩, Hk⟩
  obtain rfl := harg6.eq_unread hfs
  rcases h with ⟨hc0, rfl⟩ | ⟨hc0, rfl⟩ <;>
  · sl_exec (disch := first | exact hc0 | exact hc1)
    sl_step
    iapply Hk
    iframe H0 H1
    iexists _; isplitr
    swap; · iexact HS
    ipureintro
    sl_unfold_run_names
    rw [read_writes_unit]
    simp only [View.readAt_eq_ld, harg2.read_unread, harg3.read_unread, harg6.read_unread, ld_unit, readCov_unit]

-- The body at the last step of a sum: the output takes the value computed from the completed sum.
set_option maxHeartbeats 1000000 in
theorem run1_C (hc0 : ¬cond1_0 i) (hc1 : cond1_1 i) (x2 : Vec F S1x256 .f32) (s : Vec F S2560x256 .f32) (E : Set ℕ) (K : PUnit → sProp 𝕄) :
    iprop(owns c arg2 fullShare x0 ∗ owns c arg3 fullShare x1 ∗ owns c arg4 fullShare x2 ∗ (∃ d, owns c arg5 fullShare d) ∗ owns c arg6 fullShare s
        ∗ (iprop(owns c arg2 fullShare x0 ∗ owns c arg3 fullShare x1 ∗ owns c arg4 fullShare x2 ∗ owns c arg5 fullShare (k1_pay3 (k1_pay2 x0 x1 s) x2) ∗ owns c arg6 fullShare (k1_pay2 x0 x1 s)) -∗ K ⟨⟩))
      ⊢ wp frame (wpE (defs₀ (F := F)) Variants.none c none) E (cc1__agg_kernel i arg2 harg2 arg3 harg3 arg4 harg4 arg5 harg5 arg6 harg6) K := by
  simp only [cc1__agg_kernel_eq_skeleton]; unfold cc1__agg_kernel_skel
  rw [owns_unread c harg2, owns_unread c harg3, owns_unread c harg4]; unfold owns
  iintro ⟨H0, H1, H2, ⟨%d5, %f5, -, H5⟩, ⟨%fs, %hfs, HS⟩, Hk⟩
  obtain rfl := harg6.eq_unread hfs
  sl_exec (disch := first | exact hc0 | exact hc1)
  sl_step
  iapply Hk
  iframe H0 H1 H2
  isplitl [H5]
  · iexists _; isplitr
    swap; · iexact H5
    ipureintro
    sl_unfold_run_names
    rw [read_writes_unit]
    simp only [View.readAt_eq_ld, harg2.read_unread, harg3.read_unread, harg4.read_unread, harg6.read_unread, ld_unit, readCov_unit]
  iexists _; isplitr
  swap; · iexact HS
  ipureintro
  sl_unfold_run_names
  rw [read_writes_unit]
  simp only [View.readAt_eq_ld, harg2.read_unread, harg3.read_unread, harg6.read_unread, ld_unit, readCov_unit]

end

abbrev ms1_0 (t : Fin cfg1.N) : Memref sig .tc .vmem S2560x2048 .bf16 := win1_0.stage (cfg1.slots t 0)
abbrev ms1_1 (t : Fin cfg1.N) : Memref sig .tc .vmem S2048x256 .bf16 := win1_1.stage (cfg1.slots t 1)
abbrev ms1_2 (t : Fin cfg1.N) : Memref sig .tc .vmem S1x256 .f32 := win1_2.stage (cfg1.slots t 2)
abbrev ms1_3 (t : Fin cfg1.N) : Memref sig .tc .vmem S2560x256 .bf16 := win1_3.stage (cfg1.slots t 3)

-- The body at any point, by its position mod 5: restart, middle, or last step.
set_option maxHeartbeats 4000000 in
theorem sound_body1 (t : Fin cfg1.N) :
    iprop(Phi1 V c t.val ∗ (dat1 V c).owesAt () t.castSucc
      ∗ (∃ d, owns c (ms1_0 t) fullShare ((dat1 V c).before 0 t d))
      ∗ (∃ d, owns c (ms1_1 t) fullShare ((dat1 V c).before 1 t d))
      ∗ (∃ d, owns c (ms1_2 t) fullShare ((dat1 V c).before 2 t d))
      ∗ (∃ d, owns c (ms1_3 t) fullShare ((dat1 V c).before 3 t d)))
      ⊢ wp frame (wpE (defs₀ (F := F)) Variants.none c none) Set.univ (bodyAt1 t) (fun _ => iprop(Phi1 V c (t.val + 1) ∗ (dat1 V c).owesAt () t.castSucc
          ∗ owns c (ms1_0 t) fullShare (iblk1 V c 0 t)
          ∗ owns c (ms1_1 t) fullShare (iblk1 V c 1 t)
          ∗ owns c (ms1_2 t) fullShare (iblk1 V c 2 t)
          ∗ (dat1 V c).leavesExact 3 t)) := by
  unfold bodyAt1
  simp only [before1_0, before1_1, before1_2]
  have hN : t.val < 20 := lt_of_lt_of_eq t.isLt (show cfg1.N = 20 from N_1)
  by_cases h0 : t.val % 5 = 0
  · have h4 : ¬t.val % 5 = 4 := by omega
    rw [Dat.leavesExact_idle (dat1 V c) 3 t (idleAt1_3 t h4) (noFlush1_3 t h4)]
    rw [Phi1, Phi1, if_pos h0, if_neg (by omega : ¬(t.val + 1) % 5 = 0), Nat.add_sub_cancel, accN1_zero V c t.val t.isLt h0,
      ← k1_pay1_eq, ← k1_pay2_eq]
    iintro ⟨⟨HR, Hg, ⟨%ds, HS⟩⟩, Ho, ⟨%d0, H0⟩, ⟨%d1, H1⟩, ⟨%d2, H2⟩, H3⟩
    iapply (run1_AB c (grid1.coords t) (iblk1 V c 0 t) (iblk1 V c 1 t) (fun h => h4 ((hcond1_1 t).mp h)) ds _ (.inl ⟨(hcond1_0 t).mpr h0, rfl⟩) Set.univ _)
    iframe H0 H1 HS
    iintro ⟨H0, H1, HS⟩
    iframe
  · by_cases h4 : t.val % 5 = 4
    · rw [show (dat1 V c).leavesExact 3 t = owns c (ms1_3 t) fullShare (outv1 (acc1 V c t) (iblk1 V c 2 t)) from leavesExact_live _ 3 t (liveAt1_3 t h4)]
      rw [Phi1, Phi1, if_neg h0, if_pos (by omega : (t.val + 1) % 5 = 0), acc1, accN1_succ V c t.val t.isLt h0,
        ← k1_pay2_eq, ← k1_pay3_eq]
      iintro ⟨⟨HR, Hg, HS⟩, Ho, ⟨%d0, H0⟩, ⟨%d1, H1⟩, ⟨%d2, H2⟩, ⟨%d3, H3⟩⟩
      iapply (run1_C c (grid1.coords t) (iblk1 V c 0 t) (iblk1 V c 1 t) (fun h => h0 ((hcond1_0 t).mp h)) ((hcond1_1 t).mpr h4) (iblk1 V c 2 t) (accN1 V c (t.val - 1)) Set.univ _)
      iframe H0 H1 H2 HS
      isplitl [H3]; · iexists _; iexact H3
      iintro ⟨H0, H1, H2, H3, HS⟩
      iframe HR Hg Ho H0 H1 H2 H3
      iexists _; iexact HS
    · rw [Dat.leavesExact_idle (dat1 V c) 3 t (idleAt1_3 t h4) (noFlush1_3 t h4)]
      rw [Phi1, Phi1, if_neg h0, if_neg (by omega : ¬(t.val + 1) % 5 = 0), Nat.add_sub_cancel, accN1_succ V c t.val t.isLt h0,
        ← k1_pay2_eq]
      iintro ⟨⟨HR, Hg, HS⟩, Ho, ⟨%d0, H0⟩, ⟨%d1, H1⟩, ⟨%d2, H2⟩, H3⟩
      iapply (run1_AB c (grid1.coords t) (iblk1 V c 0 t) (iblk1 V c 1 t) (fun h => h4 ((hcond1_1 t).mp h)) (accN1 V c (t.val - 1)) _ (.inr ⟨fun h => h0 ((hcond1_0 t).mp h), rfl⟩) Set.univ _)
      iframe H0 H1 HS
      iintro ⟨H0, H1, HS⟩
      iframe

theorem body_obligation1 : BodyObligation (dat1 (F := F) V c) (defs₀ (F := F)) Variants.none () Set.univ := fun t => by
  rw [bigSep_W1, bigSep_W1]
  exact sound_body1 V c t

-- The sum restarts at the first point, so the invariant asks nothing of the accumulator there,
theorem phi_in1 :
    (iprop((∃ r, prngReg c r) ∗ Pipeline.scopedRest (Ix := Unit) (Name := ℕ) (U := UR sig nD τ) (Lvl := ℕ) (Val := Elt F) spec1 c) : sProp 𝕄)
      ⊢ (dat1 V c).Φ 0 := by
  rw [show (dat1 V c).Φ 0 = Phi1 V c 0 from rfl, Phi1, if_pos (Nat.zero_mod 5), scopedRest1_split]
  simp only [scM1, owns_whole]
  iintro ⟨Hg, HS, HR⟩
  iframe

-- and it restarts after the last point, so nothing is left to give back.
theorem phi_out1 :
    (dat1 V c).Φ (Fin.last cfg1.N)
      ⊢ (iprop((∃ r, prngReg c r) ∗ Pipeline.scopedRest (Ix := Unit) (Name := ℕ) (U := UR sig nD τ) (Lvl := ℕ) (Val := Elt F) spec1 c) : sProp 𝕄) := by
  rw [show (dat1 V c).Φ (Fin.last cfg1.N) = Phi1 V c 20 from rfl, Phi1, if_pos (by decide : 20 % 5 = 0), scopedRest1_split]
  simp only [scM1, owns_whole]
  iintro ⟨HR, Hg, HS⟩
  iframe

end Cert.Kernel.Hand

end
-- ==== Proof.K.Lin2.lean ====
import proofs.«419824_j13683765805591_3_alg».proof.Proof.Gen.Kernel.Launch
import proofs.«419824_j13683765805591_3_alg».proof.Proof.Gen.Kernel.Skeleton
import proofs.«419824_j13683765805591_3_alg».proof.Proof.Gen.Kernel.Points
import proofs.«419824_j13683765805591_3_alg».proof.Proof.FrameLib
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.Kernel Cert.Kernel.Gen Cert.FrameLib

variable {F : FTy → Type} [FloatOps F]

local notation "𝕄" => MT nD τ sig Unit (Elt F) ℕ (UR sig nD τ) ℕ

abbrev r2_0 : Rect S2560x256 := Rect.unit (s := S2560x256) ![0, 0] S2560x256.size inb_S2560x256_S2560x256_0_0
abbrev r2_1 : Rect S256x128 := Rect.unit (s := S256x128) ![0, 0] S256x128.size inb_S256x128_S256x128_0_0
abbrev r2_2 : Rect S1x128 := Rect.unit (s := S1x128) ![0, 0] S1x128.size inb_S1x128_S1x128_0_0
abbrev r2_3 : Rect S2560x128 := Rect.unit (s := S2560x128) ![0, 0] S2560x128.size inb_S2560x128_S2560x128_0_0

def out2_3 (x0 : Vec F S2560x256 .bf16) (x1 : Vec F S256x128 .bf16) (x2 : Vec F S1x128 .f32) : Vec F S2560x128 .f32 :=
  View.canon [⟨r2_3, k2_pay1 (View.ld x0 r2_0) (View.ld x1 r2_1) (View.ld x2 r2_2)⟩]

-- a load through the whole buffer reads its contents, and one store through it leaves its payload
theorem out2_3_eq (x0 : Vec F S2560x256 .bf16) (x1 : Vec F S256x128 .bf16) (x2 : Vec F S1x128 .f32) :
    out2_3 x0 x1 x2 = addf (matmul dot_S2560x256_S256x128_S2560x128_1_0_0_1_n_n none (shapeCast S2560x256 x0 shapeCasts_S2560x256_S2560x256) (shapeCast S256x128 x1 shapeCasts_S256x128_S256x128) (constant S2560x128 .f32 0x00000000#32)) (broadcastTo S2560x128 (shapeCast S1x128 x2 shapeCasts_S1x128_S1x128) broadcasts_S1x128_S2560x128) := by
  unfold out2_3
  rw [View.canon_unit_zero hz2, ld_unit, ld_unit, ld_unit]
  rfl

-- the body reads the three inputs whole and stores once through the whole output, so the output ends at out2_3 of the inputs
theorem sound_kernel2 (c : Dev nD) {i arg1 harg1 arg2 harg2 arg3 harg3 arg4 harg4} (x0 x1 x2) (K : PUnit → sProp 𝕄) :
    iprop((∃ d, owns c.tc arg4 fullShare d) ∗ owns c.tc arg1 fullShare x0 ∗ owns c.tc arg2 fullShare x1 ∗ owns c.tc arg3 fullShare x2
        ∗ (owns c.tc arg1 fullShare x0 -∗ owns c.tc arg2 fullShare x1 -∗ owns c.tc arg3 fullShare x2
            -∗ owns c.tc arg4 fullShare (out2_3 x0 x1 x2) -∗ K ⟨⟩))
      ⊢ wp frame (wpE (defs₀ (F := F)) Variants.none c none) Set.univ (cc2__linear_kernel i arg1 harg1 arg2 harg2 arg3 harg3 arg4 harg4) K := by
  simp only [cc2__linear_kernel_eq_skeleton]; unfold cc2__linear_kernel_skel owns
  iintro ⟨⟨%d3, %f3, -, H3⟩, ⟨%f0, %hf0, H0⟩, ⟨%f1, %hf1, H1⟩, ⟨%f2, %hf2, H2⟩, Hk⟩
  subst hf0 hf1 hf2
  sl_exec
  sl_step
  iapply Hk $$ [H0] [H1] [H2] [H3] <;> (iexists _; isplitr; swap; iassumption; ipureintro)
  · rfl
  · rfl
  · rfl
  exact View.read_writes_eq_canon _ _ _ fun y => ⟨_, List.mem_singleton_self _, View.mem_set_unit_zero hz2 inb_S2560x128_S2560x128_0_0 y⟩

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := rfl
theorem q_eq2 (c : Dev nD) (w : Fin cfg2.W) : (dat2 V c).q w = fullShare := rfl
theorem owed_eq2 (c : Dev nD) (t : Fin (cfg2.N + 1)) : (dat2 V c).owed t = 0 := rfl
theorem after2_3 (c : Dev nD) (t : Fin cfg2.N) : (dat2 V c).after 3 t = out2_3 (iblk2 V c 0 t) (iblk2 V c 1 t) (iblk2 V c 2 t) := by dsimp only [dat2]

theorem before2_0 (c t d) : (dat2 V c).before 0 t d = iblk2 V c 0 t :=
  (dat2 V c).before_in_eq_fetched 0 rfl (fun _ => rfl) (fun _ _ _ => rfl) (fun _ => rfl) t d
theorem before2_1 (c t d) : (dat2 V c).before 1 t d = iblk2 V c 1 t :=
  (dat2 V c).before_in_eq_fetched 1 rfl (fun _ => rfl) (fun _ _ _ => rfl) (fun _ => rfl) t d
theorem before2_2 (c t d) : (dat2 V c).before 2 t d = iblk2 V c 2 t :=
  (dat2 V c).before_in_eq_fetched 2 rfl (fun _ => rfl) (fun _ _ _ => rfl) (fun _ => rfl) t d

-- the inputs are at their blocks, so the kernel's triple applies; the invariant and what is owed pass through
theorem body_obligation2 (c : Dev nD) : BodyObligation (dat2 (F := F) V c) (defs₀ (F := F)) Variants.none () Set.univ := fun t => by
  rw [bigSep_W2, bigSep_W2]
  simp only [before2_0, before2_1, before2_2, after2_3, show (dat2 V c).Φ t.succ = (dat2 V c).Φ t.castSucc from rfl,
    show (dat2 V c).owesAt () t.succ = (dat2 V c).owesAt () t.castSucc from rfl, show (dat2 V c).after 0 t = iblk2 V c 0 t from rfl,
    show (dat2 V c).after 1 t = iblk2 V c 1 t from rfl, show (dat2 V c).after 2 t = iblk2 V c 2 t from rfl]
  show _ ⊢ wp _ _ _ (bodyAt2 t) _
  iintro ⟨HΦ, Ho, ⟨%d0, H0⟩, ⟨%d1, H1⟩, ⟨%d2, H2⟩, ⟨%d3, H3⟩⟩
  iapply sound_kernel2 c (iblk2 V c 0 t) (iblk2 V c 1 t) (iblk2 V c 2 t) _
  isplitl [H3]; · iexists _; iexact H3
  iframe H0 H1 H2
  iintro H0 H1 H2 H3
  iframe

theorem phi_in2 (c : Dev nD) :
    (iprop((∃ r, prngReg c r) ∗ Pipeline.scopedRest (Ix := Unit) (Name := ℕ) (U := UR sig nD τ) (Lvl := ℕ) (Val := Elt F) spec2 c) : sProp 𝕄)
      ⊢ (dat2 V c).Φ 0 := sep_symm
theorem phi_out2 (c : Dev nD) :
    (dat2 V c).Φ (Fin.last cfg2.N)
      ⊢ (iprop((∃ r, prngReg c r) ∗ Pipeline.scopedRest (Ix := Unit) (Name := ℕ) (U := UR sig nD τ) (Lvl := ℕ) (Val := Elt F) spec2 c) : sProp 𝕄) := sep_symm

end Cert.Kernel.Hand

end
-- ==== Proof.K.Agg3.lean ====
import proofs.«419824_j13683765805591_3_alg».proof.Proof.Gen.Kernel.Launch
import proofs.«419824_j13683765805591_3_alg».proof.Proof.Gen.Kernel.Skeleton
import proofs.«419824_j13683765805591_3_alg».proof.Proof.Gen.Kernel.Points
import proofs.«419824_j13683765805591_3_alg».proof.Proof.FrameLib
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.FrameLib

variable {F : FTy → Type} [FloatOps F]

local notation "𝕄" => MT nD τ sig Unit (Elt F) ℕ (UR sig nD τ) ℕ

-- The reduction coordinate is 0: the sum restarts.
abbrev cond3_0 (i : grid3.Coords) : Prop := (Scalar.cmpi .ne (Scalar.extui (Scalar.cmpi .eq (BitVec.ofNat 32 (i 1).val) 0#32)) 0#32) = 1#1

theorem hcond3_0 : ∀ t : Fin grid3.N, cond3_0 (grid3.coords t) ↔ t.val % 5 = 0 := by decide +kernel

-- The reduction coordinate is 4: the sum is complete and the output is stored.
abbrev cond3_1 (i : grid3.Coords) : Prop := k3_cond2 i = 1#1

theorem hcond3_1 : ∀ t : Fin grid3.N, cond3_1 (grid3.coords t) ↔ t.val % 5 = 4 := by decide +kernel

theorem idleAt3_3 : ∀ t : Fin cfg3.N, ¬t.val % 5 = 4 → cfg3.idle 3 (grid3.coords t) = true := by decide +kernel
theorem liveAt3_3 : ∀ t : Fin cfg3.N, t.val % 5 = 4 → cfg3.idle 3 (grid3.coords t) = false := by decide +kernel

theorem noFlush3_3 (t : Fin cfg3.N) (h : ¬t.val % 5 = 4) : (cfg3.win 3).flush t = false :=
  Bool.eq_false_iff.mpr fun hf => h ((flush3_3 t).mp hf)

-- The product of one pair of blocks.
def mm3 (a : Vec F S2560x2048 .bf16) (h : Vec F S2048x128 .f32) : Vec F S2560x128 .f32 :=
  matmul dot_S2560x2048_S2048x128_S2560x128_1_0_0_1_n_n none (shapeCast S2560x2048 a shapeCasts_S2560x2048_S2560x2048) (truncf .bf16 (shapeCast S2048x128 h shapeCasts_S2048x128_S2048x128) bitsLt_bf16_f32) (constant S2560x128 .f32 0x00000000#32)

-- What is stored from a completed sum and the bias.
def outv3 (acc : Vec F S2560x128 .f32) (b : Vec F S1x128 .f32) : Vec F S2560x128 .f32 :=
  select (cmpf .ogt (addf acc (broadcastTo S2560x128 b broadcasts_S1x128_S2560x128)) (broadcast S2560x128 (Scalar.ofBits .f32 0x00000000#32)))
    (addf acc (broadcastTo S2560x128 b broadcasts_S1x128_S2560x128))
    (mulf (broadcast S2560x128 (Scalar.ofBits .f32 0x3DCCCCCD#32)) (addf acc (broadcastTo S2560x128 b broadcasts_S1x128_S2560x128)))

theorem outv3_eq (acc : Vec F S2560x128 .f32) (b : Vec F S1x128 .f32) :
    outv3 acc b = select (cmpf .ogt (addf acc (broadcastTo S2560x128 b broadcasts_S1x128_S2560x128)) (broadcast S2560x128 (Scalar.ofBits .f32 0x00000000#32)))
      (addf acc (broadcastTo S2560x128 b broadcasts_S1x128_S2560x128))
      (mulf (broadcast S2560x128 (Scalar.ofBits .f32 0x3DCCCCCD#32)) (addf acc (broadcastTo S2560x128 b broadcasts_S1x128_S2560x128))) := rfl

theorem k3_pay1_eq : (k3_pay1 (F := F)) = broadcast S2560x128 (Scalar.ofBits .f32 0x00000000#32) := by
  unfold k3_pay1; exact shapeCast_self _ _

theorem k3_pay2_eq (a : Vec F S2560x2048 .bf16) (h : Vec F S2048x128 .f32) (s : Vec F S2560x128 .f32) :
    k3_pay2 a h s = addf s (mm3 a h) := by
  unfold k3_pay2 mm3; exact shapeCast_self _ _

theorem k3_pay3_eq (acc : Vec F S2560x128 .f32) (b : Vec F S1x128 .f32) : k3_pay3 acc b = outv3 acc b := by
  unfold k3_pay3 outv3; rw [shapeCast_self]

variable (V : (c : Dev nD) → (b : Ref sig .tc) → Buf (Elt F) ((c : Thread nD τ).loc b)) (c : Dev nD)

def iblk3 (w : Fin cfg3.W) (t : Fin cfg3.N) : ((cfg3.win w).xblock (cfg3.grid.coords t)).Idx → Elt F (cfg3.win w).elt :=
  ((cfg3.win w).blk t).view.read (Elt F) (V c (Pipeline.arrRef spec3 w))

def accStep3 (n : ℕ) (s : Vec F S2560x128 .f32) : Vec F S2560x128 .f32 :=
  if h : n < cfg3.N then addf s (mm3 (iblk3 V c 0 ⟨n, h⟩) (iblk3 V c 1 ⟨n, h⟩)) else s

-- The partial sums along the grid, restarted at every fifth point.
def accN3 : ℕ → Vec F S2560x128 .f32 := accN (broadcast S2560x128 (Scalar.ofBits .f32 0x00000000#32)) (accStep3 V c)

def acc3 (t : Fin cfg3.N) : Vec F S2560x128 .f32 := accN3 V c t.val

theorem accN3_zero (n : ℕ) (hn : n < cfg3.N) (hk : n % 5 = 0) :
    accN3 V c n = addf (broadcast S2560x128 (Scalar.ofBits .f32 0x00000000#32)) (mm3 (iblk3 V c 0 ⟨n, hn⟩) (iblk3 V c 1 ⟨n, hn⟩)) := by
  rw [accN3, accN_zero _ _ hk, accStep3, dif_pos hn]

theorem accN3_succ (n : ℕ) (hn : n < cfg3.N) (hk : n % 5 ≠ 0) :
    accN3 V c n = addf (accN3 V c (n - 1)) (mm3 (iblk3 V c 0 ⟨n, hn⟩) (iblk3 V c 1 ⟨n, hn⟩)) := by
  rw [accN3, accN_succ _ _ hk, accStep3, dif_pos hn]

theorem acc3_zero (t : Fin cfg3.N) (hk : t.val % 5 = 0) :
    acc3 V c t = addf (broadcast S2560x128 (Scalar.ofBits .f32 0x00000000#32)) (mm3 (iblk3 V c 0 t) (iblk3 V c 1 t)) :=
  accN3_zero V c t.val t.isLt hk

theorem acc3_succ (t : Fin cfg3.N) (hk : t.val % 5 ≠ 0) :
    acc3 V c t = addf (acc3 V c ⟨t.val - 1, Nat.lt_of_le_of_lt (Nat.sub_le _ _) t.isLt⟩) (mm3 (iblk3 V c 0 t) (iblk3 V c 1 t)) :=
  accN3_succ V c t.val t.isLt hk

abbrev scM3 : Memref sig .tc .vmem S2560x128 .f32 := Memref.whole cc3_scratch0

-- Between points the accumulator holds the last partial sum, or anything where the sum is about to restart.
def Phi3 (n : ℕ) : sProp 𝕄 :=
  iprop(Pipeline.scopedRestBut (Ix := Unit) (Name := ℕ) (U := UR sig nD τ) (Lvl := ℕ) (Val := Elt F) spec3 c [cc3_scratch0]
    ∗ (∃ r, prngReg c r)
    ∗ (if n % 5 = 0 then iprop(∃ d, owns c scM3 fullShare d)
        else owns c scM3 fullShare (accN3 V c (n - 1))))

def dat3 : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => outv3 (acc3 V c t) (iblk3 V c 2 t)
  Φ t := Phi3 V c t.val
  q _ := fullShare
  owed _ := 0

theorem A_eq3 (w : Fin cfg3.W) : (dat3 V c).A w = V c (Pipeline.arrRef spec3 w) := rfl
theorem q_eq3 (w : Fin cfg3.W) : (dat3 V c).q w = fullShare := rfl
theorem owed_eq3 (t : Fin (cfg3.N + 1)) : (dat3 V c).owed t = 0 := rfl

theorem after3_3 (t : Fin cfg3.N) : (dat3 V c).after 3 t = outv3 (acc3 V c t) (iblk3 V c 2 t) := rfl

theorem before3_0 (t : Fin cfg3.N) (d) : (dat3 V c).before 0 t d = iblk3 V c 0 t :=
  (dat3 V c).before_in_eq_fetched 0 rfl (fun _ => rfl) (fun _ _ _ => rfl) (fun _ => rfl) t d
theorem before3_1 (t : Fin cfg3.N) (d) : (dat3 V c).before 1 t d = iblk3 V c 1 t :=
  (dat3 V c).before_in_eq_fetched 1 rfl (fun _ => rfl) (fun _ _ _ => rfl) (fun _ => rfl) t d
theorem before3_2 (t : Fin cfg3.N) (d) : (dat3 V c).before 2 t d = iblk3 V c 2 t :=
  (dat3 V c).before_in_eq_fetched 2 rfl (fun _ => rfl) (fun _ _ _ => rfl) (fun _ => rfl) t d

section
variable (i : grid3.Coords) {arg2 : Memref sig .tc .vmem S2560x2048 .bf16} {harg2 : arg2.IsWhole} {arg3 : Memref sig .tc .vmem S2048x128 .f32} {harg3 : arg3.IsWhole} {arg4 : Memref sig .tc .vmem S1x128 .f32} {harg4 : arg4.IsWhole} {arg5 : Memref sig .tc .vmem S2560x128 .f32} {harg5 : arg5.IsWhole} {arg6 : Memref sig .tc .vmem S2560x128 .f32} {harg6 : arg6.IsWhole}
  (x0 : Vec F S2560x2048 .bf16) (x1 : Vec F S2048x128 .f32)

-- The body where the output is not stored: the accumulator, reset first where the sum restarts, takes one more product.
set_option maxHeartbeats 1000000 in
theorem run3_AB (hc1 : ¬cond3_1 i) (s s' : Vec F S2560x128 .f32) (h : cond3_0 i ∧ s' = k3_pay1 ∨ ¬cond3_0 i ∧ s' = s) (E : Set ℕ) (K : PUnit → sProp 𝕄) :
    iprop(owns c arg2 fullShare x0 ∗ owns c arg3 fullShare x1 ∗ owns c arg6 fullShare s
        ∗ (iprop(owns c arg2 fullShare x0 ∗ owns c arg3 fullShare x1 ∗ owns c arg6 fullShare (k3_pay2 x0 x1 s')) -∗ K ⟨⟩))
      ⊢ wp frame (wpE (defs₀ (F := F)) Variants.none c none) E (cc3__agg_kernel i arg2 harg2 arg3 harg3 arg4 harg4 arg5 harg5 arg6 harg6) K := by
  simp only [cc3__agg_kernel_eq_skeleton]; unfold cc3__agg_kernel_skel
  rw [owns_unread c harg2, owns_unread c harg3]; unfold owns
  iintro ⟨H0, H1, ⟨%fs, %hfs, HS⟩, Hk⟩
  obtain rfl := harg6.eq_unread hfs
  rcases h with ⟨hc0, rfl⟩ | ⟨hc0, rfl⟩ <;>
  · sl_exec (disch := first | exact hc0 | exact hc1)
    sl_step
    iapply Hk
    iframe H0 H1
    iexists _; isplitr
    swap; · iexact HS
    ipureintro
    sl_unfold_run_names
    rw [read_writes_unit]
    simp only [View.readAt_eq_ld, harg2.read_unread, harg3.read_unread, harg6.read_unread, ld_unit, readCov_unit]

-- The body at the last step of a sum: the output takes the value computed from the completed sum.
set_option maxHeartbeats 1000000 in
theorem run3_C (hc0 : ¬cond3_0 i) (hc1 : cond3_1 i) (x2 : Vec F S1x128 .f32) (s : Vec F S2560x128 .f32) (E : Set ℕ) (K : PUnit → sProp 𝕄) :
    iprop(owns c arg2 fullShare x0 ∗ owns c arg3 fullShare x1 ∗ owns c arg4 fullShare x2 ∗ (∃ d, owns c arg5 fullShare d) ∗ owns c arg6 fullShare s
        ∗ (iprop(owns c arg2 fullShare x0 ∗ owns c arg3 fullShare x1 ∗ owns c arg4 fullShare x2 ∗ owns c arg5 fullShare (k3_pay3 (k3_pay2 x0 x1 s) x2) ∗ owns c arg6 fullShare (k3_pay2 x0 x1 s)) -∗ K ⟨⟩))
      ⊢ wp frame (wpE (defs₀ (F := F)) Variants.none c none) E (cc3__agg_kernel i arg2 harg2 arg3 harg3 arg4 harg4 arg5 harg5 arg6 harg6) K := by
  simp only [cc3__agg_kernel_eq_skeleton]; unfold cc3__agg_kernel_skel
  rw [owns_unread c harg2, owns_unread c harg3, owns_unread c harg4]; unfold owns
  iintro ⟨H0, H1, H2, ⟨%d5, %f5, -, H5⟩, ⟨%fs, %hfs, HS⟩, Hk⟩
  obtain rfl := harg6.eq_unread hfs
  sl_exec (disch := first | exact hc0 | exact hc1)
  sl_step
  iapply Hk
  iframe H0 H1 H2
  isplitl [H5]
  · iexists _; isplitr
    swap; · iexact H5
    ipureintro
    sl_unfold_run_names
    rw [read_writes_unit]
    simp only [View.readAt_eq_ld, harg2.read_unread, harg3.read_unread, harg4.read_unread, harg6.read_unread, ld_unit, readCov_unit]
  iexists _; isplitr
  swap; · iexact HS
  ipureintro
  sl_unfold_run_names
  rw [read_writes_unit]
  simp only [View.readAt_eq_ld, harg2.read_unread, harg3.read_unread, harg6.read_unread, ld_unit, readCov_unit]

end

abbrev ms3_0 (t : Fin cfg3.N) : Memref sig .tc .vmem S2560x2048 .bf16 := win3_0.stage (cfg3.slots t 0)
abbrev ms3_1 (t : Fin cfg3.N) : Memref sig .tc .vmem S2048x128 .f32 := win3_1.stage (cfg3.slots t 1)
abbrev ms3_2 (t : Fin cfg3.N) : Memref sig .tc .vmem S1x128 .f32 := win3_2.stage (cfg3.slots t 2)
abbrev ms3_3 (t : Fin cfg3.N) : Memref sig .tc .vmem S2560x128 .f32 := win3_3.stage (cfg3.slots t 3)

-- The body at any point, by its position mod 5: restart, middle, or last step.
set_option maxHeartbeats 4000000 in
theorem sound_body3 (t : Fin cfg3.N) :
    iprop(Phi3 V c t.val ∗ (dat3 V c).owesAt () t.castSucc
      ∗ (∃ d, owns c (ms3_0 t) fullShare ((dat3 V c).before 0 t d))
      ∗ (∃ d, owns c (ms3_1 t) fullShare ((dat3 V c).before 1 t d))
      ∗ (∃ d, owns c (ms3_2 t) fullShare ((dat3 V c).before 2 t d))
      ∗ (∃ d, owns c (ms3_3 t) fullShare ((dat3 V c).before 3 t d)))
      ⊢ wp frame (wpE (defs₀ (F := F)) Variants.none c none) Set.univ (bodyAt3 t) (fun _ => iprop(Phi3 V c (t.val + 1) ∗ (dat3 V c).owesAt () t.castSucc
          ∗ owns c (ms3_0 t) fullShare (iblk3 V c 0 t)
          ∗ owns c (ms3_1 t) fullShare (iblk3 V c 1 t)
          ∗ owns c (ms3_2 t) fullShare (iblk3 V c 2 t)
          ∗ (dat3 V c).leavesExact 3 t)) := by
  unfold bodyAt3
  simp only [before3_0, before3_1, before3_2]
  have hN : t.val < 20 := lt_of_lt_of_eq t.isLt (show cfg3.N = 20 from N_3)
  by_cases h0 : t.val % 5 = 0
  · have h4 : ¬t.val % 5 = 4 := by omega
    rw [Dat.leavesExact_idle (dat3 V c) 3 t (idleAt3_3 t h4) (noFlush3_3 t h4)]
    rw [Phi3, Phi3, if_pos h0, if_neg (by omega : ¬(t.val + 1) % 5 = 0), Nat.add_sub_cancel, accN3_zero V c t.val t.isLt h0,
      ← k3_pay1_eq, ← k3_pay2_eq]
    iintro ⟨⟨HR, Hg, ⟨%ds, HS⟩⟩, Ho, ⟨%d0, H0⟩, ⟨%d1, H1⟩, ⟨%d2, H2⟩, H3⟩
    iapply (run3_AB c (grid3.coords t) (iblk3 V c 0 t) (iblk3 V c 1 t) (fun h => h4 ((hcond3_1 t).mp h)) ds _ (.inl ⟨(hcond3_0 t).mpr h0, rfl⟩) Set.univ _)
    iframe H0 H1 HS
    iintro ⟨H0, H1, HS⟩
    iframe
  · by_cases h4 : t.val % 5 = 4
    · rw [show (dat3 V c).leavesExact 3 t = owns c (ms3_3 t) fullShare (outv3 (acc3 V c t) (iblk3 V c 2 t)) from leavesExact_live _ 3 t (liveAt3_3 t h4)]
      rw [Phi3, Phi3, if_neg h0, if_pos (by omega : (t.val + 1) % 5 = 0), acc3, accN3_succ V c t.val t.isLt h0,
        ← k3_pay2_eq, ← k3_pay3_eq]
      iintro ⟨⟨HR, Hg, HS⟩, Ho, ⟨%d0, H0⟩, ⟨%d1, H1⟩, ⟨%d2, H2⟩, ⟨%d3, H3⟩⟩
      iapply (run3_C c (grid3.coords t) (iblk3 V c 0 t) (iblk3 V c 1 t) (fun h => h0 ((hcond3_0 t).mp h)) ((hcond3_1 t).mpr h4) (iblk3 V c 2 t) (accN3 V c (t.val - 1)) Set.univ _)
      iframe H0 H1 H2 HS
      isplitl [H3]; · iexists _; iexact H3
      iintro ⟨H0, H1, H2, H3, HS⟩
      iframe HR Hg Ho H0 H1 H2 H3
      iexists _; iexact HS
    · rw [Dat.leavesExact_idle (dat3 V c) 3 t (idleAt3_3 t h4) (noFlush3_3 t h4)]
      rw [Phi3, Phi3, if_neg h0, if_neg (by omega : ¬(t.val + 1) % 5 = 0), Nat.add_sub_cancel, accN3_succ V c t.val t.isLt h0,
        ← k3_pay2_eq]
      iintro ⟨⟨HR, Hg, HS⟩, Ho, ⟨%d0, H0⟩, ⟨%d1, H1⟩, ⟨%d2, H2⟩, H3⟩
      iapply (run3_AB c (grid3.coords t) (iblk3 V c 0 t) (iblk3 V c 1 t) (fun h => h4 ((hcond3_1 t).mp h)) (accN3 V c (t.val - 1)) _ (.inr ⟨fun h => h0 ((hcond3_0 t).mp h), rfl⟩) Set.univ _)
      iframe H0 H1 HS
      iintro ⟨H0, H1, HS⟩
      iframe

theorem body_obligation3 : BodyObligation (dat3 (F := F) V c) (defs₀ (F := F)) Variants.none () Set.univ := fun t => by
  rw [bigSep_W3, bigSep_W3]
  exact sound_body3 V c t

-- The sum restarts at the first point, so the invariant asks nothing of the accumulator there,
theorem phi_in3 :
    (iprop((∃ r, prngReg c r) ∗ Pipeline.scopedRest (Ix := Unit) (Name := ℕ) (U := UR sig nD τ) (Lvl := ℕ) (Val := Elt F) spec3 c) : sProp 𝕄)
      ⊢ (dat3 V c).Φ 0 := by
  rw [show (dat3 V c).Φ 0 = Phi3 V c 0 from rfl, Phi3, if_pos (Nat.zero_mod 5), scopedRest3_split]
  simp only [scM3, owns_whole]
  iintro ⟨Hg, HS, HR⟩
  iframe

-- and it restarts after the last point, so nothing is left to give back.
theorem phi_out3 :
    (dat3 V c).Φ (Fin.last cfg3.N)
      ⊢ (iprop((∃ r, prngReg c r) ∗ Pipeline.scopedRest (Ix := Unit) (Name := ℕ) (U := UR sig nD τ) (Lvl := ℕ) (Val := Elt F) spec3 c) : sProp 𝕄) := by
  rw [show (dat3 V c).Φ (Fin.last cfg3.N) = Phi3 V c 20 from rfl, Phi3, if_pos (by decide : 20 % 5 = 0), scopedRest3_split]
  simp only [scM3, owns_whole]
  iintro ⟨HR, Hg, HS⟩
  iframe

end Cert.Kernel.Hand

end
-- ==== Proof.K.Lin4.lean ====
import proofs.«419824_j13683765805591_3_alg».proof.Proof.Gen.Kernel.Launch
import proofs.«419824_j13683765805591_3_alg».proof.Proof.Gen.Kernel.Skeleton
import proofs.«419824_j13683765805591_3_alg».proof.Proof.Gen.Kernel.Points
import proofs.«419824_j13683765805591_3_alg».proof.Proof.FrameLib
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.Kernel Cert.Kernel.Gen Cert.FrameLib

variable {F : FTy → Type} [FloatOps F]

local notation "𝕄" => MT nD τ sig Unit (Elt F) ℕ (UR sig nD τ) ℕ

abbrev r4_0 : Rect S2560x128 := Rect.unit (s := S2560x128) ![0, 0] S2560x128.size inb_S2560x128_S2560x128_0_0
abbrev r4_1 : Rect S128x128 := Rect.unit (s := S128x128) ![0, 0] S128x128.size inb_S128x128_S128x128_0_0
abbrev r4_2 : Rect S1x128 := Rect.unit (s := S1x128) ![0, 0] S1x128.size inb_S1x128_S1x128_0_0
abbrev r4_3 : Rect S2560x128 := Rect.unit (s := S2560x128) ![0, 0] S2560x128.size inb_S2560x128_S2560x128_0_0

def out4_3 (x0 : Vec F S2560x128 .f32) (x1 : Vec F S128x128 .bf16) (x2 : Vec F S1x128 .f32) : Vec F S2560x128 .f32 :=
  View.canon [⟨r4_3, k4_pay1 (View.ld x0 r4_0) (View.ld x1 r4_1) (View.ld x2 r4_2)⟩]

-- a load through the whole buffer reads its contents, and one store through it leaves its payload
theorem out4_3_eq (x0 : Vec F S2560x128 .f32) (x1 : Vec F S128x128 .bf16) (x2 : Vec F S1x128 .f32) :
    out4_3 x0 x1 x2 = addf (matmul dot_S2560x128_S128x128_S2560x128_1_0_0_1_n_n none (truncf .bf16 (shapeCast S2560x128 x0 shapeCasts_S2560x128_S2560x128) bitsLt_bf16_f32) (shapeCast S128x128 x1 shapeCasts_S128x128_S128x128) (constant S2560x128 .f32 0x00000000#32)) (broadcastTo S2560x128 (shapeCast S1x128 x2 shapeCasts_S1x128_S1x128) broadcasts_S1x128_S2560x128) := by
  unfold out4_3
  rw [View.canon_unit_zero hz2, ld_unit, ld_unit, ld_unit]
  rfl

-- the body reads the three inputs whole and stores once through the whole output, so the output ends at out4_3 of the inputs
theorem sound_kernel4 (c : Dev nD) {i arg1 harg1 arg2 harg2 arg3 harg3 arg4 harg4} (x0 x1 x2) (K : PUnit → sProp 𝕄) :
    iprop((∃ d, owns c.tc arg4 fullShare d) ∗ owns c.tc arg1 fullShare x0 ∗ owns c.tc arg2 fullShare x1 ∗ owns c.tc arg3 fullShare x2
        ∗ (owns c.tc arg1 fullShare x0 -∗ owns c.tc arg2 fullShare x1 -∗ owns c.tc arg3 fullShare x2
            -∗ owns c.tc arg4 fullShare (out4_3 x0 x1 x2) -∗ K ⟨⟩))
      ⊢ wp frame (wpE (defs₀ (F := F)) Variants.none c none) Set.univ (cc4__linear_kernel i arg1 harg1 arg2 harg2 arg3 harg3 arg4 harg4) K := by
  simp only [cc4__linear_kernel_eq_skeleton]; unfold cc4__linear_kernel_skel owns
  iintro ⟨⟨%d3, %f3, -, H3⟩, ⟨%f0, %hf0, H0⟩, ⟨%f1, %hf1, H1⟩, ⟨%f2, %hf2, H2⟩, Hk⟩
  subst hf0 hf1 hf2
  sl_exec
  sl_step
  iapply Hk $$ [H0] [H1] [H2] [H3] <;> (iexists _; isplitr; swap; iassumption; ipureintro)
  · rfl
  · rfl
  · rfl
  exact View.read_writes_eq_canon _ _ _ fun y => ⟨_, List.mem_singleton_self _, View.mem_set_unit_zero hz2 inb_S2560x128_S2560x128_0_0 y⟩

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := rfl
theorem q_eq4 (c : Dev nD) (w : Fin cfg4.W) : (dat4 V c).q w = fullShare := rfl
theorem owed_eq4 (c : Dev nD) (t : Fin (cfg4.N + 1)) : (dat4 V c).owed t = 0 := rfl
theorem after4_3 (c : Dev nD) (t : Fin cfg4.N) : (dat4 V c).after 3 t = out4_3 (iblk4 V c 0 t) (iblk4 V c 1 t) (iblk4 V c 2 t) := by dsimp only [dat4]

theorem before4_0 (c t d) : (dat4 V c).before 0 t d = iblk4 V c 0 t :=
  (dat4 V c).before_in_eq_fetched 0 rfl (fun _ => rfl) (fun _ _ _ => rfl) (fun _ => rfl) t d
theorem before4_1 (c t d) : (dat4 V c).before 1 t d = iblk4 V c 1 t :=
  (dat4 V c).before_in_eq_fetched 1 rfl (fun _ => rfl) (fun _ _ _ => rfl) (fun _ => rfl) t d
theorem before4_2 (c t d) : (dat4 V c).before 2 t d = iblk4 V c 2 t :=
  (dat4 V c).before_in_eq_fetched 2 rfl (fun _ => rfl) (fun _ _ _ => rfl) (fun _ => rfl) t d

-- the inputs are at their blocks, so the kernel's triple applies; the invariant and what is owed pass through
theorem body_obligation4 (c : Dev nD) : BodyObligation (dat4 (F := F) V c) (defs₀ (F := F)) Variants.none () Set.univ := fun t => by
  rw [bigSep_W4, bigSep_W4]
  simp only [before4_0, before4_1, before4_2, after4_3, show (dat4 V c).Φ t.succ = (dat4 V c).Φ t.castSucc from rfl,
    show (dat4 V c).owesAt () t.succ = (dat4 V c).owesAt () t.castSucc from rfl, show (dat4 V c).after 0 t = iblk4 V c 0 t from rfl,
    show (dat4 V c).after 1 t = iblk4 V c 1 t from rfl, show (dat4 V c).after 2 t = iblk4 V c 2 t from rfl]
  show _ ⊢ wp _ _ _ (bodyAt4 t) _
  iintro ⟨HΦ, Ho, ⟨%d0, H0⟩, ⟨%d1, H1⟩, ⟨%d2, H2⟩, ⟨%d3, H3⟩⟩
  iapply sound_kernel4 c (iblk4 V c 0 t) (iblk4 V c 1 t) (iblk4 V c 2 t) _
  isplitl [H3]; · iexists _; iexact H3
  iframe H0 H1 H2
  iintro H0 H1 H2 H3
  iframe

theorem phi_in4 (c : Dev nD) :
    (iprop((∃ r, prngReg c r) ∗ Pipeline.scopedRest (Ix := Unit) (Name := ℕ) (U := UR sig nD τ) (Lvl := ℕ) (Val := Elt F) spec4 c) : sProp 𝕄)
      ⊢ (dat4 V c).Φ 0 := sep_symm
theorem phi_out4 (c : Dev nD) :
    (dat4 V c).Φ (Fin.last cfg4.N)
      ⊢ (iprop((∃ r, prngReg c r) ∗ Pipeline.scopedRest (Ix := Unit) (Name := ℕ) (U := UR sig nD τ) (Lvl := ℕ) (Val := Elt F) spec4 c) : sProp 𝕄) := sep_symm

end Cert.Kernel.Hand

end
-- ==== Proof.K.Agg5.lean ====
import proofs.«419824_j13683765805591_3_alg».proof.Proof.Gen.Kernel.Launch
import proofs.«419824_j13683765805591_3_alg».proof.Proof.Gen.Kernel.Skeleton
import proofs.«419824_j13683765805591_3_alg».proof.Proof.Gen.Kernel.Points
import proofs.«419824_j13683765805591_3_alg».proof.Proof.FrameLib
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.FrameLib

variable {F : FTy → Type} [FloatOps F]

local notation "𝕄" => MT nD τ sig Unit (Elt F) ℕ (UR sig nD τ) ℕ

-- The reduction coordinate is 0: the sum restarts.
abbrev cond5_0 (i : grid5.Coords) : Prop := (Scalar.cmpi .ne (Scalar.extui (Scalar.cmpi .eq (BitVec.ofNat 32 (i 1).val) 0#32)) 0#32) = 1#1

theorem hcond5_0 : ∀ t : Fin grid5.N, cond5_0 (grid5.coords t) ↔ t.val % 5 = 0 := by decide +kernel

-- The reduction coordinate is 4: the sum is complete and the output is stored.
abbrev cond5_1 (i : grid5.Coords) : Prop := k5_cond2 i = 1#1

theorem hcond5_1 : ∀ t : Fin grid5.N, cond5_1 (grid5.coords t) ↔ t.val % 5 = 4 := by decide +kernel

theorem idleAt5_3 : ∀ t : Fin cfg5.N, ¬t.val % 5 = 4 → cfg5.idle 3 (grid5.coords t) = true := by decide +kernel
theorem liveAt5_3 : ∀ t : Fin cfg5.N, t.val % 5 = 4 → cfg5.idle 3 (grid5.coords t) = false := by decide +kernel

theorem noFlush5_3 (t : Fin cfg5.N) (h : ¬t.val % 5 = 4) : (cfg5.win 3).flush t = false :=
  Bool.eq_false_iff.mpr fun hf => h ((flush5_3 t).mp hf)

-- The product of one pair of blocks.
def mm5 (a : Vec F S2560x2048 .bf16) (h : Vec F S2048x128 .f32) : Vec F S2560x128 .f32 :=
  matmul dot_S2560x2048_S2048x128_S2560x128_1_0_0_1_n_n none (shapeCast S2560x2048 a shapeCasts_S2560x2048_S2560x2048) (truncf .bf16 (shapeCast S2048x128 h shapeCasts_S2048x128_S2048x128) bitsLt_bf16_f32) (constant S2560x128 .f32 0x00000000#32)

-- What is stored from a completed sum and the bias.
def outv5 (acc : Vec F S2560x128 .f32) (b : Vec F S1x128 .f32) : Vec F S2560x128 .f32 :=
  select (cmpf .ogt (addf acc (broadcastTo S2560x128 b broadcasts_S1x128_S2560x128)) (broadcast S2560x128 (Scalar.ofBits .f32 0x00000000#32)))
    (addf acc (broadcastTo S2560x128 b broadcasts_S1x128_S2560x128))
    (mulf (broadcast S2560x128 (Scalar.ofBits .f32 0x3DCCCCCD#32)) (addf acc (broadcastTo S2560x128 b broadcasts_S1x128_S2560x128)))

theorem outv5_eq (acc : Vec F S2560x128 .f32) (b : Vec F S1x128 .f32) :
    outv5 acc b = select (cmpf .ogt (addf acc (broadcastTo S2560x128 b broadcasts_S1x128_S2560x128)) (broadcast S2560x128 (Scalar.ofBits .f32 0x00000000#32)))
      (addf acc (broadcastTo S2560x128 b broadcasts_S1x128_S2560x128))
      (mulf (broadcast S2560x128 (Scalar.ofBits .f32 0x3DCCCCCD#32)) (addf acc (broadcastTo S2560x128 b broadcasts_S1x128_S2560x128))) := rfl

theorem k5_pay1_eq : (k5_pay1 (F := F)) = broadcast S2560x128 (Scalar.ofBits .f32 0x00000000#32) := by
  unfold k5_pay1; exact shapeCast_self _ _

theorem k5_pay2_eq (a : Vec F S2560x2048 .bf16) (h : Vec F S2048x128 .f32) (s : Vec F S2560x128 .f32) :
    k5_pay2 a h s = addf s (mm5 a h) := by
  unfold k5_pay2 mm5; exact shapeCast_self _ _

theorem k5_pay3_eq (acc : Vec F S2560x128 .f32) (b : Vec F S1x128 .f32) : k5_pay3 acc b = outv5 acc b := by
  unfold k5_pay3 outv5; rw [shapeCast_self]

variable (V : (c : Dev nD) → (b : Ref sig .tc) → Buf (Elt F) ((c : Thread nD τ).loc b)) (c : Dev nD)

def iblk5 (w : Fin cfg5.W) (t : Fin cfg5.N) : ((cfg5.win w).xblock (cfg5.grid.coords t)).Idx → Elt F (cfg5.win w).elt :=
  ((cfg5.win w).blk t).view.read (Elt F) (V c (Pipeline.arrRef spec5 w))

def accStep5 (n : ℕ) (s : Vec F S2560x128 .f32) : Vec F S2560x128 .f32 :=
  if h : n < cfg5.N then addf s (mm5 (iblk5 V c 0 ⟨n, h⟩) (iblk5 V c 1 ⟨n, h⟩)) else s

-- The partial sums along the grid, restarted at every fifth point.
def accN5 : ℕ → Vec F S2560x128 .f32 := accN (broadcast S2560x128 (Scalar.ofBits .f32 0x00000000#32)) (accStep5 V c)

def acc5 (t : Fin cfg5.N) : Vec F S2560x128 .f32 := accN5 V c t.val

theorem accN5_zero (n : ℕ) (hn : n < cfg5.N) (hk : n % 5 = 0) :
    accN5 V c n = addf (broadcast S2560x128 (Scalar.ofBits .f32 0x00000000#32)) (mm5 (iblk5 V c 0 ⟨n, hn⟩) (iblk5 V c 1 ⟨n, hn⟩)) := by
  rw [accN5, accN_zero _ _ hk, accStep5, dif_pos hn]

theorem accN5_succ (n : ℕ) (hn : n < cfg5.N) (hk : n % 5 ≠ 0) :
    accN5 V c n = addf (accN5 V c (n - 1)) (mm5 (iblk5 V c 0 ⟨n, hn⟩) (iblk5 V c 1 ⟨n, hn⟩)) := by
  rw [accN5, accN_succ _ _ hk, accStep5, dif_pos hn]

theorem acc5_zero (t : Fin cfg5.N) (hk : t.val % 5 = 0) :
    acc5 V c t = addf (broadcast S2560x128 (Scalar.ofBits .f32 0x00000000#32)) (mm5 (iblk5 V c 0 t) (iblk5 V c 1 t)) :=
  accN5_zero V c t.val t.isLt hk

theorem acc5_succ (t : Fin cfg5.N) (hk : t.val % 5 ≠ 0) :
    acc5 V c t = addf (acc5 V c ⟨t.val - 1, Nat.lt_of_le_of_lt (Nat.sub_le _ _) t.isLt⟩) (mm5 (iblk5 V c 0 t) (iblk5 V c 1 t)) :=
  accN5_succ V c t.val t.isLt hk

abbrev scM5 : Memref sig .tc .vmem S2560x128 .f32 := Memref.whole cc5_scratch0

-- Between points the accumulator holds the last partial sum, or anything where the sum is about to restart.
def Phi5 (n : ℕ) : sProp 𝕄 :=
  iprop(Pipeline.scopedRestBut (Ix := Unit) (Name := ℕ) (U := UR sig nD τ) (Lvl := ℕ) (Val := Elt F) spec5 c [cc5_scratch0]
    ∗ (∃ r, prngReg c r)
    ∗ (if n % 5 = 0 then iprop(∃ d, owns c scM5 fullShare d)
        else owns c scM5 fullShare (accN5 V c (n - 1))))

def dat5 : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => outv5 (acc5 V c t) (iblk5 V c 2 t)
  Φ t := Phi5 V c t.val
  q _ := fullShare
  owed _ := 0

theorem A_eq5 (w : Fin cfg5.W) : (dat5 V c).A w = V c (Pipeline.arrRef spec5 w) := rfl
theorem q_eq5 (w : Fin cfg5.W) : (dat5 V c).q w = fullShare := rfl
theorem owed_eq5 (t : Fin (cfg5.N + 1)) : (dat5 V c).owed t = 0 := rfl

theorem after5_3 (t : Fin cfg5.N) : (dat5 V c).after 3 t = outv5 (acc5 V c t) (iblk5 V c 2 t) := rfl

theorem before5_0 (t : Fin cfg5.N) (d) : (dat5 V c).before 0 t d = iblk5 V c 0 t :=
  (dat5 V c).before_in_eq_fetched 0 rfl (fun _ => rfl) (fun _ _ _ => rfl) (fun _ => rfl) t d
theorem before5_1 (t : Fin cfg5.N) (d) : (dat5 V c).before 1 t d = iblk5 V c 1 t :=
  (dat5 V c).before_in_eq_fetched 1 rfl (fun _ => rfl) (fun _ _ _ => rfl) (fun _ => rfl) t d
theorem before5_2 (t : Fin cfg5.N) (d) : (dat5 V c).before 2 t d = iblk5 V c 2 t :=
  (dat5 V c).before_in_eq_fetched 2 rfl (fun _ => rfl) (fun _ _ _ => rfl) (fun _ => rfl) t d

section
variable (i : grid5.Coords) {arg2 : Memref sig .tc .vmem S2560x2048 .bf16} {harg2 : arg2.IsWhole} {arg3 : Memref sig .tc .vmem S2048x128 .f32} {harg3 : arg3.IsWhole} {arg4 : Memref sig .tc .vmem S1x128 .f32} {harg4 : arg4.IsWhole} {arg5 : Memref sig .tc .vmem S2560x128 .f32} {harg5 : arg5.IsWhole} {arg6 : Memref sig .tc .vmem S2560x128 .f32} {harg6 : arg6.IsWhole}
  (x0 : Vec F S2560x2048 .bf16) (x1 : Vec F S2048x128 .f32)

-- The body where the output is not stored: the accumulator, reset first where the sum restarts, takes one more product.
set_option maxHeartbeats 1000000 in
theorem run5_AB (hc1 : ¬cond5_1 i) (s s' : Vec F S2560x128 .f32) (h : cond5_0 i ∧ s' = k5_pay1 ∨ ¬cond5_0 i ∧ s' = s) (E : Set ℕ) (K : PUnit → sProp 𝕄) :
    iprop(owns c arg2 fullShare x0 ∗ owns c arg3 fullShare x1 ∗ owns c arg6 fullShare s
        ∗ (iprop(owns c arg2 fullShare x0 ∗ owns c arg3 fullShare x1 ∗ owns c arg6 fullShare (k5_pay2 x0 x1 s')) -∗ K ⟨⟩))
      ⊢ wp frame (wpE (defs₀ (F := F)) Variants.none c none) E (cc5__agg_kernel i arg2 harg2 arg3 harg3 arg4 harg4 arg5 harg5 arg6 harg6) K := by
  simp only [cc5__agg_kernel_eq_skeleton]; unfold cc5__agg_kernel_skel
  rw [owns_unread c harg2, owns_unread c harg3]; unfold owns
  iintro ⟨H0, H1, ⟨%fs, %hfs, HS⟩, Hk⟩
  obtain rfl := harg6.eq_unread hfs
  rcases h with ⟨hc0, rfl⟩ | ⟨hc0, rfl⟩ <;>
  · sl_exec (disch := first | exact hc0 | exact hc1)
    sl_step
    iapply Hk
    iframe H0 H1
    iexists _; isplitr
    swap; · iexact HS
    ipureintro
    sl_unfold_run_names
    rw [read_writes_unit]
    simp only [View.readAt_eq_ld, harg2.read_unread, harg3.read_unread, harg6.read_unread, ld_unit, readCov_unit]

-- The body at the last step of a sum: the output takes the value computed from the completed sum.
set_option maxHeartbeats 1000000 in
theorem run5_C (hc0 : ¬cond5_0 i) (hc1 : cond5_1 i) (x2 : Vec F S1x128 .f32) (s : Vec F S2560x128 .f32) (E : Set ℕ) (K : PUnit → sProp 𝕄) :
    iprop(owns c arg2 fullShare x0 ∗ owns c arg3 fullShare x1 ∗ owns c arg4 fullShare x2 ∗ (∃ d, owns c arg5 fullShare d) ∗ owns c arg6 fullShare s
        ∗ (iprop(owns c arg2 fullShare x0 ∗ owns c arg3 fullShare x1 ∗ owns c arg4 fullShare x2 ∗ owns c arg5 fullShare (k5_pay3 (k5_pay2 x0 x1 s) x2) ∗ owns c arg6 fullShare (k5_pay2 x0 x1 s)) -∗ K ⟨⟩))
      ⊢ wp frame (wpE (defs₀ (F := F)) Variants.none c none) E (cc5__agg_kernel i arg2 harg2 arg3 harg3 arg4 harg4 arg5 harg5 arg6 harg6) K := by
  simp only [cc5__agg_kernel_eq_skeleton]; unfold cc5__agg_kernel_skel
  rw [owns_unread c harg2, owns_unread c harg3, owns_unread c harg4]; unfold owns
  iintro ⟨H0, H1, H2, ⟨%d5, %f5, -, H5⟩, ⟨%fs, %hfs, HS⟩, Hk⟩
  obtain rfl := harg6.eq_unread hfs
  sl_exec (disch := first | exact hc0 | exact hc1)
  sl_step
  iapply Hk
  iframe H0 H1 H2
  isplitl [H5]
  · iexists _; isplitr
    swap; · iexact H5
    ipureintro
    sl_unfold_run_names
    rw [read_writes_unit]
    simp only [View.readAt_eq_ld, harg2.read_unread, harg3.read_unread, harg4.read_unread, harg6.read_unread, ld_unit, readCov_unit]
  iexists _; isplitr
  swap; · iexact HS
  ipureintro
  sl_unfold_run_names
  rw [read_writes_unit]
  simp only [View.readAt_eq_ld, harg2.read_unread, harg3.read_unread, harg6.read_unread, ld_unit, readCov_unit]

end

abbrev ms5_0 (t : Fin cfg5.N) : Memref sig .tc .vmem S2560x2048 .bf16 := win5_0.stage (cfg5.slots t 0)
abbrev ms5_1 (t : Fin cfg5.N) : Memref sig .tc .vmem S2048x128 .f32 := win5_1.stage (cfg5.slots t 1)
abbrev ms5_2 (t : Fin cfg5.N) : Memref sig .tc .vmem S1x128 .f32 := win5_2.stage (cfg5.slots t 2)
abbrev ms5_3 (t : Fin cfg5.N) : Memref sig .tc .vmem S2560x128 .f32 := win5_3.stage (cfg5.slots t 3)

-- The body at any point, by its position mod 5: restart, middle, or last step.
set_option maxHeartbeats 4000000 in
theorem sound_body5 (t : Fin cfg5.N) :
    iprop(Phi5 V c t.val ∗ (dat5 V c).owesAt () t.castSucc
      ∗ (∃ d, owns c (ms5_0 t) fullShare ((dat5 V c).before 0 t d))
      ∗ (∃ d, owns c (ms5_1 t) fullShare ((dat5 V c).before 1 t d))
      ∗ (∃ d, owns c (ms5_2 t) fullShare ((dat5 V c).before 2 t d))
      ∗ (∃ d, owns c (ms5_3 t) fullShare ((dat5 V c).before 3 t d)))
      ⊢ wp frame (wpE (defs₀ (F := F)) Variants.none c none) Set.univ (bodyAt5 t) (fun _ => iprop(Phi5 V c (t.val + 1) ∗ (dat5 V c).owesAt () t.castSucc
          ∗ owns c (ms5_0 t) fullShare (iblk5 V c 0 t)
          ∗ owns c (ms5_1 t) fullShare (iblk5 V c 1 t)
          ∗ owns c (ms5_2 t) fullShare (iblk5 V c 2 t)
          ∗ (dat5 V c).leavesExact 3 t)) := by
  unfold bodyAt5
  simp only [before5_0, before5_1, before5_2]
  have hN : t.val < 20 := lt_of_lt_of_eq t.isLt (show cfg5.N = 20 from N_5)
  by_cases h0 : t.val % 5 = 0
  · have h4 : ¬t.val % 5 = 4 := by omega
    rw [Dat.leavesExact_idle (dat5 V c) 3 t (idleAt5_3 t h4) (noFlush5_3 t h4)]
    rw [Phi5, Phi5, if_pos h0, if_neg (by omega : ¬(t.val + 1) % 5 = 0), Nat.add_sub_cancel, accN5_zero V c t.val t.isLt h0,
      ← k5_pay1_eq, ← k5_pay2_eq]
    iintro ⟨⟨HR, Hg, ⟨%ds, HS⟩⟩, Ho, ⟨%d0, H0⟩, ⟨%d1, H1⟩, ⟨%d2, H2⟩, H3⟩
    iapply (run5_AB c (grid5.coords t) (iblk5 V c 0 t) (iblk5 V c 1 t) (fun h => h4 ((hcond5_1 t).mp h)) ds _ (.inl ⟨(hcond5_0 t).mpr h0, rfl⟩) Set.univ _)
    iframe H0 H1 HS
    iintro ⟨H0, H1, HS⟩
    iframe
  · by_cases h4 : t.val % 5 = 4
    · rw [show (dat5 V c).leavesExact 3 t = owns c (ms5_3 t) fullShare (outv5 (acc5 V c t) (iblk5 V c 2 t)) from leavesExact_live _ 3 t (liveAt5_3 t h4)]
      rw [Phi5, Phi5, if_neg h0, if_pos (by omega : (t.val + 1) % 5 = 0), acc5, accN5_succ V c t.val t.isLt h0,
        ← k5_pay2_eq, ← k5_pay3_eq]
      iintro ⟨⟨HR, Hg, HS⟩, Ho, ⟨%d0, H0⟩, ⟨%d1, H1⟩, ⟨%d2, H2⟩, ⟨%d3, H3⟩⟩
      iapply (run5_C c (grid5.coords t) (iblk5 V c 0 t) (iblk5 V c 1 t) (fun h => h0 ((hcond5_0 t).mp h)) ((hcond5_1 t).mpr h4) (iblk5 V c 2 t) (accN5 V c (t.val - 1)) Set.univ _)
      iframe H0 H1 H2 HS
      isplitl [H3]; · iexists _; iexact H3
      iintro ⟨H0, H1, H2, H3, HS⟩
      iframe HR Hg Ho H0 H1 H2 H3
      iexists _; iexact HS
    · rw [Dat.leavesExact_idle (dat5 V c) 3 t (idleAt5_3 t h4) (noFlush5_3 t h4)]
      rw [Phi5, Phi5, if_neg h0, if_neg (by omega : ¬(t.val + 1) % 5 = 0), Nat.add_sub_cancel, accN5_succ V c t.val t.isLt h0,
        ← k5_pay2_eq]
      iintro ⟨⟨HR, Hg, HS⟩, Ho, ⟨%d0, H0⟩, ⟨%d1, H1⟩, ⟨%d2, H2⟩, H3⟩
      iapply (run5_AB c (grid5.coords t) (iblk5 V c 0 t) (iblk5 V c 1 t) (fun h => h4 ((hcond5_1 t).mp h)) (accN5 V c (t.val - 1)) _ (.inr ⟨fun h => h0 ((hcond5_0 t).mp h), rfl⟩) Set.univ _)
      iframe H0 H1 HS
      iintro ⟨H0, H1, HS⟩
      iframe

theorem body_obligation5 : BodyObligation (dat5 (F := F) V c) (defs₀ (F := F)) Variants.none () Set.univ := fun t => by
  rw [bigSep_W5, bigSep_W5]
  exact sound_body5 V c t

-- The sum restarts at the first point, so the invariant asks nothing of the accumulator there,
theorem phi_in5 :
    (iprop((∃ r, prngReg c r) ∗ Pipeline.scopedRest (Ix := Unit) (Name := ℕ) (U := UR sig nD τ) (Lvl := ℕ) (Val := Elt F) spec5 c) : sProp 𝕄)
      ⊢ (dat5 V c).Φ 0 := by
  rw [show (dat5 V c).Φ 0 = Phi5 V c 0 from rfl, Phi5, if_pos (Nat.zero_mod 5), scopedRest5_split]
  simp only [scM5, owns_whole]
  iintro ⟨Hg, HS, HR⟩
  iframe

-- and it restarts after the last point, so nothing is left to give back.
theorem phi_out5 :
    (dat5 V c).Φ (Fin.last cfg5.N)
      ⊢ (iprop((∃ r, prngReg c r) ∗ Pipeline.scopedRest (Ix := Unit) (Name := ℕ) (U := UR sig nD τ) (Lvl := ℕ) (Val := Elt F) spec5 c) : sProp 𝕄) := by
  rw [show (dat5 V c).Φ (Fin.last cfg5.N) = Phi5 V c 20 from rfl, Phi5, if_pos (by decide : 20 % 5 = 0), scopedRest5_split]
  simp only [scM5, owns_whole]
  iintro ⟨HR, Hg, HS⟩
  iframe

end Cert.Kernel.Hand

end
-- ==== Proof.K.Lin6.lean ====
import proofs.«419824_j13683765805591_3_alg».proof.Proof.Gen.Kernel.Launch
import proofs.«419824_j13683765805591_3_alg».proof.Proof.Gen.Kernel.Skeleton
import proofs.«419824_j13683765805591_3_alg».proof.Proof.Gen.Kernel.Points
import proofs.«419824_j13683765805591_3_alg».proof.Proof.FrameLib
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.Kernel Cert.Kernel.Gen Cert.FrameLib

variable {F : FTy → Type} [FloatOps F]

local notation "𝕄" => MT nD τ sig Unit (Elt F) ℕ (UR sig nD τ) ℕ

abbrev r6_0 : Rect S2560x128 := Rect.unit (s := S2560x128) ![0, 0] S2560x128.size inb_S2560x128_S2560x128_0_0
abbrev r6_1 : Rect S128x128 := Rect.unit (s := S128x128) ![0, 0] S128x128.size inb_S128x128_S128x128_0_0
abbrev r6_2 : Rect S1x128 := Rect.unit (s := S1x128) ![0, 0] S1x128.size inb_S1x128_S1x128_0_0
abbrev r6_3 : Rect S2560x128 := Rect.unit (s := S2560x128) ![0, 0] S2560x128.size inb_S2560x128_S2560x128_0_0

def out6_3 (x0 : Vec F S2560x128 .f32) (x1 : Vec F S128x128 .bf16) (x2 : Vec F S1x128 .f32) : Vec F S2560x128 .f32 :=
  View.canon [⟨r6_3, k6_pay1 (View.ld x0 r6_0) (View.ld x1 r6_1) (View.ld x2 r6_2)⟩]

-- a load through the whole buffer reads its contents, and one store through it leaves its payload
theorem out6_3_eq (x0 : Vec F S2560x128 .f32) (x1 : Vec F S128x128 .bf16) (x2 : Vec F S1x128 .f32) :
    out6_3 x0 x1 x2 = addf (matmul dot_S2560x128_S128x128_S2560x128_1_0_0_1_n_n none (truncf .bf16 (shapeCast S2560x128 x0 shapeCasts_S2560x128_S2560x128) bitsLt_bf16_f32) (shapeCast S128x128 x1 shapeCasts_S128x128_S128x128) (constant S2560x128 .f32 0x00000000#32)) (broadcastTo S2560x128 (shapeCast S1x128 x2 shapeCasts_S1x128_S1x128) broadcasts_S1x128_S2560x128) := by
  unfold out6_3
  rw [View.canon_unit_zero hz2, ld_unit, ld_unit, ld_unit]
  rfl

-- the body reads the three inputs whole and stores once through the whole output, so the output ends at out6_3 of the inputs
theorem sound_kernel6 (c : Dev nD) {i arg1 harg1 arg2 harg2 arg3 harg3 arg4 harg4} (x0 x1 x2) (K : PUnit → sProp 𝕄) :
    iprop((∃ d, owns c.tc arg4 fullShare d) ∗ owns c.tc arg1 fullShare x0 ∗ owns c.tc arg2 fullShare x1 ∗ owns c.tc arg3 fullShare x2
        ∗ (owns c.tc arg1 fullShare x0 -∗ owns c.tc arg2 fullShare x1 -∗ owns c.tc arg3 fullShare x2
            -∗ owns c.tc arg4 fullShare (out6_3 x0 x1 x2) -∗ K ⟨⟩))
      ⊢ wp frame (wpE (defs₀ (F := F)) Variants.none c none) Set.univ (cc6__linear_kernel i arg1 harg1 arg2 harg2 arg3 harg3 arg4 harg4) K := by
  simp only [cc6__linear_kernel_eq_skeleton]; unfold cc6__linear_kernel_skel owns
  iintro ⟨⟨%d3, %f3, -, H3⟩, ⟨%f0, %hf0, H0⟩, ⟨%f1, %hf1, H1⟩, ⟨%f2, %hf2, H2⟩, Hk⟩
  subst hf0 hf1 hf2
  sl_exec
  sl_step
  iapply Hk $$ [H0] [H1] [H2] [H3] <;> (iexists _; isplitr; swap; iassumption; ipureintro)
  · rfl
  · rfl
  · rfl
  exact View.read_writes_eq_canon _ _ _ fun y => ⟨_, List.mem_singleton_self _, View.mem_set_unit_zero hz2 inb_S2560x128_S2560x128_0_0 y⟩

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

theorem A_eq6 (c : Dev nD) (w : Fin cfg6.W) : (dat6 V c).A w = V c (Pipeline.arrRef spec6 w) := rfl
theorem q_eq6 (c : Dev nD) (w : Fin cfg6.W) : (dat6 V c).q w = fullShare := rfl
theorem owed_eq6 (c : Dev nD) (t : Fin (cfg6.N + 1)) : (dat6 V c).owed t = 0 := rfl
theorem after6_3 (c : Dev nD) (t : Fin cfg6.N) : (dat6 V c).after 3 t = out6_3 (iblk6 V c 0 t) (iblk6 V c 1 t) (iblk6 V c 2 t) := by dsimp only [dat6]

theorem before6_0 (c t d) : (dat6 V c).before 0 t d = iblk6 V c 0 t :=
  (dat6 V c).before_in_eq_fetched 0 rfl (fun _ => rfl) (fun _ _ _ => rfl) (fun _ => rfl) t d
theorem before6_1 (c t d) : (dat6 V c).before 1 t d = iblk6 V c 1 t :=
  (dat6 V c).before_in_eq_fetched 1 rfl (fun _ => rfl) (fun _ _ _ => rfl) (fun _ => rfl) t d
theorem before6_2 (c t d) : (dat6 V c).before 2 t d = iblk6 V c 2 t :=
  (dat6 V c).before_in_eq_fetched 2 rfl (fun _ => rfl) (fun _ _ _ => rfl) (fun _ => rfl) t d

-- the inputs are at their blocks, so the kernel's triple applies; the invariant and what is owed pass through
theorem body_obligation6 (c : Dev nD) : BodyObligation (dat6 (F := F) V c) (defs₀ (F := F)) Variants.none () Set.univ := fun t => by
  rw [bigSep_W6, bigSep_W6]
  simp only [before6_0, before6_1, before6_2, after6_3, show (dat6 V c).Φ t.succ = (dat6 V c).Φ t.castSucc from rfl,
    show (dat6 V c).owesAt () t.succ = (dat6 V c).owesAt () t.castSucc from rfl, show (dat6 V c).after 0 t = iblk6 V c 0 t from rfl,
    show (dat6 V c).after 1 t = iblk6 V c 1 t from rfl, show (dat6 V c).after 2 t = iblk6 V c 2 t from rfl]
  show _ ⊢ wp _ _ _ (bodyAt6 t) _
  iintro ⟨HΦ, Ho, ⟨%d0, H0⟩, ⟨%d1, H1⟩, ⟨%d2, H2⟩, ⟨%d3, H3⟩⟩
  iapply sound_kernel6 c (iblk6 V c 0 t) (iblk6 V c 1 t) (iblk6 V c 2 t) _
  isplitl [H3]; · iexists _; iexact H3
  iframe H0 H1 H2
  iintro H0 H1 H2 H3
  iframe

theorem phi_in6 (c : Dev nD) :
    (iprop((∃ r, prngReg c r) ∗ Pipeline.scopedRest (Ix := Unit) (Name := ℕ) (U := UR sig nD τ) (Lvl := ℕ) (Val := Elt F) spec6 c) : sProp 𝕄)
      ⊢ (dat6 V c).Φ 0 := sep_symm
theorem phi_out6 (c : Dev nD) :
    (dat6 V c).Φ (Fin.last cfg6.N)
      ⊢ (iprop((∃ r, prngReg c r) ∗ Pipeline.scopedRest (Ix := Unit) (Name := ℕ) (U := UR sig nD τ) (Lvl := ℕ) (Val := Elt F) spec6 c) : sProp 𝕄) := sep_symm

end Cert.Kernel.Hand

end
-- ==== Proof.K.Agg7.lean ====
import proofs.«419824_j13683765805591_3_alg».proof.Proof.Gen.Kernel.Launch
import proofs.«419824_j13683765805591_3_alg».proof.Proof.Gen.Kernel.Skeleton
import proofs.«419824_j13683765805591_3_alg».proof.Proof.Gen.Kernel.Points
import proofs.«419824_j13683765805591_3_alg».proof.Proof.FrameLib
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.FrameLib

variable {F : FTy → Type} [FloatOps F]

local notation "𝕄" => MT nD τ sig Unit (Elt F) ℕ (UR sig nD τ) ℕ

-- The reduction coordinate is 0: the sum restarts.
abbrev cond7_0 (i : grid7.Coords) : Prop := (Scalar.cmpi .ne (Scalar.extui (Scalar.cmpi .eq (BitVec.ofNat 32 (i 1).val) 0#32)) 0#32) = 1#1

theorem hcond7_0 : ∀ t : Fin grid7.N, cond7_0 (grid7.coords t) ↔ t.val % 5 = 0 := by decide +kernel

-- The reduction coordinate is 4: the sum is complete and the output is stored.
abbrev cond7_1 (i : grid7.Coords) : Prop := k7_cond2 i = 1#1

theorem hcond7_1 : ∀ t : Fin grid7.N, cond7_1 (grid7.coords t) ↔ t.val % 5 = 4 := by decide +kernel

theorem idleAt7_3 : ∀ t : Fin cfg7.N, ¬t.val % 5 = 4 → cfg7.idle 3 (grid7.coords t) = true := by decide +kernel
theorem liveAt7_3 : ∀ t : Fin cfg7.N, t.val % 5 = 4 → cfg7.idle 3 (grid7.coords t) = false := by decide +kernel

theorem noFlush7_3 (t : Fin cfg7.N) (h : ¬t.val % 5 = 4) : (cfg7.win 3).flush t = false :=
  Bool.eq_false_iff.mpr fun hf => h ((flush7_3 t).mp hf)

-- The product of one pair of blocks.
def mm7 (a : Vec F S2560x2048 .bf16) (h : Vec F S2048x128 .f32) : Vec F S2560x128 .f32 :=
  matmul dot_S2560x2048_S2048x128_S2560x128_1_0_0_1_n_n none (shapeCast S2560x2048 a shapeCasts_S2560x2048_S2560x2048) (truncf .bf16 (shapeCast S2048x128 h shapeCasts_S2048x128_S2048x128) bitsLt_bf16_f32) (constant S2560x128 .f32 0x00000000#32)

-- What is stored from a completed sum and the bias.
def outv7 (acc : Vec F S2560x128 .f32) (b : Vec F S1x128 .f32) : Vec F S2560x128 .f32 :=
  select (cmpf .ogt (addf acc (broadcastTo S2560x128 b broadcasts_S1x128_S2560x128)) (broadcast S2560x128 (Scalar.ofBits .f32 0x00000000#32)))
    (addf acc (broadcastTo S2560x128 b broadcasts_S1x128_S2560x128))
    (mulf (broadcast S2560x128 (Scalar.ofBits .f32 0x3DCCCCCD#32)) (addf acc (broadcastTo S2560x128 b broadcasts_S1x128_S2560x128)))

theorem outv7_eq (acc : Vec F S2560x128 .f32) (b : Vec F S1x128 .f32) :
    outv7 acc b = select (cmpf .ogt (addf acc (broadcastTo S2560x128 b broadcasts_S1x128_S2560x128)) (broadcast S2560x128 (Scalar.ofBits .f32 0x00000000#32)))
      (addf acc (broadcastTo S2560x128 b broadcasts_S1x128_S2560x128))
      (mulf (broadcast S2560x128 (Scalar.ofBits .f32 0x3DCCCCCD#32)) (addf acc (broadcastTo S2560x128 b broadcasts_S1x128_S2560x128))) := rfl

theorem k7_pay1_eq : (k7_pay1 (F := F)) = broadcast S2560x128 (Scalar.ofBits .f32 0x00000000#32) := by
  unfold k7_pay1; exact shapeCast_self _ _

theorem k7_pay2_eq (a : Vec F S2560x2048 .bf16) (h : Vec F S2048x128 .f32) (s : Vec F S2560x128 .f32) :
    k7_pay2 a h s = addf s (mm7 a h) := by
  unfold k7_pay2 mm7; exact shapeCast_self _ _

theorem k7_pay3_eq (acc : Vec F S2560x128 .f32) (b : Vec F S1x128 .f32) : k7_pay3 acc b = outv7 acc b := by
  unfold k7_pay3 outv7; rw [shapeCast_self]

variable (V : (c : Dev nD) → (b : Ref sig .tc) → Buf (Elt F) ((c : Thread nD τ).loc b)) (c : Dev nD)

def iblk7 (w : Fin cfg7.W) (t : Fin cfg7.N) : ((cfg7.win w).xblock (cfg7.grid.coords t)).Idx → Elt F (cfg7.win w).elt :=
  ((cfg7.win w).blk t).view.read (Elt F) (V c (Pipeline.arrRef spec7 w))

def accStep7 (n : ℕ) (s : Vec F S2560x128 .f32) : Vec F S2560x128 .f32 :=
  if h : n < cfg7.N then addf s (mm7 (iblk7 V c 0 ⟨n, h⟩) (iblk7 V c 1 ⟨n, h⟩)) else s

-- The partial sums along the grid, restarted at every fifth point.
def accN7 : ℕ → Vec F S2560x128 .f32 := accN (broadcast S2560x128 (Scalar.ofBits .f32 0x00000000#32)) (accStep7 V c)

def acc7 (t : Fin cfg7.N) : Vec F S2560x128 .f32 := accN7 V c t.val

theorem accN7_zero (n : ℕ) (hn : n < cfg7.N) (hk : n % 5 = 0) :
    accN7 V c n = addf (broadcast S2560x128 (Scalar.ofBits .f32 0x00000000#32)) (mm7 (iblk7 V c 0 ⟨n, hn⟩) (iblk7 V c 1 ⟨n, hn⟩)) := by
  rw [accN7, accN_zero _ _ hk, accStep7, dif_pos hn]

theorem accN7_succ (n : ℕ) (hn : n < cfg7.N) (hk : n % 5 ≠ 0) :
    accN7 V c n = addf (accN7 V c (n - 1)) (mm7 (iblk7 V c 0 ⟨n, hn⟩) (iblk7 V c 1 ⟨n, hn⟩)) := by
  rw [accN7, accN_succ _ _ hk, accStep7, dif_pos hn]

theorem acc7_zero (t : Fin cfg7.N) (hk : t.val % 5 = 0) :
    acc7 V c t = addf (broadcast S2560x128 (Scalar.ofBits .f32 0x00000000#32)) (mm7 (iblk7 V c 0 t) (iblk7 V c 1 t)) :=
  accN7_zero V c t.val t.isLt hk

theorem acc7_succ (t : Fin cfg7.N) (hk : t.val % 5 ≠ 0) :
    acc7 V c t = addf (acc7 V c ⟨t.val - 1, Nat.lt_of_le_of_lt (Nat.sub_le _ _) t.isLt⟩) (mm7 (iblk7 V c 0 t) (iblk7 V c 1 t)) :=
  accN7_succ V c t.val t.isLt hk

abbrev scM7 : Memref sig .tc .vmem S2560x128 .f32 := Memref.whole cc7_scratch0

-- Between points the accumulator holds the last partial sum, or anything where the sum is about to restart.
def Phi7 (n : ℕ) : sProp 𝕄 :=
  iprop(Pipeline.scopedRestBut (Ix := Unit) (Name := ℕ) (U := UR sig nD τ) (Lvl := ℕ) (Val := Elt F) spec7 c [cc7_scratch0]
    ∗ (∃ r, prngReg c r)
    ∗ (if n % 5 = 0 then iprop(∃ d, owns c scM7 fullShare d)
        else owns c scM7 fullShare (accN7 V c (n - 1))))

def dat7 : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => outv7 (acc7 V c t) (iblk7 V c 2 t)
  Φ t := Phi7 V c t.val
  q _ := fullShare
  owed _ := 0

theorem A_eq7 (w : Fin cfg7.W) : (dat7 V c).A w = V c (Pipeline.arrRef spec7 w) := rfl
theorem q_eq7 (w : Fin cfg7.W) : (dat7 V c).q w = fullShare := rfl
theorem owed_eq7 (t : Fin (cfg7.N + 1)) : (dat7 V c).owed t = 0 := rfl

theorem after7_3 (t : Fin cfg7.N) : (dat7 V c).after 3 t = outv7 (acc7 V c t) (iblk7 V c 2 t) := rfl

theorem before7_0 (t : Fin cfg7.N) (d) : (dat7 V c).before 0 t d = iblk7 V c 0 t :=
  (dat7 V c).before_in_eq_fetched 0 rfl (fun _ => rfl) (fun _ _ _ => rfl) (fun _ => rfl) t d
theorem before7_1 (t : Fin cfg7.N) (d) : (dat7 V c).before 1 t d = iblk7 V c 1 t :=
  (dat7 V c).before_in_eq_fetched 1 rfl (fun _ => rfl) (fun _ _ _ => rfl) (fun _ => rfl) t d
theorem before7_2 (t : Fin cfg7.N) (d) : (dat7 V c).before 2 t d = iblk7 V c 2 t :=
  (dat7 V c).before_in_eq_fetched 2 rfl (fun _ => rfl) (fun _ _ _ => rfl) (fun _ => rfl) t d

section
variable (i : grid7.Coords) {arg2 : Memref sig .tc .vmem S2560x2048 .bf16} {harg2 : arg2.IsWhole} {arg3 : Memref sig .tc .vmem S2048x128 .f32} {harg3 : arg3.IsWhole} {arg4 : Memref sig .tc .vmem S1x128 .f32} {harg4 : arg4.IsWhole} {arg5 : Memref sig .tc .vmem S2560x128 .f32} {harg5 : arg5.IsWhole} {arg6 : Memref sig .tc .vmem S2560x128 .f32} {harg6 : arg6.IsWhole}
  (x0 : Vec F S2560x2048 .bf16) (x1 : Vec F S2048x128 .f32)

-- The body where the output is not stored: the accumulator, reset first where the sum restarts, takes one more product.
set_option maxHeartbeats 1000000 in
theorem run7_AB (hc1 : ¬cond7_1 i) (s s' : Vec F S2560x128 .f32) (h : cond7_0 i ∧ s' = k7_pay1 ∨ ¬cond7_0 i ∧ s' = s) (E : Set ℕ) (K : PUnit → sProp 𝕄) :
    iprop(owns c arg2 fullShare x0 ∗ owns c arg3 fullShare x1 ∗ owns c arg6 fullShare s
        ∗ (iprop(owns c arg2 fullShare x0 ∗ owns c arg3 fullShare x1 ∗ owns c arg6 fullShare (k7_pay2 x0 x1 s')) -∗ K ⟨⟩))
      ⊢ wp frame (wpE (defs₀ (F := F)) Variants.none c none) E (cc7__agg_kernel i arg2 harg2 arg3 harg3 arg4 harg4 arg5 harg5 arg6 harg6) K := by
  simp only [cc7__agg_kernel_eq_skeleton]; unfold cc7__agg_kernel_skel
  rw [owns_unread c harg2, owns_unread c harg3]; unfold owns
  iintro ⟨H0, H1, ⟨%fs, %hfs, HS⟩, Hk⟩
  obtain rfl := harg6.eq_unread hfs
  rcases h with ⟨hc0, rfl⟩ | ⟨hc0, rfl⟩ <;>
  · sl_exec (disch := first | exact hc0 | exact hc1)
    sl_step
    iapply Hk
    iframe H0 H1
    iexists _; isplitr
    swap; · iexact HS
    ipureintro
    sl_unfold_run_names
    rw [read_writes_unit]
    simp only [View.readAt_eq_ld, harg2.read_unread, harg3.read_unread, harg6.read_unread, ld_unit, readCov_unit]

-- The body at the last step of a sum: the output takes the value computed from the completed sum.
set_option maxHeartbeats 1000000 in
theorem run7_C (hc0 : ¬cond7_0 i) (hc1 : cond7_1 i) (x2 : Vec F S1x128 .f32) (s : Vec F S2560x128 .f32) (E : Set ℕ) (K : PUnit → sProp 𝕄) :
    iprop(owns c arg2 fullShare x0 ∗ owns c arg3 fullShare x1 ∗ owns c arg4 fullShare x2 ∗ (∃ d, owns c arg5 fullShare d) ∗ owns c arg6 fullShare s
        ∗ (iprop(owns c arg2 fullShare x0 ∗ owns c arg3 fullShare x1 ∗ owns c arg4 fullShare x2 ∗ owns c arg5 fullShare (k7_pay3 (k7_pay2 x0 x1 s) x2) ∗ owns c arg6 fullShare (k7_pay2 x0 x1 s)) -∗ K ⟨⟩))
      ⊢ wp frame (wpE (defs₀ (F := F)) Variants.none c none) E (cc7__agg_kernel i arg2 harg2 arg3 harg3 arg4 harg4 arg5 harg5 arg6 harg6) K := by
  simp only [cc7__agg_kernel_eq_skeleton]; unfold cc7__agg_kernel_skel
  rw [owns_unread c harg2, owns_unread c harg3, owns_unread c harg4]; unfold owns
  iintro ⟨H0, H1, H2, ⟨%d5, %f5, -, H5⟩, ⟨%fs, %hfs, HS⟩, Hk⟩
  obtain rfl := harg6.eq_unread hfs
  sl_exec (disch := first | exact hc0 | exact hc1)
  sl_step
  iapply Hk
  iframe H0 H1 H2
  isplitl [H5]
  · iexists _; isplitr
    swap; · iexact H5
    ipureintro
    sl_unfold_run_names
    rw [read_writes_unit]
    simp only [View.readAt_eq_ld, harg2.read_unread, harg3.read_unread, harg4.read_unread, harg6.read_unread, ld_unit, readCov_unit]
  iexists _; isplitr
  swap; · iexact HS
  ipureintro
  sl_unfold_run_names
  rw [read_writes_unit]
  simp only [View.readAt_eq_ld, harg2.read_unread, harg3.read_unread, harg6.read_unread, ld_unit, readCov_unit]

end

abbrev ms7_0 (t : Fin cfg7.N) : Memref sig .tc .vmem S2560x2048 .bf16 := win7_0.stage (cfg7.slots t 0)
abbrev ms7_1 (t : Fin cfg7.N) : Memref sig .tc .vmem S2048x128 .f32 := win7_1.stage (cfg7.slots t 1)
abbrev ms7_2 (t : Fin cfg7.N) : Memref sig .tc .vmem S1x128 .f32 := win7_2.stage (cfg7.slots t 2)
abbrev ms7_3 (t : Fin cfg7.N) : Memref sig .tc .vmem S2560x128 .f32 := win7_3.stage (cfg7.slots t 3)

-- The body at any point, by its position mod 5: restart, middle, or last step.
set_option maxHeartbeats 4000000 in
theorem sound_body7 (t : Fin cfg7.N) :
    iprop(Phi7 V c t.val ∗ (dat7 V c).owesAt () t.castSucc
      ∗ (∃ d, owns c (ms7_0 t) fullShare ((dat7 V c).before 0 t d))
      ∗ (∃ d, owns c (ms7_1 t) fullShare ((dat7 V c).before 1 t d))
      ∗ (∃ d, owns c (ms7_2 t) fullShare ((dat7 V c).before 2 t d))
      ∗ (∃ d, owns c (ms7_3 t) fullShare ((dat7 V c).before 3 t d)))
      ⊢ wp frame (wpE (defs₀ (F := F)) Variants.none c none) Set.univ (bodyAt7 t) (fun _ => iprop(Phi7 V c (t.val + 1) ∗ (dat7 V c).owesAt () t.castSucc
          ∗ owns c (ms7_0 t) fullShare (iblk7 V c 0 t)
          ∗ owns c (ms7_1 t) fullShare (iblk7 V c 1 t)
          ∗ owns c (ms7_2 t) fullShare (iblk7 V c 2 t)
          ∗ (dat7 V c).leavesExact 3 t)) := by
  unfold bodyAt7
  simp only [before7_0, before7_1, before7_2]
  have hN : t.val < 20 := lt_of_lt_of_eq t.isLt (show cfg7.N = 20 from N_7)
  by_cases h0 : t.val % 5 = 0
  · have h4 : ¬t.val % 5 = 4 := by omega
    rw [Dat.leavesExact_idle (dat7 V c) 3 t (idleAt7_3 t h4) (noFlush7_3 t h4)]
    rw [Phi7, Phi7, if_pos h0, if_neg (by omega : ¬(t.val + 1) % 5 = 0), Nat.add_sub_cancel, accN7_zero V c t.val t.isLt h0,
      ← k7_pay1_eq, ← k7_pay2_eq]
    iintro ⟨⟨HR, Hg, ⟨%ds, HS⟩⟩, Ho, ⟨%d0, H0⟩, ⟨%d1, H1⟩, ⟨%d2, H2⟩, H3⟩
    iapply (run7_AB c (grid7.coords t) (iblk7 V c 0 t) (iblk7 V c 1 t) (fun h => h4 ((hcond7_1 t).mp h)) ds _ (.inl ⟨(hcond7_0 t).mpr h0, rfl⟩) Set.univ _)
    iframe H0 H1 HS
    iintro ⟨H0, H1, HS⟩
    iframe
  · by_cases h4 : t.val % 5 = 4
    · rw [show (dat7 V c).leavesExact 3 t = owns c (ms7_3 t) fullShare (outv7 (acc7 V c t) (iblk7 V c 2 t)) from leavesExact_live _ 3 t (liveAt7_3 t h4)]
      rw [Phi7, Phi7, if_neg h0, if_pos (by omega : (t.val + 1) % 5 = 0), acc7, accN7_succ V c t.val t.isLt h0,
        ← k7_pay2_eq, ← k7_pay3_eq]
      iintro ⟨⟨HR, Hg, HS⟩, Ho, ⟨%d0, H0⟩, ⟨%d1, H1⟩, ⟨%d2, H2⟩, ⟨%d3, H3⟩⟩
      iapply (run7_C c (grid7.coords t) (iblk7 V c 0 t) (iblk7 V c 1 t) (fun h => h0 ((hcond7_0 t).mp h)) ((hcond7_1 t).mpr h4) (iblk7 V c 2 t) (accN7 V c (t.val - 1)) Set.univ _)
      iframe H0 H1 H2 HS
      isplitl [H3]; · iexists _; iexact H3
      iintro ⟨H0, H1, H2, H3, HS⟩
      iframe HR Hg Ho H0 H1 H2 H3
      iexists _; iexact HS
    · rw [Dat.leavesExact_idle (dat7 V c) 3 t (idleAt7_3 t h4) (noFlush7_3 t h4)]
      rw [Phi7, Phi7, if_neg h0, if_neg (by omega : ¬(t.val + 1) % 5 = 0), Nat.add_sub_cancel, accN7_succ V c t.val t.isLt h0,
        ← k7_pay2_eq]
      iintro ⟨⟨HR, Hg, HS⟩, Ho, ⟨%d0, H0⟩, ⟨%d1, H1⟩, ⟨%d2, H2⟩, H3⟩
      iapply (run7_AB c (grid7.coords t) (iblk7 V c 0 t) (iblk7 V c 1 t) (fun h => h4 ((hcond7_1 t).mp h)) (accN7 V c (t.val - 1)) _ (.inr ⟨fun h => h0 ((hcond7_0 t).mp h), rfl⟩) Set.univ _)
      iframe H0 H1 HS
      iintro ⟨H0, H1, HS⟩
      iframe

theorem body_obligation7 : BodyObligation (dat7 (F := F) V c) (defs₀ (F := F)) Variants.none () Set.univ := fun t => by
  rw [bigSep_W7, bigSep_W7]
  exact sound_body7 V c t

-- The sum restarts at the first point, so the invariant asks nothing of the accumulator there,
theorem phi_in7 :
    (iprop((∃ r, prngReg c r) ∗ Pipeline.scopedRest (Ix := Unit) (Name := ℕ) (U := UR sig nD τ) (Lvl := ℕ) (Val := Elt F) spec7 c) : sProp 𝕄)
      ⊢ (dat7 V c).Φ 0 := by
  rw [show (dat7 V c).Φ 0 = Phi7 V c 0 from rfl, Phi7, if_pos (Nat.zero_mod 5), scopedRest7_split]
  simp only [scM7, owns_whole]
  iintro ⟨Hg, HS, HR⟩
  iframe

-- and it restarts after the last point, so nothing is left to give back.
theorem phi_out7 :
    (dat7 V c).Φ (Fin.last cfg7.N)
      ⊢ (iprop((∃ r, prngReg c r) ∗ Pipeline.scopedRest (Ix := Unit) (Name := ℕ) (U := UR sig nD τ) (Lvl := ℕ) (Val := Elt F) spec7 c) : sProp 𝕄) := by
  rw [show (dat7 V c).Φ (Fin.last cfg7.N) = Phi7 V c 20 from rfl, Phi7, if_pos (by decide : 20 % 5 = 0), scopedRest7_split]
  simp only [scM7, owns_whole]
  iintro ⟨HR, Hg, HS⟩
  iframe

end Cert.Kernel.Hand

end
-- ==== Proof.K.Lin8.lean ====
import proofs.«419824_j13683765805591_3_alg».proof.Proof.Gen.Kernel.Launch
import proofs.«419824_j13683765805591_3_alg».proof.Proof.Gen.Kernel.Skeleton
import proofs.«419824_j13683765805591_3_alg».proof.Proof.Gen.Kernel.Points
import proofs.«419824_j13683765805591_3_alg».proof.Proof.FrameLib
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.Kernel Cert.Kernel.Gen Cert.FrameLib

variable {F : FTy → Type} [FloatOps F]

local notation "𝕄" => MT nD τ sig Unit (Elt F) ℕ (UR sig nD τ) ℕ

abbrev r8_0 : Rect S2560x128 := Rect.unit (s := S2560x128) ![0, 0] S2560x128.size inb_S2560x128_S2560x128_0_0
abbrev r8_1 : Rect S128x16 := Rect.unit (s := S128x16) ![0, 0] S128x16.size inb_S128x16_S128x16_0_0
abbrev r8_2 : Rect S1x16 := Rect.unit (s := S1x16) ![0, 0] S1x16.size inb_S1x16_S1x16_0_0
abbrev r8_3 : Rect S2560x16 := Rect.unit (s := S2560x16) ![0, 0] S2560x16.size inb_S2560x16_S2560x16_0_0

def out8_3 (x0 : Vec F S2560x128 .f32) (x1 : Vec F S128x16 .bf16) (x2 : Vec F S1x16 .f32) : Vec F S2560x16 .f32 :=
  View.canon [⟨r8_3, k8_pay1 (View.ld x0 r8_0) (View.ld x1 r8_1) (View.ld x2 r8_2)⟩]

-- a load through the whole buffer reads its contents, and one store through it leaves its payload
theorem out8_3_eq (x0 : Vec F S2560x128 .f32) (x1 : Vec F S128x16 .bf16) (x2 : Vec F S1x16 .f32) :
    out8_3 x0 x1 x2 = addf (matmul dot_S2560x128_S128x16_S2560x16_1_0_0_1_n_n none (truncf .bf16 (shapeCast S2560x128 x0 shapeCasts_S2560x128_S2560x128) bitsLt_bf16_f32) (shapeCast S128x16 x1 shapeCasts_S128x16_S128x16) (constant S2560x16 .f32 0x00000000#32)) (broadcastTo S2560x16 (shapeCast S1x16 x2 shapeCasts_S1x16_S1x16) broadcasts_S1x16_S2560x16) := by
  unfold out8_3
  rw [View.canon_unit_zero hz2, ld_unit, ld_unit, ld_unit]
  rfl

-- the body reads the three inputs whole and stores once through the whole output, so the output ends at out8_3 of the inputs
theorem sound_kernel8 (c : Dev nD) {i arg1 harg1 arg2 harg2 arg3 harg3 arg4 harg4} (x0 x1 x2) (K : PUnit → sProp 𝕄) :
    iprop((∃ d, owns c.tc arg4 fullShare d) ∗ owns c.tc arg1 fullShare x0 ∗ owns c.tc arg2 fullShare x1 ∗ owns c.tc arg3 fullShare x2
        ∗ (owns c.tc arg1 fullShare x0 -∗ owns c.tc arg2 fullShare x1 -∗ owns c.tc arg3 fullShare x2
            -∗ owns c.tc arg4 fullShare (out8_3 x0 x1 x2) -∗ K ⟨⟩))
      ⊢ wp frame (wpE (defs₀ (F := F)) Variants.none c none) Set.univ (cc8__linear_kernel i arg1 harg1 arg2 harg2 arg3 harg3 arg4 harg4) K := by
  simp only [cc8__linear_kernel_eq_skeleton]; unfold cc8__linear_kernel_skel owns
  iintro ⟨⟨%d3, %f3, -, H3⟩, ⟨%f0, %hf0, H0⟩, ⟨%f1, %hf1, H1⟩, ⟨%f2, %hf2, H2⟩, Hk⟩
  subst hf0 hf1 hf2
  sl_exec
  sl_step
  iapply Hk $$ [H0] [H1] [H2] [H3] <;> (iexists _; isplitr; swap; iassumption; ipureintro)
  · rfl
  · rfl
  · rfl
  exact View.read_writes_eq_canon _ _ _ fun y => ⟨_, List.mem_singleton_self _, View.mem_set_unit_zero hz2 inb_S2560x16_S2560x16_0_0 y⟩

variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => out8_3 (iblk8 V c 0 t) (iblk8 V c 1 t) (iblk8 V c 2 t)
  Φ _ := Pipeline.ΦA spec8 c
  q _ := fullShare
  owed _ := 0

theorem A_eq8 (c : Dev nD) (w : Fin cfg8.W) : (dat8 V c).A w = V c (Pipeline.arrRef spec8 w) := rfl
theorem q_eq8 (c : Dev nD) (w : Fin cfg8.W) : (dat8 V c).q w = fullShare := rfl
theorem owed_eq8 (c : Dev nD) (t : Fin (cfg8.N + 1)) : (dat8 V c).owed t = 0 := rfl
theorem after8_3 (c : Dev nD) (t : Fin cfg8.N) : (dat8 V c).after 3 t = out8_3 (iblk8 V c 0 t) (iblk8 V c 1 t) (iblk8 V c 2 t) := by dsimp only [dat8]

theorem before8_0 (c t d) : (dat8 V c).before 0 t d = iblk8 V c 0 t :=
  (dat8 V c).before_in_eq_fetched 0 rfl (fun _ => rfl) (fun _ _ _ => rfl) (fun _ => rfl) t d
theorem before8_1 (c t d) : (dat8 V c).before 1 t d = iblk8 V c 1 t :=
  (dat8 V c).before_in_eq_fetched 1 rfl (fun _ => rfl) (fun _ _ _ => rfl) (fun _ => rfl) t d
theorem before8_2 (c t d) : (dat8 V c).before 2 t d = iblk8 V c 2 t :=
  (dat8 V c).before_in_eq_fetched 2 rfl (fun _ => rfl) (fun _ _ _ => rfl) (fun _ => rfl) t d

-- the inputs are at their blocks, so the kernel's triple applies; the invariant and what is owed pass through
theorem body_obligation8 (c : Dev nD) : BodyObligation (dat8 (F := F) V c) (defs₀ (F := F)) Variants.none () Set.univ := fun t => by
  rw [bigSep_W8, bigSep_W8]
  simp only [before8_0, before8_1, before8_2, after8_3, show (dat8 V c).Φ t.succ = (dat8 V c).Φ t.castSucc from rfl,
    show (dat8 V c).owesAt () t.succ = (dat8 V c).owesAt () t.castSucc from rfl, show (dat8 V c).after 0 t = iblk8 V c 0 t from rfl,
    show (dat8 V c).after 1 t = iblk8 V c 1 t from rfl, show (dat8 V c).after 2 t = iblk8 V c 2 t from rfl]
  show _ ⊢ wp _ _ _ (bodyAt8 t) _
  iintro ⟨HΦ, Ho, ⟨%d0, H0⟩, ⟨%d1, H1⟩, ⟨%d2, H2⟩, ⟨%d3, H3⟩⟩
  iapply sound_kernel8 c (iblk8 V c 0 t) (iblk8 V c 1 t) (iblk8 V c 2 t) _
  isplitl [H3]; · iexists _; iexact H3
  iframe H0 H1 H2
  iintro H0 H1 H2 H3
  iframe

theorem phi_in8 (c : Dev nD) :
    (iprop((∃ r, prngReg c r) ∗ Pipeline.scopedRest (Ix := Unit) (Name := ℕ) (U := UR sig nD τ) (Lvl := ℕ) (Val := Elt F) spec8 c) : sProp 𝕄)
      ⊢ (dat8 V c).Φ 0 := sep_symm
theorem phi_out8 (c : Dev nD) :
    (dat8 V c).Φ (Fin.last cfg8.N)
      ⊢ (iprop((∃ r, prngReg c r) ∗ Pipeline.scopedRest (Ix := Unit) (Name := ℕ) (U := UR sig nD τ) (Lvl := ℕ) (Val := Elt F) spec8 c) : sProp 𝕄) := sep_symm

end Cert.Kernel.Hand

end
-- ==== Proof.K.Run.lean ====
import proofs.«419824_j13683765805591_3_alg».proof.Proof.Gen.Kernel.Launch
import proofs.«419824_j13683765805591_3_alg».proof.Proof.Gen.Kernel.Skeleton
import proofs.«419824_j13683765805591_3_alg».proof.Proof.Gen.Kernel.Points
import proofs.«419824_j13683765805591_3_alg».proof.Proof.Gen.Kernel.Regions
import proofs.«419824_j13683765805591_3_alg».proof.Proof.K.Lin0
import proofs.«419824_j13683765805591_3_alg».proof.Proof.K.Agg1
import proofs.«419824_j13683765805591_3_alg».proof.Proof.K.Lin2
import proofs.«419824_j13683765805591_3_alg».proof.Proof.K.Agg3
import proofs.«419824_j13683765805591_3_alg».proof.Proof.K.Lin4
import proofs.«419824_j13683765805591_3_alg».proof.Proof.K.Agg5
import proofs.«419824_j13683765805591_3_alg».proof.Proof.K.Lin6
import proofs.«419824_j13683765805591_3_alg».proof.Proof.K.Agg7
import proofs.«419824_j13683765805591_3_alg».proof.Proof.K.Lin8
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

abbrev rdv (W : Dev nD → Valuation τ sig (Elt F)) : (c : Dev nD) → (b : Ref sig .tc) → Buf (Elt F) ((c : Thread nD τ).loc b) := fun c b => W c b

abbrev W13 (c : Dev nD) : Valuation τ sig (Elt F) := Gen.V13 m c
abbrev X13 := rdv (W13 m)

def o14 (c : Dev nD) : Buf (Elt F) ((c : Thread nD τ).loc main_v63) := (dat0 (X13 m) c).arrAt 3 cfg0.N
def W14 (c : Dev nD) : Valuation τ sig (Elt F) := Function.update (W13 m c) main_v63 (o14 m c)
def W15 (c : Dev nD) : Valuation τ sig (Elt F) := StableHlo.after hostOps1 (W14 m c)
abbrev X15 := rdv (W15 m)

def o16 (c : Dev nD) : Buf (Elt F) ((c : Thread nD τ).loc main_v65) := (dat1 (X15 m) c).arrAt 3 cfg1.N
def W16 (c : Dev nD) : Valuation τ sig (Elt F) := Function.update (W15 m c) main_v65 (o16 m c)
def W17 (c : Dev nD) : Valuation τ sig (Elt F) := StableHlo.after hostOps2 (W16 m c)
abbrev X17 := rdv (W17 m)

def o18 (c : Dev nD) : Buf (Elt F) ((c : Thread nD τ).loc main_v68) := (dat2 (X17 m) c).arrAt 3 cfg2.N
def W18 (c : Dev nD) : Valuation τ sig (Elt F) := Function.update (W17 m c) main_v68 (o18 m c)
def W19 (c : Dev nD) : Valuation τ sig (Elt F) := StableHlo.after hostOps3 (W18 m c)
abbrev X19 := rdv (W19 m)

def o20 (c : Dev nD) : Buf (Elt F) ((c : Thread nD τ).loc main_v70) := (dat3 (X19 m) c).arrAt 3 cfg3.N
def W20 (c : Dev nD) : Valuation τ sig (Elt F) := Function.update (W19 m c) main_v70 (o20 m c)
def W21 (c : Dev nD) : Valuation τ sig (Elt F) := StableHlo.after hostOps4 (W20 m c)
abbrev X21 := rdv (W21 m)

def o22 (c : Dev nD) : Buf (Elt F) ((c : Thread nD τ).loc main_v73) := (dat4 (X21 m) c).arrAt 3 cfg4.N
def W22 (c : Dev nD) : Valuation τ sig (Elt F) := Function.update (W21 m c) main_v73 (o22 m c)
def W23 (c : Dev nD) : Valuation τ sig (Elt F) := StableHlo.after hostOps5 (W22 m c)
abbrev X23 := rdv (W23 m)

def o24 (c : Dev nD) : Buf (Elt F) ((c : Thread nD τ).loc main_v75) := (dat5 (X23 m) c).arrAt 3 cfg5.N
def W24 (c : Dev nD) : Valuation τ sig (Elt F) := Function.update (W23 m c) main_v75 (o24 m c)
def W25 (c : Dev nD) : Valuation τ sig (Elt F) := StableHlo.after hostOps6 (W24 m c)
abbrev X25 := rdv (W25 m)

def o26 (c : Dev nD) : Buf (Elt F) ((c : Thread nD τ).loc main_v78) := (dat6 (X25 m) c).arrAt 3 cfg6.N
def W26 (c : Dev nD) : Valuation τ sig (Elt F) := Function.update (W25 m c) main_v78 (o26 m c)
def W27 (c : Dev nD) : Valuation τ sig (Elt F) := StableHlo.after hostOps7 (W26 m c)
abbrev X27 := rdv (W27 m)

def o28 (c : Dev nD) : Buf (Elt F) ((c : Thread nD τ).loc main_v80) := (dat7 (X27 m) c).arrAt 3 cfg7.N
def W28 (c : Dev nD) : Valuation τ sig (Elt F) := Function.update (W27 m c) main_v80 (o28 m c)
def W29 (c : Dev nD) : Valuation τ sig (Elt F) := StableHlo.after hostOps8 (W28 m c)
abbrev X29 := rdv (W29 m)

def o30 (c : Dev nD) : Buf (Elt F) ((c : Thread nD τ).loc main_v82) := (dat8 (X29 m) c).arrAt 3 cfg8.N
def W30 (c : Dev nD) : Valuation τ sig (Elt F) := Function.update (W29 m c) main_v82 (o30 m c)

def outs : Gen.Outs (F := F) := fun J r c =>
  match J with
  | 14 => W14 m c r
  | 16 => W16 m c r
  | 18 => W18 m c r
  | 20 => W20 m c r
  | 22 => W22 m c r
  | 24 => W24 m c r
  | 26 => W26 m c r
  | 28 => W28 m c r
  | 30 => W30 m c r
  | _ => Gen.V0 m c r

theorem outs_14 (c : Dev nD) : outs m 14 main_v63 c = o14 m c := by rw [outs, W14, Function.update_self]
theorem V15_eq (c : Dev nD) : Gen.V15 m (outs m) c = W15 m c := by rw [Gen.V15, Gen.V14, outs_14]; rfl
theorem o_eq0 (c : Dev nD) : o14 m c = (dat0 (X13 m) c).arrAt 3 cfg0.N := rfl

theorem outs_16 (c : Dev nD) : outs m 16 main_v65 c = o16 m c := by rw [outs, W16, Function.update_self]
theorem V17_eq (c : Dev nD) : Gen.V17 m (outs m) c = W17 m c := by rw [Gen.V17, Gen.V16, outs_16, V15_eq]; rfl
theorem o_eq1 (c : Dev nD) : o16 m c = (dat1 (X15 m) c).arrAt 3 cfg1.N := rfl

theorem outs_18 (c : Dev nD) : outs m 18 main_v68 c = o18 m c := by rw [outs, W18, Function.update_self]
theorem V19_eq (c : Dev nD) : Gen.V19 m (outs m) c = W19 m c := by rw [Gen.V19, Gen.V18, outs_18, V17_eq]; rfl
theorem o_eq2 (c : Dev nD) : o18 m c = (dat2 (X17 m) c).arrAt 3 cfg2.N := rfl

theorem outs_20 (c : Dev nD) : outs m 20 main_v70 c = o20 m c := by rw [outs, W20, Function.update_self]
theorem V21_eq (c : Dev nD) : Gen.V21 m (outs m) c = W21 m c := by rw [Gen.V21, Gen.V20, outs_20, V19_eq]; rfl
theorem o_eq3 (c : Dev nD) : o20 m c = (dat3 (X19 m) c).arrAt 3 cfg3.N := rfl

theorem outs_22 (c : Dev nD) : outs m 22 main_v73 c = o22 m c := by rw [outs, W22, Function.update_self]
theorem V23_eq (c : Dev nD) : Gen.V23 m (outs m) c = W23 m c := by rw [Gen.V23, Gen.V22, outs_22, V21_eq]; rfl
theorem o_eq4 (c : Dev nD) : o22 m c = (dat4 (X21 m) c).arrAt 3 cfg4.N := rfl

theorem outs_24 (c : Dev nD) : outs m 24 main_v75 c = o24 m c := by rw [outs, W24, Function.update_self]
theorem V25_eq (c : Dev nD) : Gen.V25 m (outs m) c = W25 m c := by rw [Gen.V25, Gen.V24, outs_24, V23_eq]; rfl
theorem o_eq5 (c : Dev nD) : o24 m c = (dat5 (X23 m) c).arrAt 3 cfg5.N := rfl

theorem outs_26 (c : Dev nD) : outs m 26 main_v78 c = o26 m c := by rw [outs, W26, Function.update_self]
theorem V27_eq (c : Dev nD) : Gen.V27 m (outs m) c = W27 m c := by rw [Gen.V27, Gen.V26, outs_26, V25_eq]; rfl
theorem o_eq6 (c : Dev nD) : o26 m c = (dat6 (X25 m) c).arrAt 3 cfg6.N := rfl

theorem outs_28 (c : Dev nD) : outs m 28 main_v80 c = o28 m c := by rw [outs, W28, Function.update_self]
theorem V29_eq (c : Dev nD) : Gen.V29 m (outs m) c = W29 m c := by rw [Gen.V29, Gen.V28, outs_28, V27_eq]; rfl
theorem o_eq7 (c : Dev nD) : o28 m c = (dat7 (X27 m) c).arrAt 3 cfg7.N := rfl

theorem outs_30 (c : Dev nD) : outs m 30 main_v82 c = o30 m c := by rw [outs, W30, Function.update_self]
theorem o_eq8 (c : Dev nD) : o30 m c = (dat8 (X29 m) c).arrAt 3 cfg8.N := rfl

def pdats : (p : Fin 9) → (c : Dev nD) → Dat τ (Elt F) Unit ℕ (UR sig nD τ) ℕ (cfgs p) c
  | ⟨0, _⟩ => fun c => dat0 (X13 m) c
  | ⟨1, _⟩ => fun c => dat1 (X15 m) c
  | ⟨2, _⟩ => fun c => dat2 (X17 m) c
  | ⟨3, _⟩ => fun c => dat3 (X19 m) c
  | ⟨4, _⟩ => fun c => dat4 (X21 m) c
  | ⟨5, _⟩ => fun c => dat5 (X23 m) c
  | ⟨6, _⟩ => fun c => dat6 (X25 m) c
  | ⟨7, _⟩ => fun c => dat7 (X27 m) c
  | ⟨8, _⟩ => fun c => dat8 (X29 m) c

abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev E : Fin 10 → Dev nD → sProp 𝕄 := fun _ c => R c

section Owes

variable {cfg : Cfg sig Λ₀} {c : Dev nD} (d : Dat τ (Elt F) Unit ℕ (UR sig nD τ) ℕ cfg c) {t : Fin (cfg.N + 1)} (h0 : d.owed t = 0)
include h0

-- A point with no dues and no bound on what was recorded asks only that nothing is owed,
theorem owes_in (hr : d.recorded t = Set.univ) : (iprop(∃ W, owes (c : Thread nD τ) (0 : CellTallies nD τ sig Unit) W) : sProp 𝕄) ⊢ d.owesAt () t := by
  unfold Pipeline.Dat.owesAt Pipeline.owesWithin
  rw [h0]
  iintro ⟨%W, HO⟩; iexists W; isplitr
  · ipureintro; exact fun x _ => Or.inl (by rw [hr]; trivial)
  iexact HO

-- and leaves nothing owed.
theorem owes_out : d.owesAt () t ⊢ (iprop(∃ W, owes (c : Thread nD τ) (0 : CellTallies nD τ sig Unit) W) : sProp 𝕄) := by
  unfold Pipeline.Dat.owesAt Pipeline.owesWithin
  rw [h0]
  iintro ⟨%W, -, HO⟩; iexists W; iexact HO

end Owes

section Region

abbrev ends (p : Fin 9) (c : Dev nD) : sProp 𝕄 :=
  iprop((∃ r, prngReg c r) ∗ Pipeline.scopedRest (Ix := Unit) (Name := ℕ) (U := UR sig nD τ) (Lvl := ℕ) (Val := Elt F) (cfgs p).spec c)

variable (pd : (p : Fin 9) → (c : Dev nD) → Dat τ (Elt F) Unit ℕ (UR sig nD τ) ℕ (cfgs p) c) {p : Fin 9}
  (lf : Pipeline.LaunchFacts (nD := nD) (τ := τ) cfgs p) {o : Fin (cfgs p).W} (W : Dev nD → Valuation τ sig (Elt F))

abbrev exitAt (c : Dev nD) : Valuation τ sig (Elt F) :=
  Function.update (W c) (Pipeline.arrRef (cfgs p).spec o) ((pd p c).arrAt o (cfgs p).N)

set_option backward.isDefEq.respectTransparency.types false in
-- A region that writes one array only takes every buffer from the entry contents to those contents updated at that array.
def regSeg (hio : ∀ w, w ≠ o → ((cfgs p).spec w).isOut = false) {V : Dev nD → Valuation τ sig (Elt F)} (hV : ∀ c, V c = W c)
    {x : (c : Dev nD) → Buf (Elt F) ((c : Thread nD τ).loc (Pipeline.arrRef (cfgs p).spec o))} (hx : ∀ c, x c = (pd p c).arrAt o (cfgs p).N)
    (hb : ∀ c, BodyObligation (pd p c) (defs₀ (F := F)) Variants.none () Set.univ)
    (howed : ∀ c t, (pd p c).owed t = 0) (hrec : ∀ c, (pd p c).recorded 0 = Set.univ)
    (hq : ∀ c w, (pd p c).q w = fullShare) (hA : ∀ c w, (pd p c).A w = rdv W c (Pipeline.arrRef (cfgs p).spec w))
    (hΦi : ∀ c, ends (F := F) p c ⊢ (pd p c).Φ 0)
    (hΦo : ∀ c, (pd p c).Φ (Fin.last (cfgs p).N) ⊢ ends (F := F) p c) :
    Pipeline.RegionSeg (pcfgs (F := F)) Gen.adm pd () defs₀ Variants.none L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p howed
  pre c := iprop(StableHlo.held (c : Thread nD τ) (Pipeline.ucRefs τ sig) (V c) ∗ R c)
  post c := iprop(StableHlo.held (c : Thread nD τ) (Pipeline.ucRefs τ sig) (Function.update (V c) (Pipeline.arrRef (cfgs p).spec o) (x c)) ∗ R c)
  X c := iprop(∃ r, prngReg c r)
  Y c := iprop(∃ r, prngReg c r)
  Z c := Pipeline.unscopedRest (Ix := Unit) (Name := ℕ) (U := UR sig nD τ) (Lvl := ℕ) (cfgs p).spec c (rdv W c)
  hentry c := by
    rw [Pipeline.ownSems0_none, hV c]
    have hsplit := Pipeline.arrays_of_unscopedBufs (pcfgs (F := F)) Gen.adm pd lf.win lf.arr_whole c
      ((pd p c).share_full (hq c)) (rdv W c) (hA c)
    rw [Pipeline.unscopedBufs_held c (W c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply (owes_in (pd p c) (howed c 0) (hrec c)); iexact HO
    isplitl [Hp]; · iexact Hp
    iexact Hrest
  hin c := by
    refine BIBase.Entails.trans ?_ (hΦi c)
    iintro ⟨Hp, -, Hr⟩
    isplitl [Hp]; · iexact Hp
    iexact Hr
  hout c := by
    rw [Pipeline.ownSems0_none]
    refine BIBase.Entails.trans (hΦo c) ?_
    iintro ⟨Hp, Hr⟩
    isplitl [Hp]; · iexact Hp
    isplitr; · iempintro
    iexact Hr
  hexit c := by
    have hjoin := Pipeline.unscopedBufs_of_arrays (pcfgs (F := F)) Gen.adm (Ix := Unit) (Name := ℕ) (U := UR sig nD τ) (Lvl := ℕ)
      lf.win lf.arr_whole c pd ((pd p c).share_full (hq c)) (rdv W c) (rdv (exitAt pd (o := o) W) c) ((pd p c).arrAt · (cfgs p).N)
      (fun w => by
        by_cases h : w = o
        · subst h; exact Eq.symm (Function.update_self _ _ _)
        · exact ((pd p c).arrAt_in w (hio w h) _).trans ((hA c w).trans
            (Function.update_of_ne (StableHlo.devRef_ne_of_ne fun e => h (lf.win.arr_inj e)) _ _).symm))
      fun b hb => Function.update_of_ne (StableHlo.devRef_ne_of_ne fun e => hb (Finset.mem_image.mpr ⟨o, Finset.mem_univ _, e.symm⟩)) _ _
    rw [Pipeline.unscopedBufs_held c (exitAt pd (o := o) W c)] at hjoin
    rw [hV c, hx c]
    iintro ⟨Ha, HO, HY, Hrest⟩
    imodintro
    isplitl [Ha Hrest]
    · iapply hjoin; isplitl [Ha] <;> iassumption
    isplitl [HY]; · iexact HY
    iapply (owes_out (pd p c) (howed c (Fin.last _))); iexact HO

end Region

def reg0 := regSeg (pdats m) launch0 (W13 m) (by decide : ∀ w, w ≠ 3 → (spec0 w).isOut = false) (fun _ => rfl) (outs_14 m)
  (body_obligation0 (X13 m)) (owed_eq0 (X13 m)) (fun _ => rfl) (q_eq0 (X13 m)) (A_eq0 (X13 m)) (phi_in0 (X13 m)) (phi_out0 (X13 m))

def reg1 := regSeg (pdats m) launch1 (W15 m) (by decide : ∀ w, w ≠ 3 → (spec1 w).isOut = false) (V15_eq m) (outs_16 m)
  (body_obligation1 (X15 m)) (owed_eq1 (X15 m)) (fun _ => rfl) (q_eq1 (X15 m)) (A_eq1 (X15 m)) (phi_in1 (X15 m)) (phi_out1 (X15 m))

def reg2 := regSeg (pdats m) launch2 (W17 m) (by decide : ∀ w, w ≠ 3 → (spec2 w).isOut = false) (V17_eq m) (outs_18 m)
  (body_obligation2 (X17 m)) (owed_eq2 (X17 m)) (fun _ => rfl) (q_eq2 (X17 m)) (A_eq2 (X17 m)) (phi_in2 (X17 m)) (phi_out2 (X17 m))

def reg3 := regSeg (pdats m) launch3 (W19 m) (by decide : ∀ w, w ≠ 3 → (spec3 w).isOut = false) (V19_eq m) (outs_20 m)
  (body_obligation3 (X19 m)) (owed_eq3 (X19 m)) (fun _ => rfl) (q_eq3 (X19 m)) (A_eq3 (X19 m)) (phi_in3 (X19 m)) (phi_out3 (X19 m))

def reg4 := regSeg (pdats m) launch4 (W21 m) (by decide : ∀ w, w ≠ 3 → (spec4 w).isOut = false) (V21_eq m) (outs_22 m)
  (body_obligation4 (X21 m)) (owed_eq4 (X21 m)) (fun _ => rfl) (q_eq4 (X21 m)) (A_eq4 (X21 m)) (phi_in4 (X21 m)) (phi_out4 (X21 m))

def reg5 := regSeg (pdats m) launch5 (W23 m) (by decide : ∀ w, w ≠ 3 → (spec5 w).isOut = false) (V23_eq m) (outs_24 m)
  (body_obligation5 (X23 m)) (owed_eq5 (X23 m)) (fun _ => rfl) (q_eq5 (X23 m)) (A_eq5 (X23 m)) (phi_in5 (X23 m)) (phi_out5 (X23 m))

def reg6 := regSeg (pdats m) launch6 (W25 m) (by decide : ∀ w, w ≠ 3 → (spec6 w).isOut = false) (V25_eq m) (outs_26 m)
  (body_obligation6 (X25 m)) (owed_eq6 (X25 m)) (fun _ => rfl) (q_eq6 (X25 m)) (A_eq6 (X25 m)) (phi_in6 (X25 m)) (phi_out6 (X25 m))

def reg7 := regSeg (pdats m) launch7 (W27 m) (by decide : ∀ w, w ≠ 3 → (spec7 w).isOut = false) (V27_eq m) (outs_28 m)
  (body_obligation7 (X27 m)) (owed_eq7 (X27 m)) (fun _ => rfl) (q_eq7 (X27 m)) (A_eq7 (X27 m)) (phi_in7 (X27 m)) (phi_out7 (X27 m))

def reg8 := regSeg (pdats m) launch8 (W29 m) (by decide : ∀ w, w ≠ 3 → (spec8 w).isOut = false) (V29_eq m) (outs_30 m)
  (body_obligation8 (X29 m)) (owed_eq8 (X29 m)) (fun _ => rfl) (q_eq8 (X29 m)) (A_eq8 (X29 m)) (phi_in8 (X29 m)) (phi_out8 (X29 m))

theorem hu0 : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ fun _ : Dev nD => (iprop(emp) : sProp 𝕄)) := by
  iintro Hu; imodintro
  isplitl [Hu]
  · iapply (show (ownU (initOf (Pipeline.cells cfgs cellOf_inj) (Pipeline.launchToks cfgs cellOf_inj)) : sProp 𝕄) ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

set_option backward.isDefEq.respectTransparency.types false in
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Gen.frame_cond m emb₁ () Variants.none L lv (fun _ _ => rfl) ρ (outs m) (pdats m) 0 (fun _ => iprop(emp)) _ hu0
    E (Pipeline.initEach L lv fun c => by
      iintro ⟨⟨-, HO, -, Hp, -⟩, -⟩
      imodintro
      isplitl [Hp]; · iexists _; iexact Hp
      iexists ∅; iexact HO) (fun c => by iintro ⟨-, HO⟩; iexact HO)
    (reg0 m) (fun _ => .rfl) (fun _ => .rfl)
    (reg1 m) (fun _ => .rfl) (fun _ => .rfl)
    (reg2 m) (fun _ => .rfl) (fun _ => .rfl)
    (reg3 m) (fun _ => .rfl) (fun _ => .rfl)
    (reg4 m) (fun _ => .rfl) (fun _ => .rfl)
    (reg5 m) (fun _ => .rfl) (fun _ => .rfl)
    (reg6 m) (fun _ => .rfl) (fun _ => .rfl)
    (reg7 m) (fun _ => .rfl) (fun _ => .rfl)
    (reg8 m) (fun _ => .rfl) (fun _ => .rfl)

set_option backward.isDefEq.respectTransparency.types false in
theorem run_full (ρ : Dev nD → PrngReg) : θ_run defs (onTc (τ := τ) (main (F := F))) ⟨m, fun _ => 0, ρ⟩
    (fun r => ∀ c : Dev nD, ∀ b ∈ Pipeline.ucRefs τ sig, r.2.mem ((c : Thread nD τ).1, b) = Gen.V31 m (outs m) c b) := by
  refine Pipeline.θ_run_regions_kit_dev (pcfgs (F := F)) Gen.adm (pdats m) () cellOf_inj emb₁ defs₀ Variants.none L lv m ρ main
    (Gen.segs m (outs m) Variants.none L lv E () (pdats m) (reg0 m) (reg1 m) (reg2 m) (reg3 m) (reg4 m) (reg5 m) (reg6 m) (reg7 m) (reg8 m))
    (fun c Q => by rw [main_chain c, Pipeline.Seg.run_eq_chain]; exact .rfl)
    (fun c => by simp only [Gen.segs, Pipeline.Seg.pipes_host, Pipeline.Seg.pipes_region, Pipeline.Seg.pipes_nil]; decide)
    0 (fun _ _ => rfl) (fun _ => iprop(emp)) _ hu0
    (T₀ := fun c => iprop(StableHlo.held (c : Thread nD τ) (Pipeline.ucRefs τ sig) (Gen.V0 m c) ∗ E 0 c))
    (Tₙ := fun c => StableHlo.held (c : Thread nD τ) (Pipeline.ucRefs τ sig) (Gen.V31 m (outs m) c))
    (hch := fun c => ⟨.rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, sep_mono .rfl (by iintro ⟨-, HO⟩; iexact HO)⟩)
    (hinit := ?_)
    (QY := fun c s => ∀ b ∈ Pipeline.ucRefs τ sig, s.mem ((c : Thread nD τ).1, b) = Gen.V31 m (outs m) c b)
    (hfin := fun c s' => ?_) (hQ := fun _ h => h)
  · refine Pipeline.initEach L lv fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hh, -, HO, -, Hp, -⟩, -⟩
    imodintro
    isplitl [Hh]; · iexact Hh
    isplitl [Hp]; · iexists _; iexact Hp
    iexists ∅; iexact HO
  · iintro ⟨Hh, HSI⟩
    unfold StableHlo.held
    imodintro
    iapply (pointsTo_read_all (Pipeline.ucRefs τ sig) (fun b => ((c : Thread nD τ).1, b)) (Gen.V31 m (outs m) c) s')
    isplitl [Hh] <;> iassumption

end Cert.Kernel.Hand

end
-- ==== Proof.KI.Lin0.lean ====
import proofs.«419824_j13683765805591_3_alg».proof.Proof.Gen.KernelIdeal.Launch
import proofs.«419824_j13683765805591_3_alg».proof.Proof.Gen.KernelIdeal.Skeleton
import proofs.«419824_j13683765805591_3_alg».proof.Proof.Gen.KernelIdeal.Points
import proofs.«419824_j13683765805591_3_alg».proof.Proof.FrameLib
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.KernelIdeal Cert.KernelIdeal.Gen Cert.FrameLib

variable {F : FTy → Type} [FloatOps F]

local notation "𝕄" => MT nD τ sig Unit (Elt F) ℕ (UR sig nD τ) ℕ

abbrev r0_0 : Rect S2560x512 := Rect.unit (s := S2560x512) ![0, 0] S2560x512.size inb_S2560x512_S2560x512_0_0
abbrev r0_1 : Rect S512x256 := Rect.unit (s := S512x256) ![0, 0] S512x256.size inb_S512x256_S512x256_0_0
abbrev r0_2 : Rect S1x256 := Rect.unit (s := S1x256) ![0, 0] S1x256.size inb_S1x256_S1x256_0_0
abbrev r0_3 : Rect S2560x256 := Rect.unit (s := S2560x256) ![0, 0] S2560x256.size inb_S2560x256_S2560x256_0_0

def out0_3 (x0 : Vec F S2560x512 .bf16) (x1 : Vec F S512x256 .bf16) (x2 : Vec F S1x256 .f32) : Vec F S2560x256 .bf16 :=
  View.canon [⟨r0_3, k0_pay1 (View.ld x0 r0_0) (View.ld x1 r0_1) (View.ld x2 r0_2)⟩]

-- a load through the whole buffer reads its contents, and one store through it leaves its payload
theorem out0_3_eq (x0 : Vec F S2560x512 .bf16) (x1 : Vec F S512x256 .bf16) (x2 : Vec F S1x256 .f32) :
    out0_3 x0 x1 x2 = truncf .bf16 (addf (matmul dot_S2560x512_S512x256_S2560x256_1_0_0_1_n_n none (shapeCast S2560x512 x0 shapeCasts_S2560x512_S2560x512) (shapeCast S512x256 x1 shapeCasts_S512x256_S512x256) (constant S2560x256 .f32 0x00000000#32)) (broadcastTo S2560x256 (shapeCast S1x256 x2 shapeCasts_S1x256_S1x256) broadcasts_S1x256_S2560x256)) bitsLt_bf16_f32 := by
  unfold out0_3
  rw [View.canon_unit_zero hz2, ld_unit, ld_unit, ld_unit]
  rfl

-- the body reads the three inputs whole and stores once through the whole output, so the output ends at out0_3 of the inputs
theorem sound_kernel0 (c : Dev nD) {i arg1 harg1 arg2 harg2 arg3 harg3 arg4 harg4} (x0 x1 x2) (K : PUnit → sProp 𝕄) :
    iprop((∃ d, owns c.tc arg4 fullShare d) ∗ owns c.tc arg1 fullShare x0 ∗ owns c.tc arg2 fullShare x1 ∗ owns c.tc arg3 fullShare x2
        ∗ (owns c.tc arg1 fullShare x0 -∗ owns c.tc arg2 fullShare x1 -∗ owns c.tc arg3 fullShare x2
            -∗ owns c.tc arg4 fullShare (out0_3 x0 x1 x2) -∗ K ⟨⟩))
      ⊢ wp frame (wpE (defs₀ (F := F)) Variants.none c none) Set.univ (cc0__linear_kernel i arg1 harg1 arg2 harg2 arg3 harg3 arg4 harg4) K := by
  simp only [cc0__linear_kernel_eq_skeleton]; unfold cc0__linear_kernel_skel owns
  iintro ⟨⟨%d3, %f3, -, H3⟩, ⟨%f0, %hf0, H0⟩, ⟨%f1, %hf1, H1⟩, ⟨%f2, %hf2, H2⟩, Hk⟩
  subst hf0 hf1 hf2
  sl_exec
  sl_step
  iapply Hk $$ [H0] [H1] [H2] [H3] <;> (iexists _; isplitr; swap; iassumption; ipureintro)
  · rfl
  · rfl
  · rfl
  exact View.read_writes_eq_canon _ _ _ fun y => ⟨_, List.mem_singleton_self _, View.mem_set_unit_zero hz2 inb_S2560x256_S2560x256_0_0 y⟩

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := rfl
theorem q_eq0 (c : Dev nD) (w : Fin cfg0.W) : (dat0 V c).q w = fullShare := rfl
theorem owed_eq0 (c : Dev nD) (t : Fin (cfg0.N + 1)) : (dat0 V c).owed t = 0 := rfl
theorem after0_3 (c : Dev nD) (t : Fin cfg0.N) : (dat0 V c).after 3 t = out0_3 (iblk0 V c 0 t) (iblk0 V c 1 t) (iblk0 V c 2 t) := by dsimp only [dat0]

theorem before0_0 (c t d) : (dat0 V c).before 0 t d = iblk0 V c 0 t :=
  (dat0 V c).before_in_eq_fetched 0 rfl (fun _ => rfl) (fun _ _ _ => rfl) (fun _ => rfl) t d
theorem before0_1 (c t d) : (dat0 V c).before 1 t d = iblk0 V c 1 t :=
  (dat0 V c).before_in_eq_fetched 1 rfl (fun _ => rfl) (fun _ _ _ => rfl) (fun _ => rfl) t d
theorem before0_2 (c t d) : (dat0 V c).before 2 t d = iblk0 V c 2 t :=
  (dat0 V c).before_in_eq_fetched 2 rfl (fun _ => rfl) (fun _ _ _ => rfl) (fun _ => rfl) t d

-- the inputs are at their blocks, so the kernel's triple applies; the invariant and what is owed pass through
theorem body_obligation0 (c : Dev nD) : BodyObligation (dat0 (F := F) V c) (defs₀ (F := F)) Variants.none () Set.univ := fun t => by
  rw [bigSep_W0, bigSep_W0]
  simp only [before0_0, before0_1, before0_2, after0_3, show (dat0 V c).Φ t.succ = (dat0 V c).Φ t.castSucc from rfl,
    show (dat0 V c).owesAt () t.succ = (dat0 V c).owesAt () t.castSucc from rfl, show (dat0 V c).after 0 t = iblk0 V c 0 t from rfl,
    show (dat0 V c).after 1 t = iblk0 V c 1 t from rfl, show (dat0 V c).after 2 t = iblk0 V c 2 t from rfl]
  show _ ⊢ wp _ _ _ (bodyAt0 t) _
  iintro ⟨HΦ, Ho, ⟨%d0, H0⟩, ⟨%d1, H1⟩, ⟨%d2, H2⟩, ⟨%d3, H3⟩⟩
  iapply sound_kernel0 c (iblk0 V c 0 t) (iblk0 V c 1 t) (iblk0 V c 2 t) _
  isplitl [H3]; · iexists _; iexact H3
  iframe H0 H1 H2
  iintro H0 H1 H2 H3
  iframe

theorem phi_in0 (c : Dev nD) :
    (iprop((∃ r, prngReg c r) ∗ Pipeline.scopedRest (Ix := Unit) (Name := ℕ) (U := UR sig nD τ) (Lvl := ℕ) (Val := Elt F) spec0 c) : sProp 𝕄)
      ⊢ (dat0 V c).Φ 0 := sep_symm
theorem phi_out0 (c : Dev nD) :
    (dat0 V c).Φ (Fin.last cfg0.N)
      ⊢ (iprop((∃ r, prngReg c r) ∗ Pipeline.scopedRest (Ix := Unit) (Name := ℕ) (U := UR sig nD τ) (Lvl := ℕ) (Val := Elt F) spec0 c) : sProp 𝕄) := sep_symm

end Cert.KernelIdeal.Hand

end
-- ==== Proof.KI.Agg1.lean ====
import proofs.«419824_j13683765805591_3_alg».proof.Proof.Gen.KernelIdeal.Launch
import proofs.«419824_j13683765805591_3_alg».proof.Proof.Gen.KernelIdeal.Skeleton
import proofs.«419824_j13683765805591_3_alg».proof.Proof.Gen.KernelIdeal.Points
import proofs.«419824_j13683765805591_3_alg».proof.Proof.FrameLib
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.FrameLib

variable {F : FTy → Type} [FloatOps F]

local notation "𝕄" => MT nD τ sig Unit (Elt F) ℕ (UR sig nD τ) ℕ

-- The reduction coordinate is 0: the sum restarts.
abbrev cond1_0 (i : grid1.Coords) : Prop := (Scalar.cmpi .ne (Scalar.extui (Scalar.cmpi .eq (BitVec.ofNat 32 (i 1).val) 0#32)) 0#32) = 1#1

theorem hcond1_0 : ∀ t : Fin grid1.N, cond1_0 (grid1.coords t) ↔ t.val % 5 = 0 := by decide +kernel

-- The reduction coordinate is 4: the sum is complete and the output is stored.
abbrev cond1_1 (i : grid1.Coords) : Prop := k1_cond2 i = 1#1

theorem hcond1_1 : ∀ t : Fin grid1.N, cond1_1 (grid1.coords t) ↔ t.val % 5 = 4 := by decide +kernel

theorem idleAt1_3 : ∀ t : Fin cfg1.N, ¬t.val % 5 = 4 → cfg1.idle 3 (grid1.coords t) = true := by decide +kernel
theorem liveAt1_3 : ∀ t : Fin cfg1.N, t.val % 5 = 4 → cfg1.idle 3 (grid1.coords t) = false := by decide +kernel

theorem noFlush1_3 (t : Fin cfg1.N) (h : ¬t.val % 5 = 4) : (cfg1.win 3).flush t = false :=
  Bool.eq_false_iff.mpr fun hf => h ((flush1_3 t).mp hf)

-- The product of one pair of blocks.
def mm1 (a : Vec F S2560x2048 .bf16) (h : Vec F S2048x256 .bf16) : Vec F S2560x256 .f32 :=
  matmul dot_S2560x2048_S2048x256_S2560x256_1_0_0_1_n_n none (shapeCast S2560x2048 a shapeCasts_S2560x2048_S2560x2048) (shapeCast S2048x256 h shapeCasts_S2048x256_S2048x256) (constant S2560x256 .f32 0x00000000#32)

-- What is stored from a completed sum and the bias.
def outv1 (acc : Vec F S2560x256 .f32) (b : Vec F S1x256 .f32) : Vec F S2560x256 .bf16 :=
  truncf .bf16
    (select (cmpf .ogt (addf acc (broadcastTo S2560x256 b broadcasts_S1x256_S2560x256)) (broadcast S2560x256 (Scalar.ofBits .f32 0x00000000#32)))
      (addf acc (broadcastTo S2560x256 b broadcasts_S1x256_S2560x256))
      (mulf (broadcast S2560x256 (Scalar.ofBits .f32 0x3DCCCCCD#32)) (addf acc (broadcastTo S2560x256 b broadcasts_S1x256_S2560x256))))
    bitsLt_bf16_f32

theorem outv1_eq (acc : Vec F S2560x256 .f32) (b : Vec F S1x256 .f32) :
    outv1 acc b = truncf .bf16
      (select (cmpf .ogt (addf acc (broadcastTo S2560x256 b broadcasts_S1x256_S2560x256)) (broadcast S2560x256 (Scalar.ofBits .f32 0x00000000#32)))
        (addf acc (broadcastTo S2560x256 b broadcasts_S1x256_S2560x256))
        (mulf (broadcast S2560x256 (Scalar.ofBits .f32 0x3DCCCCCD#32)) (addf acc (broadcastTo S2560x256 b broadcasts_S1x256_S2560x256))))
      bitsLt_bf16_f32 := rfl

theorem k1_pay1_eq : (k1_pay1 (F := F)) = broadcast S2560x256 (Scalar.ofBits .f32 0x00000000#32) := by
  unfold k1_pay1; exact shapeCast_self _ _

theorem k1_pay2_eq (a : Vec F S2560x2048 .bf16) (h : Vec F S2048x256 .bf16) (s : Vec F S2560x256 .f32) :
    k1_pay2 a h s = addf s (mm1 a h) := by
  unfold k1_pay2 mm1; exact shapeCast_self _ _

theorem k1_pay3_eq (acc : Vec F S2560x256 .f32) (b : Vec F S1x256 .f32) : k1_pay3 acc b = outv1 acc b := by
  unfold k1_pay3 outv1; rw [shapeCast_self]

variable (V : (c : Dev nD) → (b : Ref sig .tc) → Buf (Elt F) ((c : Thread nD τ).loc b)) (c : Dev nD)

def iblk1 (w : Fin cfg1.W) (t : Fin cfg1.N) : ((cfg1.win w).xblock (cfg1.grid.coords t)).Idx → Elt F (cfg1.win w).elt :=
  ((cfg1.win w).blk t).view.read (Elt F) (V c (Pipeline.arrRef spec1 w))

def accStep1 (n : ℕ) (s : Vec F S2560x256 .f32) : Vec F S2560x256 .f32 :=
  if h : n < cfg1.N then addf s (mm1 (iblk1 V c 0 ⟨n, h⟩) (iblk1 V c 1 ⟨n, h⟩)) else s

-- The partial sums along the grid, restarted at every fifth point.
def accN1 : ℕ → Vec F S2560x256 .f32 := accN (broadcast S2560x256 (Scalar.ofBits .f32 0x00000000#32)) (accStep1 V c)

def acc1 (t : Fin cfg1.N) : Vec F S2560x256 .f32 := accN1 V c t.val

theorem accN1_zero (n : ℕ) (hn : n < cfg1.N) (hk : n % 5 = 0) :
    accN1 V c n = addf (broadcast S2560x256 (Scalar.ofBits .f32 0x00000000#32)) (mm1 (iblk1 V c 0 ⟨n, hn⟩) (iblk1 V c 1 ⟨n, hn⟩)) := by
  rw [accN1, accN_zero _ _ hk, accStep1, dif_pos hn]

theorem accN1_succ (n : ℕ) (hn : n < cfg1.N) (hk : n % 5 ≠ 0) :
    accN1 V c n = addf (accN1 V c (n - 1)) (mm1 (iblk1 V c 0 ⟨n, hn⟩) (iblk1 V c 1 ⟨n, hn⟩)) := by
  rw [accN1, accN_succ _ _ hk, accStep1, dif_pos hn]

theorem acc1_zero (t : Fin cfg1.N) (hk : t.val % 5 = 0) :
    acc1 V c t = addf (broadcast S2560x256 (Scalar.ofBits .f32 0x00000000#32)) (mm1 (iblk1 V c 0 t) (iblk1 V c 1 t)) :=
  accN1_zero V c t.val t.isLt hk

theorem acc1_succ (t : Fin cfg1.N) (hk : t.val % 5 ≠ 0) :
    acc1 V c t = addf (acc1 V c ⟨t.val - 1, Nat.lt_of_le_of_lt (Nat.sub_le _ _) t.isLt⟩) (mm1 (iblk1 V c 0 t) (iblk1 V c 1 t)) :=
  accN1_succ V c t.val t.isLt hk

abbrev scM1 : Memref sig .tc .vmem S2560x256 .f32 := Memref.whole cc1_scratch0

-- Between points the accumulator holds the last partial sum, or anything where the sum is about to restart.
def Phi1 (n : ℕ) : sProp 𝕄 :=
  iprop(Pipeline.scopedRestBut (Ix := Unit) (Name := ℕ) (U := UR sig nD τ) (Lvl := ℕ) (Val := Elt F) spec1 c [cc1_scratch0]
    ∗ (∃ r, prngReg c r)
    ∗ (if n % 5 = 0 then iprop(∃ d, owns c scM1 fullShare d)
        else owns c scM1 fullShare (accN1 V c (n - 1))))

def dat1 : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outv1 (acc1 V c t) (iblk1 V c 2 t)
  Φ t := Phi1 V c t.val
  q _ := fullShare
  owed _ := 0

theorem A_eq1 (w : Fin cfg1.W) : (dat1 V c).A w = V c (Pipeline.arrRef spec1 w) := rfl
theorem q_eq1 (w : Fin cfg1.W) : (dat1 V c).q w = fullShare := rfl
theorem owed_eq1 (t : Fin (cfg1.N + 1)) : (dat1 V c).owed t = 0 := rfl

theorem after1_3 (t : Fin cfg1.N) : (dat1 V c).after 3 t = outv1 (acc1 V c t) (iblk1 V c 2 t) := rfl

theorem before1_0 (t : Fin cfg1.N) (d) : (dat1 V c).before 0 t d = iblk1 V c 0 t :=
  (dat1 V c).before_in_eq_fetched 0 rfl (fun _ => rfl) (fun _ _ _ => rfl) (fun _ => rfl) t d
theorem before1_1 (t : Fin cfg1.N) (d) : (dat1 V c).before 1 t d = iblk1 V c 1 t :=
  (dat1 V c).before_in_eq_fetched 1 rfl (fun _ => rfl) (fun _ _ _ => rfl) (fun _ => rfl) t d
theorem before1_2 (t : Fin cfg1.N) (d) : (dat1 V c).before 2 t d = iblk1 V c 2 t :=
  (dat1 V c).before_in_eq_fetched 2 rfl (fun _ => rfl) (fun _ _ _ => rfl) (fun _ => rfl) t d

section
variable (i : grid1.Coords) {arg2 : Memref sig .tc .vmem S2560x2048 .bf16} {harg2 : arg2.IsWhole} {arg3 : Memref sig .tc .vmem S2048x256 .bf16} {harg3 : arg3.IsWhole} {arg4 : Memref sig .tc .vmem S1x256 .f32} {harg4 : arg4.IsWhole} {arg5 : Memref sig .tc .vmem S2560x256 .bf16} {harg5 : arg5.IsWhole} {arg6 : Memref sig .tc .vmem S2560x256 .f32} {harg6 : arg6.IsWhole}
  (x0 : Vec F S2560x2048 .bf16) (x1 : Vec F S2048x256 .bf16)

-- The body where the output is not stored: the accumulator, reset first where the sum restarts, takes one more product.
set_option maxHeartbeats 1000000 in
theorem run1_AB (hc1 : ¬cond1_1 i) (s s' : Vec F S2560x256 .f32) (h : cond1_0 i ∧ s' = k1_pay1 ∨ ¬cond1_0 i ∧ s' = s) (E : Set ℕ) (K : PUnit → sProp 𝕄) :
    iprop(owns c arg2 fullShare x0 ∗ owns c arg3 fullShare x1 ∗ owns c arg6 fullShare s
        ∗ (iprop(owns c arg2 fullShare x0 ∗ owns c arg3 fullShare x1 ∗ owns c arg6 fullShare (k1_pay2 x0 x1 s')) -∗ K ⟨⟩))
      ⊢ wp frame (wpE (defs₀ (F := F)) Variants.none c none) E (cc1__agg_kernel i arg2 harg2 arg3 harg3 arg4 harg4 arg5 harg5 arg6 harg6) K := by
  simp only [cc1__agg_kernel_eq_skeleton]; unfold cc1__agg_kernel_skel
  rw [owns_unread c harg2, owns_unread c harg3]; unfold owns
  iintro ⟨H0, H1, ⟨%fs, %hfs, HS⟩, Hk⟩
  obtain rfl := harg6.eq_unread hfs
  rcases h with ⟨hc0, rfl⟩ | ⟨hc0, rfl⟩ <;>
  · sl_exec (disch := first | exact hc0 | exact hc1)
    sl_step
    iapply Hk
    iframe H0 H1
    iexists _; isplitr
    swap; · iexact HS
    ipureintro
    sl_unfold_run_names
    rw [read_writes_unit]
    simp only [View.readAt_eq_ld, harg2.read_unread, harg3.read_unread, harg6.read_unread, ld_unit, readCov_unit]

-- The body at the last step of a sum: the output takes the value computed from the completed sum.
set_option maxHeartbeats 1000000 in
theorem run1_C (hc0 : ¬cond1_0 i) (hc1 : cond1_1 i) (x2 : Vec F S1x256 .f32) (s : Vec F S2560x256 .f32) (E : Set ℕ) (K : PUnit → sProp 𝕄) :
    iprop(owns c arg2 fullShare x0 ∗ owns c arg3 fullShare x1 ∗ owns c arg4 fullShare x2 ∗ (∃ d, owns c arg5 fullShare d) ∗ owns c arg6 fullShare s
        ∗ (iprop(owns c arg2 fullShare x0 ∗ owns c arg3 fullShare x1 ∗ owns c arg4 fullShare x2 ∗ owns c arg5 fullShare (k1_pay3 (k1_pay2 x0 x1 s) x2) ∗ owns c arg6 fullShare (k1_pay2 x0 x1 s)) -∗ K ⟨⟩))
      ⊢ wp frame (wpE (defs₀ (F := F)) Variants.none c none) E (cc1__agg_kernel i arg2 harg2 arg3 harg3 arg4 harg4 arg5 harg5 arg6 harg6) K := by
  simp only [cc1__agg_kernel_eq_skeleton]; unfold cc1__agg_kernel_skel
  rw [owns_unread c harg2, owns_unread c harg3, owns_unread c harg4]; unfold owns
  iintro ⟨H0, H1, H2, ⟨%d5, %f5, -, H5⟩, ⟨%fs, %hfs, HS⟩, Hk⟩
  obtain rfl := harg6.eq_unread hfs
  sl_exec (disch := first | exact hc0 | exact hc1)
  sl_step
  iapply Hk
  iframe H0 H1 H2
  isplitl [H5]
  · iexists _; isplitr
    swap; · iexact H5
    ipureintro
    sl_unfold_run_names
    rw [read_writes_unit]
    simp only [View.readAt_eq_ld, harg2.read_unread, harg3.read_unread, harg4.read_unread, harg6.read_unread, ld_unit, readCov_unit]
  iexists _; isplitr
  swap; · iexact HS
  ipureintro
  sl_unfold_run_names
  rw [read_writes_unit]
  simp only [View.readAt_eq_ld, harg2.read_unread, harg3.read_unread, harg6.read_unread, ld_unit, readCov_unit]

end

abbrev ms1_0 (t : Fin cfg1.N) : Memref sig .tc .vmem S2560x2048 .bf16 := win1_0.stage (cfg1.slots t 0)
abbrev ms1_1 (t : Fin cfg1.N) : Memref sig .tc .vmem S2048x256 .bf16 := win1_1.stage (cfg1.slots t 1)
abbrev ms1_2 (t : Fin cfg1.N) : Memref sig .tc .vmem S1x256 .f32 := win1_2.stage (cfg1.slots t 2)
abbrev ms1_3 (t : Fin cfg1.N) : Memref sig .tc .vmem S2560x256 .bf16 := win1_3.stage (cfg1.slots t 3)

-- The body at any point, by its position mod 5: restart, middle, or last step.
set_option maxHeartbeats 4000000 in
theorem sound_body1 (t : Fin cfg1.N) :
    iprop(Phi1 V c t.val ∗ (dat1 V c).owesAt () t.castSucc
      ∗ (∃ d, owns c (ms1_0 t) fullShare ((dat1 V c).before 0 t d))
      ∗ (∃ d, owns c (ms1_1 t) fullShare ((dat1 V c).before 1 t d))
      ∗ (∃ d, owns c (ms1_2 t) fullShare ((dat1 V c).before 2 t d))
      ∗ (∃ d, owns c (ms1_3 t) fullShare ((dat1 V c).before 3 t d)))
      ⊢ wp frame (wpE (defs₀ (F := F)) Variants.none c none) Set.univ (bodyAt1 t) (fun _ => iprop(Phi1 V c (t.val + 1) ∗ (dat1 V c).owesAt () t.castSucc
          ∗ owns c (ms1_0 t) fullShare (iblk1 V c 0 t)
          ∗ owns c (ms1_1 t) fullShare (iblk1 V c 1 t)
          ∗ owns c (ms1_2 t) fullShare (iblk1 V c 2 t)
          ∗ (dat1 V c).leavesExact 3 t)) := by
  unfold bodyAt1
  simp only [before1_0, before1_1, before1_2]
  have hN : t.val < 20 := lt_of_lt_of_eq t.isLt (show cfg1.N = 20 from N_1)
  by_cases h0 : t.val % 5 = 0
  · have h4 : ¬t.val % 5 = 4 := by omega
    rw [Dat.leavesExact_idle (dat1 V c) 3 t (idleAt1_3 t h4) (noFlush1_3 t h4)]
    rw [Phi1, Phi1, if_pos h0, if_neg (by omega : ¬(t.val + 1) % 5 = 0), Nat.add_sub_cancel, accN1_zero V c t.val t.isLt h0,
      ← k1_pay1_eq, ← k1_pay2_eq]
    iintro ⟨⟨HR, Hg, ⟨%ds, HS⟩⟩, Ho, ⟨%d0, H0⟩, ⟨%d1, H1⟩, ⟨%d2, H2⟩, H3⟩
    iapply (run1_AB c (grid1.coords t) (iblk1 V c 0 t) (iblk1 V c 1 t) (fun h => h4 ((hcond1_1 t).mp h)) ds _ (.inl ⟨(hcond1_0 t).mpr h0, rfl⟩) Set.univ _)
    iframe H0 H1 HS
    iintro ⟨H0, H1, HS⟩
    iframe
  · by_cases h4 : t.val % 5 = 4
    · rw [show (dat1 V c).leavesExact 3 t = owns c (ms1_3 t) fullShare (outv1 (acc1 V c t) (iblk1 V c 2 t)) from leavesExact_live _ 3 t (liveAt1_3 t h4)]
      rw [Phi1, Phi1, if_neg h0, if_pos (by omega : (t.val + 1) % 5 = 0), acc1, accN1_succ V c t.val t.isLt h0,
        ← k1_pay2_eq, ← k1_pay3_eq]
      iintro ⟨⟨HR, Hg, HS⟩, Ho, ⟨%d0, H0⟩, ⟨%d1, H1⟩, ⟨%d2, H2⟩, ⟨%d3, H3⟩⟩
      iapply (run1_C c (grid1.coords t) (iblk1 V c 0 t) (iblk1 V c 1 t) (fun h => h0 ((hcond1_0 t).mp h)) ((hcond1_1 t).mpr h4) (iblk1 V c 2 t) (accN1 V c (t.val - 1)) Set.univ _)
      iframe H0 H1 H2 HS
      isplitl [H3]; · iexists _; iexact H3
      iintro ⟨H0, H1, H2, H3, HS⟩
      iframe HR Hg Ho H0 H1 H2 H3
      iexists _; iexact HS
    · rw [Dat.leavesExact_idle (dat1 V c) 3 t (idleAt1_3 t h4) (noFlush1_3 t h4)]
      rw [Phi1, Phi1, if_neg h0, if_neg (by omega : ¬(t.val + 1) % 5 = 0), Nat.add_sub_cancel, accN1_succ V c t.val t.isLt h0,
        ← k1_pay2_eq]
      iintro ⟨⟨HR, Hg, HS⟩, Ho, ⟨%d0, H0⟩, ⟨%d1, H1⟩, ⟨%d2, H2⟩, H3⟩
      iapply (run1_AB c (grid1.coords t) (iblk1 V c 0 t) (iblk1 V c 1 t) (fun h => h4 ((hcond1_1 t).mp h)) (accN1 V c (t.val - 1)) _ (.inr ⟨fun h => h0 ((hcond1_0 t).mp h), rfl⟩) Set.univ _)
      iframe H0 H1 HS
      iintro ⟨H0, H1, HS⟩
      iframe

theorem body_obligation1 : BodyObligation (dat1 (F := F) V c) (defs₀ (F := F)) Variants.none () Set.univ := fun t => by
  rw [bigSep_W1, bigSep_W1]
  exact sound_body1 V c t

-- The sum restarts at the first point, so the invariant asks nothing of the accumulator there,
theorem phi_in1 :
    (iprop((∃ r, prngReg c r) ∗ Pipeline.scopedRest (Ix := Unit) (Name := ℕ) (U := UR sig nD τ) (Lvl := ℕ) (Val := Elt F) spec1 c) : sProp 𝕄)
      ⊢ (dat1 V c).Φ 0 := by
  rw [show (dat1 V c).Φ 0 = Phi1 V c 0 from rfl, Phi1, if_pos (Nat.zero_mod 5), scopedRest1_split]
  simp only [scM1, owns_whole]
  iintro ⟨Hg, HS, HR⟩
  iframe

-- and it restarts after the last point, so nothing is left to give back.
theorem phi_out1 :
    (dat1 V c).Φ (Fin.last cfg1.N)
      ⊢ (iprop((∃ r, prngReg c r) ∗ Pipeline.scopedRest (Ix := Unit) (Name := ℕ) (U := UR sig nD τ) (Lvl := ℕ) (Val := Elt F) spec1 c) : sProp 𝕄) := by
  rw [show (dat1 V c).Φ (Fin.last cfg1.N) = Phi1 V c 20 from rfl, Phi1, if_pos (by decide : 20 % 5 = 0), scopedRest1_split]
  simp only [scM1, owns_whole]
  iintro ⟨HR, Hg, HS⟩
  iframe

end Cert.KernelIdeal.Hand

end
-- ==== Proof.KI.Lin2.lean ====
import proofs.«419824_j13683765805591_3_alg».proof.Proof.Gen.KernelIdeal.Launch
import proofs.«419824_j13683765805591_3_alg».proof.Proof.Gen.KernelIdeal.Skeleton
import proofs.«419824_j13683765805591_3_alg».proof.Proof.Gen.KernelIdeal.Points
import proofs.«419824_j13683765805591_3_alg».proof.Proof.FrameLib
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.KernelIdeal Cert.KernelIdeal.Gen Cert.FrameLib

variable {F : FTy → Type} [FloatOps F]

local notation "𝕄" => MT nD τ sig Unit (Elt F) ℕ (UR sig nD τ) ℕ

abbrev r2_0 : Rect S2560x256 := Rect.unit (s := S2560x256) ![0, 0] S2560x256.size inb_S2560x256_S2560x256_0_0
abbrev r2_1 : Rect S256x128 := Rect.unit (s := S256x128) ![0, 0] S256x128.size inb_S256x128_S256x128_0_0
abbrev r2_2 : Rect S1x128 := Rect.unit (s := S1x128) ![0, 0] S1x128.size inb_S1x128_S1x128_0_0
abbrev r2_3 : Rect S2560x128 := Rect.unit (s := S2560x128) ![0, 0] S2560x128.size inb_S2560x128_S2560x128_0_0

def out2_3 (x0 : Vec F S2560x256 .bf16) (x1 : Vec F S256x128 .bf16) (x2 : Vec F S1x128 .f32) : Vec F S2560x128 .f32 :=
  View.canon [⟨r2_3, k2_pay1 (View.ld x0 r2_0) (View.ld x1 r2_1) (View.ld x2 r2_2)⟩]

-- a load through the whole buffer reads its contents, and one store through it leaves its payload
theorem out2_3_eq (x0 : Vec F S2560x256 .bf16) (x1 : Vec F S256x128 .bf16) (x2 : Vec F S1x128 .f32) :
    out2_3 x0 x1 x2 = addf (matmul dot_S2560x256_S256x128_S2560x128_1_0_0_1_n_n none (shapeCast S2560x256 x0 shapeCasts_S2560x256_S2560x256) (shapeCast S256x128 x1 shapeCasts_S256x128_S256x128) (constant S2560x128 .f32 0x00000000#32)) (broadcastTo S2560x128 (shapeCast S1x128 x2 shapeCasts_S1x128_S1x128) broadcasts_S1x128_S2560x128) := by
  unfold out2_3
  rw [View.canon_unit_zero hz2, ld_unit, ld_unit, ld_unit]
  rfl

-- the body reads the three inputs whole and stores once through the whole output, so the output ends at out2_3 of the inputs
theorem sound_kernel2 (c : Dev nD) {i arg1 harg1 arg2 harg2 arg3 harg3 arg4 harg4} (x0 x1 x2) (K : PUnit → sProp 𝕄) :
    iprop((∃ d, owns c.tc arg4 fullShare d) ∗ owns c.tc arg1 fullShare x0 ∗ owns c.tc arg2 fullShare x1 ∗ owns c.tc arg3 fullShare x2
        ∗ (owns c.tc arg1 fullShare x0 -∗ owns c.tc arg2 fullShare x1 -∗ owns c.tc arg3 fullShare x2
            -∗ owns c.tc arg4 fullShare (out2_3 x0 x1 x2) -∗ K ⟨⟩))
      ⊢ wp frame (wpE (defs₀ (F := F)) Variants.none c none) Set.univ (cc2__linear_kernel i arg1 harg1 arg2 harg2 arg3 harg3 arg4 harg4) K := by
  simp only [cc2__linear_kernel_eq_skeleton]; unfold cc2__linear_kernel_skel owns
  iintro ⟨⟨%d3, %f3, -, H3⟩, ⟨%f0, %hf0, H0⟩, ⟨%f1, %hf1, H1⟩, ⟨%f2, %hf2, H2⟩, Hk⟩
  subst hf0 hf1 hf2
  sl_exec
  sl_step
  iapply Hk $$ [H0] [H1] [H2] [H3] <;> (iexists _; isplitr; swap; iassumption; ipureintro)
  · rfl
  · rfl
  · rfl
  exact View.read_writes_eq_canon _ _ _ fun y => ⟨_, List.mem_singleton_self _, View.mem_set_unit_zero hz2 inb_S2560x128_S2560x128_0_0 y⟩

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := rfl
theorem q_eq2 (c : Dev nD) (w : Fin cfg2.W) : (dat2 V c).q w = fullShare := rfl
theorem owed_eq2 (c : Dev nD) (t : Fin (cfg2.N + 1)) : (dat2 V c).owed t = 0 := rfl
theorem after2_3 (c : Dev nD) (t : Fin cfg2.N) : (dat2 V c).after 3 t = out2_3 (iblk2 V c 0 t) (iblk2 V c 1 t) (iblk2 V c 2 t) := by dsimp only [dat2]

theorem before2_0 (c t d) : (dat2 V c).before 0 t d = iblk2 V c 0 t :=
  (dat2 V c).before_in_eq_fetched 0 rfl (fun _ => rfl) (fun _ _ _ => rfl) (fun _ => rfl) t d
theorem before2_1 (c t d) : (dat2 V c).before 1 t d = iblk2 V c 1 t :=
  (dat2 V c).before_in_eq_fetched 1 rfl (fun _ => rfl) (fun _ _ _ => rfl) (fun _ => rfl) t d
theorem before2_2 (c t d) : (dat2 V c).before 2 t d = iblk2 V c 2 t :=
  (dat2 V c).before_in_eq_fetched 2 rfl (fun _ => rfl) (fun _ _ _ => rfl) (fun _ => rfl) t d

-- the inputs are at their blocks, so the kernel's triple applies; the invariant and what is owed pass through
theorem body_obligation2 (c : Dev nD) : BodyObligation (dat2 (F := F) V c) (defs₀ (F := F)) Variants.none () Set.univ := fun t => by
  rw [bigSep_W2, bigSep_W2]
  simp only [before2_0, before2_1, before2_2, after2_3, show (dat2 V c).Φ t.succ = (dat2 V c).Φ t.castSucc from rfl,
    show (dat2 V c).owesAt () t.succ = (dat2 V c).owesAt () t.castSucc from rfl, show (dat2 V c).after 0 t = iblk2 V c 0 t from rfl,
    show (dat2 V c).after 1 t = iblk2 V c 1 t from rfl, show (dat2 V c).after 2 t = iblk2 V c 2 t from rfl]
  show _ ⊢ wp _ _ _ (bodyAt2 t) _
  iintro ⟨HΦ, Ho, ⟨%d0, H0⟩, ⟨%d1, H1⟩, ⟨%d2, H2⟩, ⟨%d3, H3⟩⟩
  iapply sound_kernel2 c (iblk2 V c 0 t) (iblk2 V c 1 t) (iblk2 V c 2 t) _
  isplitl [H3]; · iexists _; iexact H3
  iframe H0 H1 H2
  iintro H0 H1 H2 H3
  iframe

theorem phi_in2 (c : Dev nD) :
    (iprop((∃ r, prngReg c r) ∗ Pipeline.scopedRest (Ix := Unit) (Name := ℕ) (U := UR sig nD τ) (Lvl := ℕ) (Val := Elt F) spec2 c) : sProp 𝕄)
      ⊢ (dat2 V c).Φ 0 := sep_symm
theorem phi_out2 (c : Dev nD) :
    (dat2 V c).Φ (Fin.last cfg2.N)
      ⊢ (iprop((∃ r, prngReg c r) ∗ Pipeline.scopedRest (Ix := Unit) (Name := ℕ) (U := UR sig nD τ) (Lvl := ℕ) (Val := Elt F) spec2 c) : sProp 𝕄) := sep_symm

end Cert.KernelIdeal.Hand

end
-- ==== Proof.KI.Agg3.lean ====
import proofs.«419824_j13683765805591_3_alg».proof.Proof.Gen.KernelIdeal.Launch
import proofs.«419824_j13683765805591_3_alg».proof.Proof.Gen.KernelIdeal.Skeleton
import proofs.«419824_j13683765805591_3_alg».proof.Proof.Gen.KernelIdeal.Points
import proofs.«419824_j13683765805591_3_alg».proof.Proof.FrameLib
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.FrameLib

variable {F : FTy → Type} [FloatOps F]

local notation "𝕄" => MT nD τ sig Unit (Elt F) ℕ (UR sig nD τ) ℕ

-- The reduction coordinate is 0: the sum restarts.
abbrev cond3_0 (i : grid3.Coords) : Prop := (Scalar.cmpi .ne (Scalar.extui (Scalar.cmpi .eq (BitVec.ofNat 32 (i 1).val) 0#32)) 0#32) = 1#1

theorem hcond3_0 : ∀ t : Fin grid3.N, cond3_0 (grid3.coords t) ↔ t.val % 5 = 0 := by decide +kernel

-- The reduction coordinate is 4: the sum is complete and the output is stored.
abbrev cond3_1 (i : grid3.Coords) : Prop := k3_cond2 i = 1#1

theorem hcond3_1 : ∀ t : Fin grid3.N, cond3_1 (grid3.coords t) ↔ t.val % 5 = 4 := by decide +kernel

theorem idleAt3_3 : ∀ t : Fin cfg3.N, ¬t.val % 5 = 4 → cfg3.idle 3 (grid3.coords t) = true := by decide +kernel
theorem liveAt3_3 : ∀ t : Fin cfg3.N, t.val % 5 = 4 → cfg3.idle 3 (grid3.coords t) = false := by decide +kernel

theorem noFlush3_3 (t : Fin cfg3.N) (h : ¬t.val % 5 = 4) : (cfg3.win 3).flush t = false :=
  Bool.eq_false_iff.mpr fun hf => h ((flush3_3 t).mp hf)

-- The product of one pair of blocks.
def mm3 (a : Vec F S2560x2048 .bf16) (h : Vec F S2048x128 .f32) : Vec F S2560x128 .f32 :=
  matmul dot_S2560x2048_S2048x128_S2560x128_1_0_0_1_n_n none (shapeCast S2560x2048 a shapeCasts_S2560x2048_S2560x2048) (truncf .bf16 (shapeCast S2048x128 h shapeCasts_S2048x128_S2048x128) bitsLt_bf16_f32) (constant S2560x128 .f32 0x00000000#32)

-- What is stored from a completed sum and the bias.
def outv3 (acc : Vec F S2560x128 .f32) (b : Vec F S1x128 .f32) : Vec F S2560x128 .f32 :=
  select (cmpf .ogt (addf acc (broadcastTo S2560x128 b broadcasts_S1x128_S2560x128)) (broadcast S2560x128 (Scalar.ofBits .f32 0x00000000#32)))
    (addf acc (broadcastTo S2560x128 b broadcasts_S1x128_S2560x128))
    (mulf (broadcast S2560x128 (Scalar.ofBits .f32 0x3DCCCCCD#32)) (addf acc (broadcastTo S2560x128 b broadcasts_S1x128_S2560x128)))

theorem outv3_eq (acc : Vec F S2560x128 .f32) (b : Vec F S1x128 .f32) :
    outv3 acc b = select (cmpf .ogt (addf acc (broadcastTo S2560x128 b broadcasts_S1x128_S2560x128)) (broadcast S2560x128 (Scalar.ofBits .f32 0x00000000#32)))
      (addf acc (broadcastTo S2560x128 b broadcasts_S1x128_S2560x128))
      (mulf (broadcast S2560x128 (Scalar.ofBits .f32 0x3DCCCCCD#32)) (addf acc (broadcastTo S2560x128 b broadcasts_S1x128_S2560x128))) := rfl

theorem k3_pay1_eq : (k3_pay1 (F := F)) = broadcast S2560x128 (Scalar.ofBits .f32 0x00000000#32) := by
  unfold k3_pay1; exact shapeCast_self _ _

theorem k3_pay2_eq (a : Vec F S2560x2048 .bf16) (h : Vec F S2048x128 .f32) (s : Vec F S2560x128 .f32) :
    k3_pay2 a h s = addf s (mm3 a h) := by
  unfold k3_pay2 mm3; exact shapeCast_self _ _

theorem k3_pay3_eq (acc : Vec F S2560x128 .f32) (b : Vec F S1x128 .f32) : k3_pay3 acc b = outv3 acc b := by
  unfold k3_pay3 outv3; rw [shapeCast_self]

variable (V : (c : Dev nD) → (b : Ref sig .tc) → Buf (Elt F) ((c : Thread nD τ).loc b)) (c : Dev nD)

def iblk3 (w : Fin cfg3.W) (t : Fin cfg3.N) : ((cfg3.win w).xblock (cfg3.grid.coords t)).Idx → Elt F (cfg3.win w).elt :=
  ((cfg3.win w).blk t).view.read (Elt F) (V c (Pipeline.arrRef spec3 w))

def accStep3 (n : ℕ) (s : Vec F S2560x128 .f32) : Vec F S2560x128 .f32 :=
  if h : n < cfg3.N then addf s (mm3 (iblk3 V c 0 ⟨n, h⟩) (iblk3 V c 1 ⟨n, h⟩)) else s

-- The partial sums along the grid, restarted at every fifth point.
def accN3 : ℕ → Vec F S2560x128 .f32 := accN (broadcast S2560x128 (Scalar.ofBits .f32 0x00000000#32)) (accStep3 V c)

def acc3 (t : Fin cfg3.N) : Vec F S2560x128 .f32 := accN3 V c t.val

theorem accN3_zero (n : ℕ) (hn : n < cfg3.N) (hk : n % 5 = 0) :
    accN3 V c n = addf (broadcast S2560x128 (Scalar.ofBits .f32 0x00000000#32)) (mm3 (iblk3 V c 0 ⟨n, hn⟩) (iblk3 V c 1 ⟨n, hn⟩)) := by
  rw [accN3, accN_zero _ _ hk, accStep3, dif_pos hn]

theorem accN3_succ (n : ℕ) (hn : n < cfg3.N) (hk : n % 5 ≠ 0) :
    accN3 V c n = addf (accN3 V c (n - 1)) (mm3 (iblk3 V c 0 ⟨n, hn⟩) (iblk3 V c 1 ⟨n, hn⟩)) := by
  rw [accN3, accN_succ _ _ hk, accStep3, dif_pos hn]

theorem acc3_zero (t : Fin cfg3.N) (hk : t.val % 5 = 0) :
    acc3 V c t = addf (broadcast S2560x128 (Scalar.ofBits .f32 0x00000000#32)) (mm3 (iblk3 V c 0 t) (iblk3 V c 1 t)) :=
  accN3_zero V c t.val t.isLt hk

theorem acc3_succ (t : Fin cfg3.N) (hk : t.val % 5 ≠ 0) :
    acc3 V c t = addf (acc3 V c ⟨t.val - 1, Nat.lt_of_le_of_lt (Nat.sub_le _ _) t.isLt⟩) (mm3 (iblk3 V c 0 t) (iblk3 V c 1 t)) :=
  accN3_succ V c t.val t.isLt hk

abbrev scM3 : Memref sig .tc .vmem S2560x128 .f32 := Memref.whole cc3_scratch0

-- Between points the accumulator holds the last partial sum, or anything where the sum is about to restart.
def Phi3 (n : ℕ) : sProp 𝕄 :=
  iprop(Pipeline.scopedRestBut (Ix := Unit) (Name := ℕ) (U := UR sig nD τ) (Lvl := ℕ) (Val := Elt F) spec3 c [cc3_scratch0]
    ∗ (∃ r, prngReg c r)
    ∗ (if n % 5 = 0 then iprop(∃ d, owns c scM3 fullShare d)
        else owns c scM3 fullShare (accN3 V c (n - 1))))

def dat3 : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => outv3 (acc3 V c t) (iblk3 V c 2 t)
  Φ t := Phi3 V c t.val
  q _ := fullShare
  owed _ := 0

theorem A_eq3 (w : Fin cfg3.W) : (dat3 V c).A w = V c (Pipeline.arrRef spec3 w) := rfl
theorem q_eq3 (w : Fin cfg3.W) : (dat3 V c).q w = fullShare := rfl
theorem owed_eq3 (t : Fin (cfg3.N + 1)) : (dat3 V c).owed t = 0 := rfl

theorem after3_3 (t : Fin cfg3.N) : (dat3 V c).after 3 t = outv3 (acc3 V c t) (iblk3 V c 2 t) := rfl

theorem before3_0 (t : Fin cfg3.N) (d) : (dat3 V c).before 0 t d = iblk3 V c 0 t :=
  (dat3 V c).before_in_eq_fetched 0 rfl (fun _ => rfl) (fun _ _ _ => rfl) (fun _ => rfl) t d
theorem before3_1 (t : Fin cfg3.N) (d) : (dat3 V c).before 1 t d = iblk3 V c 1 t :=
  (dat3 V c).before_in_eq_fetched 1 rfl (fun _ => rfl) (fun _ _ _ => rfl) (fun _ => rfl) t d
theorem before3_2 (t : Fin cfg3.N) (d) : (dat3 V c).before 2 t d = iblk3 V c 2 t :=
  (dat3 V c).before_in_eq_fetched 2 rfl (fun _ => rfl) (fun _ _ _ => rfl) (fun _ => rfl) t d

section
variable (i : grid3.Coords) {arg2 : Memref sig .tc .vmem S2560x2048 .bf16} {harg2 : arg2.IsWhole} {arg3 : Memref sig .tc .vmem S2048x128 .f32} {harg3 : arg3.IsWhole} {arg4 : Memref sig .tc .vmem S1x128 .f32} {harg4 : arg4.IsWhole} {arg5 : Memref sig .tc .vmem S2560x128 .f32} {harg5 : arg5.IsWhole} {arg6 : Memref sig .tc .vmem S2560x128 .f32} {harg6 : arg6.IsWhole}
  (x0 : Vec F S2560x2048 .bf16) (x1 : Vec F S2048x128 .f32)

-- The body where the output is not stored: the accumulator, reset first where the sum restarts, takes one more product.
set_option maxHeartbeats 1000000 in
theorem run3_AB (hc1 : ¬cond3_1 i) (s s' : Vec F S2560x128 .f32) (h : cond3_0 i ∧ s' = k3_pay1 ∨ ¬cond3_0 i ∧ s' = s) (E : Set ℕ) (K : PUnit → sProp 𝕄) :
    iprop(owns c arg2 fullShare x0 ∗ owns c arg3 fullShare x1 ∗ owns c arg6 fullShare s
        ∗ (iprop(owns c arg2 fullShare x0 ∗ owns c arg3 fullShare x1 ∗ owns c arg6 fullShare (k3_pay2 x0 x1 s')) -∗ K ⟨⟩))
      ⊢ wp frame (wpE (defs₀ (F := F)) Variants.none c none) E (cc3__agg_kernel i arg2 harg2 arg3 harg3 arg4 harg4 arg5 harg5 arg6 harg6) K := by
  simp only [cc3__agg_kernel_eq_skeleton]; unfold cc3__agg_kernel_skel
  rw [owns_unread c harg2, owns_unread c harg3]; unfold owns
  iintro ⟨H0, H1, ⟨%fs, %hfs, HS⟩, Hk⟩
  obtain rfl := harg6.eq_unread hfs
  rcases h with ⟨hc0, rfl⟩ | ⟨hc0, rfl⟩ <;>
  · sl_exec (disch := first | exact hc0 | exact hc1)
    sl_step
    iapply Hk
    iframe H0 H1
    iexists _; isplitr
    swap; · iexact HS
    ipureintro
    sl_unfold_run_names
    rw [read_writes_unit]
    simp only [View.readAt_eq_ld, harg2.read_unread, harg3.read_unread, harg6.read_unread, ld_unit, readCov_unit]

-- The body at the last step of a sum: the output takes the value computed from the completed sum.
set_option maxHeartbeats 1000000 in
theorem run3_C (hc0 : ¬cond3_0 i) (hc1 : cond3_1 i) (x2 : Vec F S1x128 .f32) (s : Vec F S2560x128 .f32) (E : Set ℕ) (K : PUnit → sProp 𝕄) :
    iprop(owns c arg2 fullShare x0 ∗ owns c arg3 fullShare x1 ∗ owns c arg4 fullShare x2 ∗ (∃ d, owns c arg5 fullShare d) ∗ owns c arg6 fullShare s
        ∗ (iprop(owns c arg2 fullShare x0 ∗ owns c arg3 fullShare x1 ∗ owns c arg4 fullShare x2 ∗ owns c arg5 fullShare (k3_pay3 (k3_pay2 x0 x1 s) x2) ∗ owns c arg6 fullShare (k3_pay2 x0 x1 s)) -∗ K ⟨⟩))
      ⊢ wp frame (wpE (defs₀ (F := F)) Variants.none c none) E (cc3__agg_kernel i arg2 harg2 arg3 harg3 arg4 harg4 arg5 harg5 arg6 harg6) K := by
  simp only [cc3__agg_kernel_eq_skeleton]; unfold cc3__agg_kernel_skel
  rw [owns_unread c harg2, owns_unread c harg3, owns_unread c harg4]; unfold owns
  iintro ⟨H0, H1, H2, ⟨%d5, %f5, -, H5⟩, ⟨%fs, %hfs, HS⟩, Hk⟩
  obtain rfl := harg6.eq_unread hfs
  sl_exec (disch := first | exact hc0 | exact hc1)
  sl_step
  iapply Hk
  iframe H0 H1 H2
  isplitl [H5]
  · iexists _; isplitr
    swap; · iexact H5
    ipureintro
    sl_unfold_run_names
    rw [read_writes_unit]
    simp only [View.readAt_eq_ld, harg2.read_unread, harg3.read_unread, harg4.read_unread, harg6.read_unread, ld_unit, readCov_unit]
  iexists _; isplitr
  swap; · iexact HS
  ipureintro
  sl_unfold_run_names
  rw [read_writes_unit]
  simp only [View.readAt_eq_ld, harg2.read_unread, harg3.read_unread, harg6.read_unread, ld_unit, readCov_unit]

end

abbrev ms3_0 (t : Fin cfg3.N) : Memref sig .tc .vmem S2560x2048 .bf16 := win3_0.stage (cfg3.slots t 0)
abbrev ms3_1 (t : Fin cfg3.N) : Memref sig .tc .vmem S2048x128 .f32 := win3_1.stage (cfg3.slots t 1)
abbrev ms3_2 (t : Fin cfg3.N) : Memref sig .tc .vmem S1x128 .f32 := win3_2.stage (cfg3.slots t 2)
abbrev ms3_3 (t : Fin cfg3.N) : Memref sig .tc .vmem S2560x128 .f32 := win3_3.stage (cfg3.slots t 3)

-- The body at any point, by its position mod 5: restart, middle, or last step.
set_option maxHeartbeats 4000000 in
theorem sound_body3 (t : Fin cfg3.N) :
    iprop(Phi3 V c t.val ∗ (dat3 V c).owesAt () t.castSucc
      ∗ (∃ d, owns c (ms3_0 t) fullShare ((dat3 V c).before 0 t d))
      ∗ (∃ d, owns c (ms3_1 t) fullShare ((dat3 V c).before 1 t d))
      ∗ (∃ d, owns c (ms3_2 t) fullShare ((dat3 V c).before 2 t d))
      ∗ (∃ d, owns c (ms3_3 t) fullShare ((dat3 V c).before 3 t d)))
      ⊢ wp frame (wpE (defs₀ (F := F)) Variants.none c none) Set.univ (bodyAt3 t) (fun _ => iprop(Phi3 V c (t.val + 1) ∗ (dat3 V c).owesAt () t.castSucc
          ∗ owns c (ms3_0 t) fullShare (iblk3 V c 0 t)
          ∗ owns c (ms3_1 t) fullShare (iblk3 V c 1 t)
          ∗ owns c (ms3_2 t) fullShare (iblk3 V c 2 t)
          ∗ (dat3 V c).leavesExact 3 t)) := by
  unfold bodyAt3
  simp only [before3_0, before3_1, before3_2]
  have hN : t.val < 20 := lt_of_lt_of_eq t.isLt (show cfg3.N = 20 from N_3)
  by_cases h0 : t.val % 5 = 0
  · have h4 : ¬t.val % 5 = 4 := by omega
    rw [Dat.leavesExact_idle (dat3 V c) 3 t (idleAt3_3 t h4) (noFlush3_3 t h4)]
    rw [Phi3, Phi3, if_pos h0, if_neg (by omega : ¬(t.val + 1) % 5 = 0), Nat.add_sub_cancel, accN3_zero V c t.val t.isLt h0,
      ← k3_pay1_eq, ← k3_pay2_eq]
    iintro ⟨⟨HR, Hg, ⟨%ds, HS⟩⟩, Ho, ⟨%d0, H0⟩, ⟨%d1, H1⟩, ⟨%d2, H2⟩, H3⟩
    iapply (run3_AB c (grid3.coords t) (iblk3 V c 0 t) (iblk3 V c 1 t) (fun h => h4 ((hcond3_1 t).mp h)) ds _ (.inl ⟨(hcond3_0 t).mpr h0, rfl⟩) Set.univ _)
    iframe H0 H1 HS
    iintro ⟨H0, H1, HS⟩
    iframe
  · by_cases h4 : t.val % 5 = 4
    · rw [show (dat3 V c).leavesExact 3 t = owns c (ms3_3 t) fullShare (outv3 (acc3 V c t) (iblk3 V c 2 t)) from leavesExact_live _ 3 t (liveAt3_3 t h4)]
      rw [Phi3, Phi3, if_neg h0, if_pos (by omega : (t.val + 1) % 5 = 0), acc3, accN3_succ V c t.val t.isLt h0,
        ← k3_pay2_eq, ← k3_pay3_eq]
      iintro ⟨⟨HR, Hg, HS⟩, Ho, ⟨%d0, H0⟩, ⟨%d1, H1⟩, ⟨%d2, H2⟩, ⟨%d3, H3⟩⟩
      iapply (run3_C c (grid3.coords t) (iblk3 V c 0 t) (iblk3 V c 1 t) (fun h => h0 ((hcond3_0 t).mp h)) ((hcond3_1 t).mpr h4) (iblk3 V c 2 t) (accN3 V c (t.val - 1)) Set.univ _)
      iframe H0 H1 H2 HS
      isplitl [H3]; · iexists _; iexact H3
      iintro ⟨H0, H1, H2, H3, HS⟩
      iframe HR Hg Ho H0 H1 H2 H3
      iexists _; iexact HS
    · rw [Dat.leavesExact_idle (dat3 V c) 3 t (idleAt3_3 t h4) (noFlush3_3 t h4)]
      rw [Phi3, Phi3, if_neg h0, if_neg (by omega : ¬(t.val + 1) % 5 = 0), Nat.add_sub_cancel, accN3_succ V c t.val t.isLt h0,
        ← k3_pay2_eq]
      iintro ⟨⟨HR, Hg, HS⟩, Ho, ⟨%d0, H0⟩, ⟨%d1, H1⟩, ⟨%d2, H2⟩, H3⟩
      iapply (run3_AB c (grid3.coords t) (iblk3 V c 0 t) (iblk3 V c 1 t) (fun h => h4 ((hcond3_1 t).mp h)) (accN3 V c (t.val - 1)) _ (.inr ⟨fun h => h0 ((hcond3_0 t).mp h), rfl⟩) Set.univ _)
      iframe H0 H1 HS
      iintro ⟨H0, H1, HS⟩
      iframe

theorem body_obligation3 : BodyObligation (dat3 (F := F) V c) (defs₀ (F := F)) Variants.none () Set.univ := fun t => by
  rw [bigSep_W3, bigSep_W3]
  exact sound_body3 V c t

-- The sum restarts at the first point, so the invariant asks nothing of the accumulator there,
theorem phi_in3 :
    (iprop((∃ r, prngReg c r) ∗ Pipeline.scopedRest (Ix := Unit) (Name := ℕ) (U := UR sig nD τ) (Lvl := ℕ) (Val := Elt F) spec3 c) : sProp 𝕄)
      ⊢ (dat3 V c).Φ 0 := by
  rw [show (dat3 V c).Φ 0 = Phi3 V c 0 from rfl, Phi3, if_pos (Nat.zero_mod 5), scopedRest3_split]
  simp only [scM3, owns_whole]
  iintro ⟨Hg, HS, HR⟩
  iframe

-- and it restarts after the last point, so nothing is left to give back.
theorem phi_out3 :
    (dat3 V c).Φ (Fin.last cfg3.N)
      ⊢ (iprop((∃ r, prngReg c r) ∗ Pipeline.scopedRest (Ix := Unit) (Name := ℕ) (U := UR sig nD τ) (Lvl := ℕ) (Val := Elt F) spec3 c) : sProp 𝕄) := by
  rw [show (dat3 V c).Φ (Fin.last cfg3.N) = Phi3 V c 20 from rfl, Phi3, if_pos (by decide : 20 % 5 = 0), scopedRest3_split]
  simp only [scM3, owns_whole]
  iintro ⟨HR, Hg, HS⟩
  iframe

end Cert.KernelIdeal.Hand

end
-- ==== Proof.KI.Lin4.lean ====
import proofs.«419824_j13683765805591_3_alg».proof.Proof.Gen.KernelIdeal.Launch
import proofs.«419824_j13683765805591_3_alg».proof.Proof.Gen.KernelIdeal.Skeleton
import proofs.«419824_j13683765805591_3_alg».proof.Proof.Gen.KernelIdeal.Points
import proofs.«419824_j13683765805591_3_alg».proof.Proof.FrameLib
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.KernelIdeal Cert.KernelIdeal.Gen Cert.FrameLib

variable {F : FTy → Type} [FloatOps F]

local notation "𝕄" => MT nD τ sig Unit (Elt F) ℕ (UR sig nD τ) ℕ

abbrev r4_0 : Rect S2560x128 := Rect.unit (s := S2560x128) ![0, 0] S2560x128.size inb_S2560x128_S2560x128_0_0
abbrev r4_1 : Rect S128x128 := Rect.unit (s := S128x128) ![0, 0] S128x128.size inb_S128x128_S128x128_0_0
abbrev r4_2 : Rect S1x128 := Rect.unit (s := S1x128) ![0, 0] S1x128.size inb_S1x128_S1x128_0_0
abbrev r4_3 : Rect S2560x128 := Rect.unit (s := S2560x128) ![0, 0] S2560x128.size inb_S2560x128_S2560x128_0_0

def out4_3 (x0 : Vec F S2560x128 .f32) (x1 : Vec F S128x128 .bf16) (x2 : Vec F S1x128 .f32) : Vec F S2560x128 .f32 :=
  View.canon [⟨r4_3, k4_pay1 (View.ld x0 r4_0) (View.ld x1 r4_1) (View.ld x2 r4_2)⟩]

-- a load through the whole buffer reads its contents, and one store through it leaves its payload
theorem out4_3_eq (x0 : Vec F S2560x128 .f32) (x1 : Vec F S128x128 .bf16) (x2 : Vec F S1x128 .f32) :
    out4_3 x0 x1 x2 = addf (matmul dot_S2560x128_S128x128_S2560x128_1_0_0_1_n_n none (truncf .bf16 (shapeCast S2560x128 x0 shapeCasts_S2560x128_S2560x128) bitsLt_bf16_f32) (shapeCast S128x128 x1 shapeCasts_S128x128_S128x128) (constant S2560x128 .f32 0x00000000#32)) (broadcastTo S2560x128 (shapeCast S1x128 x2 shapeCasts_S1x128_S1x128) broadcasts_S1x128_S2560x128) := by
  unfold out4_3
  rw [View.canon_unit_zero hz2, ld_unit, ld_unit, ld_unit]
  rfl

-- the body reads the three inputs whole and stores once through the whole output, so the output ends at out4_3 of the inputs
theorem sound_kernel4 (c : Dev nD) {i arg1 harg1 arg2 harg2 arg3 harg3 arg4 harg4} (x0 x1 x2) (K : PUnit → sProp 𝕄) :
    iprop((∃ d, owns c.tc arg4 fullShare d) ∗ owns c.tc arg1 fullShare x0 ∗ owns c.tc arg2 fullShare x1 ∗ owns c.tc arg3 fullShare x2
        ∗ (owns c.tc arg1 fullShare x0 -∗ owns c.tc arg2 fullShare x1 -∗ owns c.tc arg3 fullShare x2
            -∗ owns c.tc arg4 fullShare (out4_3 x0 x1 x2) -∗ K ⟨⟩))
      ⊢ wp frame (wpE (defs₀ (F := F)) Variants.none c none) Set.univ (cc4__linear_kernel i arg1 harg1 arg2 harg2 arg3 harg3 arg4 harg4) K := by
  simp only [cc4__linear_kernel_eq_skeleton]; unfold cc4__linear_kernel_skel owns
  iintro ⟨⟨%d3, %f3, -, H3⟩, ⟨%f0, %hf0, H0⟩, ⟨%f1, %hf1, H1⟩, ⟨%f2, %hf2, H2⟩, Hk⟩
  subst hf0 hf1 hf2
  sl_exec
  sl_step
  iapply Hk $$ [H0] [H1] [H2] [H3] <;> (iexists _; isplitr; swap; iassumption; ipureintro)
  · rfl
  · rfl
  · rfl
  exact View.read_writes_eq_canon _ _ _ fun y => ⟨_, List.mem_singleton_self _, View.mem_set_unit_zero hz2 inb_S2560x128_S2560x128_0_0 y⟩

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := rfl
theorem q_eq4 (c : Dev nD) (w : Fin cfg4.W) : (dat4 V c).q w = fullShare := rfl
theorem owed_eq4 (c : Dev nD) (t : Fin (cfg4.N + 1)) : (dat4 V c).owed t = 0 := rfl
theorem after4_3 (c : Dev nD) (t : Fin cfg4.N) : (dat4 V c).after 3 t = out4_3 (iblk4 V c 0 t) (iblk4 V c 1 t) (iblk4 V c 2 t) := by dsimp only [dat4]

theorem before4_0 (c t d) : (dat4 V c).before 0 t d = iblk4 V c 0 t :=
  (dat4 V c).before_in_eq_fetched 0 rfl (fun _ => rfl) (fun _ _ _ => rfl) (fun _ => rfl) t d
theorem before4_1 (c t d) : (dat4 V c).before 1 t d = iblk4 V c 1 t :=
  (dat4 V c).before_in_eq_fetched 1 rfl (fun _ => rfl) (fun _ _ _ => rfl) (fun _ => rfl) t d
theorem before4_2 (c t d) : (dat4 V c).before 2 t d = iblk4 V c 2 t :=
  (dat4 V c).before_in_eq_fetched 2 rfl (fun _ => rfl) (fun _ _ _ => rfl) (fun _ => rfl) t d

-- the inputs are at their blocks, so the kernel's triple applies; the invariant and what is owed pass through
theorem body_obligation4 (c : Dev nD) : BodyObligation (dat4 (F := F) V c) (defs₀ (F := F)) Variants.none () Set.univ := fun t => by
  rw [bigSep_W4, bigSep_W4]
  simp only [before4_0, before4_1, before4_2, after4_3, show (dat4 V c).Φ t.succ = (dat4 V c).Φ t.castSucc from rfl,
    show (dat4 V c).owesAt () t.succ = (dat4 V c).owesAt () t.castSucc from rfl, show (dat4 V c).after 0 t = iblk4 V c 0 t from rfl,
    show (dat4 V c).after 1 t = iblk4 V c 1 t from rfl, show (dat4 V c).after 2 t = iblk4 V c 2 t from rfl]
  show _ ⊢ wp _ _ _ (bodyAt4 t) _
  iintro ⟨HΦ, Ho, ⟨%d0, H0⟩, ⟨%d1, H1⟩, ⟨%d2, H2⟩, ⟨%d3, H3⟩⟩
  iapply sound_kernel4 c (iblk4 V c 0 t) (iblk4 V c 1 t) (iblk4 V c 2 t) _
  isplitl [H3]; · iexists _; iexact H3
  iframe H0 H1 H2
  iintro H0 H1 H2 H3
  iframe

theorem phi_in4 (c : Dev nD) :
    (iprop((∃ r, prngReg c r) ∗ Pipeline.scopedRest (Ix := Unit) (Name := ℕ) (U := UR sig nD τ) (Lvl := ℕ) (Val := Elt F) spec4 c) : sProp 𝕄)
      ⊢ (dat4 V c).Φ 0 := sep_symm
theorem phi_out4 (c : Dev nD) :
    (dat4 V c).Φ (Fin.last cfg4.N)
      ⊢ (iprop((∃ r, prngReg c r) ∗ Pipeline.scopedRest (Ix := Unit) (Name := ℕ) (U := UR sig nD τ) (Lvl := ℕ) (Val := Elt F) spec4 c) : sProp 𝕄) := sep_symm

end Cert.KernelIdeal.Hand

end
-- ==== Proof.KI.Agg5.lean ====
import proofs.«419824_j13683765805591_3_alg».proof.Proof.Gen.KernelIdeal.Launch
import proofs.«419824_j13683765805591_3_alg».proof.Proof.Gen.KernelIdeal.Skeleton
import proofs.«419824_j13683765805591_3_alg».proof.Proof.Gen.KernelIdeal.Points
import proofs.«419824_j13683765805591_3_alg».proof.Proof.FrameLib
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.FrameLib

variable {F : FTy → Type} [FloatOps F]

local notation "𝕄" => MT nD τ sig Unit (Elt F) ℕ (UR sig nD τ) ℕ

-- The reduction coordinate is 0: the sum restarts.
abbrev cond5_0 (i : grid5.Coords) : Prop := (Scalar.cmpi .ne (Scalar.extui (Scalar.cmpi .eq (BitVec.ofNat 32 (i 1).val) 0#32)) 0#32) = 1#1

theorem hcond5_0 : ∀ t : Fin grid5.N, cond5_0 (grid5.coords t) ↔ t.val % 5 = 0 := by decide +kernel

-- The reduction coordinate is 4: the sum is complete and the output is stored.
abbrev cond5_1 (i : grid5.Coords) : Prop := k5_cond2 i = 1#1

theorem hcond5_1 : ∀ t : Fin grid5.N, cond5_1 (grid5.coords t) ↔ t.val % 5 = 4 := by decide +kernel

theorem idleAt5_3 : ∀ t : Fin cfg5.N, ¬t.val % 5 = 4 → cfg5.idle 3 (grid5.coords t) = true := by decide +kernel
theorem liveAt5_3 : ∀ t : Fin cfg5.N, t.val % 5 = 4 → cfg5.idle 3 (grid5.coords t) = false := by decide +kernel

theorem noFlush5_3 (t : Fin cfg5.N) (h : ¬t.val % 5 = 4) : (cfg5.win 3).flush t = false :=
  Bool.eq_false_iff.mpr fun hf => h ((flush5_3 t).mp hf)

-- The product of one pair of blocks.
def mm5 (a : Vec F S2560x2048 .bf16) (h : Vec F S2048x128 .f32) : Vec F S2560x128 .f32 :=
  matmul dot_S2560x2048_S2048x128_S2560x128_1_0_0_1_n_n none (shapeCast S2560x2048 a shapeCasts_S2560x2048_S2560x2048) (truncf .bf16 (shapeCast S2048x128 h shapeCasts_S2048x128_S2048x128) bitsLt_bf16_f32) (constant S2560x128 .f32 0x00000000#32)

-- What is stored from a completed sum and the bias.
def outv5 (acc : Vec F S2560x128 .f32) (b : Vec F S1x128 .f32) : Vec F S2560x128 .f32 :=
  select (cmpf .ogt (addf acc (broadcastTo S2560x128 b broadcasts_S1x128_S2560x128)) (broadcast S2560x128 (Scalar.ofBits .f32 0x00000000#32)))
    (addf acc (broadcastTo S2560x128 b broadcasts_S1x128_S2560x128))
    (mulf (broadcast S2560x128 (Scalar.ofBits .f32 0x3DCCCCCD#32)) (addf acc (broadcastTo S2560x128 b broadcasts_S1x128_S2560x128)))

theorem outv5_eq (acc : Vec F S2560x128 .f32) (b : Vec F S1x128 .f32) :
    outv5 acc b = select (cmpf .ogt (addf acc (broadcastTo S2560x128 b broadcasts_S1x128_S2560x128)) (broadcast S2560x128 (Scalar.ofBits .f32 0x00000000#32)))
      (addf acc (broadcastTo S2560x128 b broadcasts_S1x128_S2560x128))
      (mulf (broadcast S2560x128 (Scalar.ofBits .f32 0x3DCCCCCD#32)) (addf acc (broadcastTo S2560x128 b broadcasts_S1x128_S2560x128))) := rfl

theorem k5_pay1_eq : (k5_pay1 (F := F)) = broadcast S2560x128 (Scalar.ofBits .f32 0x00000000#32) := by
  unfold k5_pay1; exact shapeCast_self _ _

theorem k5_pay2_eq (a : Vec F S2560x2048 .bf16) (h : Vec F S2048x128 .f32) (s : Vec F S2560x128 .f32) :
    k5_pay2 a h s = addf s (mm5 a h) := by
  unfold k5_pay2 mm5; exact shapeCast_self _ _

theorem k5_pay3_eq (acc : Vec F S2560x128 .f32) (b : Vec F S1x128 .f32) : k5_pay3 acc b = outv5 acc b := by
  unfold k5_pay3 outv5; rw [shapeCast_self]

variable (V : (c : Dev nD) → (b : Ref sig .tc) → Buf (Elt F) ((c : Thread nD τ).loc b)) (c : Dev nD)

def iblk5 (w : Fin cfg5.W) (t : Fin cfg5.N) : ((cfg5.win w).xblock (cfg5.grid.coords t)).Idx → Elt F (cfg5.win w).elt :=
  ((cfg5.win w).blk t).view.read (Elt F) (V c (Pipeline.arrRef spec5 w))

def accStep5 (n : ℕ) (s : Vec F S2560x128 .f32) : Vec F S2560x128 .f32 :=
  if h : n < cfg5.N then addf s (mm5 (iblk5 V c 0 ⟨n, h⟩) (iblk5 V c 1 ⟨n, h⟩)) else s

-- The partial sums along the grid, restarted at every fifth point.
def accN5 : ℕ → Vec F S2560x128 .f32 := accN (broadcast S2560x128 (Scalar.ofBits .f32 0x00000000#32)) (accStep5 V c)

def acc5 (t : Fin cfg5.N) : Vec F S2560x128 .f32 := accN5 V c t.val

theorem accN5_zero (n : ℕ) (hn : n < cfg5.N) (hk : n % 5 = 0) :
    accN5 V c n = addf (broadcast S2560x128 (Scalar.ofBits .f32 0x00000000#32)) (mm5 (iblk5 V c 0 ⟨n, hn⟩) (iblk5 V c 1 ⟨n, hn⟩)) := by
  rw [accN5, accN_zero _ _ hk, accStep5, dif_pos hn]

theorem accN5_succ (n : ℕ) (hn : n < cfg5.N) (hk : n % 5 ≠ 0) :
    accN5 V c n = addf (accN5 V c (n - 1)) (mm5 (iblk5 V c 0 ⟨n, hn⟩) (iblk5 V c 1 ⟨n, hn⟩)) := by
  rw [accN5, accN_succ _ _ hk, accStep5, dif_pos hn]

theorem acc5_zero (t : Fin cfg5.N) (hk : t.val % 5 = 0) :
    acc5 V c t = addf (broadcast S2560x128 (Scalar.ofBits .f32 0x00000000#32)) (mm5 (iblk5 V c 0 t) (iblk5 V c 1 t)) :=
  accN5_zero V c t.val t.isLt hk

theorem acc5_succ (t : Fin cfg5.N) (hk : t.val % 5 ≠ 0) :
    acc5 V c t = addf (acc5 V c ⟨t.val - 1, Nat.lt_of_le_of_lt (Nat.sub_le _ _) t.isLt⟩) (mm5 (iblk5 V c 0 t) (iblk5 V c 1 t)) :=
  accN5_succ V c t.val t.isLt hk

abbrev scM5 : Memref sig .tc .vmem S2560x128 .f32 := Memref.whole cc5_scratch0

-- Between points the accumulator holds the last partial sum, or anything where the sum is about to restart.
def Phi5 (n : ℕ) : sProp 𝕄 :=
  iprop(Pipeline.scopedRestBut (Ix := Unit) (Name := ℕ) (U := UR sig nD τ) (Lvl := ℕ) (Val := Elt F) spec5 c [cc5_scratch0]
    ∗ (∃ r, prngReg c r)
    ∗ (if n % 5 = 0 then iprop(∃ d, owns c scM5 fullShare d)
        else owns c scM5 fullShare (accN5 V c (n - 1))))

def dat5 : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => outv5 (acc5 V c t) (iblk5 V c 2 t)
  Φ t := Phi5 V c t.val
  q _ := fullShare
  owed _ := 0

theorem A_eq5 (w : Fin cfg5.W) : (dat5 V c).A w = V c (Pipeline.arrRef spec5 w) := rfl
theorem q_eq5 (w : Fin cfg5.W) : (dat5 V c).q w = fullShare := rfl
theorem owed_eq5 (t : Fin (cfg5.N + 1)) : (dat5 V c).owed t = 0 := rfl

theorem after5_3 (t : Fin cfg5.N) : (dat5 V c).after 3 t = outv5 (acc5 V c t) (iblk5 V c 2 t) := rfl

theorem before5_0 (t : Fin cfg5.N) (d) : (dat5 V c).before 0 t d = iblk5 V c 0 t :=
  (dat5 V c).before_in_eq_fetched 0 rfl (fun _ => rfl) (fun _ _ _ => rfl) (fun _ => rfl) t d
theorem before5_1 (t : Fin cfg5.N) (d) : (dat5 V c).before 1 t d = iblk5 V c 1 t :=
  (dat5 V c).before_in_eq_fetched 1 rfl (fun _ => rfl) (fun _ _ _ => rfl) (fun _ => rfl) t d
theorem before5_2 (t : Fin cfg5.N) (d) : (dat5 V c).before 2 t d = iblk5 V c 2 t :=
  (dat5 V c).before_in_eq_fetched 2 rfl (fun _ => rfl) (fun _ _ _ => rfl) (fun _ => rfl) t d

section
variable (i : grid5.Coords) {arg2 : Memref sig .tc .vmem S2560x2048 .bf16} {harg2 : arg2.IsWhole} {arg3 : Memref sig .tc .vmem S2048x128 .f32} {harg3 : arg3.IsWhole} {arg4 : Memref sig .tc .vmem S1x128 .f32} {harg4 : arg4.IsWhole} {arg5 : Memref sig .tc .vmem S2560x128 .f32} {harg5 : arg5.IsWhole} {arg6 : Memref sig .tc .vmem S2560x128 .f32} {harg6 : arg6.IsWhole}
  (x0 : Vec F S2560x2048 .bf16) (x1 : Vec F S2048x128 .f32)

-- The body where the output is not stored: the accumulator, reset first where the sum restarts, takes one more product.
set_option maxHeartbeats 1000000 in
theorem run5_AB (hc1 : ¬cond5_1 i) (s s' : Vec F S2560x128 .f32) (h : cond5_0 i ∧ s' = k5_pay1 ∨ ¬cond5_0 i ∧ s' = s) (E : Set ℕ) (K : PUnit → sProp 𝕄) :
    iprop(owns c arg2 fullShare x0 ∗ owns c arg3 fullShare x1 ∗ owns c arg6 fullShare s
        ∗ (iprop(owns c arg2 fullShare x0 ∗ owns c arg3 fullShare x1 ∗ owns c arg6 fullShare (k5_pay2 x0 x1 s')) -∗ K ⟨⟩))
      ⊢ wp frame (wpE (defs₀ (F := F)) Variants.none c none) E (cc5__agg_kernel i arg2 harg2 arg3 harg3 arg4 harg4 arg5 harg5 arg6 harg6) K := by
  simp only [cc5__agg_kernel_eq_skeleton]; unfold cc5__agg_kernel_skel
  rw [owns_unread c harg2, owns_unread c harg3]; unfold owns
  iintro ⟨H0, H1, ⟨%fs, %hfs, HS⟩, Hk⟩
  obtain rfl := harg6.eq_unread hfs
  rcases h with ⟨hc0, rfl⟩ | ⟨hc0, rfl⟩ <;>
  · sl_exec (disch := first | exact hc0 | exact hc1)
    sl_step
    iapply Hk
    iframe H0 H1
    iexists _; isplitr
    swap; · iexact HS
    ipureintro
    sl_unfold_run_names
    rw [read_writes_unit]
    simp only [View.readAt_eq_ld, harg2.read_unread, harg3.read_unread, harg6.read_unread, ld_unit, readCov_unit]

-- The body at the last step of a sum: the output takes the value computed from the completed sum.
set_option maxHeartbeats 1000000 in
theorem run5_C (hc0 : ¬cond5_0 i) (hc1 : cond5_1 i) (x2 : Vec F S1x128 .f32) (s : Vec F S2560x128 .f32) (E : Set ℕ) (K : PUnit → sProp 𝕄) :
    iprop(owns c arg2 fullShare x0 ∗ owns c arg3 fullShare x1 ∗ owns c arg4 fullShare x2 ∗ (∃ d, owns c arg5 fullShare d) ∗ owns c arg6 fullShare s
        ∗ (iprop(owns c arg2 fullShare x0 ∗ owns c arg3 fullShare x1 ∗ owns c arg4 fullShare x2 ∗ owns c arg5 fullShare (k5_pay3 (k5_pay2 x0 x1 s) x2) ∗ owns c arg6 fullShare (k5_pay2 x0 x1 s)) -∗ K ⟨⟩))
      ⊢ wp frame (wpE (defs₀ (F := F)) Variants.none c none) E (cc5__agg_kernel i arg2 harg2 arg3 harg3 arg4 harg4 arg5 harg5 arg6 harg6) K := by
  simp only [cc5__agg_kernel_eq_skeleton]; unfold cc5__agg_kernel_skel
  rw [owns_unread c harg2, owns_unread c harg3, owns_unread c harg4]; unfold owns
  iintro ⟨H0, H1, H2, ⟨%d5, %f5, -, H5⟩, ⟨%fs, %hfs, HS⟩, Hk⟩
  obtain rfl := harg6.eq_unread hfs
  sl_exec (disch := first | exact hc0 | exact hc1)
  sl_step
  iapply Hk
  iframe H0 H1 H2
  isplitl [H5]
  · iexists _; isplitr
    swap; · iexact H5
    ipureintro
    sl_unfold_run_names
    rw [read_writes_unit]
    simp only [View.readAt_eq_ld, harg2.read_unread, harg3.read_unread, harg4.read_unread, harg6.read_unread, ld_unit, readCov_unit]
  iexists _; isplitr
  swap; · iexact HS
  ipureintro
  sl_unfold_run_names
  rw [read_writes_unit]
  simp only [View.readAt_eq_ld, harg2.read_unread, harg3.read_unread, harg6.read_unread, ld_unit, readCov_unit]

end

abbrev ms5_0 (t : Fin cfg5.N) : Memref sig .tc .vmem S2560x2048 .bf16 := win5_0.stage (cfg5.slots t 0)
abbrev ms5_1 (t : Fin cfg5.N) : Memref sig .tc .vmem S2048x128 .f32 := win5_1.stage (cfg5.slots t 1)
abbrev ms5_2 (t : Fin cfg5.N) : Memref sig .tc .vmem S1x128 .f32 := win5_2.stage (cfg5.slots t 2)
abbrev ms5_3 (t : Fin cfg5.N) : Memref sig .tc .vmem S2560x128 .f32 := win5_3.stage (cfg5.slots t 3)

-- The body at any point, by its position mod 5: restart, middle, or last step.
set_option maxHeartbeats 4000000 in
theorem sound_body5 (t : Fin cfg5.N) :
    iprop(Phi5 V c t.val ∗ (dat5 V c).owesAt () t.castSucc
      ∗ (∃ d, owns c (ms5_0 t) fullShare ((dat5 V c).before 0 t d))
      ∗ (∃ d, owns c (ms5_1 t) fullShare ((dat5 V c).before 1 t d))
      ∗ (∃ d, owns c (ms5_2 t) fullShare ((dat5 V c).before 2 t d))
      ∗ (∃ d, owns c (ms5_3 t) fullShare ((dat5 V c).before 3 t d)))
      ⊢ wp frame (wpE (defs₀ (F := F)) Variants.none c none) Set.univ (bodyAt5 t) (fun _ => iprop(Phi5 V c (t.val + 1) ∗ (dat5 V c).owesAt () t.castSucc
          ∗ owns c (ms5_0 t) fullShare (iblk5 V c 0 t)
          ∗ owns c (ms5_1 t) fullShare (iblk5 V c 1 t)
          ∗ owns c (ms5_2 t) fullShare (iblk5 V c 2 t)
          ∗ (dat5 V c).leavesExact 3 t)) := by
  unfold bodyAt5
  simp only [before5_0, before5_1, before5_2]
  have hN : t.val < 20 := lt_of_lt_of_eq t.isLt (show cfg5.N = 20 from N_5)
  by_cases h0 : t.val % 5 = 0
  · have h4 : ¬t.val % 5 = 4 := by omega
    rw [Dat.leavesExact_idle (dat5 V c) 3 t (idleAt5_3 t h4) (noFlush5_3 t h4)]
    rw [Phi5, Phi5, if_pos h0, if_neg (by omega : ¬(t.val + 1) % 5 = 0), Nat.add_sub_cancel, accN5_zero V c t.val t.isLt h0,
      ← k5_pay1_eq, ← k5_pay2_eq]
    iintro ⟨⟨HR, Hg, ⟨%ds, HS⟩⟩, Ho, ⟨%d0, H0⟩, ⟨%d1, H1⟩, ⟨%d2, H2⟩, H3⟩
    iapply (run5_AB c (grid5.coords t) (iblk5 V c 0 t) (iblk5 V c 1 t) (fun h => h4 ((hcond5_1 t).mp h)) ds _ (.inl ⟨(hcond5_0 t).mpr h0, rfl⟩) Set.univ _)
    iframe H0 H1 HS
    iintro ⟨H0, H1, HS⟩
    iframe
  · by_cases h4 : t.val % 5 = 4
    · rw [show (dat5 V c).leavesExact 3 t = owns c (ms5_3 t) fullShare (outv5 (acc5 V c t) (iblk5 V c 2 t)) from leavesExact_live _ 3 t (liveAt5_3 t h4)]
      rw [Phi5, Phi5, if_neg h0, if_pos (by omega : (t.val + 1) % 5 = 0), acc5, accN5_succ V c t.val t.isLt h0,
        ← k5_pay2_eq, ← k5_pay3_eq]
      iintro ⟨⟨HR, Hg, HS⟩, Ho, ⟨%d0, H0⟩, ⟨%d1, H1⟩, ⟨%d2, H2⟩, ⟨%d3, H3⟩⟩
      iapply (run5_C c (grid5.coords t) (iblk5 V c 0 t) (iblk5 V c 1 t) (fun h => h0 ((hcond5_0 t).mp h)) ((hcond5_1 t).mpr h4) (iblk5 V c 2 t) (accN5 V c (t.val - 1)) Set.univ _)
      iframe H0 H1 H2 HS
      isplitl [H3]; · iexists _; iexact H3
      iintro ⟨H0, H1, H2, H3, HS⟩
      iframe HR Hg Ho H0 H1 H2 H3
      iexists _; iexact HS
    · rw [Dat.leavesExact_idle (dat5 V c) 3 t (idleAt5_3 t h4) (noFlush5_3 t h4)]
      rw [Phi5, Phi5, if_neg h0, if_neg (by omega : ¬(t.val + 1) % 5 = 0), Nat.add_sub_cancel, accN5_succ V c t.val t.isLt h0,
        ← k5_pay2_eq]
      iintro ⟨⟨HR, Hg, HS⟩, Ho, ⟨%d0, H0⟩, ⟨%d1, H1⟩, ⟨%d2, H2⟩, H3⟩
      iapply (run5_AB c (grid5.coords t) (iblk5 V c 0 t) (iblk5 V c 1 t) (fun h => h4 ((hcond5_1 t).mp h)) (accN5 V c (t.val - 1)) _ (.inr ⟨fun h => h0 ((hcond5_0 t).mp h), rfl⟩) Set.univ _)
      iframe H0 H1 HS
      iintro ⟨H0, H1, HS⟩
      iframe

theorem body_obligation5 : BodyObligation (dat5 (F := F) V c) (defs₀ (F := F)) Variants.none () Set.univ := fun t => by
  rw [bigSep_W5, bigSep_W5]
  exact sound_body5 V c t

-- The sum restarts at the first point, so the invariant asks nothing of the accumulator there,
theorem phi_in5 :
    (iprop((∃ r, prngReg c r) ∗ Pipeline.scopedRest (Ix := Unit) (Name := ℕ) (U := UR sig nD τ) (Lvl := ℕ) (Val := Elt F) spec5 c) : sProp 𝕄)
      ⊢ (dat5 V c).Φ 0 := by
  rw [show (dat5 V c).Φ 0 = Phi5 V c 0 from rfl, Phi5, if_pos (Nat.zero_mod 5), scopedRest5_split]
  simp only [scM5, owns_whole]
  iintro ⟨Hg, HS, HR⟩
  iframe

-- and it restarts after the last point, so nothing is left to give back.
theorem phi_out5 :
    (dat5 V c).Φ (Fin.last cfg5.N)
      ⊢ (iprop((∃ r, prngReg c r) ∗ Pipeline.scopedRest (Ix := Unit) (Name := ℕ) (U := UR sig nD τ) (Lvl := ℕ) (Val := Elt F) spec5 c) : sProp 𝕄) := by
  rw [show (dat5 V c).Φ (Fin.last cfg5.N) = Phi5 V c 20 from rfl, Phi5, if_pos (by decide : 20 % 5 = 0), scopedRest5_split]
  simp only [scM5, owns_whole]
  iintro ⟨HR, Hg, HS⟩
  iframe

end Cert.KernelIdeal.Hand

end
-- ==== Proof.KI.Lin6.lean ====
import proofs.«419824_j13683765805591_3_alg».proof.Proof.Gen.KernelIdeal.Launch
import proofs.«419824_j13683765805591_3_alg».proof.Proof.Gen.KernelIdeal.Skeleton
import proofs.«419824_j13683765805591_3_alg».proof.Proof.Gen.KernelIdeal.Points
import proofs.«419824_j13683765805591_3_alg».proof.Proof.FrameLib
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.KernelIdeal Cert.KernelIdeal.Gen Cert.FrameLib

variable {F : FTy → Type} [FloatOps F]

local notation "𝕄" => MT nD τ sig Unit (Elt F) ℕ (UR sig nD τ) ℕ

abbrev r6_0 : Rect S2560x128 := Rect.unit (s := S2560x128) ![0, 0] S2560x128.size inb_S2560x128_S2560x128_0_0
abbrev r6_1 : Rect S128x128 := Rect.unit (s := S128x128) ![0, 0] S128x128.size inb_S128x128_S128x128_0_0
abbrev r6_2 : Rect S1x128 := Rect.unit (s := S1x128) ![0, 0] S1x128.size inb_S1x128_S1x128_0_0
abbrev r6_3 : Rect S2560x128 := Rect.unit (s := S2560x128) ![0, 0] S2560x128.size inb_S2560x128_S2560x128_0_0

def out6_3 (x0 : Vec F S2560x128 .f32) (x1 : Vec F S128x128 .bf16) (x2 : Vec F S1x128 .f32) : Vec F S2560x128 .f32 :=
  View.canon [⟨r6_3, k6_pay1 (View.ld x0 r6_0) (View.ld x1 r6_1) (View.ld x2 r6_2)⟩]

-- a load through the whole buffer reads its contents, and one store through it leaves its payload
theorem out6_3_eq (x0 : Vec F S2560x128 .f32) (x1 : Vec F S128x128 .bf16) (x2 : Vec F S1x128 .f32) :
    out6_3 x0 x1 x2 = addf (matmul dot_S2560x128_S128x128_S2560x128_1_0_0_1_n_n none (truncf .bf16 (shapeCast S2560x128 x0 shapeCasts_S2560x128_S2560x128) bitsLt_bf16_f32) (shapeCast S128x128 x1 shapeCasts_S128x128_S128x128) (constant S2560x128 .f32 0x00000000#32)) (broadcastTo S2560x128 (shapeCast S1x128 x2 shapeCasts_S1x128_S1x128) broadcasts_S1x128_S2560x128) := by
  unfold out6_3
  rw [View.canon_unit_zero hz2, ld_unit, ld_unit, ld_unit]
  rfl

-- the body reads the three inputs whole and stores once through the whole output, so the output ends at out6_3 of the inputs
theorem sound_kernel6 (c : Dev nD) {i arg1 harg1 arg2 harg2 arg3 harg3 arg4 harg4} (x0 x1 x2) (K : PUnit → sProp 𝕄) :
    iprop((∃ d, owns c.tc arg4 fullShare d) ∗ owns c.tc arg1 fullShare x0 ∗ owns c.tc arg2 fullShare x1 ∗ owns c.tc arg3 fullShare x2
        ∗ (owns c.tc arg1 fullShare x0 -∗ owns c.tc arg2 fullShare x1 -∗ owns c.tc arg3 fullShare x2
            -∗ owns c.tc arg4 fullShare (out6_3 x0 x1 x2) -∗ K ⟨⟩))
      ⊢ wp frame (wpE (defs₀ (F := F)) Variants.none c none) Set.univ (cc6__linear_kernel i arg1 harg1 arg2 harg2 arg3 harg3 arg4 harg4) K := by
  simp only [cc6__linear_kernel_eq_skeleton]; unfold cc6__linear_kernel_skel owns
  iintro ⟨⟨%d3, %f3, -, H3⟩, ⟨%f0, %hf0, H0⟩, ⟨%f1, %hf1, H1⟩, ⟨%f2, %hf2, H2⟩, Hk⟩
  subst hf0 hf1 hf2
  sl_exec
  sl_step
  iapply Hk $$ [H0] [H1] [H2] [H3] <;> (iexists _; isplitr; swap; iassumption; ipureintro)
  · rfl
  · rfl
  · rfl
  exact View.read_writes_eq_canon _ _ _ fun y => ⟨_, List.mem_singleton_self _, View.mem_set_unit_zero hz2 inb_S2560x128_S2560x128_0_0 y⟩

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

theorem A_eq6 (c : Dev nD) (w : Fin cfg6.W) : (dat6 V c).A w = V c (Pipeline.arrRef spec6 w) := rfl
theorem q_eq6 (c : Dev nD) (w : Fin cfg6.W) : (dat6 V c).q w = fullShare := rfl
theorem owed_eq6 (c : Dev nD) (t : Fin (cfg6.N + 1)) : (dat6 V c).owed t = 0 := rfl
theorem after6_3 (c : Dev nD) (t : Fin cfg6.N) : (dat6 V c).after 3 t = out6_3 (iblk6 V c 0 t) (iblk6 V c 1 t) (iblk6 V c 2 t) := by dsimp only [dat6]

theorem before6_0 (c t d) : (dat6 V c).before 0 t d = iblk6 V c 0 t :=
  (dat6 V c).before_in_eq_fetched 0 rfl (fun _ => rfl) (fun _ _ _ => rfl) (fun _ => rfl) t d
theorem before6_1 (c t d) : (dat6 V c).before 1 t d = iblk6 V c 1 t :=
  (dat6 V c).before_in_eq_fetched 1 rfl (fun _ => rfl) (fun _ _ _ => rfl) (fun _ => rfl) t d
theorem before6_2 (c t d) : (dat6 V c).before 2 t d = iblk6 V c 2 t :=
  (dat6 V c).before_in_eq_fetched 2 rfl (fun _ => rfl) (fun _ _ _ => rfl) (fun _ => rfl) t d

-- the inputs are at their blocks, so the kernel's triple applies; the invariant and what is owed pass through
theorem body_obligation6 (c : Dev nD) : BodyObligation (dat6 (F := F) V c) (defs₀ (F := F)) Variants.none () Set.univ := fun t => by
  rw [bigSep_W6, bigSep_W6]
  simp only [before6_0, before6_1, before6_2, after6_3, show (dat6 V c).Φ t.succ = (dat6 V c).Φ t.castSucc from rfl,
    show (dat6 V c).owesAt () t.succ = (dat6 V c).owesAt () t.castSucc from rfl, show (dat6 V c).after 0 t = iblk6 V c 0 t from rfl,
    show (dat6 V c).after 1 t = iblk6 V c 1 t from rfl, show (dat6 V c).after 2 t = iblk6 V c 2 t from rfl]
  show _ ⊢ wp _ _ _ (bodyAt6 t) _
  iintro ⟨HΦ, Ho, ⟨%d0, H0⟩, ⟨%d1, H1⟩, ⟨%d2, H2⟩, ⟨%d3, H3⟩⟩
  iapply sound_kernel6 c (iblk6 V c 0 t) (iblk6 V c 1 t) (iblk6 V c 2 t) _
  isplitl [H3]; · iexists _; iexact H3
  iframe H0 H1 H2
  iintro H0 H1 H2 H3
  iframe

theorem phi_in6 (c : Dev nD) :
    (iprop((∃ r, prngReg c r) ∗ Pipeline.scopedRest (Ix := Unit) (Name := ℕ) (U := UR sig nD τ) (Lvl := ℕ) (Val := Elt F) spec6 c) : sProp 𝕄)
      ⊢ (dat6 V c).Φ 0 := sep_symm
theorem phi_out6 (c : Dev nD) :
    (dat6 V c).Φ (Fin.last cfg6.N)
      ⊢ (iprop((∃ r, prngReg c r) ∗ Pipeline.scopedRest (Ix := Unit) (Name := ℕ) (U := UR sig nD τ) (Lvl := ℕ) (Val := Elt F) spec6 c) : sProp 𝕄) := sep_symm

end Cert.KernelIdeal.Hand

end
-- ==== Proof.KI.Agg7.lean ====
import proofs.«419824_j13683765805591_3_alg».proof.Proof.Gen.KernelIdeal.Launch
import proofs.«419824_j13683765805591_3_alg».proof.Proof.Gen.KernelIdeal.Skeleton
import proofs.«419824_j13683765805591_3_alg».proof.Proof.Gen.KernelIdeal.Points
import proofs.«419824_j13683765805591_3_alg».proof.Proof.FrameLib
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.FrameLib

variable {F : FTy → Type} [FloatOps F]

local notation "𝕄" => MT nD τ sig Unit (Elt F) ℕ (UR sig nD τ) ℕ

-- The reduction coordinate is 0: the sum restarts.
abbrev cond7_0 (i : grid7.Coords) : Prop := (Scalar.cmpi .ne (Scalar.extui (Scalar.cmpi .eq (BitVec.ofNat 32 (i 1).val) 0#32)) 0#32) = 1#1

theorem hcond7_0 : ∀ t : Fin grid7.N, cond7_0 (grid7.coords t) ↔ t.val % 5 = 0 := by decide +kernel

-- The reduction coordinate is 4: the sum is complete and the output is stored.
abbrev cond7_1 (i : grid7.Coords) : Prop := k7_cond2 i = 1#1

theorem hcond7_1 : ∀ t : Fin grid7.N, cond7_1 (grid7.coords t) ↔ t.val % 5 = 4 := by decide +kernel

theorem idleAt7_3 : ∀ t : Fin cfg7.N, ¬t.val % 5 = 4 → cfg7.idle 3 (grid7.coords t) = true := by decide +kernel
theorem liveAt7_3 : ∀ t : Fin cfg7.N, t.val % 5 = 4 → cfg7.idle 3 (grid7.coords t) = false := by decide +kernel

theorem noFlush7_3 (t : Fin cfg7.N) (h : ¬t.val % 5 = 4) : (cfg7.win 3).flush t = false :=
  Bool.eq_false_iff.mpr fun hf => h ((flush7_3 t).mp hf)

-- The product of one pair of blocks.
def mm7 (a : Vec F S2560x2048 .bf16) (h : Vec F S2048x128 .f32) : Vec F S2560x128 .f32 :=
  matmul dot_S2560x2048_S2048x128_S2560x128_1_0_0_1_n_n none (shapeCast S2560x2048 a shapeCasts_S2560x2048_S2560x2048) (truncf .bf16 (shapeCast S2048x128 h shapeCasts_S2048x128_S2048x128) bitsLt_bf16_f32) (constant S2560x128 .f32 0x00000000#32)

-- What is stored from a completed sum and the bias.
def outv7 (acc : Vec F S2560x128 .f32) (b : Vec F S1x128 .f32) : Vec F S2560x128 .f32 :=
  select (cmpf .ogt (addf acc (broadcastTo S2560x128 b broadcasts_S1x128_S2560x128)) (broadcast S2560x128 (Scalar.ofBits .f32 0x00000000#32)))
    (addf acc (broadcastTo S2560x128 b broadcasts_S1x128_S2560x128))
    (mulf (broadcast S2560x128 (Scalar.ofBits .f32 0x3DCCCCCD#32)) (addf acc (broadcastTo S2560x128 b broadcasts_S1x128_S2560x128)))

theorem outv7_eq (acc : Vec F S2560x128 .f32) (b : Vec F S1x128 .f32) :
    outv7 acc b = select (cmpf .ogt (addf acc (broadcastTo S2560x128 b broadcasts_S1x128_S2560x128)) (broadcast S2560x128 (Scalar.ofBits .f32 0x00000000#32)))
      (addf acc (broadcastTo S2560x128 b broadcasts_S1x128_S2560x128))
      (mulf (broadcast S2560x128 (Scalar.ofBits .f32 0x3DCCCCCD#32)) (addf acc (broadcastTo S2560x128 b broadcasts_S1x128_S2560x128))) := rfl

theorem k7_pay1_eq : (k7_pay1 (F := F)) = broadcast S2560x128 (Scalar.ofBits .f32 0x00000000#32) := by
  unfold k7_pay1; exact shapeCast_self _ _

theorem k7_pay2_eq (a : Vec F S2560x2048 .bf16) (h : Vec F S2048x128 .f32) (s : Vec F S2560x128 .f32) :
    k7_pay2 a h s = addf s (mm7 a h) := by
  unfold k7_pay2 mm7; exact shapeCast_self _ _

theorem k7_pay3_eq (acc : Vec F S2560x128 .f32) (b : Vec F S1x128 .f32) : k7_pay3 acc b = outv7 acc b := by
  unfold k7_pay3 outv7; rw [shapeCast_self]

variable (V : (c : Dev nD) → (b : Ref sig .tc) → Buf (Elt F) ((c : Thread nD τ).loc b)) (c : Dev nD)

def iblk7 (w : Fin cfg7.W) (t : Fin cfg7.N) : ((cfg7.win w).xblock (cfg7.grid.coords t)).Idx → Elt F (cfg7.win w).elt :=
  ((cfg7.win w).blk t).view.read (Elt F) (V c (Pipeline.arrRef spec7 w))

def accStep7 (n : ℕ) (s : Vec F S2560x128 .f32) : Vec F S2560x128 .f32 :=
  if h : n < cfg7.N then addf s (mm7 (iblk7 V c 0 ⟨n, h⟩) (iblk7 V c 1 ⟨n, h⟩)) else s

-- The partial sums along the grid, restarted at every fifth point.
def accN7 : ℕ → Vec F S2560x128 .f32 := accN (broadcast S2560x128 (Scalar.ofBits .f32 0x00000000#32)) (accStep7 V c)

def acc7 (t : Fin cfg7.N) : Vec F S2560x128 .f32 := accN7 V c t.val

theorem accN7_zero (n : ℕ) (hn : n < cfg7.N) (hk : n % 5 = 0) :
    accN7 V c n = addf (broadcast S2560x128 (Scalar.ofBits .f32 0x00000000#32)) (mm7 (iblk7 V c 0 ⟨n, hn⟩) (iblk7 V c 1 ⟨n, hn⟩)) := by
  rw [accN7, accN_zero _ _ hk, accStep7, dif_pos hn]

theorem accN7_succ (n : ℕ) (hn : n < cfg7.N) (hk : n % 5 ≠ 0) :
    accN7 V c n = addf (accN7 V c (n - 1)) (mm7 (iblk7 V c 0 ⟨n, hn⟩) (iblk7 V c 1 ⟨n, hn⟩)) := by
  rw [accN7, accN_succ _ _ hk, accStep7, dif_pos hn]

theorem acc7_zero (t : Fin cfg7.N) (hk : t.val % 5 = 0) :
    acc7 V c t = addf (broadcast S2560x128 (Scalar.ofBits .f32 0x00000000#32)) (mm7 (iblk7 V c 0 t) (iblk7 V c 1 t)) :=
  accN7_zero V c t.val t.isLt hk

theorem acc7_succ (t : Fin cfg7.N) (hk : t.val % 5 ≠ 0) :
    acc7 V c t = addf (acc7 V c ⟨t.val - 1, Nat.lt_of_le_of_lt (Nat.sub_le _ _) t.isLt⟩) (mm7 (iblk7 V c 0 t) (iblk7 V c 1 t)) :=
  accN7_succ V c t.val t.isLt hk

abbrev scM7 : Memref sig .tc .vmem S2560x128 .f32 := Memref.whole cc7_scratch0

-- Between points the accumulator holds the last partial sum, or anything where the sum is about to restart.
def Phi7 (n : ℕ) : sProp 𝕄 :=
  iprop(Pipeline.scopedRestBut (Ix := Unit) (Name := ℕ) (U := UR sig nD τ) (Lvl := ℕ) (Val := Elt F) spec7 c [cc7_scratch0]
    ∗ (∃ r, prngReg c r)
    ∗ (if n % 5 = 0 then iprop(∃ d, owns c scM7 fullShare d)
        else owns c scM7 fullShare (accN7 V c (n - 1))))

def dat7 : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => outv7 (acc7 V c t) (iblk7 V c 2 t)
  Φ t := Phi7 V c t.val
  q _ := fullShare
  owed _ := 0

theorem A_eq7 (w : Fin cfg7.W) : (dat7 V c).A w = V c (Pipeline.arrRef spec7 w) := rfl
theorem q_eq7 (w : Fin cfg7.W) : (dat7 V c).q w = fullShare := rfl
theorem owed_eq7 (t : Fin (cfg7.N + 1)) : (dat7 V c).owed t = 0 := rfl

theorem after7_3 (t : Fin cfg7.N) : (dat7 V c).after 3 t = outv7 (acc7 V c t) (iblk7 V c 2 t) := rfl

theorem before7_0 (t : Fin cfg7.N) (d) : (dat7 V c).before 0 t d = iblk7 V c 0 t :=
  (dat7 V c).before_in_eq_fetched 0 rfl (fun _ => rfl) (fun _ _ _ => rfl) (fun _ => rfl) t d
theorem before7_1 (t : Fin cfg7.N) (d) : (dat7 V c).before 1 t d = iblk7 V c 1 t :=
  (dat7 V c).before_in_eq_fetched 1 rfl (fun _ => rfl) (fun _ _ _ => rfl) (fun _ => rfl) t d
theorem before7_2 (t : Fin cfg7.N) (d) : (dat7 V c).before 2 t d = iblk7 V c 2 t :=
  (dat7 V c).before_in_eq_fetched 2 rfl (fun _ => rfl) (fun _ _ _ => rfl) (fun _ => rfl) t d

section
variable (i : grid7.Coords) {arg2 : Memref sig .tc .vmem S2560x2048 .bf16} {harg2 : arg2.IsWhole} {arg3 : Memref sig .tc .vmem S2048x128 .f32} {harg3 : arg3.IsWhole} {arg4 : Memref sig .tc .vmem S1x128 .f32} {harg4 : arg4.IsWhole} {arg5 : Memref sig .tc .vmem S2560x128 .f32} {harg5 : arg5.IsWhole} {arg6 : Memref sig .tc .vmem S2560x128 .f32} {harg6 : arg6.IsWhole}
  (x0 : Vec F S2560x2048 .bf16) (x1 : Vec F S2048x128 .f32)

-- The body where the output is not stored: the accumulator, reset first where the sum restarts, takes one more product.
set_option maxHeartbeats 1000000 in
theorem run7_AB (hc1 : ¬cond7_1 i) (s s' : Vec F S2560x128 .f32) (h : cond7_0 i ∧ s' = k7_pay1 ∨ ¬cond7_0 i ∧ s' = s) (E : Set ℕ) (K : PUnit → sProp 𝕄) :
    iprop(owns c arg2 fullShare x0 ∗ owns c arg3 fullShare x1 ∗ owns c arg6 fullShare s
        ∗ (iprop(owns c arg2 fullShare x0 ∗ owns c arg3 fullShare x1 ∗ owns c arg6 fullShare (k7_pay2 x0 x1 s')) -∗ K ⟨⟩))
      ⊢ wp frame (wpE (defs₀ (F := F)) Variants.none c none) E (cc7__agg_kernel i arg2 harg2 arg3 harg3 arg4 harg4 arg5 harg5 arg6 harg6) K := by
  simp only [cc7__agg_kernel_eq_skeleton]; unfold cc7__agg_kernel_skel
  rw [owns_unread c harg2, owns_unread c harg3]; unfold owns
  iintro ⟨H0, H1, ⟨%fs, %hfs, HS⟩, Hk⟩
  obtain rfl := harg6.eq_unread hfs
  rcases h with ⟨hc0, rfl⟩ | ⟨hc0, rfl⟩ <;>
  · sl_exec (disch := first | exact hc0 | exact hc1)
    sl_step
    iapply Hk
    iframe H0 H1
    iexists _; isplitr
    swap; · iexact HS
    ipureintro
    sl_unfold_run_names
    rw [read_writes_unit]
    simp only [View.readAt_eq_ld, harg2.read_unread, harg3.read_unread, harg6.read_unread, ld_unit, readCov_unit]

-- The body at the last step of a sum: the output takes the value computed from the completed sum.
set_option maxHeartbeats 1000000 in
theorem run7_C (hc0 : ¬cond7_0 i) (hc1 : cond7_1 i) (x2 : Vec F S1x128 .f32) (s : Vec F S2560x128 .f32) (E : Set ℕ) (K : PUnit → sProp 𝕄) :
    iprop(owns c arg2 fullShare x0 ∗ owns c arg3 fullShare x1 ∗ owns c arg4 fullShare x2 ∗ (∃ d, owns c arg5 fullShare d) ∗ owns c arg6 fullShare s
        ∗ (iprop(owns c arg2 fullShare x0 ∗ owns c arg3 fullShare x1 ∗ owns c arg4 fullShare x2 ∗ owns c arg5 fullShare (k7_pay3 (k7_pay2 x0 x1 s) x2) ∗ owns c arg6 fullShare (k7_pay2 x0 x1 s)) -∗ K ⟨⟩))
      ⊢ wp frame (wpE (defs₀ (F := F)) Variants.none c none) E (cc7__agg_kernel i arg2 harg2 arg3 harg3 arg4 harg4 arg5 harg5 arg6 harg6) K := by
  simp only [cc7__agg_kernel_eq_skeleton]; unfold cc7__agg_kernel_skel
  rw [owns_unread c harg2, owns_unread c harg3, owns_unread c harg4]; unfold owns
  iintro ⟨H0, H1, H2, ⟨%d5, %f5, -, H5⟩, ⟨%fs, %hfs, HS⟩, Hk⟩
  obtain rfl := harg6.eq_unread hfs
  sl_exec (disch := first | exact hc0 | exact hc1)
  sl_step
  iapply Hk
  iframe H0 H1 H2
  isplitl [H5]
  · iexists _; isplitr
    swap; · iexact H5
    ipureintro
    sl_unfold_run_names
    rw [read_writes_unit]
    simp only [View.readAt_eq_ld, harg2.read_unread, harg3.read_unread, harg4.read_unread, harg6.read_unread, ld_unit, readCov_unit]
  iexists _; isplitr
  swap; · iexact HS
  ipureintro
  sl_unfold_run_names
  rw [read_writes_unit]
  simp only [View.readAt_eq_ld, harg2.read_unread, harg3.read_unread, harg6.read_unread, ld_unit, readCov_unit]

end

abbrev ms7_0 (t : Fin cfg7.N) : Memref sig .tc .vmem S2560x2048 .bf16 := win7_0.stage (cfg7.slots t 0)
abbrev ms7_1 (t : Fin cfg7.N) : Memref sig .tc .vmem S2048x128 .f32 := win7_1.stage (cfg7.slots t 1)
abbrev ms7_2 (t : Fin cfg7.N) : Memref sig .tc .vmem S1x128 .f32 := win7_2.stage (cfg7.slots t 2)
abbrev ms7_3 (t : Fin cfg7.N) : Memref sig .tc .vmem S2560x128 .f32 := win7_3.stage (cfg7.slots t 3)

-- The body at any point, by its position mod 5: restart, middle, or last step.
set_option maxHeartbeats 4000000 in
theorem sound_body7 (t : Fin cfg7.N) :
    iprop(Phi7 V c t.val ∗ (dat7 V c).owesAt () t.castSucc
      ∗ (∃ d, owns c (ms7_0 t) fullShare ((dat7 V c).before 0 t d))
      ∗ (∃ d, owns c (ms7_1 t) fullShare ((dat7 V c).before 1 t d))
      ∗ (∃ d, owns c (ms7_2 t) fullShare ((dat7 V c).before 2 t d))
      ∗ (∃ d, owns c (ms7_3 t) fullShare ((dat7 V c).before 3 t d)))
      ⊢ wp frame (wpE (defs₀ (F := F)) Variants.none c none) Set.univ (bodyAt7 t) (fun _ => iprop(Phi7 V c (t.val + 1) ∗ (dat7 V c).owesAt () t.castSucc
          ∗ owns c (ms7_0 t) fullShare (iblk7 V c 0 t)
          ∗ owns c (ms7_1 t) fullShare (iblk7 V c 1 t)
          ∗ owns c (ms7_2 t) fullShare (iblk7 V c 2 t)
          ∗ (dat7 V c).leavesExact 3 t)) := by
  unfold bodyAt7
  simp only [before7_0, before7_1, before7_2]
  have hN : t.val < 20 := lt_of_lt_of_eq t.isLt (show cfg7.N = 20 from N_7)
  by_cases h0 : t.val % 5 = 0
  · have h4 : ¬t.val % 5 = 4 := by omega
    rw [Dat.leavesExact_idle (dat7 V c) 3 t (idleAt7_3 t h4) (noFlush7_3 t h4)]
    rw [Phi7, Phi7, if_pos h0, if_neg (by omega : ¬(t.val + 1) % 5 = 0), Nat.add_sub_cancel, accN7_zero V c t.val t.isLt h0,
      ← k7_pay1_eq, ← k7_pay2_eq]
    iintro ⟨⟨HR, Hg, ⟨%ds, HS⟩⟩, Ho, ⟨%d0, H0⟩, ⟨%d1, H1⟩, ⟨%d2, H2⟩, H3⟩
    iapply (run7_AB c (grid7.coords t) (iblk7 V c 0 t) (iblk7 V c 1 t) (fun h => h4 ((hcond7_1 t).mp h)) ds _ (.inl ⟨(hcond7_0 t).mpr h0, rfl⟩) Set.univ _)
    iframe H0 H1 HS
    iintro ⟨H0, H1, HS⟩
    iframe
  · by_cases h4 : t.val % 5 = 4
    · rw [show (dat7 V c).leavesExact 3 t = owns c (ms7_3 t) fullShare (outv7 (acc7 V c t) (iblk7 V c 2 t)) from leavesExact_live _ 3 t (liveAt7_3 t h4)]
      rw [Phi7, Phi7, if_neg h0, if_pos (by omega : (t.val + 1) % 5 = 0), acc7, accN7_succ V c t.val t.isLt h0,
        ← k7_pay2_eq, ← k7_pay3_eq]
      iintro ⟨⟨HR, Hg, HS⟩, Ho, ⟨%d0, H0⟩, ⟨%d1, H1⟩, ⟨%d2, H2⟩, ⟨%d3, H3⟩⟩
      iapply (run7_C c (grid7.coords t) (iblk7 V c 0 t) (iblk7 V c 1 t) (fun h => h0 ((hcond7_0 t).mp h)) ((hcond7_1 t).mpr h4) (iblk7 V c 2 t) (accN7 V c (t.val - 1)) Set.univ _)
      iframe H0 H1 H2 HS
      isplitl [H3]; · iexists _; iexact H3
      iintro ⟨H0, H1, H2, H3, HS⟩
      iframe HR Hg Ho H0 H1 H2 H3
      iexists _; iexact HS
    · rw [Dat.leavesExact_idle (dat7 V c) 3 t (idleAt7_3 t h4) (noFlush7_3 t h4)]
      rw [Phi7, Phi7, if_neg h0, if_neg (by omega : ¬(t.val + 1) % 5 = 0), Nat.add_sub_cancel, accN7_succ V c t.val t.isLt h0,
        ← k7_pay2_eq]
      iintro ⟨⟨HR, Hg, HS⟩, Ho, ⟨%d0, H0⟩, ⟨%d1, H1⟩, ⟨%d2, H2⟩, H3⟩
      iapply (run7_AB c (grid7.coords t) (iblk7 V c 0 t) (iblk7 V c 1 t) (fun h => h4 ((hcond7_1 t).mp h)) (accN7 V c (t.val - 1)) _ (.inr ⟨fun h => h0 ((hcond7_0 t).mp h), rfl⟩) Set.univ _)
      iframe H0 H1 HS
      iintro ⟨H0, H1, HS⟩
      iframe

theorem body_obligation7 : BodyObligation (dat7 (F := F) V c) (defs₀ (F := F)) Variants.none () Set.univ := fun t => by
  rw [bigSep_W7, bigSep_W7]
  exact sound_body7 V c t

-- The sum restarts at the first point, so the invariant asks nothing of the accumulator there,
theorem phi_in7 :
    (iprop((∃ r, prngReg c r) ∗ Pipeline.scopedRest (Ix := Unit) (Name := ℕ) (U := UR sig nD τ) (Lvl := ℕ) (Val := Elt F) spec7 c) : sProp 𝕄)
      ⊢ (dat7 V c).Φ 0 := by
  rw [show (dat7 V c).Φ 0 = Phi7 V c 0 from rfl, Phi7, if_pos (Nat.zero_mod 5), scopedRest7_split]
  simp only [scM7, owns_whole]
  iintro ⟨Hg, HS, HR⟩
  iframe

-- and it restarts after the last point, so nothing is left to give back.
theorem phi_out7 :
    (dat7 V c).Φ (Fin.last cfg7.N)
      ⊢ (iprop((∃ r, prngReg c r) ∗ Pipeline.scopedRest (Ix := Unit) (Name := ℕ) (U := UR sig nD τ) (Lvl := ℕ) (Val := Elt F) spec7 c) : sProp 𝕄) := by
  rw [show (dat7 V c).Φ (Fin.last cfg7.N) = Phi7 V c 20 from rfl, Phi7, if_pos (by decide : 20 % 5 = 0), scopedRest7_split]
  simp only [scM7, owns_whole]
  iintro ⟨HR, Hg, HS⟩
  iframe

end Cert.KernelIdeal.Hand

end
-- ==== Proof.KI.Lin8.lean ====
import proofs.«419824_j13683765805591_3_alg».proof.Proof.Gen.KernelIdeal.Launch
import proofs.«419824_j13683765805591_3_alg».proof.Proof.Gen.KernelIdeal.Skeleton
import proofs.«419824_j13683765805591_3_alg».proof.Proof.Gen.KernelIdeal.Points
import proofs.«419824_j13683765805591_3_alg».proof.Proof.FrameLib
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.KernelIdeal Cert.KernelIdeal.Gen Cert.FrameLib

variable {F : FTy → Type} [FloatOps F]

local notation "𝕄" => MT nD τ sig Unit (Elt F) ℕ (UR sig nD τ) ℕ

abbrev r8_0 : Rect S2560x128 := Rect.unit (s := S2560x128) ![0, 0] S2560x128.size inb_S2560x128_S2560x128_0_0
abbrev r8_1 : Rect S128x16 := Rect.unit (s := S128x16) ![0, 0] S128x16.size inb_S128x16_S128x16_0_0
abbrev r8_2 : Rect S1x16 := Rect.unit (s := S1x16) ![0, 0] S1x16.size inb_S1x16_S1x16_0_0
abbrev r8_3 : Rect S2560x16 := Rect.unit (s := S2560x16) ![0, 0] S2560x16.size inb_S2560x16_S2560x16_0_0

def out8_3 (x0 : Vec F S2560x128 .f32) (x1 : Vec F S128x16 .bf16) (x2 : Vec F S1x16 .f32) : Vec F S2560x16 .f32 :=
  View.canon [⟨r8_3, k8_pay1 (View.ld x0 r8_0) (View.ld x1 r8_1) (View.ld x2 r8_2)⟩]

-- a load through the whole buffer reads its contents, and one store through it leaves its payload
theorem out8_3_eq (x0 : Vec F S2560x128 .f32) (x1 : Vec F S128x16 .bf16) (x2 : Vec F S1x16 .f32) :
    out8_3 x0 x1 x2 = addf (matmul dot_S2560x128_S128x16_S2560x16_1_0_0_1_n_n none (truncf .bf16 (shapeCast S2560x128 x0 shapeCasts_S2560x128_S2560x128) bitsLt_bf16_f32) (shapeCast S128x16 x1 shapeCasts_S128x16_S128x16) (constant S2560x16 .f32 0x00000000#32)) (broadcastTo S2560x16 (shapeCast S1x16 x2 shapeCasts_S1x16_S1x16) broadcasts_S1x16_S2560x16) := by
  unfold out8_3
  rw [View.canon_unit_zero hz2, ld_unit, ld_unit, ld_unit]
  rfl

-- the body reads the three inputs whole and stores once through the whole output, so the output ends at out8_3 of the inputs
theorem sound_kernel8 (c : Dev nD) {i arg1 harg1 arg2 harg2 arg3 harg3 arg4 harg4} (x0 x1 x2) (K : PUnit → sProp 𝕄) :
    iprop((∃ d, owns c.tc arg4 fullShare d) ∗ owns c.tc arg1 fullShare x0 ∗ owns c.tc arg2 fullShare x1 ∗ owns c.tc arg3 fullShare x2
        ∗ (owns c.tc arg1 fullShare x0 -∗ owns c.tc arg2 fullShare x1 -∗ owns c.tc arg3 fullShare x2
            -∗ owns c.tc arg4 fullShare (out8_3 x0 x1 x2) -∗ K ⟨⟩))
      ⊢ wp frame (wpE (defs₀ (F := F)) Variants.none c none) Set.univ (cc8__linear_kernel i arg1 harg1 arg2 harg2 arg3 harg3 arg4 harg4) K := by
  simp only [cc8__linear_kernel_eq_skeleton]; unfold cc8__linear_kernel_skel owns
  iintro ⟨⟨%d3, %f3, -, H3⟩, ⟨%f0, %hf0, H0⟩, ⟨%f1, %hf1, H1⟩, ⟨%f2, %hf2, H2⟩, Hk⟩
  subst hf0 hf1 hf2
  sl_exec
  sl_step
  iapply Hk $$ [H0] [H1] [H2] [H3] <;> (iexists _; isplitr; swap; iassumption; ipureintro)
  · rfl
  · rfl
  · rfl
  exact View.read_writes_eq_canon _ _ _ fun y => ⟨_, List.mem_singleton_self _, View.mem_set_unit_zero hz2 inb_S2560x16_S2560x16_0_0 y⟩

variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => out8_3 (iblk8 V c 0 t) (iblk8 V c 1 t) (iblk8 V c 2 t)
  Φ _ := Pipeline.ΦA spec8 c
  q _ := fullShare
  owed _ := 0

theorem A_eq8 (c : Dev nD) (w : Fin cfg8.W) : (dat8 V c).A w = V c (Pipeline.arrRef spec8 w) := rfl
theorem q_eq8 (c : Dev nD) (w : Fin cfg8.W) : (dat8 V c).q w = fullShare := rfl
theorem owed_eq8 (c : Dev nD) (t : Fin (cfg8.N + 1)) : (dat8 V c).owed t = 0 := rfl
theorem after8_3 (c : Dev nD) (t : Fin cfg8.N) : (dat8 V c).after 3 t = out8_3 (iblk8 V c 0 t) (iblk8 V c 1 t) (iblk8 V c 2 t) := by dsimp only [dat8]

theorem before8_0 (c t d) : (dat8 V c).before 0 t d = iblk8 V c 0 t :=
  (dat8 V c).before_in_eq_fetched 0 rfl (fun _ => rfl) (fun _ _ _ => rfl) (fun _ => rfl) t d
theorem before8_1 (c t d) : (dat8 V c).before 1 t d = iblk8 V c 1 t :=
  (dat8 V c).before_in_eq_fetched 1 rfl (fun _ => rfl) (fun _ _ _ => rfl) (fun _ => rfl) t d
theorem before8_2 (c t d) : (dat8 V c).before 2 t d = iblk8 V c 2 t :=
  (dat8 V c).before_in_eq_fetched 2 rfl (fun _ => rfl) (fun _ _ _ => rfl) (fun _ => rfl) t d

-- the inputs are at their blocks, so the kernel's triple applies; the invariant and what is owed pass through
theorem body_obligation8 (c : Dev nD) : BodyObligation (dat8 (F := F) V c) (defs₀ (F := F)) Variants.none () Set.univ := fun t => by
  rw [bigSep_W8, bigSep_W8]
  simp only [before8_0, before8_1, before8_2, after8_3, show (dat8 V c).Φ t.succ = (dat8 V c).Φ t.castSucc from rfl,
    show (dat8 V c).owesAt () t.succ = (dat8 V c).owesAt () t.castSucc from rfl, show (dat8 V c).after 0 t = iblk8 V c 0 t from rfl,
    show (dat8 V c).after 1 t = iblk8 V c 1 t from rfl, show (dat8 V c).after 2 t = iblk8 V c 2 t from rfl]
  show _ ⊢ wp _ _ _ (bodyAt8 t) _
  iintro ⟨HΦ, Ho, ⟨%d0, H0⟩, ⟨%d1, H1⟩, ⟨%d2, H2⟩, ⟨%d3, H3⟩⟩
  iapply sound_kernel8 c (iblk8 V c 0 t) (iblk8 V c 1 t) (iblk8 V c 2 t) _
  isplitl [H3]; · iexists _; iexact H3
  iframe H0 H1 H2
  iintro H0 H1 H2 H3
  iframe

theorem phi_in8 (c : Dev nD) :
    (iprop((∃ r, prngReg c r) ∗ Pipeline.scopedRest (Ix := Unit) (Name := ℕ) (U := UR sig nD τ) (Lvl := ℕ) (Val := Elt F) spec8 c) : sProp 𝕄)
      ⊢ (dat8 V c).Φ 0 := sep_symm
theorem phi_out8 (c : Dev nD) :
    (dat8 V c).Φ (Fin.last cfg8.N)
      ⊢ (iprop((∃ r, prngReg c r) ∗ Pipeline.scopedRest (Ix := Unit) (Name := ℕ) (U := UR sig nD τ) (Lvl := ℕ) (Val := Elt F) spec8 c) : sProp 𝕄) := sep_symm

end Cert.KernelIdeal.Hand

end
-- ==== Proof.KI.Run.lean ====
import proofs.«419824_j13683765805591_3_alg».proof.Proof.Gen.KernelIdeal.Launch
import proofs.«419824_j13683765805591_3_alg».proof.Proof.Gen.KernelIdeal.Skeleton
import proofs.«419824_j13683765805591_3_alg».proof.Proof.Gen.KernelIdeal.Points
import proofs.«419824_j13683765805591_3_alg».proof.Proof.Gen.KernelIdeal.Regions
import proofs.«419824_j13683765805591_3_alg».proof.Proof.KI.Lin0
import proofs.«419824_j13683765805591_3_alg».proof.Proof.KI.Agg1
import proofs.«419824_j13683765805591_3_alg».proof.Proof.KI.Lin2
import proofs.«419824_j13683765805591_3_alg».proof.Proof.KI.Agg3
import proofs.«419824_j13683765805591_3_alg».proof.Proof.KI.Lin4
import proofs.«419824_j13683765805591_3_alg».proof.Proof.KI.Agg5
import proofs.«419824_j13683765805591_3_alg».proof.Proof.KI.Lin6
import proofs.«419824_j13683765805591_3_alg».proof.Proof.KI.Agg7
import proofs.«419824_j13683765805591_3_alg».proof.Proof.KI.Lin8
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

abbrev rdv (W : Dev nD → Valuation τ sig (Elt F)) : (c : Dev nD) → (b : Ref sig .tc) → Buf (Elt F) ((c : Thread nD τ).loc b) := fun c b => W c b

abbrev W13 (c : Dev nD) : Valuation τ sig (Elt F) := Gen.V13 m c
abbrev X13 := rdv (W13 m)

def o14 (c : Dev nD) : Buf (Elt F) ((c : Thread nD τ).loc main_v63) := (dat0 (X13 m) c).arrAt 3 cfg0.N
def W14 (c : Dev nD) : Valuation τ sig (Elt F) := Function.update (W13 m c) main_v63 (o14 m c)
def W15 (c : Dev nD) : Valuation τ sig (Elt F) := StableHlo.after hostOps1 (W14 m c)
abbrev X15 := rdv (W15 m)

def o16 (c : Dev nD) : Buf (Elt F) ((c : Thread nD τ).loc main_v65) := (dat1 (X15 m) c).arrAt 3 cfg1.N
def W16 (c : Dev nD) : Valuation τ sig (Elt F) := Function.update (W15 m c) main_v65 (o16 m c)
def W17 (c : Dev nD) : Valuation τ sig (Elt F) := StableHlo.after hostOps2 (W16 m c)
abbrev X17 := rdv (W17 m)

def o18 (c : Dev nD) : Buf (Elt F) ((c : Thread nD τ).loc main_v68) := (dat2 (X17 m) c).arrAt 3 cfg2.N
def W18 (c : Dev nD) : Valuation τ sig (Elt F) := Function.update (W17 m c) main_v68 (o18 m c)
def W19 (c : Dev nD) : Valuation τ sig (Elt F) := StableHlo.after hostOps3 (W18 m c)
abbrev X19 := rdv (W19 m)

def o20 (c : Dev nD) : Buf (Elt F) ((c : Thread nD τ).loc main_v70) := (dat3 (X19 m) c).arrAt 3 cfg3.N
def W20 (c : Dev nD) : Valuation τ sig (Elt F) := Function.update (W19 m c) main_v70 (o20 m c)
def W21 (c : Dev nD) : Valuation τ sig (Elt F) := StableHlo.after hostOps4 (W20 m c)
abbrev X21 := rdv (W21 m)

def o22 (c : Dev nD) : Buf (Elt F) ((c : Thread nD τ).loc main_v73) := (dat4 (X21 m) c).arrAt 3 cfg4.N
def W22 (c : Dev nD) : Valuation τ sig (Elt F) := Function.update (W21 m c) main_v73 (o22 m c)
def W23 (c : Dev nD) : Valuation τ sig (Elt F) := StableHlo.after hostOps5 (W22 m c)
abbrev X23 := rdv (W23 m)

def o24 (c : Dev nD) : Buf (Elt F) ((c : Thread nD τ).loc main_v75) := (dat5 (X23 m) c).arrAt 3 cfg5.N
def W24 (c : Dev nD) : Valuation τ sig (Elt F) := Function.update (W23 m c) main_v75 (o24 m c)
def W25 (c : Dev nD) : Valuation τ sig (Elt F) := StableHlo.after hostOps6 (W24 m c)
abbrev X25 := rdv (W25 m)

def o26 (c : Dev nD) : Buf (Elt F) ((c : Thread nD τ).loc main_v78) := (dat6 (X25 m) c).arrAt 3 cfg6.N
def W26 (c : Dev nD) : Valuation τ sig (Elt F) := Function.update (W25 m c) main_v78 (o26 m c)
def W27 (c : Dev nD) : Valuation τ sig (Elt F) := StableHlo.after hostOps7 (W26 m c)
abbrev X27 := rdv (W27 m)

def o28 (c : Dev nD) : Buf (Elt F) ((c : Thread nD τ).loc main_v80) := (dat7 (X27 m) c).arrAt 3 cfg7.N
def W28 (c : Dev nD) : Valuation τ sig (Elt F) := Function.update (W27 m c) main_v80 (o28 m c)
def W29 (c : Dev nD) : Valuation τ sig (Elt F) := StableHlo.after hostOps8 (W28 m c)
abbrev X29 := rdv (W29 m)

def o30 (c : Dev nD) : Buf (Elt F) ((c : Thread nD τ).loc main_v82) := (dat8 (X29 m) c).arrAt 3 cfg8.N
def W30 (c : Dev nD) : Valuation τ sig (Elt F) := Function.update (W29 m c) main_v82 (o30 m c)

def outs : Gen.Outs (F := F) := fun J r c =>
  match J with
  | 14 => W14 m c r
  | 16 => W16 m c r
  | 18 => W18 m c r
  | 20 => W20 m c r
  | 22 => W22 m c r
  | 24 => W24 m c r
  | 26 => W26 m c r
  | 28 => W28 m c r
  | 30 => W30 m c r
  | _ => Gen.V0 m c r

theorem outs_14 (c : Dev nD) : outs m 14 main_v63 c = o14 m c := by rw [outs, W14, Function.update_self]
theorem V15_eq (c : Dev nD) : Gen.V15 m (outs m) c = W15 m c := by rw [Gen.V15, Gen.V14, outs_14]; rfl
theorem o_eq0 (c : Dev nD) : o14 m c = (dat0 (X13 m) c).arrAt 3 cfg0.N := rfl

theorem outs_16 (c : Dev nD) : outs m 16 main_v65 c = o16 m c := by rw [outs, W16, Function.update_self]
theorem V17_eq (c : Dev nD) : Gen.V17 m (outs m) c = W17 m c := by rw [Gen.V17, Gen.V16, outs_16, V15_eq]; rfl
theorem o_eq1 (c : Dev nD) : o16 m c = (dat1 (X15 m) c).arrAt 3 cfg1.N := rfl

theorem outs_18 (c : Dev nD) : outs m 18 main_v68 c = o18 m c := by rw [outs, W18, Function.update_self]
theorem V19_eq (c : Dev nD) : Gen.V19 m (outs m) c = W19 m c := by rw [Gen.V19, Gen.V18, outs_18, V17_eq]; rfl
theorem o_eq2 (c : Dev nD) : o18 m c = (dat2 (X17 m) c).arrAt 3 cfg2.N := rfl

theorem outs_20 (c : Dev nD) : outs m 20 main_v70 c = o20 m c := by rw [outs, W20, Function.update_self]
theorem V21_eq (c : Dev nD) : Gen.V21 m (outs m) c = W21 m c := by rw [Gen.V21, Gen.V20, outs_20, V19_eq]; rfl
theorem o_eq3 (c : Dev nD) : o20 m c = (dat3 (X19 m) c).arrAt 3 cfg3.N := rfl

theorem outs_22 (c : Dev nD) : outs m 22 main_v73 c = o22 m c := by rw [outs, W22, Function.update_self]
theorem V23_eq (c : Dev nD) : Gen.V23 m (outs m) c = W23 m c := by rw [Gen.V23, Gen.V22, outs_22, V21_eq]; rfl
theorem o_eq4 (c : Dev nD) : o22 m c = (dat4 (X21 m) c).arrAt 3 cfg4.N := rfl

theorem outs_24 (c : Dev nD) : outs m 24 main_v75 c = o24 m c := by rw [outs, W24, Function.update_self]
theorem V25_eq (c : Dev nD) : Gen.V25 m (outs m) c = W25 m c := by rw [Gen.V25, Gen.V24, outs_24, V23_eq]; rfl
theorem o_eq5 (c : Dev nD) : o24 m c = (dat5 (X23 m) c).arrAt 3 cfg5.N := rfl

theorem outs_26 (c : Dev nD) : outs m 26 main_v78 c = o26 m c := by rw [outs, W26, Function.update_self]
theorem V27_eq (c : Dev nD) : Gen.V27 m (outs m) c = W27 m c := by rw [Gen.V27, Gen.V26, outs_26, V25_eq]; rfl
theorem o_eq6 (c : Dev nD) : o26 m c = (dat6 (X25 m) c).arrAt 3 cfg6.N := rfl

theorem outs_28 (c : Dev nD) : outs m 28 main_v80 c = o28 m c := by rw [outs, W28, Function.update_self]
theorem V29_eq (c : Dev nD) : Gen.V29 m (outs m) c = W29 m c := by rw [Gen.V29, Gen.V28, outs_28, V27_eq]; rfl
theorem o_eq7 (c : Dev nD) : o28 m c = (dat7 (X27 m) c).arrAt 3 cfg7.N := rfl

theorem outs_30 (c : Dev nD) : outs m 30 main_v82 c = o30 m c := by rw [outs, W30, Function.update_self]
theorem o_eq8 (c : Dev nD) : o30 m c = (dat8 (X29 m) c).arrAt 3 cfg8.N := rfl

def pdats : (p : Fin 9) → (c : Dev nD) → Dat τ (Elt F) Unit ℕ (UR sig nD τ) ℕ (cfgs p) c
  | ⟨0, _⟩ => fun c => dat0 (X13 m) c
  | ⟨1, _⟩ => fun c => dat1 (X15 m) c
  | ⟨2, _⟩ => fun c => dat2 (X17 m) c
  | ⟨3, _⟩ => fun c => dat3 (X19 m) c
  | ⟨4, _⟩ => fun c => dat4 (X21 m) c
  | ⟨5, _⟩ => fun c => dat5 (X23 m) c
  | ⟨6, _⟩ => fun c => dat6 (X25 m) c
  | ⟨7, _⟩ => fun c => dat7 (X27 m) c
  | ⟨8, _⟩ => fun c => dat8 (X29 m) c

abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev E : Fin 10 → Dev nD → sProp 𝕄 := fun _ c => R c

section Owes

variable {cfg : Cfg sig Λ₀} {c : Dev nD} (d : Dat τ (Elt F) Unit ℕ (UR sig nD τ) ℕ cfg c) {t : Fin (cfg.N + 1)} (h0 : d.owed t = 0)
include h0

-- A point with no dues and no bound on what was recorded asks only that nothing is owed,
theorem owes_in (hr : d.recorded t = Set.univ) : (iprop(∃ W, owes (c : Thread nD τ) (0 : CellTallies nD τ sig Unit) W) : sProp 𝕄) ⊢ d.owesAt () t := by
  unfold Pipeline.Dat.owesAt Pipeline.owesWithin
  rw [h0]
  iintro ⟨%W, HO⟩; iexists W; isplitr
  · ipureintro; exact fun x _ => Or.inl (by rw [hr]; trivial)
  iexact HO

-- and leaves nothing owed.
theorem owes_out : d.owesAt () t ⊢ (iprop(∃ W, owes (c : Thread nD τ) (0 : CellTallies nD τ sig Unit) W) : sProp 𝕄) := by
  unfold Pipeline.Dat.owesAt Pipeline.owesWithin
  rw [h0]
  iintro ⟨%W, -, HO⟩; iexists W; iexact HO

end Owes

section Region

abbrev ends (p : Fin 9) (c : Dev nD) : sProp 𝕄 :=
  iprop((∃ r, prngReg c r) ∗ Pipeline.scopedRest (Ix := Unit) (Name := ℕ) (U := UR sig nD τ) (Lvl := ℕ) (Val := Elt F) (cfgs p).spec c)

variable (pd : (p : Fin 9) → (c : Dev nD) → Dat τ (Elt F) Unit ℕ (UR sig nD τ) ℕ (cfgs p) c) {p : Fin 9}
  (lf : Pipeline.LaunchFacts (nD := nD) (τ := τ) cfgs p) {o : Fin (cfgs p).W} (W : Dev nD → Valuation τ sig (Elt F))

abbrev exitAt (c : Dev nD) : Valuation τ sig (Elt F) :=
  Function.update (W c) (Pipeline.arrRef (cfgs p).spec o) ((pd p c).arrAt o (cfgs p).N)

set_option backward.isDefEq.respectTransparency.types false in
-- A region that writes one array only takes every buffer from the entry contents to those contents updated at that array.
def regSeg (hio : ∀ w, w ≠ o → ((cfgs p).spec w).isOut = false) {V : Dev nD → Valuation τ sig (Elt F)} (hV : ∀ c, V c = W c)
    {x : (c : Dev nD) → Buf (Elt F) ((c : Thread nD τ).loc (Pipeline.arrRef (cfgs p).spec o))} (hx : ∀ c, x c = (pd p c).arrAt o (cfgs p).N)
    (hb : ∀ c, BodyObligation (pd p c) (defs₀ (F := F)) Variants.none () Set.univ)
    (howed : ∀ c t, (pd p c).owed t = 0) (hrec : ∀ c, (pd p c).recorded 0 = Set.univ)
    (hq : ∀ c w, (pd p c).q w = fullShare) (hA : ∀ c w, (pd p c).A w = rdv W c (Pipeline.arrRef (cfgs p).spec w))
    (hΦi : ∀ c, ends (F := F) p c ⊢ (pd p c).Φ 0)
    (hΦo : ∀ c, (pd p c).Φ (Fin.last (cfgs p).N) ⊢ ends (F := F) p c) :
    Pipeline.RegionSeg (pcfgs (F := F)) Gen.adm pd () defs₀ Variants.none L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p howed
  pre c := iprop(StableHlo.held (c : Thread nD τ) (Pipeline.ucRefs τ sig) (V c) ∗ R c)
  post c := iprop(StableHlo.held (c : Thread nD τ) (Pipeline.ucRefs τ sig) (Function.update (V c) (Pipeline.arrRef (cfgs p).spec o) (x c)) ∗ R c)
  X c := iprop(∃ r, prngReg c r)
  Y c := iprop(∃ r, prngReg c r)
  Z c := Pipeline.unscopedRest (Ix := Unit) (Name := ℕ) (U := UR sig nD τ) (Lvl := ℕ) (cfgs p).spec c (rdv W c)
  hentry c := by
    rw [Pipeline.ownSems0_none, hV c]
    have hsplit := Pipeline.arrays_of_unscopedBufs (pcfgs (F := F)) Gen.adm pd lf.win lf.arr_whole c
      ((pd p c).share_full (hq c)) (rdv W c) (hA c)
    rw [Pipeline.unscopedBufs_held c (W c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply (owes_in (pd p c) (howed c 0) (hrec c)); iexact HO
    isplitl [Hp]; · iexact Hp
    iexact Hrest
  hin c := by
    refine BIBase.Entails.trans ?_ (hΦi c)
    iintro ⟨Hp, -, Hr⟩
    isplitl [Hp]; · iexact Hp
    iexact Hr
  hout c := by
    rw [Pipeline.ownSems0_none]
    refine BIBase.Entails.trans (hΦo c) ?_
    iintro ⟨Hp, Hr⟩
    isplitl [Hp]; · iexact Hp
    isplitr; · iempintro
    iexact Hr
  hexit c := by
    have hjoin := Pipeline.unscopedBufs_of_arrays (pcfgs (F := F)) Gen.adm (Ix := Unit) (Name := ℕ) (U := UR sig nD τ) (Lvl := ℕ)
      lf.win lf.arr_whole c pd ((pd p c).share_full (hq c)) (rdv W c) (rdv (exitAt pd (o := o) W) c) ((pd p c).arrAt · (cfgs p).N)
      (fun w => by
        by_cases h : w = o
        · subst h; exact Eq.symm (Function.update_self _ _ _)
        · exact ((pd p c).arrAt_in w (hio w h) _).trans ((hA c w).trans
            (Function.update_of_ne (StableHlo.devRef_ne_of_ne fun e => h (lf.win.arr_inj e)) _ _).symm))
      fun b hb => Function.update_of_ne (StableHlo.devRef_ne_of_ne fun e => hb (Finset.mem_image.mpr ⟨o, Finset.mem_univ _, e.symm⟩)) _ _
    rw [Pipeline.unscopedBufs_held c (exitAt pd (o := o) W c)] at hjoin
    rw [hV c, hx c]
    iintro ⟨Ha, HO, HY, Hrest⟩
    imodintro
    isplitl [Ha Hrest]
    · iapply hjoin; isplitl [Ha] <;> iassumption
    isplitl [HY]; · iexact HY
    iapply (owes_out (pd p c) (howed c (Fin.last _))); iexact HO

end Region

def reg0 := regSeg (pdats m) launch0 (W13 m) (by decide : ∀ w, w ≠ 3 → (spec0 w).isOut = false) (fun _ => rfl) (outs_14 m)
  (body_obligation0 (X13 m)) (owed_eq0 (X13 m)) (fun _ => rfl) (q_eq0 (X13 m)) (A_eq0 (X13 m)) (phi_in0 (X13 m)) (phi_out0 (X13 m))

def reg1 := regSeg (pdats m) launch1 (W15 m) (by decide : ∀ w, w ≠ 3 → (spec1 w).isOut = false) (V15_eq m) (outs_16 m)
  (body_obligation1 (X15 m)) (owed_eq1 (X15 m)) (fun _ => rfl) (q_eq1 (X15 m)) (A_eq1 (X15 m)) (phi_in1 (X15 m)) (phi_out1 (X15 m))

def reg2 := regSeg (pdats m) launch2 (W17 m) (by decide : ∀ w, w ≠ 3 → (spec2 w).isOut = false) (V17_eq m) (outs_18 m)
  (body_obligation2 (X17 m)) (owed_eq2 (X17 m)) (fun _ => rfl) (q_eq2 (X17 m)) (A_eq2 (X17 m)) (phi_in2 (X17 m)) (phi_out2 (X17 m))

def reg3 := regSeg (pdats m) launch3 (W19 m) (by decide : ∀ w, w ≠ 3 → (spec3 w).isOut = false) (V19_eq m) (outs_20 m)
  (body_obligation3 (X19 m)) (owed_eq3 (X19 m)) (fun _ => rfl) (q_eq3 (X19 m)) (A_eq3 (X19 m)) (phi_in3 (X19 m)) (phi_out3 (X19 m))

def reg4 := regSeg (pdats m) launch4 (W21 m) (by decide : ∀ w, w ≠ 3 → (spec4 w).isOut = false) (V21_eq m) (outs_22 m)
  (body_obligation4 (X21 m)) (owed_eq4 (X21 m)) (fun _ => rfl) (q_eq4 (X21 m)) (A_eq4 (X21 m)) (phi_in4 (X21 m)) (phi_out4 (X21 m))

def reg5 := regSeg (pdats m) launch5 (W23 m) (by decide : ∀ w, w ≠ 3 → (spec5 w).isOut = false) (V23_eq m) (outs_24 m)
  (body_obligation5 (X23 m)) (owed_eq5 (X23 m)) (fun _ => rfl) (q_eq5 (X23 m)) (A_eq5 (X23 m)) (phi_in5 (X23 m)) (phi_out5 (X23 m))

def reg6 := regSeg (pdats m) launch6 (W25 m) (by decide : ∀ w, w ≠ 3 → (spec6 w).isOut = false) (V25_eq m) (outs_26 m)
  (body_obligation6 (X25 m)) (owed_eq6 (X25 m)) (fun _ => rfl) (q_eq6 (X25 m)) (A_eq6 (X25 m)) (phi_in6 (X25 m)) (phi_out6 (X25 m))

def reg7 := regSeg (pdats m) launch7 (W27 m) (by decide : ∀ w, w ≠ 3 → (spec7 w).isOut = false) (V27_eq m) (outs_28 m)
  (body_obligation7 (X27 m)) (owed_eq7 (X27 m)) (fun _ => rfl) (q_eq7 (X27 m)) (A_eq7 (X27 m)) (phi_in7 (X27 m)) (phi_out7 (X27 m))

def reg8 := regSeg (pdats m) launch8 (W29 m) (by decide : ∀ w, w ≠ 3 → (spec8 w).isOut = false) (V29_eq m) (outs_30 m)
  (body_obligation8 (X29 m)) (owed_eq8 (X29 m)) (fun _ => rfl) (q_eq8 (X29 m)) (A_eq8 (X29 m)) (phi_in8 (X29 m)) (phi_out8 (X29 m))

theorem hu0 : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ fun _ : Dev nD => (iprop(emp) : sProp 𝕄)) := by
  iintro Hu; imodintro
  isplitl [Hu]
  · iapply (show (ownU (initOf (Pipeline.cells cfgs cellOf_inj) (Pipeline.launchToks cfgs cellOf_inj)) : sProp 𝕄) ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

set_option backward.isDefEq.respectTransparency.types false in
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Gen.frame_cond m emb₁ () Variants.none L lv (fun _ _ => rfl) ρ (outs m) (pdats m) 0 (fun _ => iprop(emp)) _ hu0
    E (Pipeline.initEach L lv fun c => by
      iintro ⟨⟨-, HO, -, Hp, -⟩, -⟩
      imodintro
      isplitl [Hp]; · iexists _; iexact Hp
      iexists ∅; iexact HO) (fun c => by iintro ⟨-, HO⟩; iexact HO)
    (reg0 m) (fun _ => .rfl) (fun _ => .rfl)
    (reg1 m) (fun _ => .rfl) (fun _ => .rfl)
    (reg2 m) (fun _ => .rfl) (fun _ => .rfl)
    (reg3 m) (fun _ => .rfl) (fun _ => .rfl)
    (reg4 m) (fun _ => .rfl) (fun _ => .rfl)
    (reg5 m) (fun _ => .rfl) (fun _ => .rfl)
    (reg6 m) (fun _ => .rfl) (fun _ => .rfl)
    (reg7 m) (fun _ => .rfl) (fun _ => .rfl)
    (reg8 m) (fun _ => .rfl) (fun _ => .rfl)

set_option backward.isDefEq.respectTransparency.types false in
theorem run_full (ρ : Dev nD → PrngReg) : θ_run defs (onTc (τ := τ) (main (F := F))) ⟨m, fun _ => 0, ρ⟩
    (fun r => ∀ c : Dev nD, ∀ b ∈ Pipeline.ucRefs τ sig, r.2.mem ((c : Thread nD τ).1, b) = Gen.V31 m (outs m) c b) := by
  refine Pipeline.θ_run_regions_kit_dev (pcfgs (F := F)) Gen.adm (pdats m) () cellOf_inj emb₁ defs₀ Variants.none L lv m ρ main
    (Gen.segs m (outs m) Variants.none L lv E () (pdats m) (reg0 m) (reg1 m) (reg2 m) (reg3 m) (reg4 m) (reg5 m) (reg6 m) (reg7 m) (reg8 m))
    (fun c Q => by rw [main_chain c, Pipeline.Seg.run_eq_chain]; exact .rfl)
    (fun c => by simp only [Gen.segs, Pipeline.Seg.pipes_host, Pipeline.Seg.pipes_region, Pipeline.Seg.pipes_nil]; decide)
    0 (fun _ _ => rfl) (fun _ => iprop(emp)) _ hu0
    (T₀ := fun c => iprop(StableHlo.held (c : Thread nD τ) (Pipeline.ucRefs τ sig) (Gen.V0 m c) ∗ E 0 c))
    (Tₙ := fun c => StableHlo.held (c : Thread nD τ) (Pipeline.ucRefs τ sig) (Gen.V31 m (outs m) c))
    (hch := fun c => ⟨.rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, sep_mono .rfl (by iintro ⟨-, HO⟩; iexact HO)⟩)
    (hinit := ?_)
    (QY := fun c s => ∀ b ∈ Pipeline.ucRefs τ sig, s.mem ((c : Thread nD τ).1, b) = Gen.V31 m (outs m) c b)
    (hfin := fun c s' => ?_) (hQ := fun _ h => h)
  · refine Pipeline.initEach L lv fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hh, -, HO, -, Hp, -⟩, -⟩
    imodintro
    isplitl [Hh]; · iexact Hh
    isplitl [Hp]; · iexists _; iexact Hp
    iexists ∅; iexact HO
  · iintro ⟨Hh, HSI⟩
    unfold StableHlo.held
    imodintro
    iapply (pointsTo_read_all (Pipeline.ucRefs τ sig) (fun b => ((c : Thread nD τ).1, b)) (Gen.V31 m (outs m) c) s')
    isplitl [Hh] <;> iassumption

end Cert.KernelIdeal.Hand

end
-- ==== Proof.Ref.Terms.lean ====
import proofs.«419824_j13683765805591_3_alg».proof.ReferenceIdeal

noncomputable section

namespace Cert.ReferenceIdeal.Terms

open Cert.ReferenceIdeal Cert.ReferenceIdeal.Facts₀ Idealize.ShloMosaic Idealize.SL.Sem

variable {F : FTy → Type} [FloatOps F] [Cert.ReferenceIdeal.Facts]

def srcV (ei : IVec S2x320000 32) : IVec S320000 32 :=
  shapeCast S320000 (extractStridedSlice S1x320000 ![0, 0] ei slices_S2x320000_S1x320000_0_0) shapeCasts_S1x320000_S320000

def dstV (ei : IVec S2x320000 32) : IVec S320000 32 :=
  shapeCast S320000 (extractStridedSlice S1x320000 ![1, 0] ei slices_S2x320000_S1x320000_1_0) shapeCasts_S1x320000_S320000

-- An index vector with each negative entry moved up by 10000, as a column: the form a gather or a scatter takes.
def wrapW (v : IVec S320000 32) : IVec S320000x1 32 :=
  broadcastInDim S320000x1 ![0] bcast_S320000_S320000x1_0 (select (cmpi .slt v (broadcastInDim S320000 ![] bcast_S_S320000 (constantI S_ 32 0#32))) (addi v (broadcastInDim S320000 ![] bcast_S_S320000 (constantI S_ 32 10000#32))) v)

def srcW (ei : IVec S2x320000 32) : IVec S320000x1 32 := wrapW (srcV ei)

def dstW (ei : IVec S2x320000 32) : IVec S320000x1 32 := wrapW (dstV ei)

-- The inverse square root of one plus the number of edges arriving at each node.
def dinvR (ei : IVec S2x320000 32) : FVec F S10000 .f32 :=
  Host.rsqrt (addf (Host.scatterAdd scatter_S10000_S320000x1_S320000_n_0_0_1 (broadcastInDim S10000 ![] bcast_S_S10000 (constant (F := F) S_ .f32 0x00000000#32)) (dstW ei) (broadcastInDim S320000 ![] bcast_S_S320000 (constant (F := F) S_ .f32 0x3F800000#32))) (broadcastInDim S10000 ![] bcast_S_S10000 (constant (F := F) S_ .f32 0x3F800000#32)))

def coefR (ei : IVec S2x320000 32) : FVec F S320000 .f32 :=
  mulf (Host.gather gather_S10000_S320000x1_S320000_n_0_n_n_0_1_1 (dinvR (F := F) ei) (srcW ei)) (Host.gather gather_S10000_S320000x1_S320000_n_0_n_n_0_1_1 (dinvR (F := F) ei) (dstW ei))

section Layer

variable {fi fo : Nat}
  (ds : ScatterDims ⟨2, ![10000, fo]⟩ S320000x1 ⟨2, ![320000, fo]⟩)
  (dg : GatherDims ⟨2, ![10000, fo]⟩ S320000x1 ⟨2, ![320000, fo]⟩)
  (dd : DotDims ⟨2, ![10000, fi]⟩ ⟨2, ![fi, fo]⟩ ⟨2, ![10000, fo]⟩)
  (hb0 : S_.BroadcastsInDim ⟨2, ![10000, fo]⟩ (![] : Fin 0 → Fin 2))
  (hbE : S320000x1.BroadcastsInDim ⟨2, ![320000, fo]⟩ ![0, 1])
  (hbN : S10000x1.BroadcastsInDim ⟨2, ![10000, fo]⟩ ![0, 1])
  (hbB1 : (⟨1, ![fo]⟩ : Shape).BroadcastsInDim ⟨2, ![1, fo]⟩ ![1])
  (hbB2 : (⟨2, ![1, fo]⟩ : Shape).BroadcastsInDim ⟨2, ![10000, fo]⟩ ![0, 1])

-- One convolution at any feature widths: the edge aggregation of `h · W`, its self-loop term, and the bias on every row.
def convG (ei : IVec S2x320000 32) (h : FVec F ⟨2, ![10000, fi]⟩ .f32) (W : FVec F ⟨2, ![fi, fo]⟩ .f32)
    (b : FVec F ⟨1, ![fo]⟩ .f32) : FVec F ⟨2, ![10000, fo]⟩ .f32 :=
  addf (addf
    (Host.scatterAdd ds (broadcastInDim ⟨2, ![10000, fo]⟩ ![] hb0 (constant (F := F) S_ .f32 0x00000000#32)) (dstW ei)
      (mulf (Host.gather dg (Host.dotGeneral dd none h W) (srcW ei))
        (broadcastInDim ⟨2, ![320000, fo]⟩ ![0, 1] hbE (broadcastInDim S320000x1 ![0] bcast_S320000_S320000x1_0 (coefR (F := F) ei)))))
    (mulf (Host.dotGeneral dd none h W)
      (broadcastInDim ⟨2, ![10000, fo]⟩ ![0, 1] hbN
        (broadcastInDim S10000x1 ![0] bcast_S10000_S10000x1_0 (mulf (dinvR (F := F) ei) (dinvR (F := F) ei))))))
    (broadcastInDim ⟨2, ![10000, fo]⟩ ![0, 1] hbB2 (broadcastInDim ⟨2, ![1, fo]⟩ ![1] hbB1 b))

-- `x` where it is at least zero, a tenth of it elsewhere.
def leakyG (x : FVec F ⟨2, ![10000, fo]⟩ .f32) : FVec F ⟨2, ![10000, fo]⟩ .f32 :=
  select (cmpf .oge x (broadcastInDim ⟨2, ![10000, fo]⟩ ![] hb0 (constant (F := F) S_ .f32 0x00000000#32))) x
    (mulf (broadcastInDim ⟨2, ![10000, fo]⟩ ![] hb0 (constant (F := F) S_ .f32 0x3DCCCCCD#32)) x)

def layerG (ei : IVec S2x320000 32) (h : FVec F ⟨2, ![10000, fi]⟩ .f32) (W : FVec F ⟨2, ![fi, fo]⟩ .f32)
    (b : FVec F ⟨1, ![fo]⟩ .f32) : FVec F ⟨2, ![10000, fo]⟩ .f32 :=
  leakyG hb0 (convG ds dg dd hb0 hbE hbN hbB1 hbB2 ei h W b)

end Layer

def layer1 (ei : IVec S2x320000 32) (h : FVec F S10000x512 .f32) (W : FVec F S512x256 .f32) (b : FVec F S256 .f32) :
    FVec F S10000x256 .f32 :=
  layerG scatter_S10000x256_S320000x1_S320000x256_1_0_0_1 gather_S10000x256_S320000x1_S320000x256_1_0_n_n_0_1_1256
    dot_S10000x512_S512x256_S10000x256_1_0_0_1_n_n bcast_S_S10000x256 bcast_S320000x1_S320000x256_0_1
    bcast_S10000x1_S10000x256_0_1 bcast_S256_S1x256_1 bcast_S1x256_S10000x256_0_1 ei h W b

def layer2 (ei : IVec S2x320000 32) (h : FVec F S10000x256 .f32) (W : FVec F S256x128 .f32) (b : FVec F S128 .f32) :
    FVec F S10000x128 .f32 :=
  layerG scatter_S10000x128_S320000x1_S320000x128_1_0_0_1 gather_S10000x128_S320000x1_S320000x128_1_0_n_n_0_1_1128
    dot_S10000x256_S256x128_S10000x128_1_0_0_1_n_n bcast_S_S10000x128 bcast_S320000x1_S320000x128_0_1
    bcast_S10000x1_S10000x128_0_1 bcast_S128_S1x128_1 bcast_S1x128_S10000x128_0_1 ei h W b

def layer3 (ei : IVec S2x320000 32) (h : FVec F S10000x128 .f32) (W : FVec F S128x56 .f32) (b : FVec F S56 .f32) :
    FVec F S10000x56 .f32 :=
  layerG scatter_S10000x56_S320000x1_S320000x56_1_0_0_1 gather_S10000x56_S320000x1_S320000x56_1_0_n_n_0_1_156
    dot_S10000x128_S128x56_S10000x56_1_0_0_1_n_n bcast_S_S10000x56 bcast_S320000x1_S320000x56_0_1
    bcast_S10000x1_S10000x56_0_1 bcast_S56_S1x56_1 bcast_S1x56_S10000x56_0_1 ei h W b

def layer4 (ei : IVec S2x320000 32) (h : FVec F S10000x56 .f32) (W : FVec F S56x32 .f32) (b : FVec F S32 .f32) :
    FVec F S10000x32 .f32 :=
  layerG scatter_S10000x32_S320000x1_S320000x32_1_0_0_1 gather_S10000x32_S320000x1_S320000x32_1_0_n_n_0_1_132
    dot_S10000x56_S56x32_S10000x32_1_0_0_1_n_n bcast_S_S10000x32 bcast_S320000x1_S320000x32_0_1
    bcast_S10000x1_S10000x32_0_1 bcast_S32_S1x32_1 bcast_S1x32_S10000x32_0_1 ei h W b

def logitsR (h4 : FVec F S10000x32 .f32) (Wl : FVec F S32x16 .f32) (bl : FVec F S16 .f32) : FVec F S10000x16 .f32 :=
  addf (Host.dotGeneral dot_S10000x32_S32x16_S10000x16_1_0_0_1_n_n none h4 Wl) (broadcastInDim S10000x16 ![0, 1] bcast_S1x16_S10000x16_0_1 (broadcastInDim S1x16 ![1] bcast_S16_S1x16_1 bl))

def rowMaxR (z : FVec F S10000x16 .f32) : FVec F S10000 .f32 :=
  maximumf (broadcastInDim S10000 ![] bcast_S_S10000 (constant (F := F) S_ .f32 0xFF800000#32)) (Host.reduce FloatOps.maximumf z (constant (F := F) S_ .f32 0xFF800000#32) reducesTo_S10000x16_S10000_d1 h_S_)

def shiftedExpR (z : FVec F S10000x16 .f32) : FVec F S10000x16 .f32 :=
  Host.exp (subf z (broadcastInDim S10000x16 ![0, 1] bcast_S10000x1_S10000x16_0_1 (broadcastInDim S10000x1 ![0] bcast_S10000_S10000x1_0 (rowMaxR z))))

def softmaxR (z : FVec F S10000x16 .f32) : FVec F S10000x16 .f32 :=
  Host.divf (shiftedExpR z) (broadcastInDim S10000x16 ![0, 1] bcast_S10000x1_S10000x16_0_1 (broadcastInDim S10000x1 ![0] bcast_S10000_S10000x1_0 (Host.reduceAdd (shiftedExpR z) (constant (F := F) S_ .f32 0x00000000#32) reducesTo_S10000x16_S10000_d1 h_S_)))

def tailR (h4 : FVec F S10000x32 .f32) (Wl : FVec F S32x16 .f32) (bl : FVec F S16 .f32) : FVec F S10000x16 .f32 :=
  softmaxR (logitsR h4 Wl bl)

def refOut (a0 : FVec F S10000x512 .f32) (a1 : IVec S2x320000 32)
    (a2 : FVec F S512x256 .f32) (a3 : FVec F S256 .f32) (a4 : FVec F S256x128 .f32) (a5 : FVec F S128 .f32)
    (a6 : FVec F S128x56 .f32) (a7 : FVec F S56 .f32) (a8 : FVec F S56x32 .f32) (a9 : FVec F S32 .f32)
    (a10 : FVec F S32x16 .f32) (a11 : FVec F S16 .f32) : FVec F S10000x16 .f32 :=
  tailR (layer4 a1 (layer3 a1 (layer2 a1 (layer1 a1 a0 a2 a3) a4 a5) a6 a7) a8 a9) a10 a11

end Cert.ReferenceIdeal.Terms

end
-- ==== Proof.Ref.Run.lean ====
import proofs.«419824_j13683765805591_3_alg».proof.Proof.Gen.ReferenceIdeal
import proofs.«419824_j13683765805591_3_alg».proof.Proof.Ref.Terms
import Idealize.ShloMosaic.Lib.StableHlo.Run

noncomputable section

namespace Cert.ReferenceIdeal.RefRun

open Cert.ReferenceIdeal Cert.ReferenceIdeal.Facts₀ Idealize.ShloMosaic Idealize.ShloMosaic.TcCoe Idealize.SL.Sem
  Idealize.ShloMosaic.StableHlo

variable {F : FTy → Type} [FloatOps F] [hReferenceIdeal : Cert.ReferenceIdeal.Facts]

-- The eight operations that move each negative entry of the index vector `x` up by 10000 and lay the result as the column `o`.
abbrev wrap (x : TRef sig ⟨S320000, .i32⟩) (c0 : TRef sig ⟨S_, .i32⟩) (z : TRef sig ⟨S320000, .i32⟩)
    (lt : TRef sig ⟨S320000, .i1⟩) (c1 : TRef sig ⟨S_, .i32⟩) (n s sel : TRef sig ⟨S320000, .i32⟩)
    (o : TRef sig ⟨S320000x1, .i32⟩) : List (HloOp τ sig (Elt F)) :=
  [ TRef.nullary c0 (constantI S_ 32 0#32), TRef.unary c0 z (broadcastInDim S320000 ![] bcast_S_S320000),
    TRef.binary x z lt (cmpi .slt), TRef.nullary c1 (constantI S_ 32 10000#32),
    TRef.unary c1 n (broadcastInDim S320000 ![] bcast_S_S320000), TRef.binary x n s addi,
    TRef.ternary lt s x sel select, TRef.unary sel o (broadcastInDim S320000x1 ![0] bcast_S320000_S320000x1_0) ]

abbrev q0 : List (HloOp τ sig (Elt F)) :=
  [ unary main_arg1 main_v0 (extractStridedSlice S1x320000 ![0, 0] · slices_S2x320000_S1x320000_0_0),
    reshape main_v0 main_v1 rfl shapeCasts_S1x320000_S320000,
    unary main_arg1 main_v2 (extractStridedSlice S1x320000 ![1, 0] · slices_S2x320000_S1x320000_1_0),
    reshape main_v2 main_v3 rfl shapeCasts_S1x320000_S320000 ]

abbrev q1 : List (HloOp τ sig (Elt F)) :=
  [ binary main_arg0 main_arg2 main_v4 (Host.dotGeneral dot_S10000x512_S512x256_S10000x256_1_0_0_1_n_n none),
    nullary main_cst (constant S_ .f32 0x00000000#32),
    unary main_cst main_v5 (broadcastInDim S10000 ![] bcast_S_S10000) ]
  ++ wrap (.of main_v3) (.of main_c) (.of main_v6) (.of main_v7) (.of main_c_0) (.of main_v8) (.of main_v9) (.of main_v10) (.of main_v11)
  ++ [ nullary main_cst_1 (constant S_ .f32 0x3F800000#32),
    unary main_cst_1 main_v12 (broadcastInDim S320000 ![] bcast_S_S320000),
    ternary main_v5 main_v11 main_v12 main_v13 (Host.scatterAdd scatter_S10000_S320000x1_S320000_n_0_0_1),
    nullary main_cst_2 (constant S_ .f32 0x3F800000#32),
    unary main_cst_2 main_v14 (broadcastInDim S10000 ![] bcast_S_S10000),
    binary main_v13 main_v14 main_v15 addf,
    unary main_v15 main_v16 Host.rsqrt ]
  ++ wrap (.of main_v1) (.of main_c_3) (.of main_v17) (.of main_v18) (.of main_c_4) (.of main_v19) (.of main_v20) (.of main_v21) (.of main_v22)
  ++ [ binary main_v16 main_v22 main_v23 (Host.gather gather_S10000_S320000x1_S320000_n_0_n_n_0_1_1) ]
  ++ wrap (.of main_v3) (.of main_c_5) (.of main_v24) (.of main_v25) (.of main_c_6) (.of main_v26) (.of main_v27) (.of main_v28) (.of main_v29)
  ++ [ binary main_v16 main_v29 main_v30 (Host.gather gather_S10000_S320000x1_S320000_n_0_n_n_0_1_1),
    binary main_v23 main_v30 main_v31 mulf,
    nullary main_cst_7 (constant S_ .f32 0x00000000#32),
    unary main_cst_7 main_v32 (broadcastInDim S10000x256 ![] bcast_S_S10000x256) ]
  ++ wrap (.of main_v1) (.of main_c_8) (.of main_v33) (.of main_v34) (.of main_c_9) (.of main_v35) (.of main_v36) (.of main_v37) (.of main_v38)
  ++ [ binary main_v4 main_v38 main_v39 (Host.gather gather_S10000x256_S320000x1_S320000x256_1_0_n_n_0_1_1256),
    unary main_v31 main_v40 (broadcastInDim S320000x1 ![0] bcast_S320000_S320000x1_0),
    unary main_v40 main_v41 (broadcastInDim S320000x256 ![0, 1] bcast_S320000x1_S320000x256_0_1),
    binary main_v39 main_v41 main_v42 mulf,
    nullary main_c_10 (constantI S_ 32 0#32),
    unary main_c_10 main_v43 (broadcastInDim S320000 ![] bcast_S_S320000),
    binary main_v3 main_v43 main_v44 (cmpi .slt),
    nullary main_c_11 (constantI S_ 32 10000#32),
    unary main_c_11 main_v45 (broadcastInDim S320000 ![] bcast_S_S320000) ]

abbrev q2 : List (HloOp τ sig (Elt F)) :=
  [ binary main_v3 main_v45 main_v46 addi,
    ternary main_v44 main_v46 main_v3 main_v47 select,
    unary main_v47 main_v48 (broadcastInDim S320000x1 ![0] bcast_S320000_S320000x1_0),
    ternary main_v32 main_v48 main_v42 main_v49 (Host.scatterAdd scatter_S10000x256_S320000x1_S320000x256_1_0_0_1),
    binary main_v16 main_v16 main_v50 mulf,
    unary main_v50 main_v51 (broadcastInDim S10000x1 ![0] bcast_S10000_S10000x1_0),
    unary main_v51 main_v52 (broadcastInDim S10000x256 ![0, 1] bcast_S10000x1_S10000x256_0_1),
    binary main_v4 main_v52 main_v53 mulf,
    binary main_v49 main_v53 main_v54 addf,
    unary main_arg3 main_v55 (broadcastInDim S1x256 ![1] bcast_S256_S1x256_1),
    unary main_v55 main_v56 (broadcastInDim S10000x256 ![0, 1] bcast_S1x256_S10000x256_0_1),
    binary main_v54 main_v56 main_v57 addf,
    nullary main_cst_12 (constant S_ .f32 0x3DCCCCCD#32),
    TRef.nullary main_call0.cst (constant S_ .f32 0x00000000#32),
    TRef.unary main_call0.cst main_call0.v0 (broadcastInDim S10000x256 ![] bcast_S_S10000x256),
    TRef.binary (.of main_v57) main_call0.v0 main_call0.v1 (cmpf .oge),
    TRef.unary (.of main_cst_12) main_call0.v2 id,
    TRef.unary main_call0.v2 main_call0.v3 (broadcastInDim S10000x256 ![] bcast_S_S10000x256),
    TRef.binary main_call0.v3 (.of main_v57) main_call0.v4 mulf,
    TRef.ternary main_call0.v1 (.of main_v57) main_call0.v4 main_call0.call0.v0 select ]

abbrev q3 : List (HloOp τ sig (Elt F)) :=
  [ binary main_v58 main_arg4 main_v59 (Host.dotGeneral dot_S10000x256_S256x128_S10000x128_1_0_0_1_n_n none),
    nullary main_cst_13 (constant S_ .f32 0x00000000#32),
    unary main_cst_13 main_v60 (broadcastInDim S10000 ![] bcast_S_S10000) ]
  ++ wrap (.of main_v3) (.of main_c_14) (.of main_v61) (.of main_v62) (.of main_c_15) (.of main_v63) (.of main_v64) (.of main_v65) (.of main_v66)
  ++ [ nullary main_cst_16 (constant S_ .f32 0x3F800000#32),
    unary main_cst_16 main_v67 (broadcastInDim S320000 ![] bcast_S_S320000),
    ternary main_v60 main_v66 main_v67 main_v68 (Host.scatterAdd scatter_S10000_S320000x1_S320000_n_0_0_1),
    nullary main_cst_17 (constant S_ .f32 0x3F800000#32),
    unary main_cst_17 main_v69 (broadcastInDim S10000 ![] bcast_S_S10000),
    binary main_v68 main_v69 main_v70 addf,
    unary main_v70 main_v71 Host.rsqrt ]
  ++ wrap (.of main_v1) (.of main_c_18) (.of main_v72) (.of main_v73) (.of main_c_19) (.of main_v74) (.of main_v75) (.of main_v76) (.of main_v77)
  ++ [ binary main_v71 main_v77 main_v78 (Host.gather gather_S10000_S320000x1_S320000_n_0_n_n_0_1_1) ]
  ++ wrap (.of main_v3) (.of main_c_20) (.of main_v79) (.of main_v80) (.of main_c_21) (.of main_v81) (.of main_v82) (.of main_v83) (.of main_v84)
  ++ [ binary main_v71 main_v84 main_v85 (Host.gather gather_S10000_S320000x1_S320000_n_0_n_n_0_1_1),
    binary main_v78 main_v85 main_v86 mulf,
    nullary main_cst_22 (constant S_ .f32 0x00000000#32),
    unary main_cst_22 main_v87 (broadcastInDim S10000x128 ![] bcast_S_S10000x128),
    nullary main_c_23 (constantI S_ 32 0#32),
    unary main_c_23 main_v88 (broadcastInDim S320000 ![] bcast_S_S320000),
    binary main_v1 main_v88 main_v89 (cmpi .slt),
    nullary main_c_24 (constantI S_ 32 10000#32),
    unary main_c_24 main_v90 (broadcastInDim S320000 ![] bcast_S_S320000),
    binary main_v1 main_v90 main_v91 addi,
    ternary main_v89 main_v91 main_v1 main_v92 select ]

abbrev q4 : List (HloOp τ sig (Elt F)) :=
  [ unary main_v92 main_v93 (broadcastInDim S320000x1 ![0] bcast_S320000_S320000x1_0),
    binary main_v59 main_v93 main_v94 (Host.gather gather_S10000x128_S320000x1_S320000x128_1_0_n_n_0_1_1128),
    unary main_v86 main_v95 (broadcastInDim S320000x1 ![0] bcast_S320000_S320000x1_0),
    unary main_v95 main_v96 (broadcastInDim S320000x128 ![0, 1] bcast_S320000x1_S320000x128_0_1),
    binary main_v94 main_v96 main_v97 mulf ]
  ++ wrap (.of main_v3) (.of main_c_25) (.of main_v98) (.of main_v99) (.of main_c_26) (.of main_v100) (.of main_v101) (.of main_v102) (.of main_v103)
  ++ [ ternary main_v87 main_v103 main_v97 main_v104 (Host.scatterAdd scatter_S10000x128_S320000x1_S320000x128_1_0_0_1),
    binary main_v71 main_v71 main_v105 mulf,
    unary main_v105 main_v106 (broadcastInDim S10000x1 ![0] bcast_S10000_S10000x1_0),
    unary main_v106 main_v107 (broadcastInDim S10000x128 ![0, 1] bcast_S10000x1_S10000x128_0_1),
    binary main_v59 main_v107 main_v108 mulf,
    binary main_v104 main_v108 main_v109 addf,
    unary main_arg5 main_v110 (broadcastInDim S1x128 ![1] bcast_S128_S1x128_1),
    unary main_v110 main_v111 (broadcastInDim S10000x128 ![0, 1] bcast_S1x128_S10000x128_0_1),
    binary main_v109 main_v111 main_v112 addf,
    nullary main_cst_27 (constant S_ .f32 0x3DCCCCCD#32),
    TRef.nullary main_call1.cst (constant S_ .f32 0x00000000#32),
    TRef.unary main_call1.cst main_call1.v0 (broadcastInDim S10000x128 ![] bcast_S_S10000x128),
    TRef.binary (.of main_v112) main_call1.v0 main_call1.v1 (cmpf .oge),
    TRef.unary (.of main_cst_27) main_call1.v2 id,
    TRef.unary main_call1.v2 main_call1.v3 (broadcastInDim S10000x128 ![] bcast_S_S10000x128),
    TRef.binary main_call1.v3 (.of main_v112) main_call1.v4 mulf,
    TRef.ternary main_call1.v1 (.of main_v112) main_call1.v4 main_call1.call0.v0 select ]

abbrev q5 : List (HloOp τ sig (Elt F)) :=
  [ binary main_v113 main_arg6 main_v114 (Host.dotGeneral dot_S10000x128_S128x56_S10000x56_1_0_0_1_n_n none),
    nullary main_cst_28 (constant S_ .f32 0x00000000#32),
    unary main_cst_28 main_v115 (broadcastInDim S10000 ![] bcast_S_S10000) ]
  ++ wrap (.of main_v3) (.of main_c_29) (.of main_v116) (.of main_v117) (.of main_c_30) (.of main_v118) (.of main_v119) (.of main_v120) (.of main_v121)
  ++ [ nullary main_cst_31 (constant S_ .f32 0x3F800000#32),
    unary main_cst_31 main_v122 (broadcastInDim S320000 ![] bcast_S_S320000),
    ternary main_v115 main_v121 main_v122 main_v123 (Host.scatterAdd scatter_S10000_S320000x1_S320000_n_0_0_1),
    nullary main_cst_32 (constant S_ .f32 0x3F800000#32),
    unary main_cst_32 main_v124 (broadcastInDim S10000 ![] bcast_S_S10000),
    binary main_v123 main_v124 main_v125 addf,
    unary main_v125 main_v126 Host.rsqrt ]
  ++ wrap (.of main_v1) (.of main_c_33) (.of main_v127) (.of main_v128) (.of main_c_34) (.of main_v129) (.of main_v130) (.of main_v131) (.of main_v132)
  ++ [ binary main_v126 main_v132 main_v133 (Host.gather gather_S10000_S320000x1_S320000_n_0_n_n_0_1_1) ]
  ++ wrap (.of main_v3) (.of main_c_35) (.of main_v134) (.of main_v135) (.of main_c_36) (.of main_v136) (.of main_v137) (.of main_v138) (.of main_v139)
  ++ [ binary main_v126 main_v139 main_v140 (Host.gather gather_S10000_S320000x1_S320000_n_0_n_n_0_1_1) ]

abbrev q6 : List (HloOp τ sig (Elt F)) :=
  [ binary main_v133 main_v140 main_v141 mulf,
    nullary main_cst_37 (constant S_ .f32 0x00000000#32),
    unary main_cst_37 main_v142 (broadcastInDim S10000x56 ![] bcast_S_S10000x56) ]
  ++ wrap (.of main_v1) (.of main_c_38) (.of main_v143) (.of main_v144) (.of main_c_39) (.of main_v145) (.of main_v146) (.of main_v147) (.of main_v148)
  ++ [ binary main_v114 main_v148 main_v149 (Host.gather gather_S10000x56_S320000x1_S320000x56_1_0_n_n_0_1_156),
    unary main_v141 main_v150 (broadcastInDim S320000x1 ![0] bcast_S320000_S320000x1_0),
    unary main_v150 main_v151 (broadcastInDim S320000x56 ![0, 1] bcast_S320000x1_S320000x56_0_1),
    binary main_v149 main_v151 main_v152 mulf ]
  ++ wrap (.of main_v3) (.of main_c_40) (.of main_v153) (.of main_v154) (.of main_c_41) (.of main_v155) (.of main_v156) (.of main_v157) (.of main_v158)
  ++ [ ternary main_v142 main_v158 main_v152 main_v159 (Host.scatterAdd scatter_S10000x56_S320000x1_S320000x56_1_0_0_1),
    binary main_v126 main_v126 main_v160 mulf,
    unary main_v160 main_v161 (broadcastInDim S10000x1 ![0] bcast_S10000_S10000x1_0),
    unary main_v161 main_v162 (broadcastInDim S10000x56 ![0, 1] bcast_S10000x1_S10000x56_0_1),
    binary main_v114 main_v162 main_v163 mulf,
    binary main_v159 main_v163 main_v164 addf,
    unary main_arg7 main_v165 (broadcastInDim S1x56 ![1] bcast_S56_S1x56_1),
    unary main_v165 main_v166 (broadcastInDim S10000x56 ![0, 1] bcast_S1x56_S10000x56_0_1),
    binary main_v164 main_v166 main_v167 addf,
    nullary main_cst_42 (constant S_ .f32 0x3DCCCCCD#32),
    TRef.nullary main_call2.cst (constant S_ .f32 0x00000000#32),
    TRef.unary main_call2.cst main_call2.v0 (broadcastInDim S10000x56 ![] bcast_S_S10000x56),
    TRef.binary (.of main_v167) main_call2.v0 main_call2.v1 (cmpf .oge),
    TRef.unary (.of main_cst_42) main_call2.v2 id,
    TRef.unary main_call2.v2 main_call2.v3 (broadcastInDim S10000x56 ![] bcast_S_S10000x56),
    TRef.binary main_call2.v3 (.of main_v167) main_call2.v4 mulf,
    TRef.ternary main_call2.v1 (.of main_v167) main_call2.v4 main_call2.call0.v0 select ]

abbrev q7 : List (HloOp τ sig (Elt F)) :=
  [ binary main_v168 main_arg8 main_v169 (Host.dotGeneral dot_S10000x56_S56x32_S10000x32_1_0_0_1_n_n none),
    nullary main_cst_43 (constant S_ .f32 0x00000000#32),
    unary main_cst_43 main_v170 (broadcastInDim S10000 ![] bcast_S_S10000) ]
  ++ wrap (.of main_v3) (.of main_c_44) (.of main_v171) (.of main_v172) (.of main_c_45) (.of main_v173) (.of main_v174) (.of main_v175) (.of main_v176)
  ++ [ nullary main_cst_46 (constant S_ .f32 0x3F800000#32),
    unary main_cst_46 main_v177 (broadcastInDim S320000 ![] bcast_S_S320000),
    ternary main_v170 main_v176 main_v177 main_v178 (Host.scatterAdd scatter_S10000_S320000x1_S320000_n_0_0_1),
    nullary main_cst_47 (constant S_ .f32 0x3F800000#32),
    unary main_cst_47 main_v179 (broadcastInDim S10000 ![] bcast_S_S10000),
    binary main_v178 main_v179 main_v180 addf,
    unary main_v180 main_v181 Host.rsqrt ]
  ++ wrap (.of main_v1) (.of main_c_48) (.of main_v182) (.of main_v183) (.of main_c_49) (.of main_v184) (.of main_v185) (.of main_v186) (.of main_v187)

abbrev q8 : List (HloOp τ sig (Elt F)) :=
  [ binary main_v181 main_v187 main_v188 (Host.gather gather_S10000_S320000x1_S320000_n_0_n_n_0_1_1) ]
  ++ wrap (.of main_v3) (.of main_c_50) (.of main_v189) (.of main_v190) (.of main_c_51) (.of main_v191) (.of main_v192) (.of main_v193) (.of main_v194)
  ++ [ binary main_v181 main_v194 main_v195 (Host.gather gather_S10000_S320000x1_S320000_n_0_n_n_0_1_1),
    binary main_v188 main_v195 main_v196 mulf,
    nullary main_cst_52 (constant S_ .f32 0x00000000#32),
    unary main_cst_52 main_v197 (broadcastInDim S10000x32 ![] bcast_S_S10000x32) ]
  ++ wrap (.of main_v1) (.of main_c_53) (.of main_v198) (.of main_v199) (.of main_c_54) (.of main_v200) (.of main_v201) (.of main_v202) (.of main_v203)
  ++ [ binary main_v169 main_v203 main_v204 (Host.gather gather_S10000x32_S320000x1_S320000x32_1_0_n_n_0_1_132),
    unary main_v196 main_v205 (broadcastInDim S320000x1 ![0] bcast_S320000_S320000x1_0),
    unary main_v205 main_v206 (broadcastInDim S320000x32 ![0, 1] bcast_S320000x1_S320000x32_0_1),
    binary main_v204 main_v206 main_v207 mulf ]
  ++ wrap (.of main_v3) (.of main_c_55) (.of main_v208) (.of main_v209) (.of main_c_56) (.of main_v210) (.of main_v211) (.of main_v212) (.of main_v213)
  ++ [ ternary main_v197 main_v213 main_v207 main_v214 (Host.scatterAdd scatter_S10000x32_S320000x1_S320000x32_1_0_0_1),
    binary main_v181 main_v181 main_v215 mulf,
    unary main_v215 main_v216 (broadcastInDim S10000x1 ![0] bcast_S10000_S10000x1_0),
    unary main_v216 main_v217 (broadcastInDim S10000x32 ![0, 1] bcast_S10000x1_S10000x32_0_1),
    binary main_v169 main_v217 main_v218 mulf,
    binary main_v214 main_v218 main_v219 addf,
    unary main_arg9 main_v220 (broadcastInDim S1x32 ![1] bcast_S32_S1x32_1),
    unary main_v220 main_v221 (broadcastInDim S10000x32 ![0, 1] bcast_S1x32_S10000x32_0_1),
    binary main_v219 main_v221 main_v222 addf,
    nullary main_cst_57 (constant S_ .f32 0x3DCCCCCD#32),
    TRef.nullary main_call3.cst (constant S_ .f32 0x00000000#32),
    TRef.unary main_call3.cst main_call3.v0 (broadcastInDim S10000x32 ![] bcast_S_S10000x32),
    TRef.binary (.of main_v222) main_call3.v0 main_call3.v1 (cmpf .oge),
    TRef.unary (.of main_cst_57) main_call3.v2 id,
    TRef.unary main_call3.v2 main_call3.v3 (broadcastInDim S10000x32 ![] bcast_S_S10000x32),
    TRef.binary main_call3.v3 (.of main_v222) main_call3.v4 mulf,
    TRef.ternary main_call3.v1 (.of main_v222) main_call3.v4 main_call3.call0.v0 select ]

abbrev q9 : List (HloOp τ sig (Elt F)) :=
  [ binary main_v223 main_arg10 main_v224 (Host.dotGeneral dot_S10000x32_S32x16_S10000x16_1_0_0_1_n_n none),
    unary main_arg11 main_v225 (broadcastInDim S1x16 ![1] bcast_S16_S1x16_1),
    unary main_v225 main_v226 (broadcastInDim S10000x16 ![0, 1] bcast_S1x16_S10000x16_0_1),
    binary main_v224 main_v226 main_v227 addf,
    nullary main_cst_58 (constant S_ .f32 0xFF800000#32),
    binary main_v227 main_cst_58 main_v228 (fun x v => Host.reduce FloatOps.maximumf x v reducesTo_S10000x16_S10000_d1 h_S_),
    nullary main_cst_59 (constant S_ .f32 0xFF800000#32),
    unary main_cst_59 main_v229 (broadcastInDim S10000 ![] bcast_S_S10000),
    binary main_v229 main_v228 main_v230 maximumf,
    unary main_v230 main_v231 (broadcastInDim S10000x1 ![0] bcast_S10000_S10000x1_0),
    unary main_v231 main_v232 (broadcastInDim S10000x16 ![0, 1] bcast_S10000x1_S10000x16_0_1),
    binary main_v227 main_v232 main_v233 subf,
    unary main_v233 main_v234 Host.exp,
    nullary main_cst_60 (constant S_ .f32 0x00000000#32),
    binary main_v234 main_cst_60 main_v235 (fun x v => Host.reduceAdd x v reducesTo_S10000x16_S10000_d1 h_S_),
    unary main_v235 main_v236 (broadcastInDim S10000x1 ![0] bcast_S10000_S10000x1_0) ]

abbrev q10 : List (HloOp τ sig (Elt F)) :=
  [ unary main_v236 main_v237 (broadcastInDim S10000x16 ![0, 1] bcast_S10000x1_S10000x16_0_1),
    binary main_v234 main_v237 main_v238 Host.divf ]
def w0 : List (HloOp τ sig (Elt F)) := q0 ++ q1
def w1 : List (HloOp τ sig (Elt F)) := q2 ++ q3
def w2 : List (HloOp τ sig (Elt F)) := q4 ++ q5
def w3 : List (HloOp τ sig (Elt F)) := q6 ++ q7
def w4 : List (HloOp τ sig (Elt F)) := q8 ++ q9
def w5 : List (HloOp τ sig (Elt F)) := q10
def ops : List (HloOp τ sig (Elt F)) := w0 ++ (w1 ++ (w2 ++ (w3 ++ (w4 ++ w5))))

def pIdx : List (HloOp τ sig (Elt F)) := q0
def pL1 : List (HloOp τ sig (Elt F)) := q1 ++ q2
def pL2 : List (HloOp τ sig (Elt F)) := q3 ++ q4
def pL3 : List (HloOp τ sig (Elt F)) := q5 ++ q6
def pL4 : List (HloOp τ sig (Elt F)) := q7 ++ q8
def pTail : List (HloOp τ sig (Elt F)) := q9 ++ q10

theorem ops_eq : (ops : List (HloOp τ sig (Elt F))) = pIdx ++ (pL1 ++ (pL2 ++ (pL3 ++ (pL4 ++ pTail)))) := by
  simp only [ops, w0, w1, w2, w3, w4, w5, pIdx, pL1, pL2, pL3, pL4, pTail, List.append_assoc]

theorem main_eq (c : Dev nD) : main (F := F) c = seq ops := by
  simp only [ops, seq_append]
  rfl

theorem scopedRefs_eq : (Finset.univ.filter fun b : Ref sig .tc => b.isScoped) = ∅ := by decide
theorem scopedSems_eq : (Finset.univ.filter fun sm : SemLoc sig => sm.isScoped .tc) = ∅ := by decide

theorem after_append (l₁ l₂ : List (HloOp τ sig (Elt F))) (V : Valuation τ sig (Elt F)) : after (l₁ ++ l₂) V = after l₂ (after l₁ V) := by
  induction l₁ generalizing V with
  | nil => rfl
  | cons op l ih => simp only [List.cons_append, after_cons, ih]

-- `op` touches buffers of this core only, writes exactly `y`, and leaves nothing undetermined.
def Good (op : HloOp τ sig (Elt F)) (y : Ref sig .tc) : Prop :=
  op.bufs ⊆ tcRefs τ sig ∧ op.fresh = ∅ ∧ op.writes = {Proc.devRef .tc y}

section
variable {l : List (HloOp τ sig (Elt F))} {W : List (Ref sig .tc)} (h : List.Forall₂ Good l W)
include h

theorem good_sub : l.Forall fun op => op.bufs ⊆ tcRefs τ sig := by
  induction h with
  | nil => trivial
  | cons h _ ih => exact (List.forall_cons _ _ _).mpr ⟨h.1, ih⟩

theorem good_fresh : ∀ op ∈ l, op.fresh = ∅ := by
  induction h with
  | nil => exact fun _ h => nomatch h
  | cons h _ ih => exact List.forall_mem_cons.mpr ⟨h.2.1, ih⟩

-- A buffer that is not among the written ones keeps its contents: each operation writes its own buffer only.
theorem good_keep (V : Valuation τ sig (Elt F)) (r : Ref sig .tc) (hr : r ∉ W) :
    after l V (Proc.devRef .tc r) = V (Proc.devRef .tc r) := by
  induction h generalizing V with
  | nil => rfl
  | cons h _ ih =>
    rw [after_cons, ih _ fun h' => hr (List.mem_cons_of_mem _ h'), HloOp.result_of_not_mem]
    rw [h.2.2, Finset.mem_singleton]
    exact fun e => hr (Proc.devRef_injective _ e ▸ List.mem_cons_self)

end

abbrev W0 : List (Ref sig .tc) :=
  [main_v0, main_v1, main_v2, main_v3]
abbrev W1 : List (Ref sig .tc) :=
  [main_v4, main_cst, main_v5, main_c, main_v6, main_v7, main_c_0, main_v8, main_v9, main_v10, main_v11, main_cst_1, main_v12, main_v13, main_cst_2,
  main_v14, main_v15, main_v16, main_c_3, main_v17, main_v18, main_c_4, main_v19, main_v20, main_v21, main_v22, main_v23, main_c_5, main_v24,
  main_v25, main_c_6, main_v26, main_v27, main_v28, main_v29, main_v30, main_v31, main_cst_7, main_v32, main_c_8, main_v33, main_v34, main_c_9,
  main_v35, main_v36, main_v37, main_v38, main_v39, main_v40, main_v41, main_v42, main_c_10, main_v43, main_v44, main_c_11, main_v45, main_v46,
  main_v47, main_v48, main_v49, main_v50, main_v51, main_v52, main_v53, main_v54, main_v55, main_v56, main_v57, main_cst_12, main_call0_cst,
  main_call0_v0, main_call0_v1, main_call0_v2, main_call0_v3, main_call0_v4, main_v58]
abbrev W2 : List (Ref sig .tc) :=
  [main_v59, main_cst_13, main_v60, main_c_14, main_v61, main_v62, main_c_15, main_v63, main_v64, main_v65, main_v66, main_cst_16, main_v67, main_v68,
  main_cst_17, main_v69, main_v70, main_v71, main_c_18, main_v72, main_v73, main_c_19, main_v74, main_v75, main_v76, main_v77, main_v78, main_c_20,
  main_v79, main_v80, main_c_21, main_v81, main_v82, main_v83, main_v84, main_v85, main_v86, main_cst_22, main_v87, main_c_23, main_v88, main_v89,
  main_c_24, main_v90, main_v91, main_v92, main_v93, main_v94, main_v95, main_v96, main_v97, main_c_25, main_v98, main_v99, main_c_26, main_v100,
  main_v101, main_v102, main_v103, main_v104, main_v105, main_v106, main_v107, main_v108, main_v109, main_v110, main_v111, main_v112, main_cst_27,
  main_call1_cst, main_call1_v0, main_call1_v1, main_call1_v2, main_call1_v3, main_call1_v4, main_v113]
abbrev W3 : List (Ref sig .tc) :=
  [main_v114, main_cst_28, main_v115, main_c_29, main_v116, main_v117, main_c_30, main_v118, main_v119, main_v120, main_v121, main_cst_31, main_v122,
  main_v123, main_cst_32, main_v124, main_v125, main_v126, main_c_33, main_v127, main_v128, main_c_34, main_v129, main_v130, main_v131, main_v132,
  main_v133, main_c_35, main_v134, main_v135, main_c_36, main_v136, main_v137, main_v138, main_v139, main_v140, main_v141, main_cst_37, main_v142,
  main_c_38, main_v143, main_v144, main_c_39, main_v145, main_v146, main_v147, main_v148, main_v149, main_v150, main_v151, main_v152, main_c_40,
  main_v153, main_v154, main_c_41, main_v155, main_v156, main_v157, main_v158, main_v159, main_v160, main_v161, main_v162, main_v163, main_v164,
  main_v165, main_v166, main_v167, main_cst_42, main_call2_cst, main_call2_v0, main_call2_v1, main_call2_v2, main_call2_v3, main_call2_v4, main_v168]
abbrev W4 : List (Ref sig .tc) :=
  [main_v169, main_cst_43, main_v170, main_c_44, main_v171, main_v172, main_c_45, main_v173, main_v174, main_v175, main_v176, main_cst_46, main_v177,
  main_v178, main_cst_47, main_v179, main_v180, main_v181, main_c_48, main_v182, main_v183, main_c_49, main_v184, main_v185, main_v186, main_v187,
  main_v188, main_c_50, main_v189, main_v190, main_c_51, main_v191, main_v192, main_v193, main_v194, main_v195, main_v196, main_cst_52, main_v197,
  main_c_53, main_v198, main_v199, main_c_54, main_v200, main_v201, main_v202, main_v203, main_v204, main_v205, main_v206, main_v207, main_c_55,
  main_v208, main_v209, main_c_56, main_v210, main_v211, main_v212, main_v213, main_v214, main_v215, main_v216, main_v217, main_v218, main_v219,
  main_v220, main_v221, main_v222, main_cst_57, main_call3_cst, main_call3_v0, main_call3_v1, main_call3_v2, main_call3_v3, main_call3_v4, main_v223]
abbrev W5 : List (Ref sig .tc) :=
  [main_v224, main_v225, main_v226, main_v227, main_cst_58, main_v228, main_cst_59, main_v229, main_v230, main_v231, main_v232, main_v233, main_v234,
  main_cst_60, main_v235, main_v236, main_v237, main_v238]
abbrev allW : List (Ref sig .tc) := W0 ++ (W1 ++ (W2 ++ (W3 ++ (W4 ++ W5))))

theorem parts_good : List.Forall₂ (Good (F := F)) pIdx W0 ∧ List.Forall₂ (Good (F := F)) pL1 W1
    ∧ List.Forall₂ (Good (F := F)) pL2 W2 ∧ List.Forall₂ (Good (F := F)) pL3 W3 ∧ List.Forall₂ (Good (F := F)) pL4 W4
    ∧ List.Forall₂ (Good (F := F)) pTail W5 := by
  refine ⟨?_, ?_, ?_, ?_, ?_, ?_⟩ <;>
    repeat (first | exact .nil | (refine .cons ⟨?_, rfl, rfl⟩ ?_; simp only [nullary_bufs_sub, unary_bufs_sub,
      binary_bufs_sub, ternary_bufs_sub, reshape_bufs_sub]))

theorem ops_good : List.Forall₂ Good (ops : List (HloOp τ sig (Elt F))) allW := by
  obtain ⟨h0, h1, h2, h3, h4, h5⟩ := parts_good (F := F)
  rw [ops_eq]
  exact List.rel_append h0 (List.rel_append h1 (List.rel_append h2 (List.rel_append h3 (List.rel_append h4 h5))))

theorem idx_src (V : Valuation τ sig (Elt F)) : after pIdx V (main_v1 : DevRef τ sig) = Terms.srcV (V (main_arg1 : DevRef τ sig)) := by
  simp only [pIdx, q0]
  after_results_simp
  rfl

theorem idx_dst (V : Valuation τ sig (Elt F)) : after pIdx V (main_v3 : DevRef τ sig) = Terms.dstV (V (main_arg1 : DevRef τ sig)) := by
  simp only [pIdx, q0]
  after_results_simp
  rfl

theorem layer1_out (V : Valuation τ sig (Elt F)) (ei : IVec S2x320000 32)
    (hs : V (main_v1 : DevRef τ sig) = Terms.srcV ei) (hd : V (main_v3 : DevRef τ sig) = Terms.dstV ei) :
    after pL1 V (main_v58 : DevRef τ sig)
      = Terms.layer1 ei (V (main_arg0 : DevRef τ sig)) (V (main_arg2 : DevRef τ sig)) (V (main_arg3 : DevRef τ sig)) := by
  simp only [pL1, q1, q2, wrap, List.cons_append, List.nil_append, List.append_assoc]
  after_results_simp
  simp only [hs, hd]
  rfl

theorem layer2_out (V : Valuation τ sig (Elt F)) (ei : IVec S2x320000 32)
    (hs : V (main_v1 : DevRef τ sig) = Terms.srcV ei) (hd : V (main_v3 : DevRef τ sig) = Terms.dstV ei) :
    after pL2 V (main_v113 : DevRef τ sig)
      = Terms.layer2 ei (V (main_v58 : DevRef τ sig)) (V (main_arg4 : DevRef τ sig)) (V (main_arg5 : DevRef τ sig)) := by
  simp only [pL2, q3, q4, wrap, List.cons_append, List.nil_append, List.append_assoc]
  after_results_simp
  simp only [hs, hd]
  rfl

theorem layer3_out (V : Valuation τ sig (Elt F)) (ei : IVec S2x320000 32)
    (hs : V (main_v1 : DevRef τ sig) = Terms.srcV ei) (hd : V (main_v3 : DevRef τ sig) = Terms.dstV ei) :
    after pL3 V (main_v168 : DevRef τ sig)
      = Terms.layer3 ei (V (main_v113 : DevRef τ sig)) (V (main_arg6 : DevRef τ sig)) (V (main_arg7 : DevRef τ sig)) := by
  simp only [pL3, q5, q6, wrap, List.cons_append, List.nil_append, List.append_assoc]
  after_results_simp
  simp only [hs, hd]
  rfl

theorem layer4_out (V : Valuation τ sig (Elt F)) (ei : IVec S2x320000 32)
    (hs : V (main_v1 : DevRef τ sig) = Terms.srcV ei) (hd : V (main_v3 : DevRef τ sig) = Terms.dstV ei) :
    after pL4 V (main_v223 : DevRef τ sig)
      = Terms.layer4 ei (V (main_v168 : DevRef τ sig)) (V (main_arg8 : DevRef τ sig)) (V (main_arg9 : DevRef τ sig)) := by
  simp only [pL4, q7, q8, wrap, List.cons_append, List.nil_append, List.append_assoc]
  after_results_simp
  simp only [hs, hd]
  rfl

theorem tail_out (V : Valuation τ sig (Elt F)) :
    after pTail V (main_v238 : DevRef τ sig)
      = Terms.tailR (V (main_v223 : DevRef τ sig)) (V (main_arg10 : DevRef τ sig)) (V (main_arg11 : DevRef τ sig)) := by
  simp only [pTail, q9, q10, wrap, List.cons_append, List.nil_append, List.append_assoc]
  after_results_simp
  rfl

-- The stretches joined: what each reads was left unchanged by the stretches between.
theorem after_ops_out (V : Valuation τ sig (Elt F)) :
    after ops V (main_v238 : DevRef τ sig)
      = Terms.refOut (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  obtain ⟨h0, h1, h2, h3, h4, -⟩ := parts_good (F := F)
  rw [ops_eq]
  simp only [after_append]
  rw [tail_out, layer4_out _ (V (main_arg1 : DevRef τ sig)), layer3_out _ (V (main_arg1 : DevRef τ sig)), layer2_out _ (V (main_arg1 : DevRef τ sig)),
    layer1_out _ (V (main_arg1 : DevRef τ sig)) (idx_src V) (idx_dst V)]
  all_goals simp (disch := decide) only [good_keep h0, good_keep h1, good_keep h2, good_keep h3, good_keep h4]
  exacts [rfl, idx_src V, idx_dst V, idx_src V, idx_dst V, idx_src V, idx_dst V]

theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v238)
        = Terms.refOut (m ((c.tc : Thread nD τ).loc main_arg0))
            (m ((c.tc : Thread nD τ).loc main_arg1))
            (m ((c.tc : Thread nD τ).loc main_arg2))
            (m ((c.tc : Thread nD τ).loc main_arg3))
            (m ((c.tc : Thread nD τ).loc main_arg4))
            (m ((c.tc : Thread nD τ).loc main_arg5))
            (m ((c.tc : Thread nD τ).loc main_arg6))
            (m ((c.tc : Thread nD τ).loc main_arg7))
            (m ((c.tc : Thread nD τ).loc main_arg8))
            (m ((c.tc : Thread nD τ).loc main_arg9))
            (m ((c.tc : Thread nD τ).loc main_arg10))
            (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c =>
      ⟨(h c main_v238).trans (after_ops_out _),
       (h c main_arg0).trans (good_keep ops_good _ main_arg0 (by decide)),
       (h c main_arg1).trans (good_keep ops_good _ main_arg1 (by decide)),
       (h c main_arg2).trans (good_keep ops_good _ main_arg2 (by decide)),
       (h c main_arg3).trans (good_keep ops_good _ main_arg3 (by decide)),
       (h c main_arg4).trans (good_keep ops_good _ main_arg4 (by decide)),
       (h c main_arg5).trans (good_keep ops_good _ main_arg5 (by decide)),
       (h c main_arg6).trans (good_keep ops_good _ main_arg6 (by decide)),
       (h c main_arg7).trans (good_keep ops_good _ main_arg7 (by decide)),
       (h c main_arg8).trans (good_keep ops_good _ main_arg8 (by decide)),
       (h c main_arg9).trans (good_keep ops_good _ main_arg9 (by decide)),
       (h c main_arg10).trans (good_keep ops_good _ main_arg10 (by decide)),
       (h c main_arg11).trans (good_keep ops_good _ main_arg11 (by decide))⟩)
    (run_seq scopedRefs_eq scopedSems_eq defs main (fun _ => ops) main_eq (fun _ => good_sub ops_good) m ρ
      (fun _ => good_fresh ops_good))

end Cert.ReferenceIdeal.RefRun

end
-- ==== Proof.Decode.lean ====
import Idealize.ShloMosaic.Lib.ValueIdx
import Idealize.ShloMosaic.PureOps.Ideal

noncomputable section

namespace Cert.Decode

open Idealize.ShloMosaic Idealize.ShloMosaic.ValueIdx

def InRange (ei : IVec ⟨2, ![2, 320000]⟩ 32) : Prop :=
  ∀ j : (⟨2, ![2, 320000]⟩ : Shape).Idx, 0 ≤ (ei j).toInt ∧ (ei j).toInt < 10000

def srcOf (ei : IVec ⟨2, ![2, 320000]⟩ 32) (h : InRange ei) (e : Fin 320000) : Fin 10000 :=
  ⟨(ei (ix2 0 e)).toInt.toNat, by have := h (ix2 0 e); omega⟩

def dstOf (ei : IVec ⟨2, ![2, 320000]⟩ 32) (h : InRange ei) (e : Fin 320000) : Fin 10000 :=
  ⟨(ei (ix2 1 e)).toInt.toNat, by have := h (ix2 1 e); omega⟩

theorem srcOf_toInt (ei : IVec ⟨2, ![2, 320000]⟩ 32) (h : InRange ei) (e : Fin 320000) :
    (ei (ix2 0 e)).toInt = ((srcOf ei h e).val : ℤ) := by
  have := h (ix2 0 e); show _ = ((ei (ix2 0 e)).toInt.toNat : ℤ); omega

theorem dstOf_toInt (ei : IVec ⟨2, ![2, 320000]⟩ 32) (h : InRange ei) (e : Fin 320000) :
    (ei (ix2 1 e)).toInt = ((dstOf ei h e).val : ℤ) := by
  have := h (ix2 1 e); show _ = ((ei (ix2 1 e)).toInt.toNat : ℤ); omega

def tab2 {a b : ℕ} (v : (⟨2, ![a, b]⟩ : Shape).Idx → EReal) (i : Fin a) (j : Fin b) : EReal := v (ix2 i j)

def tab1 {a : ℕ} (v : (⟨1, ![a]⟩ : Shape).Idx → EReal) (i : Fin a) : EReal := v (ix1 i)

end Cert.Decode

end
-- ==== Proof.Spec.lean ====
import Idealize.ShloMosaic.PureOps.Ideal

noncomputable section

open scoped BigOperators

namespace Cert.Spec

open Idealize.ShloMosaic

def slope : EReal := Ideal.ofBits .f32 0x3DCCCCCD#32

def leaky (y : EReal) : EReal := if 0 ≤ y then y else slope * y

section Graph
variable (src dst : Fin 320000 → Fin 10000)

def deg (d : Fin 10000) : EReal := (0 + ∑ e ∈ Finset.univ.filter (fun e : Fin 320000 => dst e = d), (1 : EReal)) + 1

def dinv (d : Fin 10000) : EReal := Ideal.rsqrt (deg dst d)

def coef (e : Fin 320000) : EReal := dinv dst (src e) * dinv dst (dst e)

def mm {fi fo : ℕ} (h : Fin 10000 → Fin fi → EReal) (W : Fin fi → Fin fo → EReal) (r : Fin 10000) (c : Fin fo) : EReal :=
  ∑ k : Fin fi, h r k * W k c

def layer {fi fo : ℕ} (h : Fin 10000 → Fin fi → EReal) (W : Fin fi → Fin fo → EReal) (b : Fin fo → EReal)
    (d : Fin 10000) (c : Fin fo) : EReal :=
  leaky (((0 + ∑ e ∈ Finset.univ.filter (fun e : Fin 320000 => dst e = d), mm h W (src e) c * coef src dst e)
    + mm h W d c * (dinv dst d * dinv dst d)) + b c)

def logits (x : Fin 10000 → Fin 512 → EReal)
    (W1 : Fin 512 → Fin 256 → EReal) (b1 : Fin 256 → EReal) (W2 : Fin 256 → Fin 128 → EReal) (b2 : Fin 128 → EReal)
    (W3 : Fin 128 → Fin 56 → EReal) (b3 : Fin 56 → EReal) (W4 : Fin 56 → Fin 32 → EReal) (b4 : Fin 32 → EReal)
    (Wl : Fin 32 → Fin 16 → EReal) (bl : Fin 16 → EReal) (d : Fin 10000) (c : Fin 16) : EReal :=
  mm (layer src dst (layer src dst (layer src dst (layer src dst x W1 b1) W2 b2) W3 b3) W4 b4) Wl d c + bl c

end Graph

def IsReal2 {a b : ℕ} (v : Fin a → Fin b → EReal) : Prop := ∀ i j, ∃ r : ℝ, v i j = (r : EReal)

def IsReal1 {a : ℕ} (v : Fin a → EReal) : Prop := ∀ i, ∃ r : ℝ, v i = (r : EReal)

end Cert.Spec

end
-- ==== Proof.AlgDefs.lean ====
import proofs.«419824_j13683765805591_3_alg».proof.Proof.Spec

noncomputable section

open scoped BigOperators

namespace Cert.Alg

open Idealize.ShloMosaic Cert.Spec

def leakyK (y : EReal) : EReal := if 0 < y then y else slope * y

def linK {a b : ℕ} (h : Fin 10240 → Fin a → EReal) (W : Fin a → Fin b → EReal) (bias : Fin b → EReal)
    (r : Fin 10240) (c : Fin b) : EReal :=
  (∑ k : Fin a, h r k * W k c) + bias c

def aggK {b : ℕ} (A : Fin 10240 → Fin 10240 → EReal) (g : Fin 10240 → Fin b → EReal) (bias : Fin b → EReal)
    (d : Fin 10240) (c : Fin b) : EReal :=
  leakyK ((∑ s : Fin 10240, A d s * g s c) + bias c)

def padRows {a : ℕ} (x : Fin 10000 → Fin a → EReal) (r : Fin 10240) (k : Fin a) : EReal :=
  if h : r.val < 10000 then x ⟨r.val, h⟩ k else 0

def padMat {a b a' b' : ℕ} (W : Fin a → Fin b → EReal) (k : Fin a') (c : Fin b') : EReal :=
  if h : k.val < a ∧ c.val < b then W ⟨k.val, h.1⟩ ⟨c.val, h.2⟩ else 0

def padVec {b b' : ℕ} (v : Fin b → EReal) (c : Fin b') : EReal :=
  if h : c.val < b then v ⟨c.val, h⟩ else 0

section Graph
variable (src dst : Fin 320000 → Fin 10000)

def rowU (u : Fin 330000) : ℕ := if h : u.val < 320000 then (dst ⟨u.val, h⟩).val else u.val - 320000

def colU (u : Fin 330000) : ℕ := if h : u.val < 320000 then (src ⟨u.val, h⟩).val else u.val - 320000

def valU (u : Fin 330000) : EReal :=
  if h : u.val < 320000 then coef src dst ⟨u.val, h⟩
  else dinv dst ⟨u.val - 320000, by have := u.isLt; omega⟩ * dinv dst ⟨u.val - 320000, by have := u.isLt; omega⟩

def IsAdj (A : Fin 10240 → Fin 10240 → EReal) : Prop :=
  ∀ d s : Fin 10240, A d s = 0 + ∑ u ∈ Finset.univ.filter
    (fun u : Fin 330000 => rowU dst u * 10240 + colU src u = d.val * 10240 + s.val), valU src dst u

end Graph

end Cert.Alg

end
-- ==== Proof.KI.HostVal.lean ====
import proofs.«419824_j13683765805591_3_alg».proof.Proof.Gen.KernelIdeal.Regions
import proofs.«419824_j13683765805591_3_alg».proof.Proof.Decode
import proofs.«419824_j13683765805591_3_alg».proof.Proof.AlgDefs
import Idealize.ShloMosaic.Lib.StableHlo.Run
import Idealize.ShloMosaic.Lib.Pipeline.Value
import Idealize.ShloMosaic.Lib.KernelVsHost
import Idealize.ShloMosaic.Lib.ValueIdx

noncomputable section

namespace Cert.KernelIdeal.HostVal

open Idealize.ShloMosaic Idealize.ShloMosaic.TcCoe Idealize.ShloMosaic.ValueIdx Idealize.ShloMosaic.StableHlo
open Cert.KernelIdeal Cert.KernelIdeal.Gen Cert.Decode Cert.Alg

variable (m : (ℓ : Loc nD τ sig) → Buf (Elt Ideal) ℓ) (outs : Gen.Outs (F := Ideal)) (c : Dev nD)

-- An array that no item of a stretch writes holds after the stretch what it held before: rewrite stretch by stretch.
local macro "walk" : tactic => `(tactic| repeat ((first
  | rw [V31_of] | rw [V30_of] | rw [V29_of] | rw [V28_of] | rw [V27_of] | rw [V26_of] | rw [V25_of] | rw [V24_of]
  | rw [V23_of] | rw [V22_of] | rw [V21_of] | rw [V20_of] | rw [V19_of] | rw [V18_of] | rw [V17_of] | rw [V16_of]
  | rw [V15_of] | rw [V14_of] | rw [V13_of] | rw [V12_of] | rw [V11_of] | rw [V10_of] | rw [V9_of] | rw [V8_of]
  | rw [V7_of] | rw [V6_of] | rw [V5_of] | rw [V4_of] | rw [V3_of] | rw [V2_of] | rw [V1_of]); rotate_left; decide))

theorem sitofp_zero_apply (j : S_.Idx) : sitofp (F := Ideal) .f32 (constantI S_ 32 0#32) j = (0 : EReal) := by
  show (((0#32 : BitVec 32).toInt : ℝ) : EReal) = 0
  rw [show (0#32 : BitVec 32).toInt = 0 from by decide]
  simp

theorem pad2_apply {a b a' b' : ℕ} (hi : Fin 2 → ℕ) (x : (⟨2, ![a, b]⟩ : Shape).Idx → EReal) {u : Shape} (v : u.Idx → EReal)
    (h : (⟨2, ![a, b]⟩ : Shape).Pads ![0, 0] hi ![0, 0] ⟨2, ![a', b']⟩) (hu : 0 < u.numel)
    (hv : v (Shape.Idx.first hu) = 0) (k : Fin a') (q : Fin b') :
    pad ⟨2, ![a', b']⟩ ![0, 0] hi ![0, 0] x v h hu (ix2 k q) = padMat (tab2 x) k q := by
  unfold padMat tab2
  by_cases hin : k.val < a ∧ q.val < b
  · rw [dif_pos hin]
    refine pad_apply_of_inside _ _ _ x v h hu (ix2 k q) (ix2 ⟨k.val, hin.1⟩ ⟨q.val, hin.2⟩) fun d => ?_
    match d with
    | ⟨0, _⟩ => show k.val = 0 + k.val * (0 + 1); omega
    | ⟨1, _⟩ => show q.val = 0 + q.val * (0 + 1); omega
  · rw [dif_neg hin, ← hv]
    by_cases h0 : k.val < a
    · have h1 : ¬ q.val < b := fun h1 => hin ⟨h0, h1⟩
      refine pad_apply_of_not_inside _ _ _ x v h hu (ix2 k q) (1 : Fin 2) ?_
      show ¬ (0 ≤ q.val ∧ (q.val - 0) % (0 + 1) = 0 ∧ (q.val - 0) / (0 + 1) < b)
      intro hc; exact h1 (by have := hc.2.2; simpa using this)
    · refine pad_apply_of_not_inside _ _ _ x v h hu (ix2 k q) (0 : Fin 2) ?_
      show ¬ (0 ≤ k.val ∧ (k.val - 0) % (0 + 1) = 0 ∧ (k.val - 0) / (0 + 1) < a)
      intro hc; exact h0 (by have := hc.2.2; simpa using this)

theorem pad1_apply {b b' : ℕ} (hi : Fin 1 → ℕ) (x : (⟨1, ![b]⟩ : Shape).Idx → EReal) {u : Shape} (v : u.Idx → EReal)
    (h : (⟨1, ![b]⟩ : Shape).Pads ![0] hi ![0] ⟨1, ![b']⟩) (hu : 0 < u.numel)
    (hv : v (Shape.Idx.first hu) = 0) (q : Fin b') :
    pad ⟨1, ![b']⟩ ![0] hi ![0] x v h hu (ix1 q) = padVec (tab1 x) q := by
  unfold padVec tab1
  by_cases hin : q.val < b
  · rw [dif_pos hin]
    refine pad_apply_of_inside _ _ _ x v h hu (ix1 q) (ix1 ⟨q.val, hin⟩) fun d => ?_
    match d with
    | ⟨0, _⟩ => show q.val = 0 + q.val * (0 + 1); omega
  · rw [dif_neg hin, ← hv]
    refine pad_apply_of_not_inside _ _ _ x v h hu (ix1 q) (0 : Fin 1) ?_
    show ¬ (0 ≤ q.val ∧ (q.val - 0) % (0 + 1) = 0 ∧ (q.val - 0) / (0 + 1) < b)
    intro hc; exact hin (by have := hc.2.2; simpa using this)

theorem row_of_vec {n : ℕ} (v : (⟨1, ![n]⟩ : Shape).Idx → EReal) (h : (⟨1, ![n]⟩ : Shape).ShapeCasts ⟨2, ![1, n]⟩) (k : Fin n) :
    shapeCast ⟨2, ![1, n]⟩ v h (ix2 (0 : Fin 1) k) = v (ix1 k) :=
  (shapeCast_addUnit_apply ![n] v h (ix2 (0 : Fin 1) k)).trans
    (congrArg v (funext fun d => match d with | ⟨0, _⟩ => rfl))

theorem padRows_eq_padMat {a : ℕ} (x : Fin 10000 → Fin a → EReal) (r : Fin 10240) (k : Fin a) :
    padRows x r k = padMat x r k := by
  unfold padRows padMat
  by_cases h : r.val < 10000
  · rw [dif_pos h, dif_pos ⟨h, k.isLt⟩]
  · rw [dif_neg h, dif_neg fun hc => h hc.1]

theorem c11_val : Gen.V1 m c main_c_11 = constantI S_ 32 0#32 := by
  show StableHlo.after _ (Gen.V0 m c) _ = _
  generalize Gen.V0 m c = W
  after_results
theorem c12_val : Gen.V3 m c main_c_12 = constantI S_ 32 0#32 := by
  show StableHlo.after _ (Gen.V2 m c) _ = _
  generalize Gen.V2 m c = W
  after_results
theorem c13_val : Gen.V5 m c main_c_13 = constantI S_ 32 0#32 := by
  show StableHlo.after _ (Gen.V4 m c) _ = _
  generalize Gen.V4 m c = W
  after_results
theorem c14_val : Gen.V7 m c main_c_14 = constantI S_ 32 0#32 := by
  show StableHlo.after _ (Gen.V6 m c) _ = _
  generalize Gen.V6 m c = W
  after_results
theorem c15_val : Gen.V9 m c main_c_15 = constantI S_ 32 0#32 := by
  show StableHlo.after _ (Gen.V8 m c) _ = _
  generalize Gen.V8 m c = W
  after_results
theorem c16_val : Gen.V11 m c main_c_16 = constantI S_ 32 0#32 := by
  show StableHlo.after _ (Gen.V10 m c) _ = _
  generalize Gen.V10 m c = W
  after_results

theorem v49_term : @Eq (FVec Ideal S10240x512 .f32) (Gen.V2 m c main_v49)
    (pad (s := S10000x512) S10240x512 ![0, 0] ![240, 0] ![0, 0] (Gen.V1 m c main_arg0) (sitofp (F := Ideal) .f32 (Gen.V1 m c main_c_11))
      pads_S10000x512_S10240x512_02400_000 h_S_) := by
  show StableHlo.after _ (Gen.V1 m c) _ = _
  generalize Gen.V1 m c = W
  after_results
  try rfl

theorem v50_term : @Eq (FVec Ideal S10240x512 .bf16) (Gen.V3 m c main_v50) (truncf .bf16 (Gen.V2 m c main_v49) bitsLt_bf16_f32) := by
  show StableHlo.after _ (Gen.V2 m c) _ = _
  generalize Gen.V2 m c = W
  after_results
  try rfl

theorem v51_term : @Eq (FVec Ideal S128x128 .f32) (Gen.V4 m c main_v51)
    (pad (s := S128x56) S128x128 ![0, 0] ![0, 72] ![0, 0] (Gen.V3 m c main_arg6) (sitofp (F := Ideal) .f32 (Gen.V3 m c main_c_12))
      pads_S128x56_S128x128_000_0720 h_S_) := by
  show StableHlo.after _ (Gen.V3 m c) _ = _
  generalize Gen.V3 m c = W
  after_results
  try rfl

theorem v52_term : @Eq (FVec Ideal S128 .f32) (Gen.V6 m c main_v52)
    (pad (s := S56) S128 ![0] ![72] ![0] (Gen.V5 m c main_arg7) (sitofp (F := Ideal) .f32 (Gen.V5 m c main_c_13))
      pads_S56_S128_0720 h_S_) := by
  show StableHlo.after _ (Gen.V5 m c) _ = _
  generalize Gen.V5 m c = W
  after_results
  try rfl

theorem v53_term : @Eq (FVec Ideal S128x128 .f32) (Gen.V8 m c main_v53)
    (pad (s := S56x32) S128x128 ![0, 0] ![72, 96] ![0, 0] (Gen.V7 m c main_arg8) (sitofp (F := Ideal) .f32 (Gen.V7 m c main_c_14))
      pads_S56x32_S128x128_0720_0960 h_S_) := by
  show StableHlo.after _ (Gen.V7 m c) _ = _
  generalize Gen.V7 m c = W
  after_results
  try rfl

theorem v54_term : @Eq (FVec Ideal S128 .f32) (Gen.V10 m c main_v54)
    (pad (s := S32) S128 ![0] ![96] ![0] (Gen.V9 m c main_arg9) (sitofp (F := Ideal) .f32 (Gen.V9 m c main_c_15))
      pads_S32_S128_0960 h_S_) := by
  show StableHlo.after _ (Gen.V9 m c) _ = _
  generalize Gen.V9 m c = W
  after_results
  try rfl

theorem v55_term : @Eq (FVec Ideal S128x16 .f32) (Gen.V12 m c main_v55)
    (pad (s := S32x16) S128x16 ![0, 0] ![96, 0] ![0, 0] (Gen.V11 m c main_arg10) (sitofp (F := Ideal) .f32 (Gen.V11 m c main_c_16))
      pads_S32x16_S128x16_0960_000 h_S_) := by
  show StableHlo.after _ (Gen.V11 m c) _ = _
  generalize Gen.V11 m c = W
  after_results
  try rfl

theorem v56_term : @Eq (FVec Ideal S512x256 .bf16) (Gen.V13 m c main_v56) (truncf .bf16 (Gen.V12 m c main_arg2) bitsLt_bf16_f32) := by
  show StableHlo.after _ (Gen.V12 m c) _ = _
  generalize Gen.V12 m c = W
  after_results
  try rfl
theorem v57_term : @Eq (FVec Ideal S256x128 .bf16) (Gen.V13 m c main_v57) (truncf .bf16 (Gen.V12 m c main_arg4) bitsLt_bf16_f32) := by
  show StableHlo.after _ (Gen.V12 m c) _ = _
  generalize Gen.V12 m c = W
  after_results
  try rfl
theorem v58_term : @Eq (FVec Ideal S128x128 .bf16) (Gen.V13 m c main_v58) (truncf .bf16 (Gen.V12 m c main_v51) bitsLt_bf16_f32) := by
  show StableHlo.after _ (Gen.V12 m c) _ = _
  generalize Gen.V12 m c = W
  after_results
  try rfl
theorem v59_term : @Eq (FVec Ideal S128x128 .bf16) (Gen.V13 m c main_v59) (truncf .bf16 (Gen.V12 m c main_v53) bitsLt_bf16_f32) := by
  show StableHlo.after _ (Gen.V12 m c) _ = _
  generalize Gen.V12 m c = W
  after_results
  try rfl
theorem v60_term : @Eq (FVec Ideal S128x16 .bf16) (Gen.V13 m c main_v60) (truncf .bf16 (Gen.V12 m c main_v55) bitsLt_bf16_f32) := by
  show StableHlo.after _ (Gen.V12 m c) _ = _
  generalize Gen.V12 m c = W
  after_results
  try rfl

theorem v62_term : @Eq (FVec Ideal S1x256 .f32) (Gen.V13 m c main_v62)
    (shapeCast S1x256 (broadcastInDim S256 ![] bcast_S_S256 (constant (F := Ideal) S_ .f32 0x00000000#32)) shapeCasts_S256_S1x256) := by
  show StableHlo.after _ (Gen.V12 m c) _ = _
  generalize Gen.V12 m c = W
  after_results
  try rfl
theorem v67_term : @Eq (FVec Ideal S1x128 .f32) (Gen.V17 m outs c main_v67)
    (shapeCast S1x128 (broadcastInDim S128 ![] bcast_S_S128 (constant (F := Ideal) S_ .f32 0x00000000#32)) shapeCasts_S128_S1x128) := by
  show StableHlo.after _ (Gen.V16 m outs c) _ = _
  generalize Gen.V16 m outs c = W
  after_results
  try rfl
theorem v72_term : @Eq (FVec Ideal S1x128 .f32) (Gen.V21 m outs c main_v72)
    (shapeCast S1x128 (broadcastInDim S128 ![] bcast_S_S128 (constant (F := Ideal) S_ .f32 0x00000000#32)) shapeCasts_S128_S1x128) := by
  show StableHlo.after _ (Gen.V20 m outs c) _ = _
  generalize Gen.V20 m outs c = W
  after_results
  try rfl
theorem v77_term : @Eq (FVec Ideal S1x128 .f32) (Gen.V25 m outs c main_v77)
    (shapeCast S1x128 (broadcastInDim S128 ![] bcast_S_S128 (constant (F := Ideal) S_ .f32 0x00000000#32)) shapeCasts_S128_S1x128) := by
  show StableHlo.after _ (Gen.V24 m outs c) _ = _
  generalize Gen.V24 m outs c = W
  after_results
  try rfl

theorem v64_term : @Eq (FVec Ideal S1x256 .f32) (Gen.V15 m outs c main_v64) (shapeCast S1x256 (Gen.V14 m outs c main_arg3) shapeCasts_S256_S1x256) := by
  show StableHlo.after _ (Gen.V14 m outs c) _ = _
  generalize Gen.V14 m outs c = W
  after_results
  try rfl
theorem v69_term : @Eq (FVec Ideal S1x128 .f32) (Gen.V19 m outs c main_v69) (shapeCast S1x128 (Gen.V18 m outs c main_arg5) shapeCasts_S128_S1x128) := by
  show StableHlo.after _ (Gen.V18 m outs c) _ = _
  generalize Gen.V18 m outs c = W
  after_results
  try rfl
theorem v74_term : @Eq (FVec Ideal S1x128 .f32) (Gen.V23 m outs c main_v74) (shapeCast S1x128 (Gen.V22 m outs c main_v52) shapeCasts_S128_S1x128) := by
  show StableHlo.after _ (Gen.V22 m outs c) _ = _
  generalize Gen.V22 m outs c = W
  after_results
  try rfl
theorem v79_term : @Eq (FVec Ideal S1x128 .f32) (Gen.V27 m outs c main_v79) (shapeCast S1x128 (Gen.V26 m outs c main_v54) shapeCasts_S128_S1x128) := by
  show StableHlo.after _ (Gen.V26 m outs c) _ = _
  generalize Gen.V26 m outs c = W
  after_results
  try rfl
theorem v81_term : @Eq (FVec Ideal S1x16 .f32) (Gen.V29 m outs c main_v81) (shapeCast S1x16 (Gen.V28 m outs c main_arg11) shapeCasts_S16_S1x16) := by
  show StableHlo.after _ (Gen.V28 m outs c) _ = _
  generalize Gen.V28 m outs c = W
  after_results
  try rfl

theorem x_pad : tab2 (Gen.V13 m c main_v50) = padRows (tab2 (m ((c : Thread nD τ).loc main_arg0))) := by
  funext r k
  rw [padRows_eq_padMat]
  show Gen.V13 m c main_v50 (ix2 r k) = _
  walk
  rw [v50_term]
  show Gen.V2 m c main_v49 (ix2 r k) = _
  rw [v49_term, c11_val]
  walk
  exact pad2_apply _ _ _ _ h_S_ (sitofp_zero_apply _) r k

theorem w1_eq : tab2 (Gen.V13 m c main_v56) = tab2 (m ((c : Thread nD τ).loc main_arg2)) := by
  funext i j
  show Gen.V13 m c main_v56 (ix2 i j) = _
  rw [v56_term]
  show Gen.V12 m c main_arg2 (ix2 i j) = _
  walk
  rfl

theorem w2_eq : tab2 (Gen.V17 m outs c main_v57) = tab2 (m ((c : Thread nD τ).loc main_arg4)) := by
  funext i j
  show Gen.V17 m outs c main_v57 (ix2 i j) = _
  walk
  rw [v57_term]
  show Gen.V12 m c main_arg4 (ix2 i j) = _
  walk
  rfl

theorem w3_pad : tab2 (Gen.V21 m outs c main_v58) = (padMat (tab2 (m ((c : Thread nD τ).loc main_arg6))) : Fin 128 → Fin 128 → EReal) := by
  funext k q
  show Gen.V21 m outs c main_v58 (ix2 k q) = _
  walk
  rw [v58_term]
  show Gen.V12 m c main_v51 (ix2 k q) = _
  walk
  rw [v51_term, c12_val]
  walk
  exact pad2_apply _ _ _ _ h_S_ (sitofp_zero_apply _) k q

theorem w4_pad : tab2 (Gen.V25 m outs c main_v59) = (padMat (tab2 (m ((c : Thread nD τ).loc main_arg8))) : Fin 128 → Fin 128 → EReal) := by
  funext k q
  show Gen.V25 m outs c main_v59 (ix2 k q) = _
  walk
  rw [v59_term]
  show Gen.V12 m c main_v53 (ix2 k q) = _
  walk
  rw [v53_term, c14_val]
  walk
  exact pad2_apply _ _ _ _ h_S_ (sitofp_zero_apply _) k q

theorem wl_pad : tab2 (Gen.V29 m outs c main_v60) = (padMat (tab2 (m ((c : Thread nD τ).loc main_arg10))) : Fin 128 → Fin 16 → EReal) := by
  funext k q
  show Gen.V29 m outs c main_v60 (ix2 k q) = _
  walk
  rw [v60_term]
  show Gen.V12 m c main_v55 (ix2 k q) = _
  rw [v55_term, c16_val]
  walk
  exact pad2_apply _ _ _ _ h_S_ (sitofp_zero_apply _) k q

theorem zb0 (k : Fin 256) : @Eq EReal (Gen.V13 m c main_v62 (ix2 0 k)) 0 := by
  rw [v62_term]
  exact Ideal.ofBits_zero_f32
theorem zb2 (k : Fin 128) : @Eq EReal (Gen.V17 m outs c main_v67 (ix2 0 k)) 0 := by
  rw [v67_term]
  exact Ideal.ofBits_zero_f32
theorem zb4 (k : Fin 128) : @Eq EReal (Gen.V21 m outs c main_v72 (ix2 0 k)) 0 := by
  rw [v72_term]
  exact Ideal.ofBits_zero_f32
theorem zb6 (k : Fin 128) : @Eq EReal (Gen.V25 m outs c main_v77 (ix2 0 k)) 0 := by
  rw [v77_term]
  exact Ideal.ofBits_zero_f32

theorem b1_eq (k : Fin 256) : @Eq EReal (Gen.V15 m outs c main_v64 (ix2 0 k)) (tab1 (m ((c : Thread nD τ).loc main_arg3)) k) := by
  rw [v64_term]
  refine (row_of_vec (n := 256) (Gen.V14 m outs c main_arg3) shapeCasts_S256_S1x256 k).trans ?_
  walk
  rfl
theorem b2_eq (k : Fin 128) : @Eq EReal (Gen.V19 m outs c main_v69 (ix2 0 k)) (tab1 (m ((c : Thread nD τ).loc main_arg5)) k) := by
  rw [v69_term]
  refine (row_of_vec (n := 128) (Gen.V18 m outs c main_arg5) shapeCasts_S128_S1x128 k).trans ?_
  walk
  rfl
theorem b3_pad (k : Fin 128) : @Eq EReal (Gen.V23 m outs c main_v74 (ix2 0 k)) ((padVec (tab1 (m ((c : Thread nD τ).loc main_arg7))) : Fin 128 → EReal) k) := by
  rw [v74_term]
  refine (row_of_vec (n := 128) (Gen.V22 m outs c main_v52) shapeCasts_S128_S1x128 k).trans ?_
  walk
  rw [v52_term, c13_val]
  walk
  exact pad1_apply _ _ _ _ h_S_ (sitofp_zero_apply _) k
theorem b4_pad (k : Fin 128) : @Eq EReal (Gen.V27 m outs c main_v79 (ix2 0 k)) ((padVec (tab1 (m ((c : Thread nD τ).loc main_arg9))) : Fin 128 → EReal) k) := by
  rw [v79_term]
  refine (row_of_vec (n := 128) (Gen.V26 m outs c main_v54) shapeCasts_S128_S1x128 k).trans ?_
  walk
  rw [v54_term, c15_val]
  walk
  exact pad1_apply _ _ _ _ h_S_ (sitofp_zero_apply _) k
theorem bl_eq (k : Fin 16) : @Eq EReal (Gen.V29 m outs c main_v81 (ix2 0 k)) (tab1 (m ((c : Thread nD τ).loc main_arg11)) k) := by
  rw [v81_term]
  refine (row_of_vec (n := 16) (Gen.V28 m outs c main_arg11) shapeCasts_S16_S1x16 k).trans ?_
  walk
  rfl

theorem adj_kept15 : Gen.V15 m outs c main_v48 = Gen.V13 m c main_v48 := by walk
theorem adj_kept19 : Gen.V19 m outs c main_v48 = Gen.V13 m c main_v48 := by walk
theorem adj_kept23 : Gen.V23 m outs c main_v48 = Gen.V13 m c main_v48 := by walk
theorem adj_kept27 : Gen.V27 m outs c main_v48 = Gen.V13 m c main_v48 := by walk

theorem out63_kept : Gen.V15 m outs c main_v63 = outs 14 main_v63 c :=
  (V15_of m outs c main_v63 (by decide)).trans (Function.update_self _ _ _)
theorem out65_kept : Gen.V17 m outs c main_v65 = outs 16 main_v65 c :=
  (V17_of m outs c main_v65 (by decide)).trans (Function.update_self _ _ _)
theorem out68_kept : Gen.V19 m outs c main_v68 = outs 18 main_v68 c :=
  (V19_of m outs c main_v68 (by decide)).trans (Function.update_self _ _ _)
theorem out70_kept : Gen.V21 m outs c main_v70 = outs 20 main_v70 c :=
  (V21_of m outs c main_v70 (by decide)).trans (Function.update_self _ _ _)
theorem out73_kept : Gen.V23 m outs c main_v73 = outs 22 main_v73 c :=
  (V23_of m outs c main_v73 (by decide)).trans (Function.update_self _ _ _)
theorem out75_kept : Gen.V25 m outs c main_v75 = outs 24 main_v75 c :=
  (V25_of m outs c main_v75 (by decide)).trans (Function.update_self _ _ _)
theorem out78_kept : Gen.V27 m outs c main_v78 = outs 26 main_v78 c :=
  (V27_of m outs c main_v78 (by decide)).trans (Function.update_self _ _ _)
theorem out80_kept : Gen.V29 m outs c main_v80 = outs 28 main_v80 c :=
  (V29_of m outs c main_v80 (by decide)).trans (Function.update_self _ _ _)
theorem out82_kept : Gen.V30 m outs c main_v82 = outs 30 main_v82 c :=
  Function.update_self _ _ _

def sliceK (z : FVec Ideal S10240x16 .f32) : FVec Ideal S10000x16 .f32 :=
  extractStridedSlice S10000x16 ![0, 0] z slices_S10240x16_S10000x16_0_0

def rowMaxK (z : FVec Ideal S10000x16 .f32) : FVec Ideal S10000 .f32 :=
  maximumf (broadcastInDim S10000 ![] bcast_S_S10000 (constant (F := Ideal) S_ .f32 0xFF800000#32)) (Host.reduce FloatOps.maximumf z (constant (F := Ideal) S_ .f32 0xFF800000#32) reducesTo_S10000x16_S10000_d1 h_S_)

def shiftedExpK (z : FVec Ideal S10000x16 .f32) : FVec Ideal S10000x16 .f32 :=
  Host.exp (subf z (broadcastInDim S10000x16 ![0, 1] bcast_S10000x1_S10000x16_0_1 (broadcastInDim S10000x1 ![0] bcast_S10000_S10000x1_0 (rowMaxK z))))

def smK (z : FVec Ideal S10000x16 .f32) : FVec Ideal S10000x16 .f32 :=
  Host.divf (shiftedExpK z) (broadcastInDim S10000x16 ![0, 1] bcast_S10000x1_S10000x16_0_1 (broadcastInDim S10000x1 ![0] bcast_S10000_S10000x1_0 (Host.reduceAdd (shiftedExpK z) (constant (F := Ideal) S_ .f32 0x00000000#32) reducesTo_S10000x16_S10000_d1 h_S_)))

theorem tail_eq : @Eq (FVec Ideal S10000x16 .f32) (Gen.V31 m outs c main_v94) (smK (sliceK (Gen.V30 m outs c main_v82))) := by
  show StableHlo.after _ (Gen.V30 m outs c) _ = _
  generalize Gen.V30 m outs c = W
  after_results
  try rfl

theorem sliceK_apply (z : FVec Ideal S10240x16 .f32) (d : Fin 10000) (j : Fin 16) :
    sliceK z (ix2 d j) = z (ix2 ⟨d.val, by have := d.isLt; omega⟩ j) := by
  unfold sliceK
  refine extractStridedSlice_apply _ z _ (ix2 d j) _ fun a => ?_
  match a with
  | ⟨0, _⟩ => show d.val = 0 + d.val; omega
  | ⟨1, _⟩ => show j.val = 0 + j.val; omega

end Cert.KernelIdeal.HostVal

end
-- ==== Proof.LibIndexedRows.lean ====
import Idealize.ShloMosaic.Lib.ValueIdx
import Idealize.ShloMosaic.PureOps.Contract

noncomputable section

open scoped BigOperators

namespace Idealize.ShloMosaic.IndexedRows

open Idealize.ShloMosaic Idealize.ShloMosaic.ValueIdx

theorem getElem_of_eq_singleton {α : Type} {l : List α} {x : α} (hl : l = [x]) (i : Nat) (h : i < l.length) : l[i] = x := by
  subst hl
  have hi : i = 0 := by simpa using h
  subst hi; rfl

theorem kept_zero (f : Fin 2 → Nat) : Shape.kept ⟨2, f⟩ [0] = [1] := by
  show (List.finRange 2).filter (· ∉ ([0] : List (Fin 2))) = [1]
  decide

theorem kept_one (f : Fin 2 → Nat) : Shape.kept ⟨2, f⟩ [1] = [0] := by
  show (List.finRange 2).filter (· ∉ ([1] : List (Fin 2))) = [0]
  decide

theorem val_at_zero {n0 n1 : Nat} (j : (⟨2, ![n0, n1]⟩ : Shape).Idx) (X : Fin 2) (hX : X = 0) : (j X).val = (j 0).val := by
  subst hX; rfl

theorem val_at_one {n0 n1 : Nat} (j : (⟨2, ![n0, n1]⟩ : Shape).Idx) (X : Fin 2) (hX : X = 1) : (j X).val = (j 1).val := by
  subst hX; rfl

theorem resultIdx?_eq_some_iff {s si u : Shape} (d : ScatterDims s si u) {w : Nat} (j : u.Idx) (idx : IVec si w) (i : s.Idx) :
    d.resultIdx? j idx = some i ↔ ∀ a, d.start j idx a + (d.window j a : ℤ) = ((i a).val : ℤ) := by
  unfold ScatterDims.resultIdx?
  split
  · rename_i h
    rw [Option.some.injEq]
    constructor
    · intro hf a
      have h1 := congrArg Fin.val (congrFun hf a)
      have h2 := (h a).1
      simp only at h1
      omega
    · intro hf
      funext a
      apply Fin.ext
      have h1 := hf a
      have h2 := (h a).1
      show (d.start j idx a + (d.window j a : ℤ)).toNat = (i a).val
      omega
  · rename_i h
    constructor
    · intro hf; exact absurd hf (by simp)
    · intro hf
      exfalso; apply h; intro a
      have h1 := hf a
      have h2 := (i a).isLt
      omega

section ScatterRows
variable {N D E w : Nat} (d : ScatterDims ⟨2, ![N, D]⟩ ⟨2, ![E, 1]⟩ ⟨2, ![E, D]⟩)

theorem siIdx_rows (huw : d.updateWindowDims = [1]) (hivd : d.indexVectorDim = 1)
    (j : (⟨2, ![E, D]⟩ : Shape).Idx) (c : Fin d.scatterDimsToOperandDims.length) (hc : c.val = 0) :
    d.siIdx j c = ix2 (j 0) 0 := by
  funext b
  match b with
  | ⟨0, _⟩ =>
    unfold ScatterDims.siIdx
    rw [dif_neg (by rw [hivd]; simp)]
    unfold ScatterDims.siCoord
    apply Fin.ext
    simp only [Fin.val_cast]
    have hus : d.uScatter = [0] := by
      show Shape.kept _ d.updateWindowDims = [0]
      rw [huw]; exact kept_one _
    exact val_at_zero j _ (getElem_of_eq_singleton hus _ _)
  | ⟨1, _⟩ =>
    unfold ScatterDims.siIdx
    rw [dif_pos (by rw [hivd])]
    apply Fin.ext
    exact hc

theorem start_row (huw : d.updateWindowDims = [1]) (hsd : d.scatterDimsToOperandDims = [0]) (hivd : d.indexVectorDim = 1)
    (j : (⟨2, ![E, D]⟩ : Shape).Idx) (idx : IVec ⟨2, ![E, 1]⟩ w) :
    d.start j idx 0 = (idx (ix2 (j 0) 0)).toInt := by
  have hm : (0 : Fin 2) ∈ d.scatterDimsToOperandDims := by rw [hsd]; exact List.mem_singleton.mpr rfl
  unfold ScatterDims.start
  rw [dif_pos hm, siIdx_rows d huw hivd j _ (by
    show List.idxOf (0 : Fin 2) d.scatterDimsToOperandDims = 0
    rw [hsd]; simp)]
  rfl

theorem start_col (hsd : d.scatterDimsToOperandDims = [0]) (j : (⟨2, ![E, D]⟩ : Shape).Idx) (idx : IVec ⟨2, ![E, 1]⟩ w) :
    d.start j idx 1 = 0 := by
  have hm : (1 : Fin 2) ∉ d.scatterDimsToOperandDims := by
    rw [hsd]; show (1 : Fin 2) ∉ ([0] : List (Fin 2)); decide
  unfold ScatterDims.start
  rw [dif_neg hm]

theorem window_row (hiw : d.insertedWindowDims = [0]) (j : (⟨2, ![E, D]⟩ : Shape).Idx) : d.window j 0 = 0 := by
  have hm : (0 : Fin 2) ∉ d.sKept := by
    show (0 : Fin 2) ∉ Shape.kept _ d.insertedWindowDims
    rw [hiw, kept_zero]; show (0 : Fin 2) ∉ ([1] : List (Fin 2)); decide
  unfold ScatterDims.window
  rw [dif_neg hm]

theorem window_col (huw : d.updateWindowDims = [1]) (hiw : d.insertedWindowDims = [0]) (j : (⟨2, ![E, D]⟩ : Shape).Idx) :
    d.window j 1 = (j 1).val := by
  have hm : (1 : Fin 2) ∈ d.sKept := by
    show (1 : Fin 2) ∈ Shape.kept _ d.insertedWindowDims
    rw [hiw, kept_zero]; exact List.mem_singleton.mpr rfl
  unfold ScatterDims.window
  rw [dif_pos hm]
  exact val_at_one j _ (getElem_of_eq_singleton huw _ _)

theorem resultIdx?_rows (huw : d.updateWindowDims = [1]) (hiw : d.insertedWindowDims = [0])
    (hsd : d.scatterDimsToOperandDims = [0]) (hivd : d.indexVectorDim = 1) (idx : IVec ⟨2, ![E, 1]⟩ w)
    (e : Fin E) (k' : Fin D) (n : Fin N) (k : Fin D) :
    d.resultIdx? (ix2 e k') idx = some (ix2 n k) ↔ (idx (ix2 e 0)).toInt = (n.val : ℤ) ∧ k' = k := by
  rw [resultIdx?_eq_some_iff, Fin.forall_fin_two, start_row d huw hsd hivd, start_col d hsd, window_row d hiw,
    window_col d huw hiw]
  show (idx (ix2 e 0)).toInt + ((0 : ℕ) : ℤ) = (n.val : ℤ) ∧ (0 : ℤ) + ((k'.val : ℕ) : ℤ) = (k.val : ℤ) ↔ _
  rw [Fin.ext_iff]
  omega

theorem scatterAdd_rows (huw : d.updateWindowDims = [1]) (hiw : d.insertedWindowDims = [0])
    (hsd : d.scatterDimsToOperandDims = [0]) (hivd : d.indexVectorDim = 1)
    (x : (⟨2, ![N, D]⟩ : Shape).Idx → EReal) (idx : IVec ⟨2, ![E, 1]⟩ w) (upd : (⟨2, ![E, D]⟩ : Shape).Idx → EReal)
    (n : Fin N) (k : Fin D) :
    Ideal.hostScatterAdd d x idx upd (ix2 n k)
      = x (ix2 n k) + ∑ e ∈ Finset.univ.filter (fun e : Fin E => (idx (ix2 e 0)).toInt = (n.val : ℤ)), upd (ix2 e k) := by
  unfold Ideal.hostScatterAdd
  congr 1
  have hP : ∀ j : (⟨2, ![E, D]⟩ : Shape).Idx,
      d.resultIdx? j idx = some (ix2 n k) ↔ (idx (ix2 (j 0) 0)).toInt = (n.val : ℤ) ∧ j 1 = k := fun j => by
    conv_lhs => rw [eq_ix2 j]
    exact resultIdx?_rows d huw hiw hsd hivd idx (j 0) (j 1) n k
  refine Finset.sum_bij' (fun j _ => j 0) (fun e _ => ix2 e k) ?_ ?_ ?_ ?_ ?_
  · intro j hj
    exact Finset.mem_filter.2 ⟨Finset.mem_univ _, ((hP j).1 (Finset.mem_filter.1 hj).2).1⟩
  · intro e he
    exact Finset.mem_filter.2 ⟨Finset.mem_univ _, (hP _).2 ⟨(Finset.mem_filter.1 he).2, rfl⟩⟩
  · intro j hj
    have hk := ((hP j).1 (Finset.mem_filter.1 hj).2).2
    rw [← hk]; exact (eq_ix2 j).symm
  · intro e _; rfl
  · intro j hj
    have hk := ((hP j).1 (Finset.mem_filter.1 hj).2).2
    rw [← hk]; exact congrArg upd (eq_ix2 j)

theorem host_scatterAdd_rows {φ : FTy} (huw : d.updateWindowDims = [1]) (hiw : d.insertedWindowDims = [0])
    (hsd : d.scatterDimsToOperandDims = [0]) (hivd : d.indexVectorDim = 1)
    (x : FVec Ideal ⟨2, ![N, D]⟩ φ) (idx : IVec ⟨2, ![E, 1]⟩ w) (upd : FVec Ideal ⟨2, ![E, D]⟩ φ) (n : Fin N) (k : Fin D) :
    Host.scatterAdd (F := Ideal) d x idx upd (ix2 n k)
      = x (ix2 n k) + ∑ e ∈ Finset.univ.filter (fun e : Fin E => (idx (ix2 e 0)).toInt = (n.val : ℤ)), upd (ix2 e k) :=
  scatterAdd_rows d huw hiw hsd hivd x idx upd n k

end ScatterRows

section ScatterVec
variable {N E w : Nat} (d : ScatterDims ⟨1, ![N]⟩ ⟨2, ![E, 1]⟩ ⟨1, ![E]⟩)

theorem kept_only (f : Fin 1 → Nat) : Shape.kept ⟨1, f⟩ [0] = [] := by
  show (List.finRange 1).filter (· ∉ ([0] : List (Fin 1))) = []
  decide

theorem val_at_only {n0 : Nat} (j : (⟨1, ![n0]⟩ : Shape).Idx) (X : Fin 1) : (j X).val = (j 0).val := by
  obtain rfl : X = 0 := Subsingleton.elim _ _
  rfl

theorem siIdx_vec (hivd : d.indexVectorDim = 1) (j : (⟨1, ![E]⟩ : Shape).Idx)
    (c : Fin d.scatterDimsToOperandDims.length) (hc : c.val = 0) : d.siIdx j c = ix2 (j 0) 0 := by
  funext b
  match b with
  | ⟨0, _⟩ =>
    unfold ScatterDims.siIdx
    rw [dif_neg (by rw [hivd]; simp)]
    unfold ScatterDims.siCoord
    apply Fin.ext
    simp only [Fin.val_cast]
    exact val_at_only j _
  | ⟨1, _⟩ =>
    unfold ScatterDims.siIdx
    rw [dif_pos (by rw [hivd])]
    apply Fin.ext
    exact hc

theorem start_vec (hsd : d.scatterDimsToOperandDims = [0]) (hivd : d.indexVectorDim = 1)
    (j : (⟨1, ![E]⟩ : Shape).Idx) (idx : IVec ⟨2, ![E, 1]⟩ w) :
    d.start j idx 0 = (idx (ix2 (j 0) 0)).toInt := by
  have hm : (0 : Fin 1) ∈ d.scatterDimsToOperandDims := by rw [hsd]; exact List.mem_singleton.mpr rfl
  unfold ScatterDims.start
  rw [dif_pos hm, siIdx_vec d hivd j _ (by
    show List.idxOf (0 : Fin 1) d.scatterDimsToOperandDims = 0
    rw [hsd]; simp)]
  rfl

theorem window_vec (hiw : d.insertedWindowDims = [0]) (j : (⟨1, ![E]⟩ : Shape).Idx) : d.window j 0 = 0 := by
  have hm : (0 : Fin 1) ∉ d.sKept := by
    show (0 : Fin 1) ∉ Shape.kept _ d.insertedWindowDims
    rw [hiw, kept_only]; exact List.not_mem_nil
  unfold ScatterDims.window
  rw [dif_neg hm]

theorem resultIdx?_vec (hiw : d.insertedWindowDims = [0]) (hsd : d.scatterDimsToOperandDims = [0])
    (hivd : d.indexVectorDim = 1) (idx : IVec ⟨2, ![E, 1]⟩ w) (e : Fin E) (n : Fin N) :
    d.resultIdx? (ix1 e) idx = some (ix1 n) ↔ (idx (ix2 e 0)).toInt = (n.val : ℤ) := by
  rw [resultIdx?_eq_some_iff, Fin.forall_fin_one, start_vec d hsd hivd, window_vec d hiw]
  show (idx (ix2 e 0)).toInt + ((0 : ℕ) : ℤ) = (n.val : ℤ) ↔ _
  omega

theorem scatterAdd_vec (hiw : d.insertedWindowDims = [0]) (hsd : d.scatterDimsToOperandDims = [0])
    (hivd : d.indexVectorDim = 1)
    (x : (⟨1, ![N]⟩ : Shape).Idx → EReal) (idx : IVec ⟨2, ![E, 1]⟩ w) (upd : (⟨1, ![E]⟩ : Shape).Idx → EReal) (n : Fin N) :
    Ideal.hostScatterAdd d x idx upd (ix1 n)
      = x (ix1 n) + ∑ e ∈ Finset.univ.filter (fun e : Fin E => (idx (ix2 e 0)).toInt = (n.val : ℤ)), upd (ix1 e) := by
  unfold Ideal.hostScatterAdd
  congr 1
  have hP : ∀ j : (⟨1, ![E]⟩ : Shape).Idx,
      d.resultIdx? j idx = some (ix1 n) ↔ (idx (ix2 (j 0) 0)).toInt = (n.val : ℤ) := fun j => by
    conv_lhs => rw [eq_ix1 j]
    exact resultIdx?_vec d hiw hsd hivd idx (j 0) n
  refine Finset.sum_bij' (fun j _ => j 0) (fun e _ => ix1 e) ?_ ?_ ?_ ?_ ?_
  · intro j hj
    exact Finset.mem_filter.2 ⟨Finset.mem_univ _, (hP j).1 (Finset.mem_filter.1 hj).2⟩
  · intro e he
    exact Finset.mem_filter.2 ⟨Finset.mem_univ _, (hP _).2 (Finset.mem_filter.1 he).2⟩
  · intro j _; exact (eq_ix1 j).symm
  · intro e _; rfl
  · intro j _; exact congrArg upd (eq_ix1 j)

theorem host_scatterAdd_vec {φ : FTy} (hiw : d.insertedWindowDims = [0]) (hsd : d.scatterDimsToOperandDims = [0])
    (hivd : d.indexVectorDim = 1)
    (x : FVec Ideal ⟨1, ![N]⟩ φ) (idx : IVec ⟨2, ![E, 1]⟩ w) (upd : FVec Ideal ⟨1, ![E]⟩ φ) (n : Fin N) :
    Host.scatterAdd (F := Ideal) d x idx upd (ix1 n)
      = x (ix1 n) + ∑ e ∈ Finset.univ.filter (fun e : Fin E => (idx (ix2 e 0)).toInt = (n.val : ℤ)), upd (ix1 e) :=
  scatterAdd_vec d hiw hsd hivd x idx upd n

end ScatterVec

section GatherRows
variable {α : Type} {N D E w : Nat} (d : GatherDims ⟨2, ![N, D]⟩ ⟨2, ![E, 1]⟩ ⟨2, ![E, D]⟩)

theorem gather_siIdx_rows (hoff : d.offsetDims = [1]) (hivd : d.indexVectorDim = 1)
    (j : (⟨2, ![E, D]⟩ : Shape).Idx) (c : Fin d.startIndexMap.length) (hc : c.val = 0) :
    d.siIdx j c = ix2 (j 0) 0 := by
  funext b
  match b with
  | ⟨0, _⟩ =>
    unfold GatherDims.siIdx
    rw [dif_neg (by rw [hivd]; simp)]
    unfold GatherDims.siCoord
    apply Fin.ext
    simp only [Fin.val_cast]
    have hbd : d.batchDims = [0] := by
      show Shape.kept _ d.offsetDims = [0]
      rw [hoff]; exact kept_one _
    exact val_at_zero j _ (getElem_of_eq_singleton hbd _ _)
  | ⟨1, _⟩ =>
    unfold GatherDims.siIdx
    rw [dif_pos (by rw [hivd])]
    apply Fin.ext
    exact hc

theorem gather_rows (hoff : d.offsetDims = [1]) (hcoll : d.collapsedSliceDims = [0]) (hob : d.operandBatchingDims = [])
    (hsim : d.startIndexMap = [0]) (hivd : d.indexVectorDim = 1)
    (x : (⟨2, ![N, D]⟩ : Shape).Idx → α) (idx : IVec ⟨2, ![E, 1]⟩ w) (e : Fin E) (k : Fin D) (hN : 0 < N) :
    Host.gather d x idx (ix2 e k) = x (ix2 ⟨min (idx (ix2 e 0)).toInt.toNat (N - 1), by omega⟩ k) := by
  unfold Host.gather
  congr 1
  funext a
  have hb : ∀ a : Fin 2, a ∉ d.operandBatchingDims := fun a => by rw [hob]; exact List.not_mem_nil
  match a with
  | ⟨0, _⟩ =>
    apply Fin.ext
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 e k) idx 0 + d.batchCoord (ix2 e k) 0 + d.offCoord (ix2 e k) 0 = min (idx (ix2 e 0)).toInt.toNat (N - 1)
    rw [GatherDims.batchCoord_eq_zero _ _ _ (hb 0), GatherDims.offCoord_eq_zero _ _ _ hk]
    simp only [Nat.add_zero]
    unfold GatherDims.start
    rw [dif_pos hm, gather_siIdx_rows d hoff hivd _ _ (by
      show List.idxOf (0 : Fin 2) d.startIndexMap = 0
      rw [hsim]; simp)]
    show min (idx (ix2 e 0)).toInt.toNat (N - d.sliceSizes 0) = min (idx (ix2 e 0)).toInt.toNat (N - 1)
    rw [hsl]
  | ⟨1, _⟩ =>
    apply Fin.ext
    have hk : (1 : Fin 2) ∈ d.sKept := by
      rw [GatherDims.mem_sKept, hcoll, hob]
      exact ⟨by show (1 : Fin 2) ∉ ([0] : List (Fin 2)); decide, List.not_mem_nil⟩
    have hm : (1 : Fin 2) ∉ d.startIndexMap := by
      rw [hsim]; show (1 : Fin 2) ∉ ([0] : List (Fin 2)); decide
    show d.start (ix2 e k) idx 1 + d.batchCoord (ix2 e k) 1 + d.offCoord (ix2 e k) 1 = k.val
    rw [GatherDims.batchCoord_eq_zero _ _ _ (hb 1)]
    unfold GatherDims.start GatherDims.offCoord
    rw [dif_neg hm, dif_pos hk]
    simp only [Nat.zero_add]
    exact val_at_one (ix2 e k) _ (getElem_of_eq_singleton hoff _ _)

end GatherRows

end Idealize.ShloMosaic.IndexedRows

end
-- ==== Proof.KI.Adj.lean ====
import proofs.«419824_j13683765805591_3_alg».proof.Proof.Gen.KernelIdeal.Regions
import proofs.«419824_j13683765805591_3_alg».proof.Proof.AlgDefs
import proofs.«419824_j13683765805591_3_alg».proof.Proof.Decode
import proofs.«419824_j13683765805591_3_alg».proof.Proof.LibIndexedRows
import Idealize.ShloMosaic.Lib.StableHlo.Run
import Idealize.ShloMosaic.Lib.StableHlo.Predicate
import Idealize.ShloMosaic.Lib.Pipeline.Value
import Idealize.ShloMosaic.Lib.IdealHost
import Idealize.ShloMosaic.Lib.ValueIdx

noncomputable section

open scoped BigOperators

namespace Cert.KernelIdeal.HostVal

open Idealize.ShloMosaic Idealize.ShloMosaic.TcCoe Idealize.ShloMosaic.ValueIdx
open Idealize.SL.Sem
open Cert.KernelIdeal Cert.KernelIdeal.Gen

theorem slt_zero_of_nonneg (w : BitVec 32) (h : 0 ≤ w.toInt) : IntOp.cmpi .slt w 0#32 = 0#1 := by
  have hz : w.slt 0#32 = false := by
    show decide (w.toInt < (0#32 : BitVec 32).toInt) = false
    have z : (0#32 : BitVec 32).toInt = 0 := by decide
    rw [z, decide_eq_false_iff_not]; omega
  show BitVec.ofBool (w.slt 0#32) = 0#1
  rw [hz]; rfl

theorem toNat_of_toInt (w : BitVec 32) (n : ℕ) (h : w.toInt = (n : ℤ)) : w.toNat = n := by
  rw [BitVec.toInt_eq_toNat_cond] at h
  have := w.isLt
  split at h <;> omega

theorem flat_word (r c : BitVec 32) (a b : ℕ) (hr : r.toInt = (a : ℤ)) (hc : c.toInt = (b : ℤ)) (ha : a < 10240) (hb : b < 10240) :
    (IntOp.addi (IntOp.muli r 10240#32) c).toInt = ((a * 10240 + b : ℕ) : ℤ) := by
  have hr' := toNat_of_toInt r a hr
  have hc' := toNat_of_toInt c b hc
  show (r * 10240#32 + c).toInt = _
  have hn : (r * 10240#32 + c).toNat = a * 10240 + b := by
    rw [BitVec.toNat_add, BitVec.toNat_mul, hr', hc']
    show (a * 10240 % 2 ^ 32 + b) % 2 ^ 32 = _
    omega
  rw [BitVec.toInt_eq_toNat_cond, hn]
  split <;> omega

theorem toInt_ofNat_node (k : ℕ) (hk : k < 10240) : (BitVec.ofNat 32 k).toInt = (k : ℤ) :=
  StableHlo.Predicate.toInt_ofNat_small k (by omega)

def wrapW {S : Shape} (hb : (⟨0, ![]⟩ : Shape).BroadcastsInDim S (![] : Fin 0 → Fin S.rank)) (n : BitVec 32) (x : IVec S 32) : IVec S 32 :=
  select (cmpi .slt x (broadcastInDim S ![] hb (constantI ⟨0, ![]⟩ 32 0#32)))
    (addi x (broadcastInDim S ![] hb (constantI ⟨0, ![]⟩ 32 n))) x

theorem wrapW_apply {S : Shape} (hb : (⟨0, ![]⟩ : Shape).BroadcastsInDim S (![] : Fin 0 → Fin S.rank)) (n : BitVec 32)
    (x : IVec S 32) (i : S.Idx) (h : 0 ≤ (x i).toInt) : wrapW hb n x i = x i := by
  unfold wrapW
  rw [select_apply]
  have hc : cmpi .slt x (broadcastInDim S ![] hb (constantI ⟨0, ![]⟩ 32 0#32)) i = 0#1 := by
    show IntOp.cmpi .slt (x i) (broadcastInDim S ![] hb (constantI ⟨0, ![]⟩ 32 0#32) i) = 0#1
    rw [broadcastInDim_scalar_apply]
    exact slt_zero_of_nonneg (x i) h
  rw [hc, select_zero]

theorem bcast_col_apply {α : Type} {n : ℕ} (h : (⟨1, ![n]⟩ : Shape).BroadcastsInDim ⟨2, ![n, 1]⟩ ![0])
    (v : (⟨1, ![n]⟩ : Shape).Idx → α) (e : Fin n) :
    broadcastInDim ⟨2, ![n, 1]⟩ ![0] h v (ix2 e 0) = v (ix1 e) := by
  refine broadcastInDim_apply _ h v _ (ix1 e) ?_
  intro a
  obtain rfl : a = 0 := Subsingleton.elim _ _
  show e.val = if n = 1 then 0 else e.val
  have := e.isLt
  split <;> omega

theorem bcast_constI_apply {T : Shape} (h : (⟨0, ![]⟩ : Shape).BroadcastsInDim T ![]) (w : ℕ) (b : BitVec w) (j : T.Idx) :
    broadcastInDim T ![] h (constantI ⟨0, ![]⟩ w b) j = b := by
  rw [broadcastInDim_scalar_apply]; rfl

theorem bcast_const_apply {T : Shape} (h : (⟨0, ![]⟩ : Shape).BroadcastsInDim T ![]) (φ : FTy) (b : BitVec φ.bits) (j : T.Idx) :
    broadcastInDim T ![] h (constant (F := Ideal) ⟨0, ![]⟩ φ b) j = Ideal.ofBits φ b := by
  rw [broadcastInDim_scalar_apply]; rfl

theorem gather_vec {α : Type} {N n w : ℕ} (d : GatherDims ⟨1, ![N]⟩ ⟨2, ![n, 1]⟩ ⟨1, ![n]⟩)
    (hcoll : d.collapsedSliceDims = [0]) (hob : d.operandBatchingDims = [])
    (hsim : d.startIndexMap = [0]) (hivd : d.indexVectorDim = 1)
    (x : (⟨1, ![N]⟩ : Shape).Idx → α) (idx : IVec ⟨2, ![n, 1]⟩ w) (p : Fin n) (q : Fin N)
    (hq : (idx (ix2 p 0)).toInt = (q.val : ℤ)) :
    Host.gather d x idx (ix1 p) = x (ix1 q) := by
  have hN : 0 < N := by have := q.isLt; omega
  have e1 : (ix1 p : (⟨1, ![n]⟩ : Shape).Idx) = Shape.Idx.ofFin p := by
    funext a; obtain rfl : a = 0 := Subsingleton.elim _ _; exact Fin.ext rfl
  have e2 : (StableHlo.Predicate.ixP p : (⟨2, ![n, 1]⟩ : Shape).Idx) = ix2 p 0 := by
    funext a; match a with | ⟨0, _⟩ => rfl | ⟨1, _⟩ => rfl
  rw [e1, StableHlo.Predicate.gather_take d hcoll hob hsim hivd x idx p hN]
  refine congrArg x ?_
  funext a; obtain rfl : a = 0 := Subsingleton.elim _ _
  refine Fin.ext ?_
  show min (idx (StableHlo.Predicate.ixP p)).toInt.toNat (N - 1) = q.val
  have := q.isLt
  rw [e2, hq]; omega

theorem concat_vec_left {α : Type} {n₁ n₂ n : ℕ} (x₁ : (⟨1, ![n₁]⟩ : Shape).Idx → α) (x₂ : (⟨1, ![n₂]⟩ : Shape).Idx → α)
    (h : Shape.Concatenates [⟨1, ![n₁]⟩, ⟨1, ![n₂]⟩] ⟨1, ![n]⟩ 0) (u : Fin n) (hu : u.val < n₁) :
    concatenate ⟨1, ![n]⟩ 0 [⟨⟨1, ![n₁]⟩, x₁⟩, ⟨⟨1, ![n₂]⟩, x₂⟩] h (ix1 u) = x₁ (ix1 ⟨u.val, hu⟩) := by
  refine concatenate_pair_apply_left 0 x₁ x₂ h (ix1 u) rfl (ix1 ⟨u.val, hu⟩) ?_
  intro b; obtain rfl : b = 0 := Subsingleton.elim _ _; rfl

theorem concat_vec_right {α : Type} {n₁ n₂ n : ℕ} (x₁ : (⟨1, ![n₁]⟩ : Shape).Idx → α) (x₂ : (⟨1, ![n₂]⟩ : Shape).Idx → α)
    (h : Shape.Concatenates [⟨1, ![n₁]⟩, ⟨1, ![n₂]⟩] ⟨1, ![n]⟩ 0) (u : Fin n) (hu : n₁ ≤ u.val) (hu' : u.val - n₁ < n₂) :
    concatenate ⟨1, ![n]⟩ 0 [⟨⟨1, ![n₁]⟩, x₁⟩, ⟨⟨1, ![n₂]⟩, x₂⟩] h (ix1 u) = x₂ (ix1 ⟨u.val - n₁, hu'⟩) := by
  refine concatenate_pair_apply_right 0 x₁ x₂ h (ix1 u) rfl rfl (ix1 ⟨u.val - n₁, hu'⟩) ?_ ?_
  · intro b hb; obtain rfl : b = 0 := Subsingleton.elim _ _; exact absurd rfl hb
  · show (u.val - n₁) + n₁ = u.val
    omega

theorem row_apply {α : Type} {n : ℕ} (r : Fin 2) (ei : (⟨2, ![2, n]⟩ : Shape).Idx → α)
    (hs : (⟨2, ![2, n]⟩ : Shape).Slices ![r.val, 0] ⟨2, ![1, n]⟩) (hc : (⟨2, ![1, n]⟩ : Shape).ShapeCasts ⟨1, ![n]⟩) (e : Fin n) :
    shapeCast ⟨1, ![n]⟩ (extractStridedSlice ⟨2, ![1, n]⟩ ![r.val, 0] ei hs) hc (ix1 e) = ei (ix2 r e) := by
  refine (shapeCast_apply _ hc (ix1 e) (ix2 (0 : Fin 1) e) ?_).trans ?_
  · rw [Shape.rowMajor_val_two, Shape.rowMajor_val_one]
    show (0 : ℕ) * n + e.val = e.val
    omega
  · refine extractStridedSlice_apply _ ei hs _ (ix2 r e) ?_
    intro a
    match a with
    | ⟨0, _⟩ => show r.val = r.val + 0; omega
    | ⟨1, _⟩ => show e.val = 0 + e.val; omega

theorem host_rsqrt_apply {s : Shape} {φ : FTy} (x : FVec Ideal s φ) (i : s.Idx) : Host.rsqrt x i = Ideal.rsqrt (x i) := rfl

theorem iota_vec_toInt {n : ℕ} (k : Fin n) (hn : n ≤ 10240) :
    (iotaInDim (⟨1, ![n]⟩ : Shape) 32 0 (ix1 k)).toInt = (k.val : ℤ) := by
  show (BitVec.ofNat 32 k.val).toInt = _
  exact toInt_ofNat_node _ (by have := k.isLt; omega)

theorem reshape2_apply {α : Type} {a b N : ℕ} (x : (⟨1, ![N]⟩ : Shape).Idx → α)
    (hc : (⟨1, ![N]⟩ : Shape).ShapeCasts ⟨2, ![a, b]⟩) (d : Fin a) (s : Fin b) (hN : d.val * b + s.val < N) :
    shapeCast ⟨2, ![a, b]⟩ x hc (ix2 d s) = x (ix1 ⟨d.val * b + s.val, hN⟩) := by
  refine shapeCast_apply x hc (ix2 d s) (ix1 ⟨d.val * b + s.val, hN⟩) ?_
  rw [Shape.rowMajor_val_two, Shape.rowMajor_val_one]
  rfl

section Terms
variable {F : FTy → Type} [FloatOps F]

def srcW (ei : IVec S2x320000 32) : IVec S320000 32 :=
  shapeCast S320000 (extractStridedSlice S1x320000 ![0, 0] ei slices_S2x320000_S1x320000_0_0) shapeCasts_S1x320000_S320000

def dstW (ei : IVec S2x320000 32) : IVec S320000 32 :=
  shapeCast S320000 (extractStridedSlice S1x320000 ![1, 0] ei slices_S2x320000_S1x320000_1_0) shapeCasts_S1x320000_S320000

def srcCol (ei : IVec S2x320000 32) : IVec S320000x1 32 :=
  broadcastInDim S320000x1 ![0] bcast_S320000_S320000x1_0 (wrapW bcast_S_S320000 10000#32 (srcW ei))

def dstCol (ei : IVec S2x320000 32) : IVec S320000x1 32 :=
  broadcastInDim S320000x1 ![0] bcast_S320000_S320000x1_0 (wrapW bcast_S_S320000 10000#32 (dstW ei))

def degV (ei : IVec S2x320000 32) : FVec F S10000 .f32 :=
  addf (Host.scatterAdd scatter_S10000_S320000x1_S320000_n_0_0_1
          (broadcastInDim S10000 ![] bcast_S_S10000 (constant S_ .f32 0x00000000#32))
          (dstCol ei)
          (broadcastInDim S320000 ![] bcast_S_S320000 (constant S_ .f32 0x3F800000#32)))
       (broadcastInDim S10000 ![] bcast_S_S10000 (constant S_ .f32 0x3F800000#32))

def dinvV (ei : IVec S2x320000 32) : FVec F S10000 .f32 := Host.rsqrt (degV ei)

def coefV (ei : IVec S2x320000 32) : FVec F S320000 .f32 :=
  mulf (Host.gather gather_S10000_S320000x1_S320000_n_0_n_n_0_1_1 (dinvV (F := F) ei) (srcCol ei))
       (Host.gather gather_S10000_S320000x1_S320000_n_0_n_n_0_1_1 (dinvV (F := F) ei) (dstCol ei))

def rowsW (ei : IVec S2x320000 32) : IVec S330000 32 :=
  concatenate S330000 0 [⟨S320000, dstW ei⟩, ⟨S10000, iotaInDim S10000 32 0⟩] concatenates_S320000_S10000_S330000_d0

def colsW (ei : IVec S2x320000 32) : IVec S330000 32 :=
  concatenate S330000 0 [⟨S320000, srcW ei⟩, ⟨S10000, iotaInDim S10000 32 0⟩] concatenates_S320000_S10000_S330000_d0

def valsV (ei : IVec S2x320000 32) : FVec F S330000 .f32 :=
  concatenate S330000 0 [⟨S320000, coefV (F := F) ei⟩, ⟨S10000, mulf (dinvV (F := F) ei) (dinvV (F := F) ei)⟩]
    concatenates_S320000_S10000_S330000_d0

def flatW (ei : IVec S2x320000 32) : IVec S330000 32 :=
  addi (muli (rowsW ei) (broadcastInDim S330000 ![] bcast_S_S330000 (constantI S_ 32 10240#32))) (colsW ei)

def flatCol (ei : IVec S2x320000 32) : IVec S330000x1 32 :=
  broadcastInDim S330000x1 ![0] bcast_S330000_S330000x1_0 (wrapW bcast_S_S330000 104857600#32 (flatW ei))

def flatV (ei : IVec S2x320000 32) : FVec F S104857600 .f32 :=
  Host.scatterAdd scatter_S104857600_S330000x1_S330000_n_0_0_1
    (broadcastInDim S104857600 ![] bcast_S_S104857600 (constant S_ .f32 0x00000000#32))
    (flatCol ei)
    (valsV (F := F) ei)

def tableV (ei : IVec S2x320000 32) : FVec F S10240x10240 .bf16 :=
  truncf .bf16 (shapeCast S10240x10240 (flatV (F := F) ei) shapeCasts_S104857600_S10240x10240) bitsLt_bf16_f32

set_option maxHeartbeats 2000000 in

theorem table_eq (m : (ℓ : Loc nD τ sig) → Buf (Elt F) ℓ) (c : Dev nD) :
    Gen.V13 m c main_v48 = tableV (F := F) (m ((c : Thread nD τ).loc main_arg1)) := by
  rw [Gen.V13_of m c main_v48 (by decide), Gen.V12_of m c main_v48 (by decide), Gen.V11_of m c main_v48 (by decide),
    Gen.V10_of m c main_v48 (by decide), Gen.V9_of m c main_v48 (by decide), Gen.V8_of m c main_v48 (by decide),
    Gen.V7_of m c main_v48 (by decide), Gen.V6_of m c main_v48 (by decide), Gen.V5_of m c main_v48 (by decide),
    Gen.V4_of m c main_v48 (by decide), Gen.V3_of m c main_v48 (by decide), Gen.V2_of m c main_v48 (by decide)]
  dsimp only [Gen.V1, Gen.V0, Gen.hostOps0]
  after_results_simp
  rfl

end Terms

section Read
variable (ei : IVec S2x320000 32) (hin : Cert.Decode.InRange ei)

theorem srcW_apply (e : Fin 320000) : srcW ei (ix1 e) = ei (ix2 0 e) := by
  unfold srcW; exact row_apply 0 ei _ _ e

theorem dstW_apply (e : Fin 320000) : dstW ei (ix1 e) = ei (ix2 1 e) := by
  unfold dstW; exact row_apply 1 ei _ _ e

theorem srcW_toInt (e : Fin 320000) : (srcW ei (ix1 e)).toInt = ((Cert.Decode.srcOf ei hin e).val : ℤ) := by
  rw [srcW_apply]; exact Cert.Decode.srcOf_toInt ei hin e

theorem dstW_toInt (e : Fin 320000) : (dstW ei (ix1 e)).toInt = ((Cert.Decode.dstOf ei hin e).val : ℤ) := by
  rw [dstW_apply]; exact Cert.Decode.dstOf_toInt ei hin e

theorem srcCol_toInt (e : Fin 320000) : (srcCol ei (ix2 e 0)).toInt = ((Cert.Decode.srcOf ei hin e).val : ℤ) := by
  unfold srcCol
  rw [bcast_col_apply, wrapW_apply _ _ _ _ (by rw [srcW_toInt ei hin]; omega), srcW_toInt ei hin]

theorem dstCol_toInt (e : Fin 320000) : (dstCol ei (ix2 e 0)).toInt = ((Cert.Decode.dstOf ei hin e).val : ℤ) := by
  unfold dstCol
  rw [bcast_col_apply, wrapW_apply _ _ _ _ (by rw [dstW_toInt ei hin]; omega), dstW_toInt ei hin]

theorem degV_apply (n : Fin 10000) : degV (F := Ideal) ei (ix1 n) = Cert.Spec.deg (Cert.Decode.dstOf ei hin) n := by
  unfold degV Cert.Spec.deg
  rw [addf_apply, IndexedRows.host_scatterAdd_vec _ rfl rfl rfl, bcast_const_apply, bcast_const_apply,
    Ideal.ofBits_zero_f32, Ideal.ofBits_one_f32]
  refine congrArg (fun t => (0 + t) + (1 : EReal)) ?_
  refine Finset.sum_congr (Finset.filter_congr fun e _ => ?_) (fun e _ => ?_)
  · rw [dstCol_toInt ei hin e]
    constructor
    · intro h; exact Fin.ext (by exact_mod_cast h)
    · intro h; rw [h]
  · rw [bcast_const_apply, Ideal.ofBits_one_f32]

theorem dinvV_apply (n : Fin 10000) : dinvV (F := Ideal) ei (ix1 n) = Cert.Spec.dinv (Cert.Decode.dstOf ei hin) n := by
  unfold dinvV Cert.Spec.dinv
  rw [host_rsqrt_apply, degV_apply ei hin]

theorem coefV_apply (e : Fin 320000) :
    coefV (F := Ideal) ei (ix1 e) = Cert.Spec.coef (Cert.Decode.srcOf ei hin) (Cert.Decode.dstOf ei hin) e := by
  unfold coefV Cert.Spec.coef
  rw [mulf_apply,
    gather_vec _ rfl rfl rfl rfl _ _ e (Cert.Decode.srcOf ei hin e) (srcCol_toInt ei hin e),
    gather_vec _ rfl rfl rfl rfl _ _ e (Cert.Decode.dstOf ei hin e) (dstCol_toInt ei hin e),
    dinvV_apply ei hin, dinvV_apply ei hin]

theorem rowU_lt (u : Fin 330000) : Cert.Alg.rowU (Cert.Decode.dstOf ei hin) u < 10240 := by
  unfold Cert.Alg.rowU
  have := u.isLt
  split
  · rename_i h; have := (Cert.Decode.dstOf ei hin ⟨u.val, h⟩).isLt; omega
  · omega

theorem colU_lt (u : Fin 330000) : Cert.Alg.colU (Cert.Decode.srcOf ei hin) u < 10240 := by
  unfold Cert.Alg.colU
  have := u.isLt
  split
  · rename_i h; have := (Cert.Decode.srcOf ei hin ⟨u.val, h⟩).isLt; omega
  · omega

theorem rowsW_toInt (u : Fin 330000) :
    (rowsW ei (ix1 u)).toInt = ((Cert.Alg.rowU (Cert.Decode.dstOf ei hin) u : ℕ) : ℤ) := by
  unfold rowsW Cert.Alg.rowU
  have hu := u.isLt
  split
  · rename_i h
    rw [concat_vec_left _ _ _ u h, dstW_toInt ei hin]
  · rename_i h
    rw [concat_vec_right _ _ _ u (by omega) (by omega)]
    exact iota_vec_toInt _ (by omega)

theorem colsW_toInt (u : Fin 330000) :
    (colsW ei (ix1 u)).toInt = ((Cert.Alg.colU (Cert.Decode.srcOf ei hin) u : ℕ) : ℤ) := by
  unfold colsW Cert.Alg.colU
  have hu := u.isLt
  split
  · rename_i h
    rw [concat_vec_left _ _ _ u h, srcW_toInt ei hin]
  · rename_i h
    rw [concat_vec_right _ _ _ u (by omega) (by omega)]
    exact iota_vec_toInt _ (by omega)

theorem valsV_apply (u : Fin 330000) :
    valsV (F := Ideal) ei (ix1 u) = Cert.Alg.valU (Cert.Decode.srcOf ei hin) (Cert.Decode.dstOf ei hin) u := by
  unfold valsV Cert.Alg.valU
  have hu := u.isLt
  split
  · rename_i h
    rw [concat_vec_left _ _ _ u h, coefV_apply ei hin]
  · rename_i h
    rw [concat_vec_right _ _ _ u (by omega) (by omega), mulf_apply, dinvV_apply ei hin]

theorem flatCol_toInt (u : Fin 330000) :
    (flatCol ei (ix2 u 0)).toInt
      = ((Cert.Alg.rowU (Cert.Decode.dstOf ei hin) u * 10240 + Cert.Alg.colU (Cert.Decode.srcOf ei hin) u : ℕ) : ℤ) := by
  have hf : (flatW ei (ix1 u)).toInt
      = ((Cert.Alg.rowU (Cert.Decode.dstOf ei hin) u * 10240 + Cert.Alg.colU (Cert.Decode.srcOf ei hin) u : ℕ) : ℤ) := by
    unfold flatW
    show (IntOp.addi (IntOp.muli (rowsW ei (ix1 u))
      (broadcastInDim S330000 ![] bcast_S_S330000 (constantI S_ 32 10240#32) (ix1 u))) (colsW ei (ix1 u))).toInt = _
    rw [bcast_constI_apply]
    exact flat_word _ _ _ _ (rowsW_toInt ei hin u) (colsW_toInt ei hin u) (rowU_lt ei hin u) (colU_lt ei hin u)
  unfold flatCol
  rw [bcast_col_apply, wrapW_apply _ _ _ _ (by rw [hf]; omega), hf]

theorem tableV_isAdj :
    Cert.Alg.IsAdj (Cert.Decode.srcOf ei hin) (Cert.Decode.dstOf ei hin) (Cert.Decode.tab2 (tableV (F := Ideal) ei)) := by
  intro d s
  have hN : d.val * 10240 + s.val < 104857600 := by have := d.isLt; have := s.isLt; omega
  show tableV (F := Ideal) ei (ix2 d s) = _
  unfold tableV
  rw [truncf_apply, reshape2_apply _ _ d s hN]
  unfold flatV
  rw [IndexedRows.host_scatterAdd_vec _ rfl rfl rfl, bcast_const_apply, Ideal.ofBits_zero_f32]
  refine congrArg (fun t => (0 : EReal) + t) ?_
  refine Finset.sum_congr (Finset.filter_congr fun u _ => ?_) (fun u _ => valsV_apply ei hin u)
  rw [flatCol_toInt ei hin u]
  exact Nat.cast_inj

end Read

theorem adj_isAdj (m : (ℓ : Loc nD τ sig) → Buf (Elt Ideal) ℓ) (c : Dev nD)
    (hin : Cert.Decode.InRange (m ((c : Thread nD τ).loc main_arg1))) :
    Cert.Alg.IsAdj (Cert.Decode.srcOf _ hin) (Cert.Decode.dstOf _ hin) (Cert.Decode.tab2 (Gen.V13 (F := Ideal) m c main_v48)) := by
  intro d s
  have h := tableV_isAdj _ hin d s
  show Gen.V13 (F := Ideal) m c main_v48 (ix2 d s) = _
  rw [table_eq]
  exact h

end Cert.KernelIdeal.HostVal

end
-- ==== Proof.KI.LinValLib.lean ====
import proofs.«419824_j13683765805591_3_alg».proof.Proof.AlgDefs
import proofs.«419824_j13683765805591_3_alg».proof.Proof.Decode
import Idealize.ShloMosaic.Lib.StackMember
import Idealize.ShloMosaic.Lib.ValueLayout

noncomputable section

open scoped BigOperators

namespace Cert.KernelIdeal.HandVal

open Idealize.ShloMosaic Idealize.ShloMosaic.ValueIdx Cert.Decode Cert.Alg

-- The linear step of three arrays, as the contents of a 10240-row array.
def linG {K N : ℕ} (X : (⟨2, ![10240, K]⟩ : Shape).Idx → EReal) (W : (⟨2, ![K, N]⟩ : Shape).Idx → EReal)
    (b : (⟨2, ![1, N]⟩ : Shape).Idx → EReal) : (⟨2, ![10240, N]⟩ : Shape).Idx → EReal := fun i =>
  linK (tab2 X) (tab2 W) (fun k => b (ix2 0 k)) ⟨(i 0).val, idx2_lt0 i⟩ ⟨(i 1).val, idx2_lt1 i⟩

-- A product into zero is the sum over the shared coordinate and a one-row bias is read at every row: a block made of row r of X, all of W and the bias row holds row r of the linear step.
theorem lin_block {B K N : ℕ} {φ₁ φ₂ : FTy} (X : (⟨2, ![10240, K]⟩ : Shape).Idx → EReal)
    (W : (⟨2, ![K, N]⟩ : Shape).Idx → EReal) (b : (⟨2, ![1, N]⟩ : Shape).Idx → EReal)
    (x0 : FVec Ideal ⟨2, ![B, K]⟩ φ₁) (x1 : FVec Ideal ⟨2, ![K, N]⟩ φ₂) (x2 : FVec Ideal ⟨2, ![1, N]⟩ .f32)
    (h : (⟨2, ![1, N]⟩ : Shape).Broadcasts ⟨2, ![B, N]⟩) (p : Fin B) (q : Fin N) (r : Fin 10240)
    (h0 : ∀ k, x0 (ix2 p k) = X (ix2 r k)) (h1 : ∀ k, x1 (ix2 k q) = W (ix2 k q)) (h2 : x2 (ix2 0 q) = b (ix2 0 q)) :
    addf (matmul (DotDims.plain B K N) none x0 x1 (constant ⟨2, ![B, N]⟩ .f32 0x00000000#32))
        (broadcastTo ⟨2, ![B, N]⟩ x2 h) (ix2 p q) = linG X W b (ix2 r q) := by
  show _ = (∑ k : Fin K, X (ix2 r k) * W (ix2 k q)) + b (ix2 0 q)
  rw [addf_apply, matmul_zero_eq_dotGeneral, StackMember.dotGeneral_plain_apply, broadcastTo_1b_ab_apply, h2]
  exact congrArg (· + b (ix2 0 q)) (Finset.sum_congr rfl fun k _ => by rw [h0, h1])

end Cert.KernelIdeal.HandVal

end
-- ==== Proof.KI.LinVal0.lean ====
import proofs.«419824_j13683765805591_3_alg».proof.Proof.KI.Lin0
import proofs.«419824_j13683765805591_3_alg».proof.Proof.KI.LinValLib

noncomputable section

open scoped BigOperators

namespace Cert.KernelIdeal.HandVal

open Idealize.ShloMosaic Idealize.ShloMosaic.TcCoe Idealize.ShloMosaic.ValueIdx
open Cert.KernelIdeal Cert.KernelIdeal.Gen Cert.Decode Cert.Alg

theorem idx_facts0 : ∀ t : Fin cfg0.N,
    win0_0.index t 0 = t.val ∧ win0_0.index t 1 = 0
    ∧ win0_1.index t 0 = 0 ∧ win0_1.index t 1 = 0
    ∧ win0_2.index t 0 = 0 ∧ win0_2.index t 1 = 0
    ∧ win0_3.index t 0 = t.val ∧ win0_3.index t 1 = 0 :=
  (by decide +kernel : ∀ t : Fin grid0.N, _)

section Region
variable (V : (c : Dev nD) → (b : Ref sig .tc) → Buf (Elt Ideal) ((c : Thread nD τ).loc b)) (c : Dev nD) (t : Fin cfg0.N)

theorem iblk0_0_apply (p : Fin 2560) (k : Fin 512) (r : Fin 10240) (hr : r.val = 2560 * t.val + p.val) :
    Hand.iblk0 (F := Ideal) V c 0 t (ix2 p k) = V c main_v50 (ix2 r k) := by
  obtain ⟨e0, e1, -⟩ := idx_facts0 t
  exact congrArg (V c main_v50) (Shape.idx_ext₂
    (show win0_0.index t 0 * 2560 + 1 * p.val = r.val by rw [e0, hr]; omega)
    (win0_0.rect_emb_val_of_index_zero t 1 e1 _))

theorem iblk0_1_apply (k : Fin 512) (q : Fin 256) :
    Hand.iblk0 (F := Ideal) V c 1 t (ix2 k q) = V c main_v56 (ix2 k q) := by
  obtain ⟨-, -, e2, e3, -⟩ := idx_facts0 t
  exact congrArg (V c main_v56) (Shape.idx_ext₂ (win0_1.rect_emb_val_of_index_zero t 0 e2 _)
    (win0_1.rect_emb_val_of_index_zero t 1 e3 _))

theorem iblk0_2_apply (q : Fin 256) :
    Hand.iblk0 (F := Ideal) V c 2 t (ix2 0 q) = V c main_v62 (ix2 0 q) := by
  obtain ⟨-, -, -, -, e4, e5, -⟩ := idx_facts0 t
  exact congrArg (V c main_v62) (Shape.idx_ext₂ (win0_2.rect_emb_val_of_index_zero t 0 e4 _)
    (win0_2.rect_emb_val_of_index_zero t 1 e5 _))

theorem emb0_3 (p : Fin 2560) (q : Fin 256) (r : Fin 10240) (hr : r.val = 2560 * t.val + p.val) :
    ((cfg0.win 3).blk t).view.emb (ix2 p q) = ix2 r q := by
  obtain ⟨-, -, -, -, -, -, e6, e7⟩ := idx_facts0 t
  exact Shape.idx_ext₂ (show win0_3.index t 0 * 2560 + 1 * p.val = r.val by rw [e6, hr]; omega)
    (win0_3.rect_emb_val_of_index_zero t 1 e7 _)
-- The input blocks of point t are rows 2560·t … of x, all of W and the bias row, so the block it writes back is those rows of the linear step.
theorem flushed0_eq : (Hand.dat0 (F := Ideal) V c).flushed 3 t
    = ((cfg0.win 3).blk t).view.read (Elt Ideal) (linG (V c main_v50) (V c main_v56) (V c main_v62)) := by
  show (cfg0.win 3).cut (grid0.coords t) ((Hand.dat0 (F := Ideal) V c).after 3 t) = _
  rw [Hand.after0_3, Hand.out0_3_eq, shapeCast_self, shapeCast_self, shapeCast_self]
  funext y
  obtain ⟨p, q, rfl⟩ : ∃ (p : Fin 2560) (q : Fin 256), y = ix2 p q := ⟨y 0, y 1, eq_ix2 (n0 := 2560) (n1 := 256) y⟩
  have hN : cfg0.N = 4 := N_0
  have hr : 2560 * t.val + p.val < 10240 := by have := t.isLt; have := p.isLt; omega
  rw [View.read_apply, emb0_3 t p q ⟨_, hr⟩ rfl]
  exact lin_block (V c main_v50) (V c main_v56) (V c main_v62) _ _ _ _ p q ⟨_, hr⟩ (fun k => iblk0_0_apply V c t p k _ rfl)
    (fun k => iblk0_1_apply V c t k q) (iblk0_2_apply V c t q)

-- Row r of the array is in the block of point r / 2560, so after every point the array holds the linear step.
theorem lin0_arr (r : Fin 10240) (j : Fin 256) :
    (Hand.dat0 (F := Ideal) V c).arrAt 3 cfg0.N (ix2 r j)
      = linK (tab2 (V c main_v50)) (tab2 (V c main_v56)) (fun k => V c main_v62 (ix2 0 k)) r j :=
  congrFun ((Hand.dat0 (F := Ideal) V c).arrAt_eq_of_cover 3 _ (fun t _ => flushed0_eq V c t)
    fun (i : S10240x256.Idx) => by
      have hN : cfg0.N = 4 := N_0
      have h0 := idx2_lt0 i
      obtain ⟨t, ht⟩ : ∃ t : Fin cfg0.N, t.val = (i 0).val / 2560 := ⟨⟨(i 0).val / 2560, by omega⟩, rfl⟩
      refine ⟨t, flush0_3 t, Finset.mem_map.mpr ⟨ix2 ⟨(i 0).val % 2560, by omega⟩ (i 1), Finset.mem_univ _, ?_⟩⟩
      exact (emb0_3 t _ _ (i 0) (by show (i 0).val = 2560 * t.val + (i 0).val % 2560; omega)).trans (eq_ix2 i).symm) (ix2 r j)

end Region

end Cert.KernelIdeal.HandVal

end
-- ==== Proof.KI.AggValLib.lean ====
import proofs.«419824_j13683765805591_3_alg».proof.Proof.AlgDefs
import proofs.«419824_j13683765805591_3_alg».proof.Proof.Decode
import Idealize.ShloMosaic.Lib.StackMember
import Idealize.ShloMosaic.Lib.ValueLayout
import Mathlib.Logic.Equiv.Fin.Basic
import Mathlib.Data.Fintype.BigOperators
import Mathlib.Algebra.BigOperators.Fin
import Mathlib.Algebra.BigOperators.Group.Finset.Basic

noncomputable section

open scoped BigOperators

namespace Cert.KernelIdeal.HandVal

open Idealize.ShloMosaic Idealize.ShloMosaic.ValueIdx Cert.Decode Cert.Alg Cert.Spec

-- Where the value is above zero the select keeps it; elsewhere it takes the slope times the value.
theorem leaky_apply {S : Shape} (y : FVec Ideal S .f32) (i : S.Idx) :
    select (cmpf .ogt y (broadcast S (Scalar.ofBits .f32 0x00000000#32))) y
        (mulf (broadcast S (Scalar.ofBits .f32 0x3DCCCCCD#32)) y) i = leakyK (y i) := by
  rw [select_apply, cmpf_apply, mulf_apply, broadcast_apply, broadcast_apply]
  show Scalar.select (Ideal.cmp .ogt (y i) (Ideal.ofBits .f32 0x00000000#32)) (y i)
      (Ideal.ofBits .f32 0x3DCCCCCD#32 * y i) = _
  rw [Ideal.ofBits_zero_f32]
  by_cases h : 0 < y i
  · have hc : Ideal.cmp .ogt (y i) 0 = 1#1 := by
      show BitVec.ofBool (decide (0 < y i)) = 1#1
      rw [decide_eq_true h]; rfl
    rw [hc, select_one, leakyK, if_pos h]
  · have hc : Ideal.cmp .ogt (y i) 0 = 0#1 := by
      show BitVec.ofBool (decide (0 < y i)) = 0#1
      rw [decide_eq_false h]; rfl
    rw [hc, select_zero, leakyK, if_neg h]; rfl

theorem blk_lt {a b k q : ℕ} (hk : k < a) (hq : q < b) : b * k + q < a * b :=
  calc b * k + q < b * k + b := Nat.add_lt_add_left hq _
    _ = b * (k + 1) := (Nat.mul_succ b k).symm
    _ ≤ b * a := Nat.mul_le_mul_left b hk
    _ = a * b := Nat.mul_comm b a

theorem sum_blocks {M : Type*} [AddCommMonoid M] (a b n : ℕ) (h : n = a * b) (f : Fin n → M) :
    ∑ s : Fin n, f s = ∑ k : Fin a, ∑ q : Fin b, f ⟨b * k.val + q.val, h ▸ blk_lt k.isLt q.isLt⟩ := by
  subst h
  rw [← Equiv.sum_comp finProdFinEquiv f, Fintype.sum_prod_type]
  refine Finset.sum_congr rfl fun k _ => Finset.sum_congr rfl fun q _ => congrArg f (Fin.ext ?_)
  exact Nat.add_comm _ _

-- Column block k's share of a sum over 10240 = 5 · 2048 positions.
def part (f : Fin 10240 → EReal) (k : ℕ) : EReal :=
  if hk : k < 5 then ∑ q : Fin 2048, f ⟨2048 * k + q.val, by have := q.isLt; omega⟩ else 0

-- An accumulator that restarts from zero at every fifth point and adds column block t % 5's share at point t holds, after the last point of a run of five, the whole sum: addition is associative and zero is neutral.
theorem acc_five_blocks {T B N : ℕ} (f : Fin 10240 → EReal) (acc m : Fin T → FVec Ideal ⟨2, ![B, N]⟩ .f32)
    (y : (⟨2, ![B, N]⟩ : Shape).Idx) (i : ℕ)
    (h0 : ∀ t : Fin T, t.val % 5 = 0 →
      acc t = addf (broadcast ⟨2, ![B, N]⟩ (Scalar.ofBits .f32 0x00000000#32)) (m t))
    (hs : ∀ t : Fin T, t.val % 5 ≠ 0 →
      acc t = addf (acc ⟨t.val - 1, Nat.lt_of_le_of_lt (Nat.sub_le _ _) t.isLt⟩) (m t))
    (hm : ∀ t : Fin T, t.val / 5 = i → m t y = part f (t.val % 5))
    (t : Fin T) (hi : t.val / 5 = i) (hk : t.val % 5 = 4) : acc t y = ∑ s : Fin 10240, f s := by
  have key : ∀ (k : ℕ) (h : 5 * i + k < T), k < 5 →
      acc ⟨5 * i + k, h⟩ y = ∑ k' ∈ Finset.range (k + 1), part f k' := by
    intro k
    induction k with
    | zero =>
      intro h _
      rw [h0 ⟨5 * i + 0, h⟩ (by show (5 * i + 0) % 5 = 0; omega), addf_apply, broadcast_apply,
        hm ⟨5 * i + 0, h⟩ (by show (5 * i + 0) / 5 = i; omega), Finset.sum_range_one]
      show Ideal.ofBits .f32 0x00000000#32 + _ = _
      rw [Ideal.ofBits_zero_f32, zero_add]
      exact congrArg (part f) (by show (5 * i + 0) % 5 = 0; omega)
    | succ k ih =>
      intro h hk
      rw [hs ⟨5 * i + (k + 1), h⟩ (by show (5 * i + (k + 1)) % 5 ≠ 0; omega), addf_apply,
        hm ⟨5 * i + (k + 1), h⟩ (by show (5 * i + (k + 1)) / 5 = i; omega), Finset.sum_range_succ]
      congr 1
      · exact ih (by omega) (by omega)
      · exact congrArg (part f) (by show (5 * i + (k + 1)) % 5 = k + 1; omega)
  have hT : 5 * i + 4 < T := by have := t.isLt; omega
  obtain rfl : t = ⟨5 * i + 4, hT⟩ := Fin.ext (by show t.val = 5 * i + 4; omega)
  rw [key 4 hT (by norm_num)]
  show ∑ k' ∈ Finset.range 5, part f k' = _
  rw [sum_blocks 5 2048 10240 (by norm_num) f, Finset.sum_range]
  refine Finset.sum_congr rfl fun k _ => ?_
  unfold part
  rw [dif_pos k.isLt]

-- The aggregation step of three arrays, as the contents of a 10240-row array.
def aggG {N : ℕ} (A : (⟨2, ![10240, 10240]⟩ : Shape).Idx → EReal) (H : (⟨2, ![10240, N]⟩ : Shape).Idx → EReal)
    (b : (⟨2, ![1, N]⟩ : Shape).Idx → EReal) : (⟨2, ![10240, N]⟩ : Shape).Idx → EReal := fun x =>
  aggK (tab2 A) (tab2 H) (fun k => b (ix2 0 k)) ⟨(x 0).val, idx2_lt0 x⟩ ⟨(x 1).val, idx2_lt1 x⟩

end Cert.KernelIdeal.HandVal

end
-- ==== Proof.KI.AggVal1.lean ====
import proofs.«419824_j13683765805591_3_alg».proof.Proof.KI.Agg1
import proofs.«419824_j13683765805591_3_alg».proof.Proof.KI.AggValLib

noncomputable section

open scoped BigOperators

namespace Cert.KernelIdeal.HandVal

open Idealize.ShloMosaic Idealize.ShloMosaic.TcCoe Idealize.ShloMosaic.ValueIdx
open Cert.KernelIdeal Cert.KernelIdeal.Gen Cert.KernelIdeal.Hand Cert.Decode Cert.Alg

variable (V : (c : Dev nD) → (b : Ref sig .tc) → Buf (Elt Ideal) ((c : Thread nD τ).loc b)) (c : Dev nD)

theorem idx1_0 : ∀ t : Fin cfg1.N, win1_0.index t 0 = t.val / 5 ∧ win1_0.index t 1 = t.val % 5 :=
  (by decide +kernel : ∀ t : Fin grid1.N, _)
theorem idx1_1 : ∀ t : Fin cfg1.N, win1_1.index t 0 = t.val % 5 ∧ win1_1.index t 1 = 0 :=
  (by decide +kernel : ∀ t : Fin grid1.N, _)
theorem idx1_2 : ∀ t : Fin cfg1.N, win1_2.index t 0 = 0 ∧ win1_2.index t 1 = 0 :=
  (by decide +kernel : ∀ t : Fin grid1.N, _)
theorem idx1_3 : ∀ t : Fin cfg1.N, win1_3.index t 0 = t.val / 5 ∧ win1_3.index t 1 = 0 :=
  (by decide +kernel : ∀ t : Fin grid1.N, _)

theorem ablk1_apply (t : Fin cfg1.N) (p : Fin 2560) (q : Fin 2048) (r s : Fin 10240)
    (hr : r.val = 2560 * (t.val / 5) + p.val) (hs : s.val = 2048 * (t.val % 5) + q.val) :
    (iblk1 V c 0 t : Vec Ideal S2560x2048 .bf16) (ix2 p q) = tab2 (V c main_v48) r s :=
  congrArg (V c main_v48) (Shape.idx_ext₂
    (show win1_0.index t 0 * 2560 + 1 * p.val = r.val by rw [(idx1_0 t).1, hr]; omega)
    (show win1_0.index t 1 * 2048 + 1 * q.val = s.val by rw [(idx1_0 t).2, hs]; omega))

theorem hblk1_apply (t : Fin cfg1.N) (q : Fin 2048) (j : Fin 256) (s : Fin 10240)
    (hs : s.val = 2048 * (t.val % 5) + q.val) :
    (iblk1 V c 1 t : Vec Ideal S2048x256 .bf16) (ix2 q j) = tab2 (V c main_v63) s j :=
  congrArg (V c main_v63) (Shape.idx_ext₂
    (show win1_1.index t 0 * 2048 + 1 * q.val = s.val by rw [(idx1_1 t).1, hs]; omega)
    (win1_1.rect_emb_val_of_index_zero t 1 (idx1_1 t).2 _))

theorem bblk1_apply (t : Fin cfg1.N) (j : Fin 256) :
    (iblk1 V c 2 t : Vec Ideal S1x256 .f32) (ix2 0 j) = V c main_v64 (ix2 0 j) :=
  congrArg (V c main_v64) (Shape.idx_ext₂ (win1_2.rect_emb_val_of_index_zero t 0 (idx1_2 t).1 _)
    (win1_2.rect_emb_val_of_index_zero t 1 (idx1_2 t).2 _))

theorem emb1_3 (t : Fin cfg1.N) (p : Fin 2560) (j : Fin 256) (d : Fin 10240) (hd : d.val = 2560 * (t.val / 5) + p.val) :
    ((cfg1.win 3).blk t).view.emb (ix2 p j) = ix2 d j :=
  Shape.idx_ext₂ (show win1_3.index t 0 * 2560 + 1 * p.val = d.val by rw [(idx1_3 t).1, hd]; omega)
    (win1_3.rect_emb_val_of_index_zero t 1 (idx1_3 t).2 _)

theorem mm1_apply (a : Vec Ideal S2560x2048 .bf16) (h : Vec Ideal S2048x256 .bf16) (p : Fin 2560) (j : Fin 256) :
    mm1 a h (ix2 p j) = ∑ q : Fin 2048, a (ix2 p q) * h (ix2 q j) := by
  unfold mm1
  rw [shapeCast_self, shapeCast_self, matmul_zero_eq_dotGeneral]
  exact StackMember.dotGeneral_plain_apply none a h p j

theorem outv1_apply (acc : Vec Ideal S2560x256 .f32) (b : Vec Ideal S1x256 .f32) (p : Fin 2560) (j : Fin 256) :
    outv1 acc b (ix2 p j) = leakyK (acc (ix2 p j) + b (ix2 0 j)) := by
  rw [outv1_eq, truncf_apply, leaky_apply, addf_apply, broadcastTo_1b_ab_apply]

-- At a last step the accumulator has run over the five column blocks of its row block, so the stored entry is the aggregation step.
theorem out1_point (t : Fin cfg1.N) (hk : t.val % 5 = 4) (p : Fin 2560) (j : Fin 256) (d : Fin 10240)
    (hd : d.val = 2560 * (t.val / 5) + p.val) :
    outv1 (acc1 V c t) (iblk1 V c 2 t) (ix2 p j)
      = aggK (tab2 (V c main_v48)) (tab2 (V c main_v63)) (fun k => V c main_v64 (ix2 0 k)) d j := by
  refine (outv1_apply (acc1 V c t) (iblk1 V c 2 t) p j).trans ?_
  unfold aggK
  congr 1
  rw [bblk1_apply V c t j]
  congr 1
  refine acc_five_blocks (fun s => tab2 (V c main_v48) d s * tab2 (V c main_v63) s j) (acc1 V c)
    (fun t => mm1 (iblk1 V c 0 t) (iblk1 V c 1 t)) (ix2 p j) (t.val / 5) (acc1_zero V c) (acc1_succ V c)
    (fun t' hi => ?_) t rfl hk
  show mm1 (iblk1 V c 0 t') (iblk1 V c 1 t') (ix2 p j) = _
  rw [mm1_apply, part, dif_pos (Nat.mod_lt _ (by norm_num))]
  refine Finset.sum_congr rfl fun q _ => ?_
  rw [ablk1_apply V c t' p q d ⟨2048 * (t'.val % 5) + q.val, by have := q.isLt; omega⟩ (by rw [hi]; exact hd) rfl,
    hblk1_apply V c t' q j ⟨2048 * (t'.val % 5) + q.val, by have := q.isLt; omega⟩ rfl]

theorem flushed1_eq (t : Fin cfg1.N) (hf : (cfg1.win 3).flush t = true) :
    (dat1 V c).flushed 3 t = ((cfg1.win 3).blk t).view.read (Elt Ideal) (aggG (V c main_v48) (V c main_v63) (V c main_v64)) := by
  show (cfg1.win 3).cut (grid1.coords t) ((dat1 V c).after 3 t) = _
  rw [after1_3]
  funext y
  obtain ⟨p, j, rfl⟩ : ∃ (p : Fin 2560) (j : Fin 256), y = ix2 p j := ⟨y 0, y 1, eq_ix2 y⟩
  have hN : cfg1.N = 20 := N_1
  have hd : 2560 * (t.val / 5) + p.val < 10240 := by have := t.isLt; have := p.isLt; omega
  rw [View.read_apply, emb1_3 t p j ⟨_, hd⟩ rfl]
  exact out1_point V c t ((flush1_3 t).mp hf) p j ⟨_, hd⟩ rfl

-- Row d of the array is in the block of the last step of row block d / 2560, so after every point the array holds the aggregation step.
theorem agg1_arr (d : Fin 10240) (j : Fin 256) :
    (Hand.dat1 (F := Ideal) V c).arrAt 3 cfg1.N (ix2 d j)
      = aggK (tab2 (V c main_v48)) (tab2 (V c main_v63)) (fun k => V c main_v64 (ix2 0 k)) d j :=
  congrFun ((dat1 V c).arrAt_eq_of_cover 3 _ (flushed1_eq V c) fun (x : S10240x256.Idx) => by
    have hN : cfg1.N = 20 := N_1
    have h0 := idx2_lt0 x
    obtain ⟨t, ht⟩ : ∃ t : Fin cfg1.N, t.val = 5 * ((x 0).val / 2560) + 4 := ⟨⟨_, by omega⟩, rfl⟩
    refine ⟨t, (flush1_3 t).mpr (by omega), Finset.mem_map.mpr ⟨ix2 ⟨(x 0).val % 2560, by omega⟩ (x 1), Finset.mem_univ _, ?_⟩⟩
    exact (emb1_3 t _ _ (x 0) (by show (x 0).val = 2560 * (t.val / 5) + (x 0).val % 2560; omega)).trans (eq_ix2 x).symm) (ix2 d j)

end Cert.KernelIdeal.HandVal

end
-- ==== Proof.KI.LinVal2.lean ====
import proofs.«419824_j13683765805591_3_alg».proof.Proof.KI.Lin2
import proofs.«419824_j13683765805591_3_alg».proof.Proof.KI.LinValLib

noncomputable section

open scoped BigOperators

namespace Cert.KernelIdeal.HandVal

open Idealize.ShloMosaic Idealize.ShloMosaic.TcCoe Idealize.ShloMosaic.ValueIdx
open Cert.KernelIdeal Cert.KernelIdeal.Gen Cert.Decode Cert.Alg

theorem idx_facts2 : ∀ t : Fin cfg2.N,
    win2_0.index t 0 = t.val ∧ win2_0.index t 1 = 0
    ∧ win2_1.index t 0 = 0 ∧ win2_1.index t 1 = 0
    ∧ win2_2.index t 0 = 0 ∧ win2_2.index t 1 = 0
    ∧ win2_3.index t 0 = t.val ∧ win2_3.index t 1 = 0 :=
  (by decide +kernel : ∀ t : Fin grid2.N, _)

section Region
variable (V : (c : Dev nD) → (b : Ref sig .tc) → Buf (Elt Ideal) ((c : Thread nD τ).loc b)) (c : Dev nD) (t : Fin cfg2.N)

theorem iblk2_0_apply (p : Fin 2560) (k : Fin 256) (r : Fin 10240) (hr : r.val = 2560 * t.val + p.val) :
    Hand.iblk2 (F := Ideal) V c 0 t (ix2 p k) = V c main_v65 (ix2 r k) := by
  obtain ⟨e0, e1, -⟩ := idx_facts2 t
  exact congrArg (V c main_v65) (Shape.idx_ext₂
    (show win2_0.index t 0 * 2560 + 1 * p.val = r.val by rw [e0, hr]; omega)
    (win2_0.rect_emb_val_of_index_zero t 1 e1 _))

theorem iblk2_1_apply (k : Fin 256) (q : Fin 128) :
    Hand.iblk2 (F := Ideal) V c 1 t (ix2 k q) = V c main_v57 (ix2 k q) := by
  obtain ⟨-, -, e2, e3, -⟩ := idx_facts2 t
  exact congrArg (V c main_v57) (Shape.idx_ext₂ (win2_1.rect_emb_val_of_index_zero t 0 e2 _)
    (win2_1.rect_emb_val_of_index_zero t 1 e3 _))

theorem iblk2_2_apply (q : Fin 128) :
    Hand.iblk2 (F := Ideal) V c 2 t (ix2 0 q) = V c main_v67 (ix2 0 q) := by
  obtain ⟨-, -, -, -, e4, e5, -⟩ := idx_facts2 t
  exact congrArg (V c main_v67) (Shape.idx_ext₂ (win2_2.rect_emb_val_of_index_zero t 0 e4 _)
    (win2_2.rect_emb_val_of_index_zero t 1 e5 _))

theorem emb2_3 (p : Fin 2560) (q : Fin 128) (r : Fin 10240) (hr : r.val = 2560 * t.val + p.val) :
    ((cfg2.win 3).blk t).view.emb (ix2 p q) = ix2 r q := by
  obtain ⟨-, -, -, -, -, -, e6, e7⟩ := idx_facts2 t
  exact Shape.idx_ext₂ (show win2_3.index t 0 * 2560 + 1 * p.val = r.val by rw [e6, hr]; omega)
    (win2_3.rect_emb_val_of_index_zero t 1 e7 _)
-- The input blocks of point t are rows 2560·t … of x, all of W and the bias row, so the block it writes back is those rows of the linear step.
theorem flushed2_eq : (Hand.dat2 (F := Ideal) V c).flushed 3 t
    = ((cfg2.win 3).blk t).view.read (Elt Ideal) (linG (V c main_v65) (V c main_v57) (V c main_v67)) := by
  show (cfg2.win 3).cut (grid2.coords t) ((Hand.dat2 (F := Ideal) V c).after 3 t) = _
  rw [Hand.after2_3, Hand.out2_3_eq, shapeCast_self, shapeCast_self, shapeCast_self]
  funext y
  obtain ⟨p, q, rfl⟩ : ∃ (p : Fin 2560) (q : Fin 128), y = ix2 p q := ⟨y 0, y 1, eq_ix2 (n0 := 2560) (n1 := 128) y⟩
  have hN : cfg2.N = 4 := N_2
  have hr : 2560 * t.val + p.val < 10240 := by have := t.isLt; have := p.isLt; omega
  rw [View.read_apply, emb2_3 t p q ⟨_, hr⟩ rfl]
  exact lin_block (V c main_v65) (V c main_v57) (V c main_v67) _ _ _ _ p q ⟨_, hr⟩ (fun k => iblk2_0_apply V c t p k _ rfl)
    (fun k => iblk2_1_apply V c t k q) (iblk2_2_apply V c t q)

-- Row r of the array is in the block of point r / 2560, so after every point the array holds the linear step.
theorem lin2_arr (r : Fin 10240) (j : Fin 128) :
    (Hand.dat2 (F := Ideal) V c).arrAt 3 cfg2.N (ix2 r j)
      = linK (tab2 (V c main_v65)) (tab2 (V c main_v57)) (fun k => V c main_v67 (ix2 0 k)) r j :=
  congrFun ((Hand.dat2 (F := Ideal) V c).arrAt_eq_of_cover 3 _ (fun t _ => flushed2_eq V c t)
    fun (i : S10240x128.Idx) => by
      have hN : cfg2.N = 4 := N_2
      have h0 := idx2_lt0 i
      obtain ⟨t, ht⟩ : ∃ t : Fin cfg2.N, t.val = (i 0).val / 2560 := ⟨⟨(i 0).val / 2560, by omega⟩, rfl⟩
      refine ⟨t, flush2_3 t, Finset.mem_map.mpr ⟨ix2 ⟨(i 0).val % 2560, by omega⟩ (i 1), Finset.mem_univ _, ?_⟩⟩
      exact (emb2_3 t _ _ (i 0) (by show (i 0).val = 2560 * t.val + (i 0).val % 2560; omega)).trans (eq_ix2 i).symm) (ix2 r j)

end Region

end Cert.KernelIdeal.HandVal

end
-- ==== Proof.KI.AggVal3.lean ====
import proofs.«419824_j13683765805591_3_alg».proof.Proof.KI.Agg3
import proofs.«419824_j13683765805591_3_alg».proof.Proof.KI.AggValLib

noncomputable section

open scoped BigOperators

namespace Cert.KernelIdeal.HandVal

open Idealize.ShloMosaic Idealize.ShloMosaic.TcCoe Idealize.ShloMosaic.ValueIdx
open Cert.KernelIdeal Cert.KernelIdeal.Gen Cert.KernelIdeal.Hand Cert.Decode Cert.Alg

variable (V : (c : Dev nD) → (b : Ref sig .tc) → Buf (Elt Ideal) ((c : Thread nD τ).loc b)) (c : Dev nD)

theorem idx3_0 : ∀ t : Fin cfg3.N, win3_0.index t 0 = t.val / 5 ∧ win3_0.index t 1 = t.val % 5 :=
  (by decide +kernel : ∀ t : Fin grid3.N, _)
theorem idx3_1 : ∀ t : Fin cfg3.N, win3_1.index t 0 = t.val % 5 ∧ win3_1.index t 1 = 0 :=
  (by decide +kernel : ∀ t : Fin grid3.N, _)
theorem idx3_2 : ∀ t : Fin cfg3.N, win3_2.index t 0 = 0 ∧ win3_2.index t 1 = 0 :=
  (by decide +kernel : ∀ t : Fin grid3.N, _)
theorem idx3_3 : ∀ t : Fin cfg3.N, win3_3.index t 0 = t.val / 5 ∧ win3_3.index t 1 = 0 :=
  (by decide +kernel : ∀ t : Fin grid3.N, _)

theorem ablk3_apply (t : Fin cfg3.N) (p : Fin 2560) (q : Fin 2048) (r s : Fin 10240)
    (hr : r.val = 2560 * (t.val / 5) + p.val) (hs : s.val = 2048 * (t.val % 5) + q.val) :
    (iblk3 V c 0 t : Vec Ideal S2560x2048 .bf16) (ix2 p q) = tab2 (V c main_v48) r s :=
  congrArg (V c main_v48) (Shape.idx_ext₂
    (show win3_0.index t 0 * 2560 + 1 * p.val = r.val by rw [(idx3_0 t).1, hr]; omega)
    (show win3_0.index t 1 * 2048 + 1 * q.val = s.val by rw [(idx3_0 t).2, hs]; omega))

theorem hblk3_apply (t : Fin cfg3.N) (q : Fin 2048) (j : Fin 128) (s : Fin 10240)
    (hs : s.val = 2048 * (t.val % 5) + q.val) :
    (iblk3 V c 1 t : Vec Ideal S2048x128 .f32) (ix2 q j) = tab2 (V c main_v68) s j :=
  congrArg (V c main_v68) (Shape.idx_ext₂
    (show win3_1.index t 0 * 2048 + 1 * q.val = s.val by rw [(idx3_1 t).1, hs]; omega)
    (win3_1.rect_emb_val_of_index_zero t 1 (idx3_1 t).2 _))

theorem bblk3_apply (t : Fin cfg3.N) (j : Fin 128) :
    (iblk3 V c 2 t : Vec Ideal S1x128 .f32) (ix2 0 j) = V c main_v69 (ix2 0 j) :=
  congrArg (V c main_v69) (Shape.idx_ext₂ (win3_2.rect_emb_val_of_index_zero t 0 (idx3_2 t).1 _)
    (win3_2.rect_emb_val_of_index_zero t 1 (idx3_2 t).2 _))

theorem emb3_3 (t : Fin cfg3.N) (p : Fin 2560) (j : Fin 128) (d : Fin 10240) (hd : d.val = 2560 * (t.val / 5) + p.val) :
    ((cfg3.win 3).blk t).view.emb (ix2 p j) = ix2 d j :=
  Shape.idx_ext₂ (show win3_3.index t 0 * 2560 + 1 * p.val = d.val by rw [(idx3_3 t).1, hd]; omega)
    (win3_3.rect_emb_val_of_index_zero t 1 (idx3_3 t).2 _)

theorem mm3_apply (a : Vec Ideal S2560x2048 .bf16) (h : Vec Ideal S2048x128 .f32) (p : Fin 2560) (j : Fin 128) :
    mm3 a h (ix2 p j) = ∑ q : Fin 2048, a (ix2 p q) * h (ix2 q j) := by
  unfold mm3
  rw [shapeCast_self, shapeCast_self, matmul_zero_eq_dotGeneral]
  exact (StackMember.dotGeneral_plain_apply none a (truncf .bf16 h bitsLt_bf16_f32) p j).trans
    (Finset.sum_congr rfl fun q _ => rfl)

theorem outv3_apply (acc : Vec Ideal S2560x128 .f32) (b : Vec Ideal S1x128 .f32) (p : Fin 2560) (j : Fin 128) :
    outv3 acc b (ix2 p j) = leakyK (acc (ix2 p j) + b (ix2 0 j)) := by
  rw [outv3_eq, leaky_apply, addf_apply, broadcastTo_1b_ab_apply]

-- At a last step the accumulator has run over the five column blocks of its row block, so the stored entry is the aggregation step.
theorem out3_point (t : Fin cfg3.N) (hk : t.val % 5 = 4) (p : Fin 2560) (j : Fin 128) (d : Fin 10240)
    (hd : d.val = 2560 * (t.val / 5) + p.val) :
    outv3 (acc3 V c t) (iblk3 V c 2 t) (ix2 p j)
      = aggK (tab2 (V c main_v48)) (tab2 (V c main_v68)) (fun k => V c main_v69 (ix2 0 k)) d j := by
  refine (outv3_apply (acc3 V c t) (iblk3 V c 2 t) p j).trans ?_
  unfold aggK
  congr 1
  rw [bblk3_apply V c t j]
  congr 1
  refine acc_five_blocks (fun s => tab2 (V c main_v48) d s * tab2 (V c main_v68) s j) (acc3 V c)
    (fun t => mm3 (iblk3 V c 0 t) (iblk3 V c 1 t)) (ix2 p j) (t.val / 5) (acc3_zero V c) (acc3_succ V c)
    (fun t' hi => ?_) t rfl hk
  show mm3 (iblk3 V c 0 t') (iblk3 V c 1 t') (ix2 p j) = _
  rw [mm3_apply, part, dif_pos (Nat.mod_lt _ (by norm_num))]
  refine Finset.sum_congr rfl fun q _ => ?_
  rw [ablk3_apply V c t' p q d ⟨2048 * (t'.val % 5) + q.val, by have := q.isLt; omega⟩ (by rw [hi]; exact hd) rfl,
    hblk3_apply V c t' q j ⟨2048 * (t'.val % 5) + q.val, by have := q.isLt; omega⟩ rfl]

theorem flushed3_eq (t : Fin cfg3.N) (hf : (cfg3.win 3).flush t = true) :
    (dat3 V c).flushed 3 t = ((cfg3.win 3).blk t).view.read (Elt Ideal) (aggG (V c main_v48) (V c main_v68) (V c main_v69)) := by
  show (cfg3.win 3).cut (grid3.coords t) ((dat3 V c).after 3 t) = _
  rw [after3_3]
  funext y
  obtain ⟨p, j, rfl⟩ : ∃ (p : Fin 2560) (j : Fin 128), y = ix2 p j := ⟨y 0, y 1, eq_ix2 y⟩
  have hN : cfg3.N = 20 := N_3
  have hd : 2560 * (t.val / 5) + p.val < 10240 := by have := t.isLt; have := p.isLt; omega
  rw [View.read_apply, emb3_3 t p j ⟨_, hd⟩ rfl]
  exact out3_point V c t ((flush3_3 t).mp hf) p j ⟨_, hd⟩ rfl

-- Row d of the array is in the block of the last step of row block d / 2560, so after every point the array holds the aggregation step.
theorem agg3_arr (d : Fin 10240) (j : Fin 128) :
    (Hand.dat3 (F := Ideal) V c).arrAt 3 cfg3.N (ix2 d j)
      = aggK (tab2 (V c main_v48)) (tab2 (V c main_v68)) (fun k => V c main_v69 (ix2 0 k)) d j :=
  congrFun ((dat3 V c).arrAt_eq_of_cover 3 _ (flushed3_eq V c) fun (x : S10240x128.Idx) => by
    have hN : cfg3.N = 20 := N_3
    have h0 := idx2_lt0 x
    obtain ⟨t, ht⟩ : ∃ t : Fin cfg3.N, t.val = 5 * ((x 0).val / 2560) + 4 := ⟨⟨_, by omega⟩, rfl⟩
    refine ⟨t, (flush3_3 t).mpr (by omega), Finset.mem_map.mpr ⟨ix2 ⟨(x 0).val % 2560, by omega⟩ (x 1), Finset.mem_univ _, ?_⟩⟩
    exact (emb3_3 t _ _ (x 0) (by show (x 0).val = 2560 * (t.val / 5) + (x 0).val % 2560; omega)).trans (eq_ix2 x).symm) (ix2 d j)

end Cert.KernelIdeal.HandVal

end
-- ==== Proof.KI.LinVal4.lean ====
import proofs.«419824_j13683765805591_3_alg».proof.Proof.KI.Lin4
import proofs.«419824_j13683765805591_3_alg».proof.Proof.KI.LinValLib

noncomputable section

open scoped BigOperators

namespace Cert.KernelIdeal.HandVal

open Idealize.ShloMosaic Idealize.ShloMosaic.TcCoe Idealize.ShloMosaic.ValueIdx
open Cert.KernelIdeal Cert.KernelIdeal.Gen Cert.Decode Cert.Alg

theorem idx_facts4 : ∀ t : Fin cfg4.N,
    win4_0.index t 0 = t.val ∧ win4_0.index t 1 = 0
    ∧ win4_1.index t 0 = 0 ∧ win4_1.index t 1 = 0
    ∧ win4_2.index t 0 = 0 ∧ win4_2.index t 1 = 0
    ∧ win4_3.index t 0 = t.val ∧ win4_3.index t 1 = 0 :=
  (by decide +kernel : ∀ t : Fin grid4.N, _)

section Region
variable (V : (c : Dev nD) → (b : Ref sig .tc) → Buf (Elt Ideal) ((c : Thread nD τ).loc b)) (c : Dev nD) (t : Fin cfg4.N)

theorem iblk4_0_apply (p : Fin 2560) (k : Fin 128) (r : Fin 10240) (hr : r.val = 2560 * t.val + p.val) :
    Hand.iblk4 (F := Ideal) V c 0 t (ix2 p k) = V c main_v70 (ix2 r k) := by
  obtain ⟨e0, e1, -⟩ := idx_facts4 t
  exact congrArg (V c main_v70) (Shape.idx_ext₂
    (show win4_0.index t 0 * 2560 + 1 * p.val = r.val by rw [e0, hr]; omega)
    (win4_0.rect_emb_val_of_index_zero t 1 e1 _))

theorem iblk4_1_apply (k : Fin 128) (q : Fin 128) :
    Hand.iblk4 (F := Ideal) V c 1 t (ix2 k q) = V c main_v58 (ix2 k q) := by
  obtain ⟨-, -, e2, e3, -⟩ := idx_facts4 t
  exact congrArg (V c main_v58) (Shape.idx_ext₂ (win4_1.rect_emb_val_of_index_zero t 0 e2 _)
    (win4_1.rect_emb_val_of_index_zero t 1 e3 _))

theorem iblk4_2_apply (q : Fin 128) :
    Hand.iblk4 (F := Ideal) V c 2 t (ix2 0 q) = V c main_v72 (ix2 0 q) := by
  obtain ⟨-, -, -, -, e4, e5, -⟩ := idx_facts4 t
  exact congrArg (V c main_v72) (Shape.idx_ext₂ (win4_2.rect_emb_val_of_index_zero t 0 e4 _)
    (win4_2.rect_emb_val_of_index_zero t 1 e5 _))

theorem emb4_3 (p : Fin 2560) (q : Fin 128) (r : Fin 10240) (hr : r.val = 2560 * t.val + p.val) :
    ((cfg4.win 3).blk t).view.emb (ix2 p q) = ix2 r q := by
  obtain ⟨-, -, -, -, -, -, e6, e7⟩ := idx_facts4 t
  exact Shape.idx_ext₂ (show win4_3.index t 0 * 2560 + 1 * p.val = r.val by rw [e6, hr]; omega)
    (win4_3.rect_emb_val_of_index_zero t 1 e7 _)
-- The input blocks of point t are rows 2560·t … of x, all of W and the bias row, so the block it writes back is those rows of the linear step.
theorem flushed4_eq : (Hand.dat4 (F := Ideal) V c).flushed 3 t
    = ((cfg4.win 3).blk t).view.read (Elt Ideal) (linG (V c main_v70) (V c main_v58) (V c main_v72)) := by
  show (cfg4.win 3).cut (grid4.coords t) ((Hand.dat4 (F := Ideal) V c).after 3 t) = _
  rw [Hand.after4_3, Hand.out4_3_eq, shapeCast_self, shapeCast_self, shapeCast_self]
  funext y
  obtain ⟨p, q, rfl⟩ : ∃ (p : Fin 2560) (q : Fin 128), y = ix2 p q := ⟨y 0, y 1, eq_ix2 (n0 := 2560) (n1 := 128) y⟩
  have hN : cfg4.N = 4 := N_4
  have hr : 2560 * t.val + p.val < 10240 := by have := t.isLt; have := p.isLt; omega
  rw [View.read_apply, emb4_3 t p q ⟨_, hr⟩ rfl]
  exact lin_block (V c main_v70) (V c main_v58) (V c main_v72) _ _ _ _ p q ⟨_, hr⟩ (fun k => iblk4_0_apply V c t p k _ rfl)
    (fun k => iblk4_1_apply V c t k q) (iblk4_2_apply V c t q)

-- Row r of the array is in the block of point r / 2560, so after every point the array holds the linear step.
theorem lin4_arr (r : Fin 10240) (j : Fin 128) :
    (Hand.dat4 (F := Ideal) V c).arrAt 3 cfg4.N (ix2 r j)
      = linK (tab2 (V c main_v70)) (tab2 (V c main_v58)) (fun k => V c main_v72 (ix2 0 k)) r j :=
  congrFun ((Hand.dat4 (F := Ideal) V c).arrAt_eq_of_cover 3 _ (fun t _ => flushed4_eq V c t)
    fun (i : S10240x128.Idx) => by
      have hN : cfg4.N = 4 := N_4
      have h0 := idx2_lt0 i
      obtain ⟨t, ht⟩ : ∃ t : Fin cfg4.N, t.val = (i 0).val / 2560 := ⟨⟨(i 0).val / 2560, by omega⟩, rfl⟩
      refine ⟨t, flush4_3 t, Finset.mem_map.mpr ⟨ix2 ⟨(i 0).val % 2560, by omega⟩ (i 1), Finset.mem_univ _, ?_⟩⟩
      exact (emb4_3 t _ _ (i 0) (by show (i 0).val = 2560 * t.val + (i 0).val % 2560; omega)).trans (eq_ix2 i).symm) (ix2 r j)

end Region

end Cert.KernelIdeal.HandVal

end
-- ==== Proof.KI.AggVal5.lean ====
import proofs.«419824_j13683765805591_3_alg».proof.Proof.KI.Agg5
import proofs.«419824_j13683765805591_3_alg».proof.Proof.KI.AggValLib

noncomputable section

open scoped BigOperators

namespace Cert.KernelIdeal.HandVal

open Idealize.ShloMosaic Idealize.ShloMosaic.TcCoe Idealize.ShloMosaic.ValueIdx
open Cert.KernelIdeal Cert.KernelIdeal.Gen Cert.KernelIdeal.Hand Cert.Decode Cert.Alg

variable (V : (c : Dev nD) → (b : Ref sig .tc) → Buf (Elt Ideal) ((c : Thread nD τ).loc b)) (c : Dev nD)

theorem idx5_0 : ∀ t : Fin cfg5.N, win5_0.index t 0 = t.val / 5 ∧ win5_0.index t 1 = t.val % 5 :=
  (by decide +kernel : ∀ t : Fin grid5.N, _)
theorem idx5_1 : ∀ t : Fin cfg5.N, win5_1.index t 0 = t.val % 5 ∧ win5_1.index t 1 = 0 :=
  (by decide +kernel : ∀ t : Fin grid5.N, _)
theorem idx5_2 : ∀ t : Fin cfg5.N, win5_2.index t 0 = 0 ∧ win5_2.index t 1 = 0 :=
  (by decide +kernel : ∀ t : Fin grid5.N, _)
theorem idx5_3 : ∀ t : Fin cfg5.N, win5_3.index t 0 = t.val / 5 ∧ win5_3.index t 1 = 0 :=
  (by decide +kernel : ∀ t : Fin grid5.N, _)

theorem ablk5_apply (t : Fin cfg5.N) (p : Fin 2560) (q : Fin 2048) (r s : Fin 10240)
    (hr : r.val = 2560 * (t.val / 5) + p.val) (hs : s.val = 2048 * (t.val % 5) + q.val) :
    (iblk5 V c 0 t : Vec Ideal S2560x2048 .bf16) (ix2 p q) = tab2 (V c main_v48) r s :=
  congrArg (V c main_v48) (Shape.idx_ext₂
    (show win5_0.index t 0 * 2560 + 1 * p.val = r.val by rw [(idx5_0 t).1, hr]; omega)
    (show win5_0.index t 1 * 2048 + 1 * q.val = s.val by rw [(idx5_0 t).2, hs]; omega))

theorem hblk5_apply (t : Fin cfg5.N) (q : Fin 2048) (j : Fin 128) (s : Fin 10240)
    (hs : s.val = 2048 * (t.val % 5) + q.val) :
    (iblk5 V c 1 t : Vec Ideal S2048x128 .f32) (ix2 q j) = tab2 (V c main_v73) s j :=
  congrArg (V c main_v73) (Shape.idx_ext₂
    (show win5_1.index t 0 * 2048 + 1 * q.val = s.val by rw [(idx5_1 t).1, hs]; omega)
    (win5_1.rect_emb_val_of_index_zero t 1 (idx5_1 t).2 _))

theorem bblk5_apply (t : Fin cfg5.N) (j : Fin 128) :
    (iblk5 V c 2 t : Vec Ideal S1x128 .f32) (ix2 0 j) = V c main_v74 (ix2 0 j) :=
  congrArg (V c main_v74) (Shape.idx_ext₂ (win5_2.rect_emb_val_of_index_zero t 0 (idx5_2 t).1 _)
    (win5_2.rect_emb_val_of_index_zero t 1 (idx5_2 t).2 _))

theorem emb5_3 (t : Fin cfg5.N) (p : Fin 2560) (j : Fin 128) (d : Fin 10240) (hd : d.val = 2560 * (t.val / 5) + p.val) :
    ((cfg5.win 3).blk t).view.emb (ix2 p j) = ix2 d j :=
  Shape.idx_ext₂ (show win5_3.index t 0 * 2560 + 1 * p.val = d.val by rw [(idx5_3 t).1, hd]; omega)
    (win5_3.rect_emb_val_of_index_zero t 1 (idx5_3 t).2 _)

theorem mm5_apply (a : Vec Ideal S2560x2048 .bf16) (h : Vec Ideal S2048x128 .f32) (p : Fin 2560) (j : Fin 128) :
    mm5 a h (ix2 p j) = ∑ q : Fin 2048, a (ix2 p q) * h (ix2 q j) := by
  unfold mm5
  rw [shapeCast_self, shapeCast_self, matmul_zero_eq_dotGeneral]
  exact (StackMember.dotGeneral_plain_apply none a (truncf .bf16 h bitsLt_bf16_f32) p j).trans
    (Finset.sum_congr rfl fun q _ => rfl)

theorem outv5_apply (acc : Vec Ideal S2560x128 .f32) (b : Vec Ideal S1x128 .f32) (p : Fin 2560) (j : Fin 128) :
    outv5 acc b (ix2 p j) = leakyK (acc (ix2 p j) + b (ix2 0 j)) := by
  rw [outv5_eq, leaky_apply, addf_apply, broadcastTo_1b_ab_apply]

-- At a last step the accumulator has run over the five column blocks of its row block, so the stored entry is the aggregation step.
theorem out5_point (t : Fin cfg5.N) (hk : t.val % 5 = 4) (p : Fin 2560) (j : Fin 128) (d : Fin 10240)
    (hd : d.val = 2560 * (t.val / 5) + p.val) :
    outv5 (acc5 V c t) (iblk5 V c 2 t) (ix2 p j)
      = aggK (tab2 (V c main_v48)) (tab2 (V c main_v73)) (fun k => V c main_v74 (ix2 0 k)) d j := by
  refine (outv5_apply (acc5 V c t) (iblk5 V c 2 t) p j).trans ?_
  unfold aggK
  congr 1
  rw [bblk5_apply V c t j]
  congr 1
  refine acc_five_blocks (fun s => tab2 (V c main_v48) d s * tab2 (V c main_v73) s j) (acc5 V c)
    (fun t => mm5 (iblk5 V c 0 t) (iblk5 V c 1 t)) (ix2 p j) (t.val / 5) (acc5_zero V c) (acc5_succ V c)
    (fun t' hi => ?_) t rfl hk
  show mm5 (iblk5 V c 0 t') (iblk5 V c 1 t') (ix2 p j) = _
  rw [mm5_apply, part, dif_pos (Nat.mod_lt _ (by norm_num))]
  refine Finset.sum_congr rfl fun q _ => ?_
  rw [ablk5_apply V c t' p q d ⟨2048 * (t'.val % 5) + q.val, by have := q.isLt; omega⟩ (by rw [hi]; exact hd) rfl,
    hblk5_apply V c t' q j ⟨2048 * (t'.val % 5) + q.val, by have := q.isLt; omega⟩ rfl]

theorem flushed5_eq (t : Fin cfg5.N) (hf : (cfg5.win 3).flush t = true) :
    (dat5 V c).flushed 3 t = ((cfg5.win 3).blk t).view.read (Elt Ideal) (aggG (V c main_v48) (V c main_v73) (V c main_v74)) := by
  show (cfg5.win 3).cut (grid5.coords t) ((dat5 V c).after 3 t) = _
  rw [after5_3]
  funext y
  obtain ⟨p, j, rfl⟩ : ∃ (p : Fin 2560) (j : Fin 128), y = ix2 p j := ⟨y 0, y 1, eq_ix2 y⟩
  have hN : cfg5.N = 20 := N_5
  have hd : 2560 * (t.val / 5) + p.val < 10240 := by have := t.isLt; have := p.isLt; omega
  rw [View.read_apply, emb5_3 t p j ⟨_, hd⟩ rfl]
  exact out5_point V c t ((flush5_3 t).mp hf) p j ⟨_, hd⟩ rfl

-- Row d of the array is in the block of the last step of row block d / 2560, so after every point the array holds the aggregation step.
theorem agg5_arr (d : Fin 10240) (j : Fin 128) :
    (Hand.dat5 (F := Ideal) V c).arrAt 3 cfg5.N (ix2 d j)
      = aggK (tab2 (V c main_v48)) (tab2 (V c main_v73)) (fun k => V c main_v74 (ix2 0 k)) d j :=
  congrFun ((dat5 V c).arrAt_eq_of_cover 3 _ (flushed5_eq V c) fun (x : S10240x128.Idx) => by
    have hN : cfg5.N = 20 := N_5
    have h0 := idx2_lt0 x
    obtain ⟨t, ht⟩ : ∃ t : Fin cfg5.N, t.val = 5 * ((x 0).val / 2560) + 4 := ⟨⟨_, by omega⟩, rfl⟩
    refine ⟨t, (flush5_3 t).mpr (by omega), Finset.mem_map.mpr ⟨ix2 ⟨(x 0).val % 2560, by omega⟩ (x 1), Finset.mem_univ _, ?_⟩⟩
    exact (emb5_3 t _ _ (x 0) (by show (x 0).val = 2560 * (t.val / 5) + (x 0).val % 2560; omega)).trans (eq_ix2 x).symm) (ix2 d j)

end Cert.KernelIdeal.HandVal

end
-- ==== Proof.KI.LinVal6.lean ====
import proofs.«419824_j13683765805591_3_alg».proof.Proof.KI.Lin6
import proofs.«419824_j13683765805591_3_alg».proof.Proof.KI.LinValLib

noncomputable section

open scoped BigOperators

namespace Cert.KernelIdeal.HandVal

open Idealize.ShloMosaic Idealize.ShloMosaic.TcCoe Idealize.ShloMosaic.ValueIdx
open Cert.KernelIdeal Cert.KernelIdeal.Gen Cert.Decode Cert.Alg

theorem idx_facts6 : ∀ t : Fin cfg6.N,
    win6_0.index t 0 = t.val ∧ win6_0.index t 1 = 0
    ∧ win6_1.index t 0 = 0 ∧ win6_1.index t 1 = 0
    ∧ win6_2.index t 0 = 0 ∧ win6_2.index t 1 = 0
    ∧ win6_3.index t 0 = t.val ∧ win6_3.index t 1 = 0 :=
  (by decide +kernel : ∀ t : Fin grid6.N, _)

section Region
variable (V : (c : Dev nD) → (b : Ref sig .tc) → Buf (Elt Ideal) ((c : Thread nD τ).loc b)) (c : Dev nD) (t : Fin cfg6.N)

theorem iblk6_0_apply (p : Fin 2560) (k : Fin 128) (r : Fin 10240) (hr : r.val = 2560 * t.val + p.val) :
    Hand.iblk6 (F := Ideal) V c 0 t (ix2 p k) = V c main_v75 (ix2 r k) := by
  obtain ⟨e0, e1, -⟩ := idx_facts6 t
  exact congrArg (V c main_v75) (Shape.idx_ext₂
    (show win6_0.index t 0 * 2560 + 1 * p.val = r.val by rw [e0, hr]; omega)
    (win6_0.rect_emb_val_of_index_zero t 1 e1 _))

theorem iblk6_1_apply (k : Fin 128) (q : Fin 128) :
    Hand.iblk6 (F := Ideal) V c 1 t (ix2 k q) = V c main_v59 (ix2 k q) := by
  obtain ⟨-, -, e2, e3, -⟩ := idx_facts6 t
  exact congrArg (V c main_v59) (Shape.idx_ext₂ (win6_1.rect_emb_val_of_index_zero t 0 e2 _)
    (win6_1.rect_emb_val_of_index_zero t 1 e3 _))

theorem iblk6_2_apply (q : Fin 128) :
    Hand.iblk6 (F := Ideal) V c 2 t (ix2 0 q) = V c main_v77 (ix2 0 q) := by
  obtain ⟨-, -, -, -, e4, e5, -⟩ := idx_facts6 t
  exact congrArg (V c main_v77) (Shape.idx_ext₂ (win6_2.rect_emb_val_of_index_zero t 0 e4 _)
    (win6_2.rect_emb_val_of_index_zero t 1 e5 _))

theorem emb6_3 (p : Fin 2560) (q : Fin 128) (r : Fin 10240) (hr : r.val = 2560 * t.val + p.val) :
    ((cfg6.win 3).blk t).view.emb (ix2 p q) = ix2 r q := by
  obtain ⟨-, -, -, -, -, -, e6, e7⟩ := idx_facts6 t
  exact Shape.idx_ext₂ (show win6_3.index t 0 * 2560 + 1 * p.val = r.val by rw [e6, hr]; omega)
    (win6_3.rect_emb_val_of_index_zero t 1 e7 _)
-- The input blocks of point t are rows 2560·t … of x, all of W and the bias row, so the block it writes back is those rows of the linear step.
theorem flushed6_eq : (Hand.dat6 (F := Ideal) V c).flushed 3 t
    = ((cfg6.win 3).blk t).view.read (Elt Ideal) (linG (V c main_v75) (V c main_v59) (V c main_v77)) := by
  show (cfg6.win 3).cut (grid6.coords t) ((Hand.dat6 (F := Ideal) V c).after 3 t) = _
  rw [Hand.after6_3, Hand.out6_3_eq, shapeCast_self, shapeCast_self, shapeCast_self]
  funext y
  obtain ⟨p, q, rfl⟩ : ∃ (p : Fin 2560) (q : Fin 128), y = ix2 p q := ⟨y 0, y 1, eq_ix2 (n0 := 2560) (n1 := 128) y⟩
  have hN : cfg6.N = 4 := N_6
  have hr : 2560 * t.val + p.val < 10240 := by have := t.isLt; have := p.isLt; omega
  rw [View.read_apply, emb6_3 t p q ⟨_, hr⟩ rfl]
  exact lin_block (V c main_v75) (V c main_v59) (V c main_v77) _ _ _ _ p q ⟨_, hr⟩ (fun k => iblk6_0_apply V c t p k _ rfl)
    (fun k => iblk6_1_apply V c t k q) (iblk6_2_apply V c t q)

-- Row r of the array is in the block of point r / 2560, so after every point the array holds the linear step.
theorem lin6_arr (r : Fin 10240) (j : Fin 128) :
    (Hand.dat6 (F := Ideal) V c).arrAt 3 cfg6.N (ix2 r j)
      = linK (tab2 (V c main_v75)) (tab2 (V c main_v59)) (fun k => V c main_v77 (ix2 0 k)) r j :=
  congrFun ((Hand.dat6 (F := Ideal) V c).arrAt_eq_of_cover 3 _ (fun t _ => flushed6_eq V c t)
    fun (i : S10240x128.Idx) => by
      have hN : cfg6.N = 4 := N_6
      have h0 := idx2_lt0 i
      obtain ⟨t, ht⟩ : ∃ t : Fin cfg6.N, t.val = (i 0).val / 2560 := ⟨⟨(i 0).val / 2560, by omega⟩, rfl⟩
      refine ⟨t, flush6_3 t, Finset.mem_map.mpr ⟨ix2 ⟨(i 0).val % 2560, by omega⟩ (i 1), Finset.mem_univ _, ?_⟩⟩
      exact (emb6_3 t _ _ (i 0) (by show (i 0).val = 2560 * t.val + (i 0).val % 2560; omega)).trans (eq_ix2 i).symm) (ix2 r j)

end Region

end Cert.KernelIdeal.HandVal

end
-- ==== Proof.KI.AggVal7.lean ====
import proofs.«419824_j13683765805591_3_alg».proof.Proof.KI.Agg7
import proofs.«419824_j13683765805591_3_alg».proof.Proof.KI.AggValLib

noncomputable section

open scoped BigOperators

namespace Cert.KernelIdeal.HandVal

open Idealize.ShloMosaic Idealize.ShloMosaic.TcCoe Idealize.ShloMosaic.ValueIdx
open Cert.KernelIdeal Cert.KernelIdeal.Gen Cert.KernelIdeal.Hand Cert.Decode Cert.Alg

variable (V : (c : Dev nD) → (b : Ref sig .tc) → Buf (Elt Ideal) ((c : Thread nD τ).loc b)) (c : Dev nD)

theorem idx7_0 : ∀ t : Fin cfg7.N, win7_0.index t 0 = t.val / 5 ∧ win7_0.index t 1 = t.val % 5 :=
  (by decide +kernel : ∀ t : Fin grid7.N, _)
theorem idx7_1 : ∀ t : Fin cfg7.N, win7_1.index t 0 = t.val % 5 ∧ win7_1.index t 1 = 0 :=
  (by decide +kernel : ∀ t : Fin grid7.N, _)
theorem idx7_2 : ∀ t : Fin cfg7.N, win7_2.index t 0 = 0 ∧ win7_2.index t 1 = 0 :=
  (by decide +kernel : ∀ t : Fin grid7.N, _)
theorem idx7_3 : ∀ t : Fin cfg7.N, win7_3.index t 0 = t.val / 5 ∧ win7_3.index t 1 = 0 :=
  (by decide +kernel : ∀ t : Fin grid7.N, _)

theorem ablk7_apply (t : Fin cfg7.N) (p : Fin 2560) (q : Fin 2048) (r s : Fin 10240)
    (hr : r.val = 2560 * (t.val / 5) + p.val) (hs : s.val = 2048 * (t.val % 5) + q.val) :
    (iblk7 V c 0 t : Vec Ideal S2560x2048 .bf16) (ix2 p q) = tab2 (V c main_v48) r s :=
  congrArg (V c main_v48) (Shape.idx_ext₂
    (show win7_0.index t 0 * 2560 + 1 * p.val = r.val by rw [(idx7_0 t).1, hr]; omega)
    (show win7_0.index t 1 * 2048 + 1 * q.val = s.val by rw [(idx7_0 t).2, hs]; omega))

theorem hblk7_apply (t : Fin cfg7.N) (q : Fin 2048) (j : Fin 128) (s : Fin 10240)
    (hs : s.val = 2048 * (t.val % 5) + q.val) :
    (iblk7 V c 1 t : Vec Ideal S2048x128 .f32) (ix2 q j) = tab2 (V c main_v78) s j :=
  congrArg (V c main_v78) (Shape.idx_ext₂
    (show win7_1.index t 0 * 2048 + 1 * q.val = s.val by rw [(idx7_1 t).1, hs]; omega)
    (win7_1.rect_emb_val_of_index_zero t 1 (idx7_1 t).2 _))

theorem bblk7_apply (t : Fin cfg7.N) (j : Fin 128) :
    (iblk7 V c 2 t : Vec Ideal S1x128 .f32) (ix2 0 j) = V c main_v79 (ix2 0 j) :=
  congrArg (V c main_v79) (Shape.idx_ext₂ (win7_2.rect_emb_val_of_index_zero t 0 (idx7_2 t).1 _)
    (win7_2.rect_emb_val_of_index_zero t 1 (idx7_2 t).2 _))

theorem emb7_3 (t : Fin cfg7.N) (p : Fin 2560) (j : Fin 128) (d : Fin 10240) (hd : d.val = 2560 * (t.val / 5) + p.val) :
    ((cfg7.win 3).blk t).view.emb (ix2 p j) = ix2 d j :=
  Shape.idx_ext₂ (show win7_3.index t 0 * 2560 + 1 * p.val = d.val by rw [(idx7_3 t).1, hd]; omega)
    (win7_3.rect_emb_val_of_index_zero t 1 (idx7_3 t).2 _)

theorem mm7_apply (a : Vec Ideal S2560x2048 .bf16) (h : Vec Ideal S2048x128 .f32) (p : Fin 2560) (j : Fin 128) :
    mm7 a h (ix2 p j) = ∑ q : Fin 2048, a (ix2 p q) * h (ix2 q j) := by
  unfold mm7
  rw [shapeCast_self, shapeCast_self, matmul_zero_eq_dotGeneral]
  exact (StackMember.dotGeneral_plain_apply none a (truncf .bf16 h bitsLt_bf16_f32) p j).trans
    (Finset.sum_congr rfl fun q _ => rfl)

theorem outv7_apply (acc : Vec Ideal S2560x128 .f32) (b : Vec Ideal S1x128 .f32) (p : Fin 2560) (j : Fin 128) :
    outv7 acc b (ix2 p j) = leakyK (acc (ix2 p j) + b (ix2 0 j)) := by
  rw [outv7_eq, leaky_apply, addf_apply, broadcastTo_1b_ab_apply]

-- At a last step the accumulator has run over the five column blocks of its row block, so the stored entry is the aggregation step.
theorem out7_point (t : Fin cfg7.N) (hk : t.val % 5 = 4) (p : Fin 2560) (j : Fin 128) (d : Fin 10240)
    (hd : d.val = 2560 * (t.val / 5) + p.val) :
    outv7 (acc7 V c t) (iblk7 V c 2 t) (ix2 p j)
      = aggK (tab2 (V c main_v48)) (tab2 (V c main_v78)) (fun k => V c main_v79 (ix2 0 k)) d j := by
  refine (outv7_apply (acc7 V c t) (iblk7 V c 2 t) p j).trans ?_
  unfold aggK
  congr 1
  rw [bblk7_apply V c t j]
  congr 1
  refine acc_five_blocks (fun s => tab2 (V c main_v48) d s * tab2 (V c main_v78) s j) (acc7 V c)
    (fun t => mm7 (iblk7 V c 0 t) (iblk7 V c 1 t)) (ix2 p j) (t.val / 5) (acc7_zero V c) (acc7_succ V c)
    (fun t' hi => ?_) t rfl hk
  show mm7 (iblk7 V c 0 t') (iblk7 V c 1 t') (ix2 p j) = _
  rw [mm7_apply, part, dif_pos (Nat.mod_lt _ (by norm_num))]
  refine Finset.sum_congr rfl fun q _ => ?_
  rw [ablk7_apply V c t' p q d ⟨2048 * (t'.val % 5) + q.val, by have := q.isLt; omega⟩ (by rw [hi]; exact hd) rfl,
    hblk7_apply V c t' q j ⟨2048 * (t'.val % 5) + q.val, by have := q.isLt; omega⟩ rfl]

theorem flushed7_eq (t : Fin cfg7.N) (hf : (cfg7.win 3).flush t = true) :
    (dat7 V c).flushed 3 t = ((cfg7.win 3).blk t).view.read (Elt Ideal) (aggG (V c main_v48) (V c main_v78) (V c main_v79)) := by
  show (cfg7.win 3).cut (grid7.coords t) ((dat7 V c).after 3 t) = _
  rw [after7_3]
  funext y
  obtain ⟨p, j, rfl⟩ : ∃ (p : Fin 2560) (j : Fin 128), y = ix2 p j := ⟨y 0, y 1, eq_ix2 y⟩
  have hN : cfg7.N = 20 := N_7
  have hd : 2560 * (t.val / 5) + p.val < 10240 := by have := t.isLt; have := p.isLt; omega
  rw [View.read_apply, emb7_3 t p j ⟨_, hd⟩ rfl]
  exact out7_point V c t ((flush7_3 t).mp hf) p j ⟨_, hd⟩ rfl

-- Row d of the array is in the block of the last step of row block d / 2560, so after every point the array holds the aggregation step.
theorem agg7_arr (d : Fin 10240) (j : Fin 128) :
    (Hand.dat7 (F := Ideal) V c).arrAt 3 cfg7.N (ix2 d j)
      = aggK (tab2 (V c main_v48)) (tab2 (V c main_v78)) (fun k => V c main_v79 (ix2 0 k)) d j :=
  congrFun ((dat7 V c).arrAt_eq_of_cover 3 _ (flushed7_eq V c) fun (x : S10240x128.Idx) => by
    have hN : cfg7.N = 20 := N_7
    have h0 := idx2_lt0 x
    obtain ⟨t, ht⟩ : ∃ t : Fin cfg7.N, t.val = 5 * ((x 0).val / 2560) + 4 := ⟨⟨_, by omega⟩, rfl⟩
    refine ⟨t, (flush7_3 t).mpr (by omega), Finset.mem_map.mpr ⟨ix2 ⟨(x 0).val % 2560, by omega⟩ (x 1), Finset.mem_univ _, ?_⟩⟩
    exact (emb7_3 t _ _ (x 0) (by show (x 0).val = 2560 * (t.val / 5) + (x 0).val % 2560; omega)).trans (eq_ix2 x).symm) (ix2 d j)

end Cert.KernelIdeal.HandVal

end
-- ==== Proof.KI.LinVal8.lean ====
import proofs.«419824_j13683765805591_3_alg».proof.Proof.KI.Lin8
import proofs.«419824_j13683765805591_3_alg».proof.Proof.KI.LinValLib

noncomputable section

open scoped BigOperators

namespace Cert.KernelIdeal.HandVal

open Idealize.ShloMosaic Idealize.ShloMosaic.TcCoe Idealize.ShloMosaic.ValueIdx
open Cert.KernelIdeal Cert.KernelIdeal.Gen Cert.Decode Cert.Alg

theorem idx_facts8 : ∀ t : Fin cfg8.N,
    win8_0.index t 0 = t.val ∧ win8_0.index t 1 = 0
    ∧ win8_1.index t 0 = 0 ∧ win8_1.index t 1 = 0
    ∧ win8_2.index t 0 = 0 ∧ win8_2.index t 1 = 0
    ∧ win8_3.index t 0 = t.val ∧ win8_3.index t 1 = 0 :=
  (by decide +kernel : ∀ t : Fin grid8.N, _)

section Region
variable (V : (c : Dev nD) → (b : Ref sig .tc) → Buf (Elt Ideal) ((c : Thread nD τ).loc b)) (c : Dev nD) (t : Fin cfg8.N)

theorem iblk8_0_apply (p : Fin 2560) (k : Fin 128) (r : Fin 10240) (hr : r.val = 2560 * t.val + p.val) :
    Hand.iblk8 (F := Ideal) V c 0 t (ix2 p k) = V c main_v80 (ix2 r k) := by
  obtain ⟨e0, e1, -⟩ := idx_facts8 t
  exact congrArg (V c main_v80) (Shape.idx_ext₂
    (show win8_0.index t 0 * 2560 + 1 * p.val = r.val by rw [e0, hr]; omega)
    (win8_0.rect_emb_val_of_index_zero t 1 e1 _))

theorem iblk8_1_apply (k : Fin 128) (q : Fin 16) :
    Hand.iblk8 (F := Ideal) V c 1 t (ix2 k q) = V c main_v60 (ix2 k q) := by
  obtain ⟨-, -, e2, e3, -⟩ := idx_facts8 t
  exact congrArg (V c main_v60) (Shape.idx_ext₂ (win8_1.rect_emb_val_of_index_zero t 0 e2 _)
    (win8_1.rect_emb_val_of_index_zero t 1 e3 _))

theorem iblk8_2_apply (q : Fin 16) :
    Hand.iblk8 (F := Ideal) V c 2 t (ix2 0 q) = V c main_v81 (ix2 0 q) := by
  obtain ⟨-, -, -, -, e4, e5, -⟩ := idx_facts8 t
  exact congrArg (V c main_v81) (Shape.idx_ext₂ (win8_2.rect_emb_val_of_index_zero t 0 e4 _)
    (win8_2.rect_emb_val_of_index_zero t 1 e5 _))

theorem emb8_3 (p : Fin 2560) (q : Fin 16) (r : Fin 10240) (hr : r.val = 2560 * t.val + p.val) :
    ((cfg8.win 3).blk t).view.emb (ix2 p q) = ix2 r q := by
  obtain ⟨-, -, -, -, -, -, e6, e7⟩ := idx_facts8 t
  exact Shape.idx_ext₂ (show win8_3.index t 0 * 2560 + 1 * p.val = r.val by rw [e6, hr]; omega)
    (win8_3.rect_emb_val_of_index_zero t 1 e7 _)
-- The input blocks of point t are rows 2560·t … of x, all of W and the bias row, so the block it writes back is those rows of the linear step.
theorem flushed8_eq : (Hand.dat8 (F := Ideal) V c).flushed 3 t
    = ((cfg8.win 3).blk t).view.read (Elt Ideal) (linG (V c main_v80) (V c main_v60) (V c main_v81)) := by
  show (cfg8.win 3).cut (grid8.coords t) ((Hand.dat8 (F := Ideal) V c).after 3 t) = _
  rw [Hand.after8_3, Hand.out8_3_eq, shapeCast_self, shapeCast_self, shapeCast_self]
  funext y
  obtain ⟨p, q, rfl⟩ : ∃ (p : Fin 2560) (q : Fin 16), y = ix2 p q := ⟨y 0, y 1, eq_ix2 (n0 := 2560) (n1 := 16) y⟩
  have hN : cfg8.N = 4 := N_8
  have hr : 2560 * t.val + p.val < 10240 := by have := t.isLt; have := p.isLt; omega
  rw [View.read_apply, emb8_3 t p q ⟨_, hr⟩ rfl]
  exact lin_block (V c main_v80) (V c main_v60) (V c main_v81) _ _ _ _ p q ⟨_, hr⟩ (fun k => iblk8_0_apply V c t p k _ rfl)
    (fun k => iblk8_1_apply V c t k q) (iblk8_2_apply V c t q)

-- Row r of the array is in the block of point r / 2560, so after every point the array holds the linear step.
theorem lin8_arr (r : Fin 10240) (j : Fin 16) :
    (Hand.dat8 (F := Ideal) V c).arrAt 3 cfg8.N (ix2 r j)
      = linK (tab2 (V c main_v80)) (tab2 (V c main_v60)) (fun k => V c main_v81 (ix2 0 k)) r j :=
  congrFun ((Hand.dat8 (F := Ideal) V c).arrAt_eq_of_cover 3 _ (fun t _ => flushed8_eq V c t)
    fun (i : S10240x16.Idx) => by
      have hN : cfg8.N = 4 := N_8
      have h0 := idx2_lt0 i
      obtain ⟨t, ht⟩ : ∃ t : Fin cfg8.N, t.val = (i 0).val / 2560 := ⟨⟨(i 0).val / 2560, by omega⟩, rfl⟩
      refine ⟨t, flush8_3 t, Finset.mem_map.mpr ⟨ix2 ⟨(i 0).val % 2560, by omega⟩ (i 1), Finset.mem_univ _, ?_⟩⟩
      exact (emb8_3 t _ _ (i 0) (by show (i 0).val = 2560 * t.val + (i 0).val % 2560; omega)).trans (eq_ix2 i).symm) (ix2 r j)

end Region

end Cert.KernelIdeal.HandVal

end
-- ==== Proof.KI.KVal.lean ====
import proofs.«419824_j13683765805591_3_alg».proof.Proof.KI.Run
import proofs.«419824_j13683765805591_3_alg».proof.Proof.KI.LinVal0
import proofs.«419824_j13683765805591_3_alg».proof.Proof.KI.AggVal1
import proofs.«419824_j13683765805591_3_alg».proof.Proof.KI.LinVal2
import proofs.«419824_j13683765805591_3_alg».proof.Proof.KI.AggVal3
import proofs.«419824_j13683765805591_3_alg».proof.Proof.KI.LinVal4
import proofs.«419824_j13683765805591_3_alg».proof.Proof.KI.AggVal5
import proofs.«419824_j13683765805591_3_alg».proof.Proof.KI.LinVal6
import proofs.«419824_j13683765805591_3_alg».proof.Proof.KI.AggVal7
import proofs.«419824_j13683765805591_3_alg».proof.Proof.KI.LinVal8
import proofs.«419824_j13683765805591_3_alg».proof.Proof.KI.HostVal
import proofs.«419824_j13683765805591_3_alg».proof.Proof.Decode
import proofs.«419824_j13683765805591_3_alg».proof.Proof.AlgDefs

noncomputable section

open scoped BigOperators

namespace Cert.KernelIdeal.KVal

open Idealize.ShloMosaic Idealize.ShloMosaic.TcCoe Idealize.ShloMosaic.ValueIdx
open Cert.KernelIdeal Cert.KernelIdeal.Gen Cert.Decode Cert.Alg

variable (m : (ℓ : Loc nD τ sig) → Buf (Elt Ideal) ℓ) (c : Dev nD)

set_option quotPrecheck false

local notation "a0" => m ((c : Thread nD τ).loc main_arg0)
local notation "a2" => m ((c : Thread nD τ).loc main_arg2)
local notation "a3" => m ((c : Thread nD τ).loc main_arg3)
local notation "a4" => m ((c : Thread nD τ).loc main_arg4)
local notation "a5" => m ((c : Thread nD τ).loc main_arg5)
local notation "a6" => m ((c : Thread nD τ).loc main_arg6)
local notation "a7" => m ((c : Thread nD τ).loc main_arg7)
local notation "a8" => m ((c : Thread nD τ).loc main_arg8)
local notation "a9" => m ((c : Thread nD τ).loc main_arg9)
local notation "a10" => m ((c : Thread nD τ).loc main_arg10)
local notation "a11" => m ((c : Thread nD τ).loc main_arg11)

local notation "𝔸" => tab2 (Gen.V13 (F := Ideal) m c main_v48)

theorem t14 : tab2 (Hand.o14 (F := Ideal) m c) = linK (padRows (tab2 a0)) (tab2 a2) (fun _ => 0) := by
  funext r j
  show Hand.o14 m c (ix2 r j) = _
  rw [Hand.o_eq0, HandVal.lin0_arr]
  show linK (tab2 (Gen.V13 m c main_v50)) (tab2 (Gen.V13 m c main_v56)) (fun k => Gen.V13 m c main_v62 (ix2 0 k)) r j = _
  rw [HostVal.x_pad, HostVal.w1_eq, funext (HostVal.zb0 m c)]

theorem t16 : tab2 (Hand.o16 (F := Ideal) m c) = aggK 𝔸 (tab2 (Hand.o14 (F := Ideal) m c)) (tab1 a3) := by
  funext d j
  show Hand.o16 m c (ix2 d j) = _
  rw [Hand.o_eq1, HandVal.agg1_arr]
  show aggK (tab2 (Hand.W15 m c main_v48)) (tab2 (Hand.W15 m c main_v63)) (fun k => Hand.W15 m c main_v64 (ix2 0 k)) d j = _
  rw [← Hand.V15_eq, HostVal.adj_kept15, HostVal.out63_kept, Hand.outs_14,
    funext (HostVal.b1_eq m (Hand.outs m) c)]

theorem t18 : tab2 (Hand.o18 (F := Ideal) m c) = linK (tab2 (Hand.o16 (F := Ideal) m c)) (tab2 a4) (fun _ => 0) := by
  funext r j
  show Hand.o18 m c (ix2 r j) = _
  rw [Hand.o_eq2, HandVal.lin2_arr]
  show linK (tab2 (Hand.W17 m c main_v65)) (tab2 (Hand.W17 m c main_v57)) (fun k => Hand.W17 m c main_v67 (ix2 0 k)) r j = _
  rw [← Hand.V17_eq, HostVal.out65_kept, Hand.outs_16, HostVal.w2_eq,
    funext (HostVal.zb2 m (Hand.outs m) c)]

theorem t20 : tab2 (Hand.o20 (F := Ideal) m c) = aggK 𝔸 (tab2 (Hand.o18 (F := Ideal) m c)) (tab1 a5) := by
  funext d j
  show Hand.o20 m c (ix2 d j) = _
  rw [Hand.o_eq3, HandVal.agg3_arr]
  show aggK (tab2 (Hand.W19 m c main_v48)) (tab2 (Hand.W19 m c main_v68)) (fun k => Hand.W19 m c main_v69 (ix2 0 k)) d j = _
  rw [← Hand.V19_eq, HostVal.adj_kept19, HostVal.out68_kept, Hand.outs_18,
    funext (HostVal.b2_eq m (Hand.outs m) c)]

theorem t22 : tab2 (Hand.o22 (F := Ideal) m c)
    = linK (tab2 (Hand.o20 (F := Ideal) m c)) (padMat (tab2 a6) : Fin 128 → Fin 128 → EReal) (fun _ => 0) := by
  funext r j
  show Hand.o22 m c (ix2 r j) = _
  rw [Hand.o_eq4, HandVal.lin4_arr]
  show linK (tab2 (Hand.W21 m c main_v70)) (tab2 (Hand.W21 m c main_v58)) (fun k => Hand.W21 m c main_v72 (ix2 0 k)) r j = _
  rw [← Hand.V21_eq, HostVal.out70_kept, Hand.outs_20, HostVal.w3_pad,
    funext (HostVal.zb4 m (Hand.outs m) c)]

theorem t24 : tab2 (Hand.o24 (F := Ideal) m c)
    = aggK 𝔸 (tab2 (Hand.o22 (F := Ideal) m c)) (padVec (tab1 a7) : Fin 128 → EReal) := by
  funext d j
  show Hand.o24 m c (ix2 d j) = _
  rw [Hand.o_eq5, HandVal.agg5_arr]
  show aggK (tab2 (Hand.W23 m c main_v48)) (tab2 (Hand.W23 m c main_v73)) (fun k => Hand.W23 m c main_v74 (ix2 0 k)) d j = _
  rw [← Hand.V23_eq, HostVal.adj_kept23, HostVal.out73_kept, Hand.outs_22,
    funext (HostVal.b3_pad m (Hand.outs m) c)]

theorem t26 : tab2 (Hand.o26 (F := Ideal) m c)
    = linK (tab2 (Hand.o24 (F := Ideal) m c)) (padMat (tab2 a8) : Fin 128 → Fin 128 → EReal) (fun _ => 0) := by
  funext r j
  show Hand.o26 m c (ix2 r j) = _
  rw [Hand.o_eq6, HandVal.lin6_arr]
  show linK (tab2 (Hand.W25 m c main_v75)) (tab2 (Hand.W25 m c main_v59)) (fun k => Hand.W25 m c main_v77 (ix2 0 k)) r j = _
  rw [← Hand.V25_eq, HostVal.out75_kept, Hand.outs_24, HostVal.w4_pad,
    funext (HostVal.zb6 m (Hand.outs m) c)]

theorem t28 : tab2 (Hand.o28 (F := Ideal) m c)
    = aggK 𝔸 (tab2 (Hand.o26 (F := Ideal) m c)) (padVec (tab1 a9) : Fin 128 → EReal) := by
  funext d j
  show Hand.o28 m c (ix2 d j) = _
  rw [Hand.o_eq7, HandVal.agg7_arr]
  show aggK (tab2 (Hand.W27 m c main_v48)) (tab2 (Hand.W27 m c main_v78)) (fun k => Hand.W27 m c main_v79 (ix2 0 k)) d j = _
  rw [← Hand.V27_eq, HostVal.adj_kept27, HostVal.out78_kept, Hand.outs_26,
    funext (HostVal.b4_pad m (Hand.outs m) c)]

theorem t30 : tab2 (Hand.o30 (F := Ideal) m c)
    = linK (tab2 (Hand.o28 (F := Ideal) m c)) (padMat (tab2 a10) : Fin 128 → Fin 16 → EReal) (tab1 a11) := by
  funext r j
  show Hand.o30 m c (ix2 r j) = _
  rw [Hand.o_eq8, HandVal.lin8_arr]
  show linK (tab2 (Hand.W29 m c main_v80)) (tab2 (Hand.W29 m c main_v60)) (fun k => Hand.W29 m c main_v81 (ix2 0 k)) r j = _
  rw [← Hand.V29_eq, HostVal.out80_kept, Hand.outs_28, HostVal.wl_pad,
    funext (HostVal.bl_eq m (Hand.outs m) c)]

theorem kernel_logits :
    tab2 (Hand.o30 (F := Ideal) m c)
      = linK (aggK 𝔸 (linK (aggK 𝔸 (linK (aggK 𝔸 (linK (aggK 𝔸 (linK (padRows (tab2 a0)) (tab2 a2) (fun _ => 0)) (tab1 a3))
          (tab2 a4) (fun _ => 0)) (tab1 a5)) (padMat (tab2 a6) : Fin 128 → Fin 128 → EReal) (fun _ => 0)) (padVec (tab1 a7) : Fin 128 → EReal))
          (padMat (tab2 a8) : Fin 128 → Fin 128 → EReal) (fun _ => 0)) (padVec (tab1 a9) : Fin 128 → EReal))
          (padMat (tab2 a10) : Fin 128 → Fin 16 → EReal) (tab1 a11) := by
  rw [t30, t28, t26, t24, t22, t20, t18, t16, t14]

end Cert.KernelIdeal.KVal

end
-- ==== Proof.Ref.Val.lean ====
import proofs.«419824_j13683765805591_3_alg».proof.Proof.Ref.Terms
import proofs.«419824_j13683765805591_3_alg».proof.Proof.Spec
import proofs.«419824_j13683765805591_3_alg».proof.Proof.Decode
import proofs.«419824_j13683765805591_3_alg».proof.Proof.LibIndexedRows
import Idealize.ShloMosaic.Lib.StackMember
import Idealize.ShloMosaic.Lib.IdealHost
import Idealize.ShloMosaic.Lib.ValueLayout
import Idealize.ShloMosaic.Lib.Pipeline.Value
import Idealize.ShloMosaic.Lib.StableHlo.Predicate

noncomputable section

open scoped BigOperators

namespace Cert.ReferenceIdeal.RefVal

open Cert.Decode Cert.Spec Idealize.ShloMosaic Idealize.ShloMosaic.ValueIdx Cert.ReferenceIdeal
open Idealize.ShloMosaic.IndexedRows

theorem wrap_nonneg (x c : BitVec 32) (h : 0 ≤ x.toInt) :
    Scalar.select (IntOp.cmpi .slt x 0#32) (IntOp.addi x c) x = x := by
  have hs : x.slt 0#32 = false := by
    unfold BitVec.slt
    rw [BitVec.toInt_zero]
    exact decide_eq_false (by omega)
  have hc : IntOp.cmpi .slt x 0#32 = 0#1 := by
    show BitVec.ofBool (x.slt 0#32) = 0#1
    rw [hs]; rfl
  rw [hc]; exact select_zero _ _

section Broadcasts
variable {α : Type}

theorem bcast_col {n : Nat} (h : (⟨1, ![n]⟩ : Shape).BroadcastsInDim ⟨2, ![n, 1]⟩ ![0])
    (v : (⟨1, ![n]⟩ : Shape).Idx → α) (p : Fin n) (u : Fin 1) :
    broadcastInDim ⟨2, ![n, 1]⟩ ![0] h v (ix2 p u) = v (ix1 p) :=
  broadcastInDim_apply _ h v _ _ (fun a => by
    match a with
    | ⟨0, _⟩ =>
      have hp := p.isLt
      show p.val = if n = 1 then 0 else p.val
      split
      · omega
      · rfl)

theorem bcast_row {m : Nat} (h : (⟨1, ![m]⟩ : Shape).BroadcastsInDim ⟨2, ![1, m]⟩ ![1])
    (v : (⟨1, ![m]⟩ : Shape).Idx → α) (u : Fin 1) (q : Fin m) :
    broadcastInDim ⟨2, ![1, m]⟩ ![1] h v (ix2 u q) = v (ix1 q) :=
  broadcastInDim_apply _ h v _ _ (fun a => by
    match a with
    | ⟨0, _⟩ =>
      have hq := q.isLt
      show q.val = if m = 1 then 0 else q.val
      split
      · omega
      · rfl)

theorem bcast_of_col {n m : Nat} (h : (⟨2, ![n, 1]⟩ : Shape).BroadcastsInDim ⟨2, ![n, m]⟩ ![0, 1])
    (v : (⟨2, ![n, 1]⟩ : Shape).Idx → α) (p : Fin n) (q : Fin m) :
    broadcastInDim ⟨2, ![n, m]⟩ ![0, 1] h v (ix2 p q) = v (ix2 p 0) :=
  broadcastInDim_apply _ h v _ _ (fun a => by
    match a with
    | ⟨0, _⟩ =>
      have hp := p.isLt
      show p.val = if n = 1 then 0 else p.val
      split
      · omega
      · rfl
    | ⟨1, _⟩ => exact (if_pos rfl).symm)

theorem bcast_of_row {n m : Nat} (h : (⟨2, ![1, m]⟩ : Shape).BroadcastsInDim ⟨2, ![n, m]⟩ ![0, 1])
    (v : (⟨2, ![1, m]⟩ : Shape).Idx → α) (p : Fin n) (q : Fin m) :
    broadcastInDim ⟨2, ![n, m]⟩ ![0, 1] h v (ix2 p q) = v (ix2 0 q) :=
  broadcastInDim_apply _ h v _ _ (fun a => by
    match a with
    | ⟨0, _⟩ => exact (if_pos rfl).symm
    | ⟨1, _⟩ =>
      have hq := q.isLt
      show q.val = if m = 1 then 0 else q.val
      split
      · omega
      · rfl)

end Broadcasts

section Gathers
variable {α : Type}

theorem gather_rows_at {N D E w : Nat} (d : GatherDims ⟨2, ![N, D]⟩ ⟨2, ![E, 1]⟩ ⟨2, ![E, D]⟩)
    (hoff : d.offsetDims = [1]) (hcoll : d.collapsedSliceDims = [0]) (hob : d.operandBatchingDims = [])
    (hsim : d.startIndexMap = [0]) (hivd : d.indexVectorDim = 1)
    (x : (⟨2, ![N, D]⟩ : Shape).Idx → α) (idx : IVec ⟨2, ![E, 1]⟩ w) (e : Fin E) (k : Fin D) (n : Fin N)
    (hn : (idx (ix2 e 0)).toInt = (n.val : ℤ)) :
    Host.gather d x idx (ix2 e k) = x (ix2 n k) := by
  have hN : 0 < N := by have := n.isLt; omega
  refine (gather_rows d hoff hcoll hob hsim hivd x idx e k hN).trans ?_
  have e1 : (⟨min (idx (ix2 e 0)).toInt.toNat (N - 1), by omega⟩ : Fin N) = n := Fin.ext (by
    have := n.isLt
    show min (idx (ix2 e 0)).toInt.toNat (N - 1) = n.val
    omega)
  exact congrArg (fun r => x (ix2 r k)) e1

variable {N E w : Nat} (d : GatherDims ⟨1, ![N]⟩ ⟨2, ![E, 1]⟩ ⟨1, ![E]⟩)

theorem gather_vec_at (hcoll : d.collapsedSliceDims = [0]) (hob : d.operandBatchingDims = [])
    (hsim : d.startIndexMap = [0]) (hivd : d.indexVectorDim = 1)
    (x : (⟨1, ![N]⟩ : Shape).Idx → α) (idx : IVec ⟨2, ![E, 1]⟩ w) (e : Fin E) (n : Fin N)
    (hn : (idx (ix2 e 0)).toInt = (n.val : ℤ)) :
    Host.gather d x idx (ix1 e) = x (ix1 n) := by
  have hN : 0 < N := by have := n.isLt; omega
  have hi : StableHlo.Predicate.ixP e = ix2 e 0 := eq_ix2 _
  rw [Shape.Idx.eq_ofFin (ix1 e), Shape.Idx.eq_ofFin (ix1 n)]
  refine (StableHlo.Predicate.gather_take d hcoll hob hsim hivd x idx _ hN).trans (congrArg x (congrArg _ (Fin.ext ?_)))
  show min (idx (StableHlo.Predicate.ixP e)).toInt.toNat (N - 1) = n.val
  rw [hi]
  have := n.isLt
  omega

end Gathers

section Edges
variable [Cert.ReferenceIdeal.Facts]
open Cert.ReferenceIdeal.Facts₀

theorem srcV_apply (ei : IVec S2x320000 32) (e : Fin 320000) : Terms.srcV ei (ix1 e) = ei (ix2 0 e) := by
  unfold Terms.srcV
  rw [shapeCast_1a_a_apply]
  exact slice2_axis0_apply 0 ei _ 0 e 0 rfl

theorem dstV_apply (ei : IVec S2x320000 32) (e : Fin 320000) : Terms.dstV ei (ix1 e) = ei (ix2 1 e) := by
  unfold Terms.dstV
  rw [shapeCast_1a_a_apply]
  exact slice2_axis0_apply 1 ei _ 0 e 1 rfl

theorem wrapCol_apply {n : Nat} (hb0 : S_.BroadcastsInDim ⟨1, ![n]⟩ (![] : Fin 0 → Fin 1))
    (hb1 : (⟨1, ![n]⟩ : Shape).BroadcastsInDim ⟨2, ![n, 1]⟩ ![0]) (v : IVec ⟨1, ![n]⟩ 32) (c : BitVec 32) (e : Fin n)
    (h : 0 ≤ (v (ix1 e)).toInt) :
    broadcastInDim ⟨2, ![n, 1]⟩ ![0] hb1 (select (cmpi .slt v (broadcastInDim ⟨1, ![n]⟩ ![] hb0 (constantI S_ 32 0#32)))
      (addi v (broadcastInDim ⟨1, ![n]⟩ ![] hb0 (constantI S_ 32 c))) v) (ix2 e 0) = v (ix1 e) := by
  rw [bcast_col]
  show Scalar.select (IntOp.cmpi .slt (v (ix1 e)) (broadcastInDim ⟨1, ![n]⟩ ![] hb0 (constantI S_ 32 0#32) (ix1 e)))
      (IntOp.addi (v (ix1 e)) (broadcastInDim ⟨1, ![n]⟩ ![] hb0 (constantI S_ 32 c) (ix1 e))) (v (ix1 e)) = v (ix1 e)
  rw [broadcastInDim_scalar_apply, broadcastInDim_scalar_apply]
  exact wrap_nonneg _ _ h

theorem srcW_apply (ei : IVec S2x320000 32) (hin : InRange ei) (e : Fin 320000) :
    Terms.srcW ei (ix2 e 0) = ei (ix2 0 e) := by
  unfold Terms.srcW Terms.wrapW
  rw [wrapCol_apply _ _ _ _ e (by rw [srcV_apply]; exact (hin _).1), srcV_apply]

theorem dstW_apply (ei : IVec S2x320000 32) (hin : InRange ei) (e : Fin 320000) :
    Terms.dstW ei (ix2 e 0) = ei (ix2 1 e) := by
  unfold Terms.dstW Terms.wrapW
  rw [wrapCol_apply _ _ _ _ e (by rw [dstV_apply]; exact (hin _).1), dstV_apply]

theorem srcW_toInt (ei : IVec S2x320000 32) (hin : InRange ei) (e : Fin 320000) :
    (Terms.srcW ei (ix2 e 0)).toInt = ((srcOf ei hin e).val : ℤ) := by
  rw [srcW_apply ei hin]; exact srcOf_toInt ei hin e

theorem dstW_toInt (ei : IVec S2x320000 32) (hin : InRange ei) (e : Fin 320000) :
    (Terms.dstW ei (ix2 e 0)).toInt = ((dstOf ei hin e).val : ℤ) := by
  rw [dstW_apply ei hin]; exact dstOf_toInt ei hin e

theorem filter_dst (ei : IVec S2x320000 32) (hin : InRange ei) (d : Fin 10000) :
    Finset.univ.filter (fun e : Fin 320000 => (Terms.dstW ei (ix2 e 0)).toInt = (d.val : ℤ))
      = Finset.univ.filter (fun e : Fin 320000 => dstOf ei hin e = d) :=
  Finset.filter_congr fun e _ => by
    rw [dstW_toInt ei hin e, Fin.ext_iff]
    exact Nat.cast_inj

end Edges

section Degree

theorem rsqrtDegree_apply {N E : Nat} (d : ScatterDims ⟨1, ![N]⟩ ⟨2, ![E, 1]⟩ ⟨1, ![E]⟩)
    (hiw : d.insertedWindowDims = [0]) (hsd : d.scatterDimsToOperandDims = [0]) (hivd : d.indexVectorDim = 1)
    (hbN : S_.BroadcastsInDim ⟨1, ![N]⟩ (![] : Fin 0 → Fin 1)) (hbE : S_.BroadcastsInDim ⟨1, ![E]⟩ (![] : Fin 0 → Fin 1))
    (idx : IVec ⟨2, ![E, 1]⟩ 32) (n : Fin N) :
    Host.rsqrt (addf (Host.scatterAdd (F := Ideal) d
        (broadcastInDim ⟨1, ![N]⟩ ![] hbN (constant (F := Ideal) S_ .f32 0x00000000#32)) idx
        (broadcastInDim ⟨1, ![E]⟩ ![] hbE (constant (F := Ideal) S_ .f32 0x3F800000#32)))
        (broadcastInDim ⟨1, ![N]⟩ ![] hbN (constant (F := Ideal) S_ .f32 0x3F800000#32))) (ix1 n)
      = Ideal.rsqrt ((0 + ∑ e ∈ Finset.univ.filter (fun e : Fin E => (idx (ix2 e 0)).toInt = (n.val : ℤ)), (1 : EReal)) + 1) := by
  show Ideal.rsqrt (Host.scatterAdd (F := Ideal) d
        (broadcastInDim ⟨1, ![N]⟩ ![] hbN (constant (F := Ideal) S_ .f32 0x00000000#32)) idx
        (broadcastInDim ⟨1, ![E]⟩ ![] hbE (constant (F := Ideal) S_ .f32 0x3F800000#32)) (ix1 n)
      + broadcastInDim ⟨1, ![N]⟩ ![] hbN (constant (F := Ideal) S_ .f32 0x3F800000#32) (ix1 n)) = _
  have hs : ∀ e : Fin E,
      broadcastInDim ⟨1, ![E]⟩ ![] hbE (constant (F := Ideal) S_ .f32 0x3F800000#32) (ix1 e) = 1 := fun e => by
    rw [broadcastInDim_scalar_apply]; exact Ideal.ofBits_one_f32
  rw [host_scatterAdd_vec d hiw hsd hivd, Finset.sum_congr rfl (fun e _ => hs e), broadcastInDim_scalar_apply,
    broadcastInDim_scalar_apply]
  show Ideal.rsqrt (Ideal.ofBits .f32 0x00000000#32 + _ + Ideal.ofBits .f32 0x3F800000#32) = _
  rw [Ideal.ofBits_zero_f32, Ideal.ofBits_one_f32]

end Degree

section Norm
variable [Cert.ReferenceIdeal.Facts]
open Cert.ReferenceIdeal.Facts₀

theorem dinvR_apply (ei : IVec S2x320000 32) (hin : InRange ei) (d : Fin 10000) :
    Terms.dinvR (F := Ideal) ei (ix1 d) = dinv (dstOf ei hin) d := by
  unfold Terms.dinvR
  rw [rsqrtDegree_apply _ rfl rfl rfl, filter_dst ei hin d]
  rfl

theorem coefR_apply (ei : IVec S2x320000 32) (hin : InRange ei) (e : Fin 320000) :
    Terms.coefR (F := Ideal) ei (ix1 e) = coef (srcOf ei hin) (dstOf ei hin) e := by
  unfold Terms.coefR
  rw [mulf_apply,
    gather_vec_at _ rfl rfl rfl rfl _ _ e (srcOf ei hin e) (srcW_toInt ei hin e),
    gather_vec_at _ rfl rfl rfl rfl _ _ e (dstOf ei hin e) (dstW_toInt ei hin e),
    dinvR_apply ei hin, dinvR_apply ei hin]
  rfl

end Norm

section Stages
variable {α : Type}

theorem leaky_scalar (z y s : EReal) (hz : z = 0) :
    Scalar.select (Ideal.cmp .oge y z) y (s * y) = if 0 ≤ y then y else s * y := by
  subst hz
  unfold Scalar.select Ideal.cmp
  by_cases h : (0 : EReal) ≤ y
  · simp [h]
  · simp [h]

theorem leaky_apply {s : Shape} (hb : S_.BroadcastsInDim s (![] : Fin 0 → Fin s.rank)) (x : FVec Ideal s .f32) (i : s.Idx) :
    select (cmpf .oge x (broadcastInDim s ![] hb (constant (F := Ideal) S_ .f32 0x00000000#32))) x
      (mulf (broadcastInDim s ![] hb (constant (F := Ideal) S_ .f32 0x3DCCCCCD#32)) x) i = leaky (x i) := by
  show Scalar.select (Ideal.cmp .oge (x i) (broadcastInDim s ![] hb (constant (F := Ideal) S_ .f32 0x00000000#32) i)) (x i)
      (broadcastInDim s ![] hb (constant (F := Ideal) S_ .f32 0x3DCCCCCD#32) i * x i) = _
  rw [broadcastInDim_scalar_apply, broadcastInDim_scalar_apply]
  exact leaky_scalar _ _ _ Ideal.ofBits_zero_f32

theorem agg_apply {N D E : Nat} (ds : ScatterDims ⟨2, ![N, D]⟩ ⟨2, ![E, 1]⟩ ⟨2, ![E, D]⟩)
    (dg : GatherDims ⟨2, ![N, D]⟩ ⟨2, ![E, 1]⟩ ⟨2, ![E, D]⟩)
    (huw : ds.updateWindowDims = [1]) (hiw : ds.insertedWindowDims = [0]) (hsd : ds.scatterDimsToOperandDims = [0])
    (hivd : ds.indexVectorDim = 1)
    (hoff : dg.offsetDims = [1]) (hcoll : dg.collapsedSliceDims = [0]) (hob : dg.operandBatchingDims = [])
    (hsim : dg.startIndexMap = [0]) (hivd' : dg.indexVectorDim = 1)
    (hb0 : S_.BroadcastsInDim ⟨2, ![N, D]⟩ (![] : Fin 0 → Fin 2))
    (hb1 : (⟨1, ![E]⟩ : Shape).BroadcastsInDim ⟨2, ![E, 1]⟩ ![0])
    (hb2 : (⟨2, ![E, 1]⟩ : Shape).BroadcastsInDim ⟨2, ![E, D]⟩ ![0, 1])
    (hw : FVec Ideal ⟨2, ![N, D]⟩ .f32) (idxS idxD : IVec ⟨2, ![E, 1]⟩ 32) (cf : FVec Ideal ⟨1, ![E]⟩ .f32)
    (src : Fin E → Fin N) (hsrc : ∀ e, (idxS (ix2 e 0)).toInt = ((src e).val : ℤ)) (n : Fin N) (k : Fin D) :
    Host.scatterAdd (F := Ideal) ds (broadcastInDim ⟨2, ![N, D]⟩ ![] hb0 (constant (F := Ideal) S_ .f32 0x00000000#32)) idxD
        (mulf (Host.gather dg hw idxS)
          (broadcastInDim ⟨2, ![E, D]⟩ ![0, 1] hb2 (broadcastInDim ⟨2, ![E, 1]⟩ ![0] hb1 cf))) (ix2 n k)
      = 0 + ∑ e ∈ Finset.univ.filter (fun e : Fin E => (idxD (ix2 e 0)).toInt = (n.val : ℤ)),
          hw (ix2 (src e) k) * cf (ix1 e) := by
  rw [host_scatterAdd_rows ds huw hiw hsd hivd, broadcastInDim_scalar_apply]
  congr 1
  · exact Ideal.ofBits_zero_f32
  · refine Finset.sum_congr rfl fun e _ => ?_
    rw [mulf_apply, gather_rows_at dg hoff hcoll hob hsim hivd' hw idxS e k (src e) (hsrc e), bcast_of_col, bcast_col]

theorem self_apply {N D : Nat} (hb1 : (⟨1, ![N]⟩ : Shape).BroadcastsInDim ⟨2, ![N, 1]⟩ ![0])
    (hb2 : (⟨2, ![N, 1]⟩ : Shape).BroadcastsInDim ⟨2, ![N, D]⟩ ![0, 1])
    (hw : FVec Ideal ⟨2, ![N, D]⟩ .f32) (dv : FVec Ideal ⟨1, ![N]⟩ .f32) (n : Fin N) (k : Fin D) :
    mulf hw (broadcastInDim ⟨2, ![N, D]⟩ ![0, 1] hb2 (broadcastInDim ⟨2, ![N, 1]⟩ ![0] hb1 (mulf dv dv))) (ix2 n k)
      = hw (ix2 n k) * (dv (ix1 n) * dv (ix1 n)) := by
  rw [mulf_apply, bcast_of_col, bcast_col, mulf_apply]

theorem bias_apply {N D : Nat} (hb1 : (⟨1, ![D]⟩ : Shape).BroadcastsInDim ⟨2, ![1, D]⟩ ![1])
    (hb2 : (⟨2, ![1, D]⟩ : Shape).BroadcastsInDim ⟨2, ![N, D]⟩ ![0, 1])
    (b : (⟨1, ![D]⟩ : Shape).Idx → α) (n : Fin N) (k : Fin D) :
    broadcastInDim ⟨2, ![N, D]⟩ ![0, 1] hb2 (broadcastInDim ⟨2, ![1, D]⟩ ![1] hb1 b) (ix2 n k) = b (ix1 k) := by
  rw [bcast_of_row, bcast_row]

theorem dot_eq_plain {m k n : Nat} (dd : DotDims ⟨2, ![m, k]⟩ ⟨2, ![k, n]⟩ ⟨2, ![m, n]⟩)
    (h1 : dd.lhsContracting = [1]) (h2 : dd.rhsContracting = [0]) (h3 : dd.lhsNonContracting = [0])
    (h4 : dd.rhsNonContracting = [1]) (h5 : dd.lhsBatch = []) (h6 : dd.rhsBatch = []) : dd = DotDims.plain m k n := by
  cases dd
  simp only at h1 h2 h3 h4 h5 h6
  subst h1 h2 h3 h4 h5 h6
  rfl

theorem dot_apply {m k n : Nat} (dd : DotDims ⟨2, ![m, k]⟩ ⟨2, ![k, n]⟩ ⟨2, ![m, n]⟩)
    (h1 : dd.lhsContracting = [1]) (h2 : dd.rhsContracting = [0]) (h3 : dd.lhsNonContracting = [0])
    (h4 : dd.rhsNonContracting = [1]) (h5 : dd.lhsBatch = []) (h6 : dd.rhsBatch = [])
    (A : FVec Ideal ⟨2, ![m, k]⟩ .f32) (B : FVec Ideal ⟨2, ![k, n]⟩ .f32) (a : Fin m) (b : Fin n) :
    Host.dotGeneral dd none A B (ix2 a b) = ∑ c : Fin k, A (ix2 a c) * B (ix2 c b) := by
  rw [dot_eq_plain dd h1 h2 h3 h4 h5 h6]
  exact StackMember.dotGeneral_plain_apply none A B a b

end Stages

section Layer
variable [Cert.ReferenceIdeal.Facts]
open Cert.ReferenceIdeal.Facts₀

variable {fi fo : Nat}
  {ds : ScatterDims ⟨2, ![10000, fo]⟩ S320000x1 ⟨2, ![320000, fo]⟩}
  {dg : GatherDims ⟨2, ![10000, fo]⟩ S320000x1 ⟨2, ![320000, fo]⟩}
  {dd : DotDims ⟨2, ![10000, fi]⟩ ⟨2, ![fi, fo]⟩ ⟨2, ![10000, fo]⟩}
  {hb0 : S_.BroadcastsInDim ⟨2, ![10000, fo]⟩ (![] : Fin 0 → Fin 2)}
  {hbE : S320000x1.BroadcastsInDim ⟨2, ![320000, fo]⟩ ![0, 1]}
  {hbN : S10000x1.BroadcastsInDim ⟨2, ![10000, fo]⟩ ![0, 1]}
  {hbB1 : (⟨1, ![fo]⟩ : Shape).BroadcastsInDim ⟨2, ![1, fo]⟩ ![1]}
  {hbB2 : (⟨2, ![1, fo]⟩ : Shape).BroadcastsInDim ⟨2, ![10000, fo]⟩ ![0, 1]}

-- With rows gathered and scatter-added by an index column and the plain product, a layer's table is the specification's.
theorem layerG_tab (ei : IVec S2x320000 32) (hin : InRange ei)
    (h : FVec Ideal ⟨2, ![10000, fi]⟩ .f32) (W : FVec Ideal ⟨2, ![fi, fo]⟩ .f32) (b : FVec Ideal ⟨1, ![fo]⟩ .f32)
    (huw : ds.updateWindowDims = [1] := by rfl) (hiw : ds.insertedWindowDims = [0] := by rfl)
    (hsd : ds.scatterDimsToOperandDims = [0] := by rfl) (hivd : ds.indexVectorDim = 1 := by rfl)
    (hoff : dg.offsetDims = [1] := by rfl) (hcoll : dg.collapsedSliceDims = [0] := by rfl)
    (hob : dg.operandBatchingDims = [] := by rfl) (hsim : dg.startIndexMap = [0] := by rfl)
    (hivd' : dg.indexVectorDim = 1 := by rfl)
    (h1 : dd.lhsContracting = [1] := by rfl) (h2 : dd.rhsContracting = [0] := by rfl)
    (h3 : dd.lhsNonContracting = [0] := by rfl) (h4 : dd.rhsNonContracting = [1] := by rfl)
    (h5 : dd.lhsBatch = [] := by rfl) (h6 : dd.rhsBatch = [] := by rfl) :
    tab2 (Terms.layerG (F := Ideal) ds dg dd hb0 hbE hbN hbB1 hbB2 ei h W b)
      = layer (srcOf ei hin) (dstOf ei hin) (tab2 h) (tab2 W) (tab1 b) := by
  funext d c
  have hdot : ∀ (r : Fin 10000) (c : Fin fo), Host.dotGeneral dd none h W (ix2 r c) = mm (tab2 h) (tab2 W) r c :=
    fun r c => dot_apply dd h1 h2 h3 h4 h5 h6 h W r c
  show Terms.layerG (F := Ideal) ds dg dd hb0 hbE hbN hbB1 hbB2 ei h W b (ix2 d c) = _
  unfold Terms.layerG Terms.leakyG
  rw [leaky_apply]
  unfold Terms.convG
  rw [addf_apply, addf_apply,
    agg_apply ds dg huw hiw hsd hivd hoff hcoll hob hsim hivd' hb0 bcast_S320000_S320000x1_0 hbE _ _ _ _
      (srcOf ei hin) (srcW_toInt ei hin) d c,
    self_apply, bias_apply, filter_dst ei hin d, hdot d c, dinvR_apply ei hin d]
  have hsum : ∑ e ∈ Finset.univ.filter (fun e : Fin 320000 => dstOf ei hin e = d),
        Host.dotGeneral dd none h W (ix2 (srcOf ei hin e) c) * Terms.coefR (F := Ideal) ei (ix1 e)
      = ∑ e ∈ Finset.univ.filter (fun e : Fin 320000 => dstOf ei hin e = d),
        mm (tab2 h) (tab2 W) (srcOf ei hin e) c * coef (srcOf ei hin) (dstOf ei hin) e :=
    Finset.sum_congr rfl fun e _ => by rw [hdot (srcOf ei hin e) c, coefR_apply ei hin e]
  rw [hsum]
  rfl

end Layer

section Instances
variable [Cert.ReferenceIdeal.Facts]
open Cert.ReferenceIdeal.Facts₀

theorem layer1_tab (ei : IVec S2x320000 32) (hin : InRange ei) (h : FVec Ideal S10000x512 .f32)
    (W : FVec Ideal S512x256 .f32) (b : FVec Ideal S256 .f32) :
    tab2 (Terms.layer1 (F := Ideal) ei h W b) = layer (srcOf ei hin) (dstOf ei hin) (tab2 h) (tab2 W) (tab1 b) :=
  layerG_tab ei hin h W b

theorem layer2_tab (ei : IVec S2x320000 32) (hin : InRange ei) (h : FVec Ideal S10000x256 .f32)
    (W : FVec Ideal S256x128 .f32) (b : FVec Ideal S128 .f32) :
    tab2 (Terms.layer2 (F := Ideal) ei h W b) = layer (srcOf ei hin) (dstOf ei hin) (tab2 h) (tab2 W) (tab1 b) :=
  layerG_tab ei hin h W b

theorem layer3_tab (ei : IVec S2x320000 32) (hin : InRange ei) (h : FVec Ideal S10000x128 .f32)
    (W : FVec Ideal S128x56 .f32) (b : FVec Ideal S56 .f32) :
    tab2 (Terms.layer3 (F := Ideal) ei h W b) = layer (srcOf ei hin) (dstOf ei hin) (tab2 h) (tab2 W) (tab1 b) :=
  layerG_tab ei hin h W b

theorem layer4_tab (ei : IVec S2x320000 32) (hin : InRange ei) (h : FVec Ideal S10000x56 .f32)
    (W : FVec Ideal S56x32 .f32) (b : FVec Ideal S32 .f32) :
    tab2 (Terms.layer4 (F := Ideal) ei h W b) = layer (srcOf ei hin) (dstOf ei hin) (tab2 h) (tab2 W) (tab1 b) :=
  layerG_tab ei hin h W b

theorem logitsR_tab (h4 : FVec Ideal S10000x32 .f32) (Wl : FVec Ideal S32x16 .f32) (bl : FVec Ideal S16 .f32) :
    tab2 (Terms.logitsR (F := Ideal) h4 Wl bl) = fun d j => mm (tab2 h4) (tab2 Wl) d j + tab1 bl j := by
  funext d j
  show Terms.logitsR (F := Ideal) h4 Wl bl (ix2 d j) = _
  unfold Terms.logitsR
  rw [addf_apply, dot_apply _ rfl rfl rfl rfl rfl rfl, bias_apply]
  rfl

theorem ref_logits (a0 : FVec Ideal S10000x512 .f32) (a1 : IVec S2x320000 32)
    (a2 : FVec Ideal S512x256 .f32) (a3 : FVec Ideal S256 .f32) (a4 : FVec Ideal S256x128 .f32) (a5 : FVec Ideal S128 .f32)
    (a6 : FVec Ideal S128x56 .f32) (a7 : FVec Ideal S56 .f32) (a8 : FVec Ideal S56x32 .f32) (a9 : FVec Ideal S32 .f32)
    (a10 : FVec Ideal S32x16 .f32) (a11 : FVec Ideal S16 .f32) (hin : InRange a1) :
    tab2 (Terms.logitsR (F := Ideal)
        (Terms.layer4 a1 (Terms.layer3 a1 (Terms.layer2 a1 (Terms.layer1 a1 a0 a2 a3) a4 a5) a6 a7) a8 a9) a10 a11)
      = logits (srcOf a1 hin) (dstOf a1 hin) (tab2 a0) (tab2 a2) (tab1 a3) (tab2 a4) (tab1 a5) (tab2 a6) (tab1 a7)
          (tab2 a8) (tab1 a9) (tab2 a10) (tab1 a11) := by
  rw [logitsR_tab, layer4_tab a1 hin, layer3_tab a1 hin, layer2_tab a1 hin, layer1_tab a1 hin]
  rfl

end Instances

end Cert.ReferenceIdeal.RefVal

end
-- ==== Proof.PreDecode.lean ====
import proofs.«419824_j13683765805591_3_alg».proof.Pre_finite_inputs
import proofs.«419824_j13683765805591_3_alg».proof.Proof.Gen.Pre_finite_inputs
import Idealize.ShloMosaic.Lib.ReduceAll
import Idealize.ShloMosaic.Lib.StableHlo.Predicate
import Idealize.ShloMosaic.PureOps.Ideal

noncomputable section

namespace Cert.PreDecode

open Idealize.ShloMosaic Cert.Pre_finite_inputs

def IsReal {S : Shape} (v : S.Idx → EReal) : Prop := ∀ i, ∃ r : ℝ, v i = (r : EReal)

instance : Subsingleton S_.Idx := ⟨fun a b => funext fun d => d.elim0⟩

def j0 : S_.Idx := fun d => d.elim0

theorem inf_word : Ideal.ofBits .f32 0x7F800000#32 = (⊤ : EReal) := by simp [Ideal.ofBits, Ideal.ieee]

theorem real_of_abs_lt_top (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  have h' : Ideal.cmp .olt (max x (-x)) (Ideal.ofBits .f32 0x7F800000#32) = 1#1 := h
  rw [inf_word] at h'
  unfold Ideal.cmp at h'
  rw [StableHlo.Predicate.ofBool_eq_one_iff, decide_eq_true_eq, max_lt_iff] at h'
  induction x using EReal.rec with
  | bot => exact absurd h'.2 (by simp)
  | coe r => exact ⟨r, rfl⟩
  | top => exact absurd h'.1 (by simp)

theorem isReal_of_all {S : Shape} {axes : List (Fin S.rank)} (a : FVec Ideal S .f32)
    (hb : S_.BroadcastsInDim S (![] : Fin 0 → Fin S.rank)) (hr : S.ReducesTo axes S_) (hu : 0 < S_.numel)
    (e : Host.reduce IntOp.andi
          (cmpf .olt (Host.absf a) (broadcastInDim S ![] hb (constant (F := Ideal) S_ .f32 0x7F800000#32)))
          (constantI S_ 1 1#1) hr hu j0 = 1#1) : IsReal a := by
  intro i
  have hi := Host.reduce_andi_all _ _ hr hu j0 e i
  exact real_of_abs_lt_top (a i) hi

theorem range_of_word (w : BitVec 32) (h0 : IntOp.cmpi .sge w 0#32 = 1#1) (h1 : IntOp.cmpi .slt w 10000#32 = 1#1) :
    0 ≤ w.toInt ∧ w.toInt < 10000 := by
  unfold IntOp.cmpi at h0 h1
  rw [StableHlo.Predicate.ofBool_eq_one_iff] at h0 h1
  simp only [BitVec.sle, BitVec.slt, decide_eq_true_eq] at h0 h1
  have z : (0#32 : BitVec 32).toInt = 0 := by decide
  have t : (10000#32 : BitVec 32).toInt = 10000 := by decide
  rw [z] at h0
  rw [t] at h1
  exact ⟨h0, h1⟩

theorem range_of_all (a1 : IVec S2x320000 32)
    (hb : S_.BroadcastsInDim S2x320000 (![] : Fin 0 → Fin S2x320000.rank)) (hr : S2x320000.ReducesTo [0, 1] S_)
    (hu : 0 < S_.numel)
    (e0 : Host.reduce IntOp.andi (cmpi .sge a1 (broadcastInDim S2x320000 ![] hb (constantI S_ 32 0#32)))
          (constantI S_ 1 1#1) hr hu j0 = 1#1)
    (e1 : Host.reduce IntOp.andi (cmpi .slt a1 (broadcastInDim S2x320000 ![] hb (constantI S_ 32 10000#32)))
          (constantI S_ 1 1#1) hr hu j0 = 1#1) :
    ∀ j : S2x320000.Idx, 0 ≤ (a1 j).toInt ∧ (a1 j).toInt < 10000 := by
  intro j
  have h0 := Host.reduce_andi_all _ _ hr hu j0 e0 j
  have h1 := Host.reduce_andi_all _ _ hr hu j0 e1 j
  exact range_of_word (a1 j) h0 h1

theorem decode [Cert.Pre_finite_inputs.Facts] (a0 : FVec Ideal S10000x512 .f32) (a1 : IVec S2x320000 32) (a2 : FVec Ideal S512x256 .f32) (a3 : FVec Ideal S256 .f32) (a4 : FVec Ideal S256x128 .f32) (a5 : FVec Ideal S128 .f32) (a6 : FVec Ideal S128x56 .f32) (a7 : FVec Ideal S56 .f32) (a8 : FVec Ideal S56x32 .f32) (a9 : FVec Ideal S32 .f32) (a10 : FVec Ideal S32x16 .f32) (a11 : FVec Ideal S16 .f32)
    (h : Cert.Pre_finite_inputs.fn (F := Ideal) a0 a1 a2 a3 a4 a5 a6 a7 a8 a9 a10 a11 = (fun _ => 1#1)) :
    IsReal a0 ∧ IsReal a2 ∧ IsReal a3 ∧ IsReal a4 ∧ IsReal a5 ∧ IsReal a6 ∧ IsReal a7 ∧ IsReal a8 ∧ IsReal a9 ∧ IsReal a10 ∧ IsReal a11
      ∧ (∀ j : S2x320000.Idx, 0 ≤ (a1 j).toInt ∧ (a1 j).toInt < 10000) := by
  have e := congrFun h j0
  unfold Cert.Pre_finite_inputs.fn Cert.Pre_finite_inputs.fn_part1 Cert.Pre_finite_inputs.fn_part2 Cert.Pre_finite_inputs.fn_part3 at e
  dsimp only at e
  simp only [andi, IntOp.andi_eq_one] at e
  obtain ⟨⟨⟨⟨⟨⟨⟨⟨⟨⟨⟨⟨e0, e2⟩, e3⟩, e4⟩, e5⟩, e6⟩, e7⟩, e8⟩, e9⟩, e10⟩, e11⟩, ege⟩, elt⟩ := e
  exact ⟨isReal_of_all a0 _ _ _ e0, isReal_of_all a2 _ _ _ e2, isReal_of_all a3 _ _ _ e3, isReal_of_all a4 _ _ _ e4,
    isReal_of_all a5 _ _ _ e5, isReal_of_all a6 _ _ _ e6, isReal_of_all a7 _ _ _ e7, isReal_of_all a8 _ _ _ e8,
    isReal_of_all a9 _ _ _ e9, isReal_of_all a10 _ _ _ e10, isReal_of_all a11 _ _ _ e11,
    range_of_all a1 _ _ _ ege elt⟩

end Cert.PreDecode

end
-- ==== Proof.AlgL1.lean ====
import proofs.«419824_j13683765805591_3_alg».proof.Proof.AlgDefs

noncomputable section

open scoped BigOperators

namespace Cert.Alg

open Idealize.ShloMosaic Cert.Spec

def IsReal0 (x : EReal) : Prop := ∃ r : ℝ, x = (r : EReal)

theorem R_coe (r : ℝ) : IsReal0 (r : EReal) := ⟨r, rfl⟩

theorem R_zero : IsReal0 0 := ⟨0, EReal.coe_zero.symm⟩

theorem R_add {x y : EReal} (hx : IsReal0 x) (hy : IsReal0 y) : IsReal0 (x + y) := by
  obtain ⟨a, rfl⟩ := hx
  obtain ⟨b, rfl⟩ := hy
  exact ⟨a + b, (EReal.coe_add a b).symm⟩

theorem R_mul {x y : EReal} (hx : IsReal0 x) (hy : IsReal0 y) : IsReal0 (x * y) := by
  obtain ⟨a, rfl⟩ := hx
  obtain ⟨b, rfl⟩ := hy
  exact ⟨a * b, (EReal.coe_mul a b).symm⟩

theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem R_sum {ι : Type*} (s : Finset ι) (f : ι → EReal) (h : ∀ i ∈ s, IsReal0 (f i)) : IsReal0 (∑ i ∈ s, f i) := by
  classical
  induction s using Finset.induction_on with
  | empty => simpa using R_zero
  | insert a s ha ih =>
    rw [Finset.sum_insert ha]
    exact R_add (h _ (Finset.mem_insert_self _ _)) (ih fun i hi => h i (Finset.mem_insert_of_mem hi))

section Graph
variable (src dst : Fin 320000 → Fin 10000)

theorem deg_eq (d : Fin 10000) :
    deg dst d = (((∑ _e ∈ Finset.univ.filter (fun e : Fin 320000 => dst e = d), (1 : ℝ)) + 1 : ℝ) : EReal) := by
  unfold deg
  rw [zero_add, EReal.coe_add, coe_sum, EReal.coe_one]

theorem dinv_R (d : Fin 10000) : IsReal0 (dinv dst d) := by
  have hpos : (0 : ℝ) < (∑ _e ∈ Finset.univ.filter (fun e : Fin 320000 => dst e = d), (1 : ℝ)) + 1 := by
    have : (0 : ℝ) ≤ ∑ _e ∈ Finset.univ.filter (fun e : Fin 320000 => dst e = d), (1 : ℝ) :=
      Finset.sum_nonneg (fun _ _ => zero_le_one)
    linarith
  unfold dinv
  rw [deg_eq, Ideal.rsqrt_coe, if_neg (not_lt.2 hpos.le), if_neg hpos.ne']
  exact R_coe _

theorem coef_R (e : Fin 320000) : IsReal0 (coef src dst e) := R_mul (dinv_R dst _) (dinv_R dst _)

theorem valU_R (u : Fin 330000) : IsReal0 (valU src dst u) := by
  unfold valU
  split_ifs
  · exact coef_R src dst _
  · exact R_mul (dinv_R dst _) (dinv_R dst _)

end Graph

theorem slope_R : IsReal0 Cert.Spec.slope := by
  unfold Cert.Spec.slope
  simp [Ideal.ofBits, Ideal.ieee]
  exact R_coe _

theorem leaky_R {y : EReal} (hy : IsReal0 y) : IsReal0 (leaky y) := by
  unfold leaky
  split_ifs
  · exact hy
  · exact R_mul slope_R hy

theorem leakyK_eq' (y : EReal) : leakyK y = leaky y := by
  unfold leakyK leaky
  rcases lt_trichotomy 0 y with h | h | h
  · rw [if_pos h, if_pos h.le]
  · subst h
    rw [if_neg (lt_irrefl _), if_pos le_rfl, mul_zero]
  · rw [if_neg (not_lt.2 h.le), if_neg (not_le.2 h)]

end Cert.Alg

end
-- ==== Proof.AlgL2.lean ====
import proofs.«419824_j13683765805591_3_alg».proof.Proof.AlgL1

noncomputable section

open scoped BigOperators

namespace Cert.Alg

open Idealize.ShloMosaic Cert.Spec

theorem real_regroup {N U : ℕ} (P : Fin U → Prop) [DecidablePred P] (col : Fin U → Fin N) (v : Fin U → ℝ)
    (γ : Fin N → ℝ) :
    ∑ s : Fin N, (∑ u ∈ Finset.univ.filter (fun u => P u ∧ col u = s), v u) * γ s
      = ∑ u ∈ Finset.univ.filter P, v u * γ (col u) := by
  have h := Finset.sum_fiberwise_of_maps_to (s := Finset.univ.filter P) (t := Finset.univ) (g := col)
    (fun _ _ => Finset.mem_univ _) (fun u => v u * γ (col u))
  rw [← h]
  refine Finset.sum_congr rfl (fun s _ => ?_)
  rw [Finset.sum_mul, Finset.filter_filter]
  refine Finset.sum_congr rfl (fun u hu => ?_)
  rw [(Finset.mem_filter.1 hu).2.2]

theorem ereal_regroup {N n U : ℕ} (P : Fin U → Prop) [DecidablePred P] (col : Fin U → Fin N)
    (hcol : ∀ u, (col u).val < n) (val : Fin U → EReal) (hval : ∀ u, IsReal0 (val u))
    (a : Fin N → EReal) (ha : ∀ s, a s = ∑ u ∈ Finset.univ.filter (fun u => P u ∧ col u = s), val u)
    (g : Fin N → EReal) (hg : ∀ s : Fin N, s.val < n → IsReal0 (g s)) :
    ∑ s, a s * g s = ∑ u ∈ Finset.univ.filter P, val u * g (col u) := by
  choose v hv using hval
  obtain ⟨γ, hγ⟩ : ∃ γ : Fin N → ℝ, ∀ s : Fin N, s.val < n → g s = (γ s : EReal) := by
    classical
    refine ⟨fun s => if h : s.val < n then (hg s h).choose else 0, fun s h => ?_⟩
    simp only [dif_pos h]
    exact (hg s h).choose_spec
  have lhs : ∀ s, a s * g s
      = (((∑ u ∈ Finset.univ.filter (fun u => P u ∧ col u = s), v u) * γ s : ℝ) : EReal) := by
    intro s
    rw [ha s]
    by_cases h : s.val < n
    · rw [hγ s h, EReal.coe_mul, coe_sum]
      congr 1
      exact Finset.sum_congr rfl (fun u _ => hv u)
    · have hempty : Finset.univ.filter (fun u => P u ∧ col u = s) = ∅ := by
        apply Finset.filter_eq_empty_iff.2
        intro u _ hu
        exact h (hu.2 ▸ hcol u)
      rw [hempty, Finset.sum_empty, Finset.sum_empty, zero_mul, zero_mul, EReal.coe_zero]
  have rhs : ∀ u, val u * g (col u) = ((v u * γ (col u) : ℝ) : EReal) := by
    intro u
    rw [hv u, hγ _ (hcol u), EReal.coe_mul]
  rw [Finset.sum_congr rfl (fun s _ => lhs s), Finset.sum_congr rfl (fun u _ => rhs u), ← coe_sum, ← coe_sum,
    real_regroup]

section Graph
variable (src dst : Fin 320000 → Fin 10000)

theorem colU_lt (u : Fin 330000) : colU src u < 10000 := by
  unfold colU
  split_ifs
  · exact (src _).isLt
  · have := u.isLt; omega

def colF (u : Fin 330000) : Fin 10240 := ⟨colU src u, by have := colU_lt src u; omega⟩

theorem pos_iff (u : Fin 330000) (d s : Fin 10240) :
    rowU dst u * 10240 + colU src u = d.val * 10240 + s.val ↔ (rowU dst u = d.val ∧ colF src u = s) := by
  have h1 := colU_lt src u
  have h2 := s.isLt
  rw [Fin.ext_iff]
  show _ ↔ (rowU dst u = d.val ∧ colU src u = s.val)
  omega

theorem row_updates (A : Fin 10240 → Fin 10240 → EReal) (hA : IsAdj src dst A) (g : Fin 10240 → EReal)
    (hg : ∀ s : Fin 10240, s.val < 10000 → IsReal0 (g s)) (d : Fin 10240) :
    ∑ s, A d s * g s
      = ∑ u ∈ Finset.univ.filter (fun u : Fin 330000 => rowU dst u = d.val), valU src dst u * g (colF src u) := by
  refine ereal_regroup (n := 10000) (fun u : Fin 330000 => rowU dst u = d.val) (colF src) (colU_lt src)
    (valU src dst) (valU_R src dst) (A d) (fun s => ?_) g hg
  rw [hA d s, zero_add]
  refine Finset.sum_congr (Finset.filter_congr (fun u _ => ?_)) (fun _ _ => rfl)
  exact pos_iff src dst u d s

end Graph

theorem sum_updates (f : Fin 330000 → EReal) :
    ∑ u, f u = (∑ e : Fin 320000, f ⟨e.val, by have := e.isLt; omega⟩)
      + ∑ i : Fin 10000, f ⟨320000 + i.val, by have := i.isLt; omega⟩ :=
  Fin.sum_univ_add (a := 320000) (b := 10000) f

section Graph
variable (src dst : Fin 320000 → Fin 10000)

theorem rowU_edge (e : Fin 320000) (h : e.val < 330000) : rowU dst ⟨e.val, h⟩ = (dst e).val := by
  show (if h : e.val < 320000 then (dst ⟨e.val, h⟩).val else e.val - 320000) = _
  rw [dif_pos e.isLt]

theorem colF_edge (e : Fin 320000) (h : e.val < 330000) :
    colF src ⟨e.val, h⟩ = ⟨(src e).val, by have := (src e).isLt; omega⟩ := by
  apply Fin.ext
  show (if h : e.val < 320000 then (src ⟨e.val, h⟩).val else e.val - 320000) = _
  rw [dif_pos e.isLt]

theorem valU_edge (e : Fin 320000) (h : e.val < 330000) : valU src dst ⟨e.val, h⟩ = coef src dst e := by
  unfold valU
  rw [dif_pos (show (⟨e.val, h⟩ : Fin 330000).val < 320000 from e.isLt)]

theorem rowU_loop (i : Fin 10000) (h : 320000 + i.val < 330000) : rowU dst ⟨320000 + i.val, h⟩ = i.val := by
  show (if h : 320000 + i.val < 320000 then (dst ⟨320000 + i.val, h⟩).val else 320000 + i.val - 320000) = _
  rw [dif_neg (by omega)]
  omega

theorem colF_loop (i : Fin 10000) (h : 320000 + i.val < 330000) :
    colF src ⟨320000 + i.val, h⟩ = ⟨i.val, by have := i.isLt; omega⟩ := by
  apply Fin.ext
  show (if h : 320000 + i.val < 320000 then (src ⟨320000 + i.val, h⟩).val else 320000 + i.val - 320000) = i.val
  rw [dif_neg (by omega)]
  omega

theorem valU_loop (i : Fin 10000) (h : 320000 + i.val < 330000) :
    valU src dst ⟨320000 + i.val, h⟩ = dinv dst i * dinv dst i := by
  have key : ∀ j : Fin 10000, j.val = i.val → dinv dst j * dinv dst j = dinv dst i * dinv dst i :=
    fun j hj => by rw [Fin.ext hj]
  unfold valU
  rw [dif_neg (show ¬ (⟨320000 + i.val, h⟩ : Fin 330000).val < 320000 by simp)]
  exact key _ (by simp)

theorem regroup (A : Fin 10240 → Fin 10240 → EReal) (hA : IsAdj src dst A) (g : Fin 10240 → EReal)
    (hg : ∀ s : Fin 10240, s.val < 10000 → IsReal0 (g s)) (d : Fin 10000) :
    ∑ s, A ⟨d.val, by have := d.isLt; omega⟩ s * g s
      = (∑ e ∈ Finset.univ.filter (fun e : Fin 320000 => dst e = d),
          coef src dst e * g ⟨(src e).val, by have := (src e).isLt; omega⟩)
        + (dinv dst d * dinv dst d) * g ⟨d.val, by have := d.isLt; omega⟩ := by
  rw [row_updates src dst A hA g hg, Finset.sum_filter, sum_updates]
  refine congrArg₂ (· + ·) ?_ ?_
  · rw [Finset.sum_filter]
    refine Finset.sum_congr rfl (fun e _ => ?_)
    rw [rowU_edge, valU_edge, colF_edge]
    by_cases h : dst e = d
    · rw [if_pos h, if_pos (by rw [h])]
    · rw [if_neg h, if_neg (fun h' => h (Fin.ext h'))]
  · rw [Finset.sum_eq_single d]
    · rw [rowU_loop, if_pos rfl, valU_loop, colF_loop]
    · intro i _ hi
      rw [rowU_loop, if_neg (fun h => hi (Fin.ext h))]
    · intro h
      exact absurd (Finset.mem_univ d) h

end Graph

end Cert.Alg

end
-- ==== Proof.AlgL3.lean ====
import proofs.«419824_j13683765805591_3_alg».proof.Proof.AlgL2

noncomputable section

open scoped BigOperators

namespace Cert.Alg

open Idealize.ShloMosaic Cert.Spec

theorem padded_dot {a a' : ℕ} (haa : a ≤ a') (p q : Fin a' → EReal) (p0 q0 : Fin a → EReal)
    (hp : ∀ (k : Fin a') (hk : k.val < a), p k = p0 ⟨k.val, hk⟩) (hp0 : ∀ k : Fin a', a ≤ k.val → p k = 0)
    (hq : ∀ (k : Fin a') (hk : k.val < a), q k = q0 ⟨k.val, hk⟩) :
    ∑ k, p k * q k = ∑ k, p0 k * q0 k := by
  obtain ⟨t, rfl⟩ := Nat.exists_eq_add_of_le haa
  rw [Fin.sum_univ_add]
  have hz : ∑ j : Fin t, p (Fin.natAdd a j) * q (Fin.natAdd a j) = 0 :=
    Finset.sum_eq_zero (fun j _ => by rw [hp0 _ (by simp [Fin.natAdd]), zero_mul])
  rw [hz, add_zero]
  refine Finset.sum_congr rfl (fun k _ => ?_)
  rw [hp (Fin.castAdd t k) k.isLt, hq (Fin.castAdd t k) k.isLt]
  rfl

def Inv {a a' : ℕ} (hK : Fin 10240 → Fin a' → EReal) (hS : Fin 10000 → Fin a → EReal) : Prop :=
  (∀ (r : Fin 10240) (k : Fin a') (hr : r.val < 10000) (hk : k.val < a), hK r k = hS ⟨r.val, hr⟩ ⟨k.val, hk⟩)
  ∧ (∀ (r : Fin 10240) (k : Fin a'), a ≤ k.val → hK r k = 0)
  ∧ IsReal2 hS

theorem mm_R {a b : ℕ} (hS : Fin 10000 → Fin a → EReal) (W : Fin a → Fin b → EReal) (hh : IsReal2 hS)
    (hW : IsReal2 W) (r : Fin 10000) (c : Fin b) : IsReal0 (mm hS W r c) :=
  R_sum _ _ (fun k _ => R_mul (hh r k) (hW k c))

theorem lin_true {a a' b b' : ℕ} (haa : a ≤ a') (hK : Fin 10240 → Fin a' → EReal) (hS : Fin 10000 → Fin a → EReal)
    (hI : Inv hK hS) (W : Fin a → Fin b → EReal) (r : Fin 10240) (c : Fin b') (hr : r.val < 10000)
    (hc : c.val < b) :
    ∑ k : Fin a', hK r k * (padMat W : Fin a' → Fin b' → EReal) k c = mm hS W ⟨r.val, hr⟩ ⟨c.val, hc⟩ := by
  unfold mm
  refine padded_dot haa (fun k => hK r k) (fun k => padMat W k c) _ _ (fun k hk => hI.1 r k hr hk)
    (fun k hk => hI.2.1 r k hk) (fun k hk => ?_)
  unfold padMat
  rw [dif_pos ⟨hk, hc⟩]

theorem lin_pad {a a' b b' : ℕ} (hK : Fin 10240 → Fin a' → EReal) (W : Fin a → Fin b → EReal) (r : Fin 10240)
    (c : Fin b') (hc : b ≤ c.val) :
    ∑ k : Fin a', hK r k * (padMat W : Fin a' → Fin b' → EReal) k c = 0 := by
  refine Finset.sum_eq_zero (fun k _ => ?_)
  unfold padMat
  rw [dif_neg (fun h => absurd h.2 (not_lt.2 hc)), mul_zero]

theorem padMat_self {a b : ℕ} (W : Fin a → Fin b → EReal) : W = (padMat W : Fin a → Fin b → EReal) := by
  funext k c
  unfold padMat
  rw [dif_pos ⟨k.isLt, c.isLt⟩]

theorem padVec_self {b : ℕ} (v : Fin b → EReal) : v = (padVec v : Fin b → EReal) := by
  funext c
  unfold padVec
  rw [dif_pos c.isLt]

theorem leakyK_zero : leakyK 0 = 0 := by
  unfold leakyK
  rw [if_neg (lt_irrefl _), mul_zero]

section Graph
variable (src dst : Fin 320000 → Fin 10000)

theorem inv_init {a : ℕ} (x : Fin 10000 → Fin a → EReal) (hx : IsReal2 x) : Inv (padRows x) x := by
  refine ⟨fun r k hr hk => ?_, fun r k hk => absurd k.isLt (not_lt.2 hk), hx⟩
  unfold padRows
  rw [dif_pos hr]

theorem layer_R {a b : ℕ} (hS : Fin 10000 → Fin a → EReal) (W : Fin a → Fin b → EReal) (bias : Fin b → EReal)
    (hh : IsReal2 hS) (hW : IsReal2 W) (hb : IsReal1 bias) : IsReal2 (layer src dst hS W bias) := by
  intro d c
  unfold layer
  exact leaky_R (R_add (R_add (R_add R_zero (R_sum _ _ (fun e _ => R_mul (mm_R hS W hh hW _ c) (coef_R src dst e))))
    (R_mul (mm_R hS W hh hW d c) (R_mul (dinv_R dst d) (dinv_R dst d)))) (hb c))

theorem layer_step {a a' b b' : ℕ} (haa : a ≤ a') (A : Fin 10240 → Fin 10240 → EReal)
    (hA : IsAdj src dst A) (hK : Fin 10240 → Fin a' → EReal) (hS : Fin 10000 → Fin a → EReal) (hI : Inv hK hS)
    (W : Fin a → Fin b → EReal) (hW : IsReal2 W) (bias : Fin b → EReal) (hb : IsReal1 bias)
    (Wp : Fin a' → Fin b' → EReal) (hWp : Wp = padMat W) (bp : Fin b' → EReal) (hbp : bp = padVec bias) :
    Inv (aggK A (linK hK Wp (fun _ => 0)) bp) (layer src dst hS W bias) := by
  subst hWp hbp
  refine ⟨fun d c hd hc => ?_, fun d c hc => ?_, layer_R src dst hS W bias hI.2.2 hW hb⟩
  ·
    have hg : ∀ (s : Fin 10240) (hs : s.val < 10000),
        linK hK (padMat W : Fin a' → Fin b' → EReal) (fun _ => 0) s c = mm hS W ⟨s.val, hs⟩ ⟨c.val, hc⟩ := by
      intro s hs
      unfold linK
      rw [add_zero, lin_true haa hK hS hI W s c hs hc]
    have hgR : ∀ s : Fin 10240, s.val < 10000 →
        IsReal0 (linK hK (padMat W : Fin a' → Fin b' → EReal) (fun _ => 0) s c) := by
      intro s hs
      rw [hg s hs]
      exact mm_R hS W hI.2.2 hW _ _
    have hre := regroup src dst A hA
      (fun s => linK hK (padMat W : Fin a' → Fin b' → EReal) (fun _ => 0) s c) hgR ⟨d.val, hd⟩
    unfold aggK
    have hd' : (⟨(⟨d.val, hd⟩ : Fin 10000).val, by omega⟩ : Fin 10240) = d := rfl
    rw [hd'] at hre
    rw [hre, leakyK_eq']
    unfold layer
    have hpv : (padVec bias : Fin b' → EReal) c = bias ⟨c.val, hc⟩ := by
      unfold padVec
      rw [dif_pos hc]
    have hsum : ∑ e ∈ Finset.univ.filter (fun e : Fin 320000 => dst e = ⟨d.val, hd⟩), coef src dst e *
          linK hK (padMat W : Fin a' → Fin b' → EReal) (fun _ => 0) ⟨(src e).val, by have := (src e).isLt; omega⟩ c
        = ∑ e ∈ Finset.univ.filter (fun e : Fin 320000 => dst e = ⟨d.val, hd⟩),
            mm hS W (src e) ⟨c.val, hc⟩ * coef src dst e := by
      refine Finset.sum_congr rfl (fun e _ => ?_)
      rw [hg _ (src e).isLt, mul_comm]
    rw [hsum, hpv, zero_add, hg d hd, mul_comm (dinv dst ⟨d.val, hd⟩ * dinv dst ⟨d.val, hd⟩)]
  ·
    unfold aggK
    have hz : ∀ s : Fin 10240, A d s * linK hK (padMat W : Fin a' → Fin b' → EReal) (fun _ => 0) s c = 0 := by
      intro s
      unfold linK
      rw [lin_pad hK W s c hc, add_zero, mul_zero]
    have hpv : (padVec bias : Fin b' → EReal) c = 0 := by
      unfold padVec
      rw [dif_neg (not_lt.2 hc)]
    rw [Finset.sum_eq_zero (fun s _ => hz s), hpv, add_zero, leakyK_zero]

theorem last_step {a a' b : ℕ} (haa : a ≤ a') (hK : Fin 10240 → Fin a' → EReal) (hS : Fin 10000 → Fin a → EReal)
    (hI : Inv hK hS) (W : Fin a → Fin b → EReal) (bias : Fin b → EReal) (d : Fin 10000) (c : Fin b) :
    linK hK (padMat W : Fin a' → Fin b → EReal) bias ⟨d.val, by have := d.isLt; omega⟩ c
      = mm hS W d c + bias c := by
  unfold linK
  rw [lin_true haa hK hS hI W _ c d.isLt c.isLt]

end Graph

end Cert.Alg

end
-- ==== Proof.Alg.lean ====
import proofs.«419824_j13683765805591_3_alg».proof.Proof.AlgL3

noncomputable section

open scoped BigOperators

namespace Cert.Alg

open Idealize.ShloMosaic Cert.Spec

section Graph
variable (src dst : Fin 320000 → Fin 10000)

theorem kernel_logits_eq (A : Fin 10240 → Fin 10240 → EReal) (hA : IsAdj src dst A)
    (x : Fin 10000 → Fin 512 → EReal)
    (W1 : Fin 512 → Fin 256 → EReal) (b1 : Fin 256 → EReal) (W2 : Fin 256 → Fin 128 → EReal) (b2 : Fin 128 → EReal)
    (W3 : Fin 128 → Fin 56 → EReal) (b3 : Fin 56 → EReal) (W4 : Fin 56 → Fin 32 → EReal) (b4 : Fin 32 → EReal)
    (Wl : Fin 32 → Fin 16 → EReal) (bl : Fin 16 → EReal)
    (hx : IsReal2 x) (hW1 : IsReal2 W1) (hb1 : IsReal1 b1) (hW2 : IsReal2 W2) (hb2 : IsReal1 b2)
    (hW3 : IsReal2 W3) (hb3 : IsReal1 b3) (hW4 : IsReal2 W4) (hb4 : IsReal1 b4) (hWl : IsReal2 Wl) (hbl : IsReal1 bl)
    (d : Fin 10000) (c : Fin 16) :
    linK (aggK A (linK (aggK A (linK (aggK A (linK (aggK A (linK (padRows x) W1 (fun _ => 0)) b1)
        W2 (fun _ => 0)) b2) (padMat W3 : Fin 128 → Fin 128 → EReal) (fun _ => 0)) (padVec b3 : Fin 128 → EReal))
        (padMat W4 : Fin 128 → Fin 128 → EReal) (fun _ => 0)) (padVec b4 : Fin 128 → EReal))
        (padMat Wl : Fin 128 → Fin 16 → EReal) bl ⟨d.val, by have := d.isLt; omega⟩ c
      = logits src dst x W1 b1 W2 b2 W3 b3 W4 b4 Wl bl d c := by
  have I0 := inv_init x hx
  have I1 := layer_step src dst (le_refl 512) A hA _ _ I0 W1 hW1 b1 hb1 W1 (padMat_self W1) b1 (padVec_self b1)
  have I2 := layer_step src dst (le_refl 256) A hA _ _ I1 W2 hW2 b2 hb2 W2 (padMat_self W2) b2 (padVec_self b2)
  have I3 := layer_step src dst (le_refl 128) A hA _ _ I2 W3 hW3 b3 hb3
    (padMat W3 : Fin 128 → Fin 128 → EReal) rfl (padVec b3 : Fin 128 → EReal) rfl
  have I4 := layer_step src dst (show 56 ≤ 128 by norm_num) A hA _ _ I3 W4 hW4 b4 hb4
    (padMat W4 : Fin 128 → Fin 128 → EReal) rfl (padVec b4 : Fin 128 → EReal) rfl
  exact last_step (show 32 ≤ 128 by norm_num) _ _ I4 Wl bl d c

end Graph

end Cert.Alg

end
-- ==== Proof.Bridge.lean ====
import proofs.«419824_j13683765805591_3_alg».proof.Proof.Gen.KernelIdeal
import proofs.«419824_j13683765805591_3_alg».proof.Proof.Gen.ReferenceIdeal
import proofs.«419824_j13683765805591_3_alg».proof.Proof.Gen.Pre_finite_inputs
import proofs.«419824_j13683765805591_3_alg».proof.Proof.KI.Run
import proofs.«419824_j13683765805591_3_alg».proof.Proof.KI.HostVal
import proofs.«419824_j13683765805591_3_alg».proof.Proof.KI.Adj
import proofs.«419824_j13683765805591_3_alg».proof.Proof.KI.KVal
import proofs.«419824_j13683765805591_3_alg».proof.Proof.Ref.Terms
import proofs.«419824_j13683765805591_3_alg».proof.Proof.Ref.Val
import proofs.«419824_j13683765805591_3_alg».proof.Proof.PreDecode
import proofs.«419824_j13683765805591_3_alg».proof.Proof.Decode
import proofs.«419824_j13683765805591_3_alg».proof.Proof.Alg

noncomputable section

namespace Cert.Bridge

open Idealize.ShloMosaic Idealize.ShloMosaic.TcCoe Idealize.ShloMosaic.ValueIdx Idealize.SL.Sem
open Cert.KernelIdeal Cert.Decode

attribute [local instance] Cert.KernelIdeal.Gen.facts Cert.ReferenceIdeal.Gen.facts Cert.Pre_finite_inputs.Gen.facts

variable (m : (ℓ : Loc nD τ sig) → Buf (Elt Ideal) ℓ)

def kernelResult (c : Dev nD) : Buf (Elt Ideal) ((c.tc : Thread nD τ).loc main_v94) :=
  Gen.V31 m (Hand.outs m) c main_v94

theorem kernel_post (r : PUnit × MemSt nD τ sig (Elt Ideal)) (c : Dev nD)
    (h : ∀ b ∈ Pipeline.ucRefs τ sig, r.2.mem ((c : Thread nD τ).1, b) = Gen.V31 m (Hand.outs m) c b) :
    r.2.mem ((c.tc : Thread nD τ).loc main_v94) = kernelResult m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11) :=
  have g := fun (b : Ref sig .tc) (hb : _) =>
    h (Proc.devRef .tc b) (Finset.mem_filter.mpr ⟨StableHlo.devRef_mem_tcRefs b, hb⟩)
  ⟨g main_v94 (by decide),
    (g main_arg0 (by decide)).trans (Gen.V31_main_arg0 m _ c),
    (g main_arg1 (by decide)).trans (Gen.V31_main_arg1 m _ c),
    (g main_arg2 (by decide)).trans (Gen.V31_main_arg2 m _ c),
    (g main_arg3 (by decide)).trans (Gen.V31_main_arg3 m _ c),
    (g main_arg4 (by decide)).trans (Gen.V31_main_arg4 m _ c),
    (g main_arg5 (by decide)).trans (Gen.V31_main_arg5 m _ c),
    (g main_arg6 (by decide)).trans (Gen.V31_main_arg6 m _ c),
    (g main_arg7 (by decide)).trans (Gen.V31_main_arg7 m _ c),
    (g main_arg8 (by decide)).trans (Gen.V31_main_arg8 m _ c),
    (g main_arg9 (by decide)).trans (Gen.V31_main_arg9 m _ c),
    (g main_arg10 (by decide)).trans (Gen.V31_main_arg10 m _ c),
    (g main_arg11 (by decide)).trans (Gen.V31_main_arg11 m _ c)⟩

theorem value_eq (c : Dev nD)
    (hpre : Cert.Pre_finite_inputs.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) = (fun _ => 1#1)) :
    kernelResult m c = Cert.ReferenceIdeal.Terms.refOut (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  obtain ⟨h0, h2, h3, h4, h5, h6, h7, h8, h9, h10, h11, hin⟩ := Cert.PreDecode.decode _ _ _ _ _ _ _ _ _ _ _ _ hpre
  have hin' : InRange (m ((c.tc : Thread nD τ).loc main_arg1)) := hin
  have hk : kernelResult m c = HostVal.smK (HostVal.sliceK (Hand.o30 m c)) := by
    have h1 := HostVal.tail_eq m (Hand.outs m) c
    rw [HostVal.out82_kept, Hand.outs_30] at h1
    exact h1
  have hsm : HostVal.smK = Cert.ReferenceIdeal.Terms.softmaxR (F := Ideal) := rfl
  rw [hk, hsm]
  show Cert.ReferenceIdeal.Terms.softmaxR _ = Cert.ReferenceIdeal.Terms.softmaxR _
  refine congrArg (Cert.ReferenceIdeal.Terms.softmaxR (F := Ideal)) ?_
  funext i
  obtain ⟨d, j, rfl⟩ : ∃ (d : Fin 10000) (j : Fin 16), i = ix2 d j := ⟨i 0, i 1, eq_ix2 i⟩
  rw [HostVal.sliceK_apply]
  have e1 := congrFun (congrFun (KVal.kernel_logits m c) ⟨d.val, by have := d.isLt; omega⟩) j
  have e2 := Cert.Alg.kernel_logits_eq (srcOf _ hin') (dstOf _ hin') _ (HostVal.adj_isAdj m c hin')
    (tab2 (m ((c.tc : Thread nD τ).loc main_arg0))) (tab2 (m ((c.tc : Thread nD τ).loc main_arg2))) (tab1 (m ((c.tc : Thread nD τ).loc main_arg3))) (tab2 (m ((c.tc : Thread nD τ).loc main_arg4))) (tab1 (m ((c.tc : Thread nD τ).loc main_arg5))) (tab2 (m ((c.tc : Thread nD τ).loc main_arg6))) (tab1 (m ((c.tc : Thread nD τ).loc main_arg7)))
    (tab2 (m ((c.tc : Thread nD τ).loc main_arg8))) (tab1 (m ((c.tc : Thread nD τ).loc main_arg9))) (tab2 (m ((c.tc : Thread nD τ).loc main_arg10))) (tab1 (m ((c.tc : Thread nD τ).loc main_arg11)))
    (fun a b => h0 (ix2 a b)) (fun a b => h2 (ix2 a b)) (fun a => h3 (ix1 a)) (fun a b => h4 (ix2 a b))
    (fun a => h5 (ix1 a)) (fun a b => h6 (ix2 a b)) (fun a => h7 (ix1 a)) (fun a b => h8 (ix2 a b))
    (fun a => h9 (ix1 a)) (fun a b => h10 (ix2 a b)) (fun a => h11 (ix1 a)) d j
  have e3 := congrFun (congrFun (Cert.ReferenceIdeal.RefVal.ref_logits (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) hin') d) j
  exact e1.trans (e2.trans e3.symm)

end Cert.Bridge

end
-- ==== Proof.lean ====
import proofs.«419824_j13683765805591_3_alg».proof.Defs
import proofs.«419824_j13683765805591_3_alg».proof.Proof.Gen.Kernel
import proofs.«419824_j13683765805591_3_alg».proof.Proof.Gen.KernelIdeal
import proofs.«419824_j13683765805591_3_alg».proof.Proof.Gen.ReferenceIdeal
import proofs.«419824_j13683765805591_3_alg».proof.Proof.Gen.Pre_finite_inputs
import proofs.«419824_j13683765805591_3_alg».proof.Proof.K.Run
import proofs.«419824_j13683765805591_3_alg».proof.Proof.KI.Run
import proofs.«419824_j13683765805591_3_alg».proof.Proof.Ref.Run
import proofs.«419824_j13683765805591_3_alg».proof.Proof.Bridge
import Idealize.ShloMosaic.Adequacy
import Idealize.ShloMosaic.Init

noncomputable section

namespace Cert.Proof

open Idealize.ShloMosaic Idealize.SL.Sem

attribute [local instance] Cert.Kernel.Gen.facts Cert.KernelIdeal.Gen.facts Cert.ReferenceIdeal.Gen.facts Cert.Pre_finite_inputs.Gen.facts

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.RefRun.run (F := Ideal) m ρ)

theorem algebraic : Cert.algebraic_KernelIdeal_ReferenceIdeal := by
  intro m ρ m' ρ' hpre hagree
  refine ⟨fun c => Cert.Bridge.kernelResult m c, ?_, ?_⟩
  · exact (θ_run Cert.KernelIdeal.defs _ _).mono (fun r h c => Cert.Bridge.kernel_post m r c (h c))
      (Cert.KernelIdeal.Hand.run_full (F := Ideal) m ρ)
  · refine (θ_run Cert.ReferenceIdeal.defs _ _).mono (fun r h c => ⟨(h c).1.trans ?_, (h c).2⟩)
      (Cert.ReferenceIdeal.RefRun.run (F := Ideal) m' ρ')
    rw [(hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2.1, (hagree c).2.2.2.2.2.2.2.2.2.1,
      (hagree c).2.2.2.2.2.2.2.2.2.2.1, (hagree c).2.2.2.2.2.2.2.2.2.2.2]
    exact (Cert.Bridge.value_eq m c (hpre c)).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
